-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S128000x1024 : Shape := ⟨2, ![128000, 1024]⟩
abbrev S32000 : Shape := ⟨1, ![32000]⟩
abbrev S256 : Shape := ⟨1, ![256]⟩
abbrev S_ : Shape := ⟨0, ![]⟩

class Facts : Prop where
  bcast_S_S32000 : S_.BroadcastsInDim S32000 (![] : Fin 0 → Fin S32000.rank)
  reducesTo_S32000_S_d0 : S32000.ReducesTo [0] S_
  h_S_ : 0 < S_.numel
  bcast_S_S256 : S_.BroadcastsInDim S256 (![] : Fin 0 → Fin S256.rank)
  reducesTo_S256_S_d0 : S256.ReducesTo [0] S_
  bcast_S_S4x4096 : S_.BroadcastsInDim S4x4096 (![] : Fin 0 → Fin S4x4096.rank)
  reducesTo_S4x4096_S_d0_1 : S4x4096.ReducesTo [0, 1] S_

variable [Facts]

def fn {F : FTy → Type} [FloatOps F] (main_arg0 : IVec S4x4096 32) (main_arg1 : IVec S128000x1024 32) (main_arg2 : FVec F S32000 .f32) (main_arg3 : FVec F S256 .f32) : IVec S_ 1 :=
  let main_v0 : FVec F S32000 .f32 := Host.absf main_arg2
  let main_cst : FVec F S_ .f32 := constant S_ .f32 0x7F800000#32
  let main_v1 : FVec F S32000 .f32 := broadcastInDim S32000 ![] bcast_S_S32000 main_cst
  let main_v2 : IVec S32000 1 := cmpf .olt main_v0 main_v1
  let main_c : IVec S_ 1 := constantI S_ 1 1#1
  let main_v3 : IVec S_ 1 := (fun x v => Host.reduce IntOp.andi x v reducesTo_S32000_S_d0 h_S_) main_v2 main_c
  let main_v4 : FVec F S256 .f32 := Host.absf main_arg3
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_c_2 : IVec S_ 32 := constantI S_ 32 0#32
  let main_v9 : IVec S4x4096 32 := broadcastInDim S4x4096 ![] bcast_S_S4x4096 main_c_2
  let main_v10 : IVec S4x4096 1 := cmpi .sge main_arg0 main_v9
  let main_c_3 : IVec S_ 32 := constantI S_ 32 128000#32
  let main_v11 : IVec S4x4096 32 := broadcastInDim S4x4096 ![] bcast_S_S4x4096 main_c_3
  let main_v12 : IVec S4x4096 1 := cmpi .slt main_arg0 main_v11
  let main_v13 : IVec S4x4096 1 := andi main_v10 main_v12
  let main_c_4 : IVec S_ 1 := constantI S_ 1 1#1
  let main_v14 : IVec S_ 1 := (fun x v => Host.reduce IntOp.andi x v reducesTo_S4x4096_S_d0_1 h_S_) main_v13 main_c_4
  let main_v15 : IVec S_ 1 := andi main_v8 main_v14
  main_v15
-- ==== Kernel.lean ====
abbrev S4x4096 : Shape := ⟨2, ![4, 4096]⟩
abbrev S128000x1024 : Shape := ⟨2, ![128000, 1024]⟩
abbrev S32000 : Shape := ⟨1, ![32000]⟩
abbrev S256 : Shape := ⟨1, ![256]⟩
abbrev S16384 : Shape := ⟨1, ![16384]⟩
abbrev S16384x1024 : Shape := ⟨2, ![16384, 1024]⟩
abbrev S256x1024 : Shape := ⟨2, ![256, 1024]⟩
abbrev S1 : Shape := ⟨1, ![1]⟩
abbrev S_ : Shape := ⟨0, ![]⟩
abbrev S1x1024 : Shape := ⟨2, ![1, 1024]⟩
abbrev S1024 : Shape := ⟨1, ![1024]⟩
abbrev S16384x1 : Shape := ⟨2, ![16384, 1]⟩
abbrev S16384x1024x1 : Shape := ⟨3, ![16384, 1024, 1]⟩
abbrev S4x4096x1024 : Shape := ⟨3, ![4, 4096, 1024]⟩

abbrev nBuf : Space → Nat
  | .hbm => 45
  | .vmem => 3
  | .smem => 1
  | _ => 0

abbrev bufTy : (tb : Table) → Fin (tcTables nBuf tb) → BufTy
  | .hbm, ⟨0, _⟩ => ⟨S4x4096, .i32⟩
  | .hbm, ⟨1, _⟩ => ⟨S128000x1024, .i32⟩
  | .hbm, ⟨2, _⟩ => ⟨S32000, .f32⟩
  | .hbm, ⟨3, _⟩ => ⟨S256, .f32⟩
  | .hbm, ⟨4, _⟩ => ⟨S16384x1024, .i32⟩
  | .hbm, ⟨5, _⟩ => ⟨S_, .i32⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384, .f32⟩
  | .hbm, ⟨32, _⟩ => ⟨S16384x1, .f32⟩
  | .hbm, ⟨33, _⟩ => ⟨S_, .i32⟩
  | .hbm, ⟨34, _⟩ => ⟨S16384x1024, .i32⟩
  | .hbm, ⟨35, _⟩ => ⟨S16384x1024, .i1⟩
  | .hbm, ⟨36, _⟩ => ⟨S_, .i32⟩
  | .hbm, ⟨37, _⟩ => ⟨S16384x1024, .i32⟩
  | .hbm, ⟨38, _⟩ => ⟨S16384x1024, .i32⟩
  | .hbm, ⟨39, _⟩ => ⟨S16384x1024, .i32⟩
  | .hbm, ⟨40, _⟩ => ⟨S16384x1024x1, .i32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S4x4096x1024, .f32⟩
  | .local _ .vmem, ⟨0, _⟩ => ⟨S256x1024, .i32⟩
  | .local _ .vmem, ⟨1, _⟩ => ⟨S256x1024, .i32⟩
  | .local _ .vmem, ⟨2, _⟩ => ⟨S256x1024, .i32⟩
  | .local _ .smem, ⟨0, _⟩ => ⟨S16384, .i32⟩
  | _, _ => ⟨S4x4096, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 258 → Bool
  | ⟨i, _⟩ => dmaSemScopedAt i

abbrev sig : RefSig :=
  ofTc nBuf bufTy 0 258 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_c_0 : Ref sig .tc := ⟨.hbm, 23, rfl⟩
abbrev main_v3 : Ref sig .tc := ⟨.hbm, 24, rfl⟩
abbrev main_v4 : Ref sig .tc := ⟨.hbm, 25, rfl⟩
abbrev main_c_1 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_2 : Ref sig .tc := ⟨.hbm, 33, rfl⟩
abbrev main_v11 : Ref sig .tc := ⟨.hbm, 34, rfl⟩
abbrev main_v12 : Ref sig .tc := ⟨.hbm, 35, rfl⟩
abbrev main_c_3 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_chk1 (v3 : BitVec 32) : Prop :=
  (∀ a, (k0_off2 v3) a + S1x1024.size a ≤ S128000x1024.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x1024.size a ≤ S128000x1024.size a := fun v3 k0_hw1 => k0_hw1

def k0_off3 (i : grid0.Coords) : Fin 1 → Nat :=
  let arg0 : BitVec 32 := BitVec.ofNat 32 (i 0).val
  let c256_i32 : BitVec 32 := 256#32
  let v0 : BitVec 32 := Scalar.muli arg0 c256_i32
  let c1_i32 : BitVec 32 := 1#32
  let v10 : BitVec 32 := Scalar.addi v0 c1_i32
  let v11 : Index := Scalar.indexCast v10
  ![v11.toNat]
def k0_off4 (v12 : BitVec 32) : Fin 2 → Nat :=
  let c0_i32_7 : BitVec 32 := 0#32
  ![v12.toNat, 0]

def k0_chk2 (v12 : BitVec 32) : Prop :=
  (∀ a, (k0_off4 v12) a + S1x1024.size a ≤ S128000x1024.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x1024.size a ≤ S128000x1024.size a := fun v12 k0_hw2 => k0_hw2

def k0_off5 (i : grid0.Coords) : Fin 1 → Nat :=
  let arg0 : BitVec 32 := BitVec.ofNat 32 (i 0).val
  let c256_i32 : BitVec 32 := 256#32
  let v0 : BitVec 32 := Scalar.muli arg0 c256_i32
  let c2_i32 : BitVec 32 := 2#32
  let v19 : BitVec 32 := Scalar.addi v0 c2_i32
  let v20 : Index := Scalar.indexCast v19
  ![v20.toNat]
def k0_off6 (v21 : BitVec 32) : Fin 2 → Nat :=
  let c0_i32_11 : BitVec 32 := 0#32
  ![v21.toNat, 0]

def k0_chk3 (v21 : BitVec 32) : Prop :=
  (∀ a, (k0_off6 v21) a + S1x1024.size a ≤ S128000x1024.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x1024.size a ≤ S128000x1024.size a := fun v21 k0_hw3 => k0_hw3

def k0_off7 (i : grid0.Coords) : Fin 1 → Nat :=
  let arg0 : BitVec 32 := BitVec.ofNat 32 (i 0).val
  let c256_i32 : BitVec 32 := 256#32
  let v0 : BitVec 32 := Scalar.muli arg0 c256_i32
  let c3_i32 : BitVec 32 := 3#32
  let v28 : BitVec 32 := Scalar.addi v0 c3_i32
  let v29 : Index := Scalar.indexCast v28
  ![v29.toNat]
def k0_off8 (v30 : BitVec 32) : Fin 2 → Nat :=
  let c0_i32_15 : BitVec 32 := 0#32
  ![v30.toNat, 0]

def k0_chk4 (v30 : BitVec 32) : Prop :=
  (∀ a, (k0_off8 v30) a + S1x1024.size a ≤ S128000x1024.size a)
instance k0_chk4.dec : ∀ (v30 : BitVec 32), Decidable (k0_chk4 v30) := fun v30 => decidable_of_iff' _ (Iff.of_eq (k0_chk4.eq_1 v30))
theorem k0_off8_inb : ∀ (v30 : BitVec 32) (k0_hw4 : k0_chk4 v30), ∀ a, (k0_off8 v30) a + S1x1024.size a ≤ S128000x1024.size a := fun v30 k0_hw4 => k0_hw4

def k0_off9 (i : grid0.Coords) : Fin 1 → Nat :=
  let arg0 : BitVec 32 := BitVec.ofNat 32 (i 0).val
  let c256_i32 : BitVec 32 := 256#32
  let v0 : BitVec 32 := Scalar.muli arg0 c256_i32
  let c4_i32 : BitVec 32 := 4#32
  let v37 : BitVec 32 := Scalar.addi v0 c4_i32
  let v38 : Index := Scalar.indexCast v37
  ![v38.toNat]
def k0_off10 (v39 : BitVec 32) : Fin 2 → Nat :=
  let c0_i32_19 : BitVec 32 := 0#32
  ![v39.toNat, 0]

def k0_chk5 (v39 : BitVec 32) : Prop :=
  (∀ a, (k0_off10 v39) a + S1x1024.size a ≤ S128000x1024.size a)
instance k0_chk5.dec : ∀ (v39 : BitVec 32), Decidable (k0_chk5 v39) := fun v39 => decidable_of_iff' _ (Iff.of_eq (k0_chk5.eq_1 v39))
theorem k0_off10_inb : ∀ (v39 : BitVec 32) (k0_hw5 : k0_chk5 v39), ∀ a, (k0_off10 v39) a + S1x1024.size a ≤ S128000x1024.size a := fun v39 k0_hw5 => k0_hw5

def k0_off11 (i : grid0.Coords) : Fin 1 → Nat :=
  let arg0 : BitVec 32 := BitVec.ofNat 32 (i 0).val
  let c256_i32 : BitVec 32 := 256#32
  let v0 : BitVec 32 := Scalar.muli arg0 c256_i32
  let c5_i32 : BitVec 32 := 5#32
  let v46 : BitVec 32 := Scalar.addi v0 c5_i32
  let v47 : Index := Scalar.indexCast v46
  ![v47.toNat]
def k0_off12 (v48 : BitVec 32) : Fin 2 → Nat :=
  let c0_i32_23 : BitVec 32 := 0#32
  ![v48.toNat, 0]

def k0_chk6 (v48 : BitVec 32) : Prop :=
  (∀ a, (k0_off12 v48) a + S1x1024.size a ≤ S128000x1024.size a)
instance k0_chk6.dec : ∀ (v48 : BitVec 32), Decidable (k0_chk6 v48) := fun v48 => decidable_of_iff' _ (Iff.of_eq (k0_chk6.eq_1 v48))
theorem k0_off12_inb : ∀ (v48 : BitVec 32) (k0_hw6 : k0_chk6 v48), ∀ a, (k0_off12 v48) a + S1x1024.size a ≤ S128000x1024.size a := fun v48 k0_hw6 => k0_hw6

def k0_off13 (i : grid0.Coords) : Fin 1 → Nat :=
  let arg0 : BitVec 32 := BitVec.ofNat 32 (i 0).val
  let c256_i32 : BitVec 32 := 256#32
  let v0 : BitVec 32 := Scalar.muli arg0 c256_i32
  let c6_i32 : BitVec 32 := 6#32
  let v55 : BitVec 32 := Scalar.addi v0 c6_i32
  let v56 : Index := Scalar.indexCast v55
  ![v56.toNat]
def k0_off14 (v57 : BitVec 32) : Fin 2 → Nat :=
  let c0_i32_27 : BitVec 32 := 0#32
  ![v57.toNat, 0]

def k0_chk7 (v57 : BitVec 32) : Prop :=
  (∀ a, (k0_off14 v57) a + S1x1024.size a ≤ S128000x1024.size a)
instance k0_chk7.dec : ∀ (v57 : BitVec 32), Decidable (k0_chk7 v57) := fun v57 => decidable_of_iff' _ (Iff.of_eq (k0_chk7.eq_1 v57))
theorem k0_off14_inb : ∀ (v57 : BitVec 32) (k0_hw7 : k0_chk7 v57), ∀ a, (k0_off14 v57) a + S1x1024.size a ≤ S128000x1024.size a := fun v57 k0_hw7 => k0_hw7

def k0_off15 (i : grid0.Coords) : Fin 1 → Nat :=
  let arg0 : BitVec 32 := BitVec.ofNat 32 (i 0).val
  let c256_i32 : BitVec 32 := 256#32
  let v0 : BitVec 32 := Scalar.muli arg0 c256_i32
  let c7_i32 : BitVec 32 := 7#32
  let v64 : BitVec 32 := Scalar.addi v0 c7_i32
  let v65 : Index := Scalar.indexCast v64
  ![v65.toNat]
def k0_off16 (v66 : BitVec 32) : Fin 2 → Nat :=
  let c0_i32_31 : BitVec 32 := 0#32
  ![v66.toNat, 0]

def k0_chk8 (v66 : BitVec 32) : Prop :=
  (∀ a, (k0_off16 v66) a + S1x1024.size a ≤ S128000x1024.size a)
instance k0_chk8.dec : ∀ (v66 : BitVec 32), Decidable (k0_chk8 v66) := fun v66 => decidable_of_iff' _ (Iff.of_eq (k0_chk8.eq_1 v66))
theorem k0_off16_inb : ∀ (v66 : BitVec 32) (k0_hw8 : k0_chk8 v66), ∀ a, (k0_off16 v66) a + S1x1024.size a ≤ S128000x1024.size a := fun v66 k0_hw8 => k0_hw8

def k0_off17 (i : grid0.Coords) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v73 : BitVec 32 := Scalar.addi v0 c8_i32
  let v74 : Index := Scalar.indexCast v73
  ![v74.toNat]
def k0_off18 (v75 : BitVec 32) : Fin 2 → Nat :=
  let c0_i32_35 : BitVec 32 := 0#32
  ![v75.toNat, 0]

def k0_chk9 (v75 : BitVec 32) : Prop :=
  (∀ a, (k0_off18 v75) a + S1x1024.size a ≤ S128000x1024.size a)
instance k0_chk9.dec : ∀ (v75 : BitVec 32), Decidable (k0_chk9 v75) := fun v75 => decidable_of_iff' _ (Iff.of_eq (k0_chk9.eq_1 v75))
theorem k0_off18_inb : ∀ (v75 : BitVec 32) (k0_hw9 : k0_chk9 v75), ∀ a, (k0_off18 v75) a + S1x1024.size a ≤ S128000x1024.size a := fun v75 k0_hw9 => k0_hw9

def k0_off19 (i : grid0.Coords) : Fin 1 → Nat :=
  let arg0 : BitVec 32 := BitVec.ofNat 32 (i 0).val
  let c256_i32 : BitVec 32 := 256#32
  let v0 : BitVec 32 := Scalar.muli arg0 c256_i32
  let c9_i32 : BitVec 32 := 9#32
  let v82 : BitVec 32 := Scalar.addi v0 c9_i32
  let v83 : Index := Scalar.indexCast v82
  ![v83.toNat]
def k0_off20 (v84 : BitVec 32) : Fin 2 → Nat :=
  let c0_i32_39 : BitVec 32 := 0#32
  ![v84.toNat, 0]

def k0_chk10 (v84 : BitVec 32) : Prop :=
  (∀ a, (k0_off20 v84) a + S1x1024.size a ≤ S128000x1024.size a)
instance k0_chk10.dec : ∀ (v84 : BitVec 32), Decidable (k0_chk10 v84) := fun v84 => decidable_of_iff' _ (Iff.of_eq (k0_chk10.eq_1 v84))
theorem k0_off20_inb : ∀ (v84 : BitVec 32) (k0_hw10 : k0_chk10 v84), ∀ a, (k0_off20 v84) a + S1x1024.size a ≤ S128000x1024.size a := fun v84 k0_hw10 => k0_hw10

def k0_off21 (i : grid0.Coords) : Fin 1 → Nat :=
  let arg0 : BitVec 32 := BitVec.ofNat 32 (i 0).val
  let c256_i32 : BitVec 32 := 256#32
  let v0 : BitVec 32 := Scalar.muli arg0 c256_i32
  let c10_i32 : BitVec 32 := 10#32
  let v91 : BitVec 32 := Scalar.addi v0 c10_i32
  let v92 : Index := Scalar.indexCast v91
  ![v92.toNat]
def k0_off22 (v93 : BitVec 32) : Fin 2 → Nat :=
  let c0_i32_43 : BitVec 32 := 0#32
  ![v93.toNat, 0]

def k0_chk11 (v93 : BitVec 32) : Prop :=
  (∀ a, (k0_off22 v93) a + S1x1024.size a ≤ S128000x1024.size a)
instance k0_chk11.dec : ∀ (v93 : BitVec 32), Decidable (k0_chk11 v93) := fun v93 => decidable_of_iff' _ (Iff.of_eq (k0_chk11.eq_1 v93))
theorem k0_off22_inb : ∀ (v93 : BitVec 32) (k0_hw11 : k0_chk11 v93), ∀ a, (k0_off22 v93) a + S1x1024.size a ≤ S128000x1024.size a := fun v93 k0_hw11 => k0_hw11

def k0_off23 (i : grid0.Coords) : Fin 1 → Nat :=
  let arg0 : BitVec 32 := BitVec.ofNat 32 (i 0).val
  let c256_i32 : BitVec 32 := 256#32
  let v0 : BitVec 32 := Scalar.muli arg0 c256_i32
  let c11_i32 : BitVec 32 := 11#32
  let v100 : BitVec 32 := Scalar.addi v0 c11_i32
  let v101 : Index := Scalar.indexCast v100
  ![v101.toNat]
def k0_off24 (v102 : BitVec 32) : Fin 2 → Nat :=
  let c0_i32_47 : BitVec 32 := 0#32
  ![v102.toNat, 0]

def k0_chk12 (v102 : BitVec 32) : Prop :=
  (∀ a, (k0_off24 v102) a + S1x1024.size a ≤ S128000x1024.size a)
instance k0_chk12.dec : ∀ (v102 : BitVec 32), Decidable (k0_chk12 v102) := fun v102 => decidable_of_iff' _ (Iff.of_eq (k0_chk12.eq_1 v102))
theorem k0_off24_inb : ∀ (v102 : BitVec 32) (k0_hw12 : k0_chk12 v102), ∀ a, (k0_off24 v102) a + S1x1024.size a ≤ S128000x1024.size a := fun v102 k0_hw12 => k0_hw12

def k0_off25 (i : grid0.Coords) : Fin 1 → Nat :=
  let arg0 : BitVec 32 := BitVec.ofNat 32 (i 0).val
  let c256_i32 : BitVec 32 := 256#32
  let v0 : BitVec 32 := Scalar.muli arg0 c256_i32
  let c12_i32 : BitVec 32 := 12#32
  let v109 : BitVec 32 := Scalar.addi v0 c12_i32
  let v110 : Index := Scalar.indexCast v109
  ![v110.toNat]
def k0_off26 (v111 : BitVec 32) : Fin 2 → Nat :=
  let c0_i32_51 : BitVec 32 := 0#32
  ![v111.toNat, 0]

def k0_chk13 (v111 : BitVec 32) : Prop :=
  (∀ a, (k0_off26 v111) a + S1x1024.size a ≤ S128000x1024.size a)
instance k0_chk13.dec : ∀ (v111 : BitVec 32), Decidable (k0_chk13 v111) := fun v111 => decidable_of_iff' _ (Iff.of_eq (k0_chk13.eq_1 v111))
theorem k0_off26_inb : ∀ (v111 : BitVec 32) (k0_hw13 : k0_chk13 v111), ∀ a, (k0_off26 v111) a + S1x1024.size a ≤ S128000x1024.size a := fun v111 k0_hw13 => k0_hw13

def k0_off27 (i : grid0.Coords) : Fin 1 → Nat :=
  let arg0 : BitVec 32 := BitVec.ofNat 32 (i 0).val
  let c256_i32 : BitVec 32 := 256#32
  let v0 : BitVec 32 := Scalar.muli arg0 c256_i32
  let c13_i32 : BitVec 32 := 13#32
  let v118 : BitVec 32 := Scalar.addi v0 c13_i32
  let v119 : Index := Scalar.indexCast v118
  ![v119.toNat]
def k0_off28 (v120 : BitVec 32) : Fin 2 → Nat :=
  let c0_i32_55 : BitVec 32 := 0#32
  ![v120.toNat, 0]

def k0_chk14 (v120 : BitVec 32) : Prop :=
  (∀ a, (k0_off28 v120) a + S1x1024.size a ≤ S128000x1024.size a)
instance k0_chk14.dec : ∀ (v120 : BitVec 32), Decidable (k0_chk14 v120) := fun v120 => decidable_of_iff' _ (Iff.of_eq (k0_chk14.eq_1 v120))
theorem k0_off28_inb : ∀ (v120 : BitVec 32) (k0_hw14 : k0_chk14 v120), ∀ a, (k0_off28 v120) a + S1x1024.size a ≤ S128000x1024.size a := fun v120 k0_hw14 => k0_hw14

def k0_off29 (i : grid0.Coords) : Fin 1 → Nat :=
  let arg0 : BitVec 32 := BitVec.ofNat 32 (i 0).val
  let c256_i32 : BitVec 32 := 256#32
  let v0 : BitVec 32 := Scalar.muli arg0 c256_i32
  let c14_i32 : BitVec 32 := 14#32
  let v127 : BitVec 32 := Scalar.addi v0 c14_i32
  let v128 : Index := Scalar.indexCast v127
  ![v128.toNat]
def k0_off30 (v129 : BitVec 32) : Fin 2 → Nat :=
  let c0_i32_59 : BitVec 32 := 0#32
  ![v129.toNat, 0]

def k0_chk15 (v129 : BitVec 32) : Prop :=
  (∀ a, (k0_off30 v129) a + S1x1024.size a ≤ S128000x1024.size a)
instance k0_chk15.dec : ∀ (v129 : BitVec 32), Decidable (k0_chk15 v129) := fun v129 => decidable_of_iff' _ (Iff.of_eq (k0_chk15.eq_1 v129))
theorem k0_off30_inb : ∀ (v129 : BitVec 32) (k0_hw15 : k0_chk15 v129), ∀ a, (k0_off30 v129) a + S1x1024.size a ≤ S128000x1024.size a := fun v129 k0_hw15 => k0_hw15

def k0_off31 (i : grid0.Coords) : Fin 1 → Nat :=
  let arg0 : BitVec 32 := BitVec.ofNat 32 (i 0).val
  let c256_i32 : BitVec 32 := 256#32
  let v0 : BitVec 32 := Scalar.muli arg0 c256_i32
  let c15_i32 : BitVec 32 := 15#32
  let v136 : BitVec 32 := Scalar.addi v0 c15_i32
  let v137 : Index := Scalar.indexCast v136
  ![v137.toNat]
def k0_off32 (v138 : BitVec 32) : Fin 2 → Nat :=
  let c0_i32_63 : BitVec 32 := 0#32
  ![v138.toNat, 0]

def k0_chk16 (v138 : BitVec 32) : Prop :=
  (∀ a, (k0_off32 v138) a + S1x1024.size a ≤ S128000x1024.size a)
instance k0_chk16.dec : ∀ (v138 : BitVec 32), Decidable (k0_chk16 v138) := fun v138 => decidable_of_iff' _ (Iff.of_eq (k0_chk16.eq_1 v138))
theorem k0_off32_inb : ∀ (v138 : BitVec 32) (k0_hw16 : k0_chk16 v138), ∀ a, (k0_off32 v138) a + S1x1024.size a ≤ S128000x1024.size a := fun v138 k0_hw16 => k0_hw16

def k0_off33 (i : grid0.Coords) : Fin 1 → Nat :=
  let arg0 : BitVec 32 := BitVec.ofNat 32 (i 0).val
  let c256_i32 : BitVec 32 := 256#32
  let v0 : BitVec 32 := Scalar.muli arg0 c256_i32
  let c16_i32 : BitVec 32 := 16#32
  let v145 : BitVec 32 := Scalar.addi v0 c16_i32
  let v146 : Index := Scalar.indexCast v145
  ![v146.toNat]
def k0_off34 (v147 : BitVec 32) : Fin 2 → Nat :=
  let c0_i32_67 : BitVec 32 := 0#32
  ![v147.toNat, 0]

def k0_chk17 (v147 : BitVec 32) : Prop :=
  (∀ a, (k0_off34 v147) a + S1x1024.size a ≤ S128000x1024.size a)
instance k0_chk17.dec : ∀ (v147 : BitVec 32), Decidable (k0_chk17 v147) := fun v147 => decidable_of_iff' _ (Iff.of_eq (k0_chk17.eq_1 v147))
theorem k0_off34_inb : ∀ (v147 : BitVec 32) (k0_hw17 : k0_chk17 v147), ∀ a, (k0_off34 v147) a + S1x1024.size a ≤ S128000x1024.size a := fun v147 k0_hw17 => k0_hw17

def k0_off35 (i : grid0.Coords) : Fin 1 → Nat :=
  let arg0 : BitVec 32 := BitVec.ofNat 32 (i 0).val
  let c256_i32 : BitVec 32 := 256#32
  let v0 : BitVec 32 := Scalar.muli arg0 c256_i32
  let c17_i32 : BitVec 32 := 17#32
  let v154 : BitVec 32 := Scalar.addi v0 c17_i32
  let v155 : Index := Scalar.indexCast v154
  ![v155.toNat]
def k0_off36 (v156 : BitVec 32) : Fin 2 → Nat :=
  let c0_i32_71 : BitVec 32 := 0#32
  ![v156.toNat, 0]

def k0_chk18 (v156 : BitVec 32) : Prop :=
  (∀ a, (k0_off36 v156) a + S1x1024.size a ≤ S128000x1024.size a)
instance k0_chk18.dec : ∀ (v156 : BitVec 32), Decidable (k0_chk18 v156) := fun v156 => decidable_of_iff' _ (Iff.of_eq (k0_chk18.eq_1 v156))
theorem k0_off36_inb : ∀ (v156 : BitVec 32) (k0_hw18 : k0_chk18 v156), ∀ a, (k0_off36 v156) a + S1x1024.size a ≤ S128000x1024.size a := fun v156 k0_hw18 => k0_hw18

def k0_off37 (i : grid0.Coords) : Fin 1 → Nat :=
  let arg0 : BitVec 32 := BitVec.ofNat 32 (i 0).val
  let c256_i32 : BitVec 32 := 256#32
  let v0 : BitVec 32 := Scalar.muli arg0 c256_i32
  let c18_i32 : BitVec 32 := 18#32
  let v163 : BitVec 32 := Scalar.addi v0 c18_i32
  let v164 : Index := Scalar.indexCast v163
  ![v164.toNat]
def k0_off38 (v165 : BitVec 32) : Fin 2 → Nat :=
  let c0_i32_75 : BitVec 32 := 0#32
  ![v165.toNat, 0]

def k0_chk19 (v165 : BitVec 32) : Prop :=
  (∀ a, (k0_off38 v165) a + S1x1024.size a ≤ S128000x1024.size a)
instance k0_chk19.dec : ∀ (v165 : BitVec 32), Decidable (k0_chk19 v165) := fun v165 => decidable_of_iff' _ (Iff.of_eq (k0_chk19.eq_1 v165))
theorem k0_off38_inb : ∀ (v165 : BitVec 32) (k0_hw19 : k0_chk19 v165), ∀ a, (k0_off38 v165) a + S1x1024.size a ≤ S128000x1024.size a := fun v165 k0_hw19 => k0_hw19

def k0_off39 (i : grid0.Coords) : Fin 1 → Nat :=
  let arg0 : BitVec 32 := BitVec.ofNat 32 (i 0).val
  let c256_i32 : BitVec 32 := 256#32
  let v0 : BitVec 32 := Scalar.muli arg0 c256_i32
  let c19_i32 : BitVec 32 := 19#32
  let v172 : BitVec 32 := Scalar.addi v0 c19_i32
  let v173 : Index := Scalar.indexCast v172
  ![v173.toNat]
def k0_off40 (v174 : BitVec 32) : Fin 2 → Nat :=
  let c0_i32_79 : BitVec 32 := 0#32
  ![v174.toNat, 0]

def k0_chk20 (v174 : BitVec 32) : Prop :=
  (∀ a, (k0_off40 v174) a + S1x1024.size a ≤ S128000x1024.size a)
instance k0_chk20.dec : ∀ (v174 : BitVec 32), Decidable (k0_chk20 v174) := fun v174 => decidable_of_iff' _ (Iff.of_eq (k0_chk20.eq_1 v174))
theorem k0_off40_inb : ∀ (v174 : BitVec 32) (k0_hw20 : k0_chk20 v174), ∀ a, (k0_off40 v174) a + S1x1024.size a ≤ S128000x1024.size a := fun v174 k0_hw20 => k0_hw20

def k0_off41 (i : grid0.Coords) : Fin 1 → Nat :=
  let arg0 : BitVec 32 := BitVec.ofNat 32 (i 0).val
  let c256_i32 : BitVec 32 := 256#32
  let v0 : BitVec 32 := Scalar.muli arg0 c256_i32
  let c20_i32 : BitVec 32 := 20#32
  let v181 : BitVec 32 := Scalar.addi v0 c20_i32
  let v182 : Index := Scalar.indexCast v181
  ![v182.toNat]
def k0_off42 (v183 : BitVec 32) : Fin 2 → Nat :=
  let c0_i32_83 : BitVec 32 := 0#32
  ![v183.toNat, 0]

def k0_chk21 (v183 : BitVec 32) : Prop :=
  (∀ a, (k0_off42 v183) a + S1x1024.size a ≤ S128000x1024.size a)
instance k0_chk21.dec : ∀ (v183 : BitVec 32), Decidable (k0_chk21 v183) := fun v183 => decidable_of_iff' _ (Iff.of_eq (k0_chk21.eq_1 v183))
theorem k0_off42_inb : ∀ (v183 : BitVec 32) (k0_hw21 : k0_chk21 v183), ∀ a, (k0_off42 v183) a + S1x1024.size a ≤ S128000x1024.size a := fun v183 k0_hw21 => k0_hw21

def k0_off43 (i : grid0.Coords) : Fin 1 → Nat :=
  let arg0 : BitVec 32 := BitVec.ofNat 32 (i 0).val
  let c256_i32 : BitVec 32 := 256#32
  let v0 : BitVec 32 := Scalar.muli arg0 c256_i32
  let c21_i32 : BitVec 32 := 21#32
  let v190 : BitVec 32 := Scalar.addi v0 c21_i32
  let v191 : Index := Scalar.indexCast v190
  ![v191.toNat]
def k0_off44 (v192 : BitVec 32) : Fin 2 → Nat :=
  let c0_i32_87 : BitVec 32 := 0#32
  ![v192.toNat, 0]

def k0_chk22 (v192 : BitVec 32) : Prop :=
  (∀ a, (k0_off44 v192) a + S1x1024.size a ≤ S128000x1024.size a)
instance k0_chk22.dec : ∀ (v192 : BitVec 32), Decidable (k0_chk22 v192) := fun v192 => decidable_of_iff' _ (Iff.of_eq (k0_chk22.eq_1 v192))
theorem k0_off44_inb : ∀ (v192 : BitVec 32) (k0_hw22 : k0_chk22 v192), ∀ a, (k0_off44 v192) a + S1x1024.size a ≤ S128000x1024.size a := fun v192 k0_hw22 => k0_hw22

def k0_off45 (i : grid0.Coords) : Fin 1 → Nat :=
  let arg0 : BitVec 32 := BitVec.ofNat 32 (i 0).val
  let c256_i32 : BitVec 32 := 256#32
  let v0 : BitVec 32 := Scalar.muli arg0 c256_i32
  let c22_i32 : BitVec 32 := 22#32
  let v199 : BitVec 32 := Scalar.addi v0 c22_i32
  let v200 : Index := Scalar.indexCast v199
  ![v200.toNat]
def k0_off46 (v201 : BitVec 32) : Fin 2 → Nat :=
  let c0_i32_91 : BitVec 32 := 0#32
  ![v201.toNat, 0]

def k0_chk23 (v201 : BitVec 32) : Prop :=
  (∀ a, (k0_off46 v201) a + S1x1024.size a ≤ S128000x1024.size a)
instance k0_chk23.dec : ∀ (v201 : BitVec 32), Decidable (k0_chk23 v201) := fun v201 => decidable_of_iff' _ (Iff.of_eq (k0_chk23.eq_1 v201))
theorem k0_off46_inb : ∀ (v201 : BitVec 32) (k0_hw23 : k0_chk23 v201), ∀ a, (k0_off46 v201) a + S1x1024.size a ≤ S128000x1024.size a := fun v201 k0_hw23 => k0_hw23

def k0_off47 (i : grid0.Coords) : Fin 1 → Nat :=
  let arg0 : BitVec 32 := BitVec.ofNat 32 (i 0).val
  let c256_i32 : BitVec 32 := 256#32
  let v0 : BitVec 32 := Scalar.muli arg0 c256_i32
  let c23_i32 : BitVec 32 := 23#32
  let v208 : BitVec 32 := Scalar.addi v0 c23_i32
  let v209 : Index := Scalar.indexCast v208
  ![v209.toNat]
def k0_off48 (v210 : BitVec 32) : Fin 2 → Nat :=
  let c0_i32_95 : BitVec 32 := 0#32
  ![v210.toNat, 0]

def k0_chk24 (v210 : BitVec 32) : Prop :=
  (∀ a, (k0_off48 v210) a + S1x1024.size a ≤ S128000x1024.size a)
instance k0_chk24.dec : ∀ (v210 : BitVec 32), Decidable (k0_chk24 v210) := fun v210 => decidable_of_iff' _ (Iff.of_eq (k0_chk24.eq_1 v210))
theorem k0_off48_inb : ∀ (v210 : BitVec 32) (k0_hw24 : k0_chk24 v210), ∀ a, (k0_off48 v210) a + S1x1024.size a ≤ S128000x1024.size a := fun v210 k0_hw24 => k0_hw24

def k0_off49 (i : grid0.Coords) : Fin 1 → Nat :=
  let arg0 : BitVec 32 := BitVec.ofNat 32 (i 0).val
  let c256_i32 : BitVec 32 := 256#32
  let v0 : BitVec 32 := Scalar.muli arg0 c256_i32
  let c24_i32 : BitVec 32 := 24#32
  let v217 : BitVec 32 := Scalar.addi v0 c24_i32
  let v218 : Index := Scalar.indexCast v217
  ![v218.toNat]
def k0_off50 (v219 : BitVec 32) : Fin 2 → Nat :=
  let c0_i32_99 : BitVec 32 := 0#32
  ![v219.toNat, 0]

def k0_chk25 (v219 : BitVec 32) : Prop :=
  (∀ a, (k0_off50 v219) a + S1x1024.size a ≤ S128000x1024.size a)
instance k0_chk25.dec : ∀ (v219 : BitVec 32), Decidable (k0_chk25 v219) := fun v219 => decidable_of_iff' _ (Iff.of_eq (k0_chk25.eq_1 v219))
theorem k0_off50_inb : ∀ (v219 : BitVec 32) (k0_hw25 : k0_chk25 v219), ∀ a, (k0_off50 v219) a + S1x1024.size a ≤ S128000x1024.size a := fun v219 k0_hw25 => k0_hw25

def k0_off51 (i : grid0.Coords) : Fin 1 → Nat :=
  let arg0 : BitVec 32 := BitVec.ofNat 32 (i 0).val
  let c256_i32 : BitVec 32 := 256#32
  let v0 : BitVec 32 := Scalar.muli arg0 c256_i32
  let c25_i32 : BitVec 32 := 25#32
  let v226 : BitVec 32 := Scalar.addi v0 c25_i32
  let v227 : Index := Scalar.indexCast v226
  ![v227.toNat]
def k0_off52 (v228 : BitVec 32) : Fin 2 → Nat :=
  let c0_i32_103 : BitVec 32 := 0#32
  ![v228.toNat, 0]

def k0_chk26 (v228 : BitVec 32) : Prop :=
  (∀ a, (k0_off52 v228) a + S1x1024.size a ≤ S128000x1024.size a)
instance k0_chk26.dec : ∀ (v228 : BitVec 32), Decidable (k0_chk26 v228) := fun v228 => decidable_of_iff' _ (Iff.of_eq (k0_chk26.eq_1 v228))
theorem k0_off52_inb : ∀ (v228 : BitVec 32) (k0_hw26 : k0_chk26 v228), ∀ a, (k0_off52 v228) a + S1x1024.size a ≤ S128000x1024.size a := fun v228 k0_hw26 => k0_hw26

def k0_off53 (i : grid0.Coords) : Fin 1 → Nat :=
  let arg0 : BitVec 32 := BitVec.ofNat 32 (i 0).val
  let c256_i32 : BitVec 32 := 256#32
  let v0 : BitVec 32 := Scalar.muli arg0 c256_i32
  let c26_i32 : BitVec 32 := 26#32
  let v235 : BitVec 32 := Scalar.addi v0 c26_i32
  let v236 : Index := Scalar.indexCast v235
  ![v236.toNat]
def k0_off54 (v237 : BitVec 32) : Fin 2 → Nat :=
  let c0_i32_107 : BitVec 32 := 0#32
  ![v237.toNat, 0]

def k0_chk27 (v237 : BitVec 32) : Prop :=
  (∀ a, (k0_off54 v237) a + S1x1024.size a ≤ S128000x1024.size a)
instance k0_chk27.dec : ∀ (v237 : BitVec 32), Decidable (k0_chk27 v237) := fun v237 => decidable_of_iff' _ (Iff.of_eq (k0_chk27.eq_1 v237))
theorem k0_off54_inb : ∀ (v237 : BitVec 32) (k0_hw27 : k0_chk27 v237), ∀ a, (k0_off54 v237) a + S1x1024.size a ≤ S128000x1024.size a := fun v237 k0_hw27 => k0_hw27

def k0_off55 (i : grid0.Coords) : Fin 1 → Nat :=
  let arg0 : BitVec 32 := BitVec.ofNat 32 (i 0).val
  let c256_i32 : BitVec 32 := 256#32
  let v0 : BitVec 32 := Scalar.muli arg0 c256_i32
  let c27_i32 : BitVec 32 := 27#32
  let v244 : BitVec 32 := Scalar.addi v0 c27_i32
  let v245 : Index := Scalar.indexCast v244
  ![v245.toNat]
def k0_off56 (v246 : BitVec 32) : Fin 2 → Nat :=
  let c0_i32_111 : BitVec 32 := 0#32
  ![v246.toNat, 0]

def k0_chk28 (v246 : BitVec 32) : Prop :=
  (∀ a, (k0_off56 v246) a + S1x1024.size a ≤ S128000x1024.size a)
instance k0_chk28.dec : ∀ (v246 : BitVec 32), Decidable (k0_chk28 v246) := fun v246 => decidable_of_iff' _ (Iff.of_eq (k0_chk28.eq_1 v246))
theorem k0_off56_inb : ∀ (v246 : BitVec 32) (k0_hw28 : k0_chk28 v246), ∀ a, (k0_off56 v246) a + S1x1024.size a ≤ S128000x1024.size a := fun v246 k0_hw28 => k0_hw28

def k0_off57 (i : grid0.Coords) : Fin 1 → Nat :=
  let arg0 : BitVec 32 := BitVec.ofNat 32 (i 0).val
  let c256_i32 : BitVec 32 := 256#32
  let v0 : BitVec 32 := Scalar.muli arg0 c256_i32
  let c28_i32 : BitVec 32 := 28#32
  let v253 : BitVec 32 := Scalar.addi v0 c28_i32
  let v254 : Index := Scalar.indexCast v253
  ![v254.toNat]
def k0_off58 (v255 : BitVec 32) : Fin 2 → Nat :=
  let c0_i32_115 : BitVec 32 := 0#32
  ![v255.toNat, 0]

def k0_chk29 (v255 : BitVec 32) : Prop :=
  (∀ a, (k0_off58 v255) a + S1x1024.size a ≤ S128000x1024.size a)
instance k0_chk29.dec : ∀ (v255 : BitVec 32), Decidable (k0_chk29 v255) := fun v255 => decidable_of_iff' _ (Iff.of_eq (k0_chk29.eq_1 v255))
theorem k0_off58_inb : ∀ (v255 : BitVec 32) (k0_hw29 : k0_chk29 v255), ∀ a, (k0_off58 v255) a + S1x1024.size a ≤ S128000x1024.size a := fun v255 k0_hw29 => k0_hw29

def k0_off59 (i : grid0.Coords) : Fin 1 → Nat :=
  let arg0 : BitVec 32 := BitVec.ofNat 32 (i 0).val
  let c256_i32 : BitVec 32 := 256#32
  let v0 : BitVec 32 := Scalar.muli arg0 c256_i32
  let c29_i32 : BitVec 32 := 29#32
  let v262 : BitVec 32 := Scalar.addi v0 c29_i32
  let v263 : Index := Scalar.indexCast v262
  ![v263.toNat]
def k0_off60 (v264 : BitVec 32) : Fin 2 → Nat :=
  let c0_i32_119 : BitVec 32 := 0#32
  ![v264.toNat, 0]

def k0_chk30 (v264 : BitVec 32) : Prop :=
  (∀ a, (k0_off60 v264) a + S1x1024.size a ≤ S128000x1024.size a)
instance k0_chk30.dec : ∀ (v264 : BitVec 32), Decidable (k0_chk30 v264) := fun v264 => decidable_of_iff' _ (Iff.of_eq (k0_chk30.eq_1 v264))
theorem k0_off60_inb : ∀ (v264 : BitVec 32) (k0_hw30 : k0_chk30 v264), ∀ a, (k0_off60 v264) a + S1x1024.size a ≤ S128000x1024.size a := fun v264 k0_hw30 => k0_hw30

def k0_off61 (i : grid0.Coords) : Fin 1 → Nat :=
  let arg0 : BitVec 32 := BitVec.ofNat 32 (i 0).val
  let c256_i32 : BitVec 32 := 256#32
  let v0 : BitVec 32 := Scalar.muli arg0 c256_i32
  let c30_i32 : BitVec 32 := 30#32
  let v271 : BitVec 32 := Scalar.addi v0 c30_i32
  let v272 : Index := Scalar.indexCast v271
  ![v272.toNat]
def k0_off62 (v273 : BitVec 32) : Fin 2 → Nat :=
  let c0_i32_123 : BitVec 32 := 0#32
  ![v273.toNat, 0]

def k0_chk31 (v273 : BitVec 32) : Prop :=
  (∀ a, (k0_off62 v273) a + S1x1024.size a ≤ S128000x1024.size a)
instance k0_chk31.dec : ∀ (v273 : BitVec 32), Decidable (k0_chk31 v273) := fun v273 => decidable_of_iff' _ (Iff.of_eq (k0_chk31.eq_1 v273))
theorem k0_off62_inb : ∀ (v273 : BitVec 32) (k0_hw31 : k0_chk31 v273), ∀ a, (k0_off62 v273) a + S1x1024.size a ≤ S128000x1024.size a := fun v273 k0_hw31 => k0_hw31

def k0_off63 (i : grid0.Coords) : Fin 1 → Nat :=
  let arg0 : BitVec 32 := BitVec.ofNat 32 (i 0).val
  let c256_i32 : BitVec 32 := 256#32
  let v0 : BitVec 32 := Scalar.muli arg0 c256_i32
  let c31_i32 : BitVec 32 := 31#32
  let v280 : BitVec 32 := Scalar.addi v0 c31_i32
  let v281 : Index := Scalar.indexCast v280
  ![v281.toNat]
def k0_off64 (v282 : BitVec 32) : Fin 2 → Nat :=
  let c0_i32_127 : BitVec 32 := 0#32
  ![v282.toNat, 0]

def k0_chk32 (v282 : BitVec 32) : Prop :=
  (∀ a, (k0_off64 v282) a + S1x1024.size a ≤ S128000x1024.size a)
instance k0_chk32.dec : ∀ (v282 : BitVec 32), Decidable (k0_chk32 v282) := fun v282 => decidable_of_iff' _ (Iff.of_eq (k0_chk32.eq_1 v282))
theorem k0_off64_inb : ∀ (v282 : BitVec 32) (k0_hw32 : k0_chk32 v282), ∀ a, (k0_off64 v282) a + S1x1024.size a ≤ S128000x1024.size a := fun v282 k0_hw32 => k0_hw32

def k0_off65 (i : grid0.Coords) : Fin 1 → Nat :=
  let arg0 : BitVec 32 := BitVec.ofNat 32 (i 0).val
  let c256_i32 : BitVec 32 := 256#32
  let v0 : BitVec 32 := Scalar.muli arg0 c256_i32
  let c32_i32 : BitVec 32 := 32#32
  let v289 : BitVec 32 := Scalar.addi v0 c32_i32
  let v290 : Index := Scalar.indexCast v289
  ![v290.toNat]
def k0_off66 (v291 : BitVec 32) : Fin 2 → Nat :=
  let c0_i32_131 : BitVec 32 := 0#32
  ![v291.toNat, 0]

def k0_chk33 (v291 : BitVec 32) : Prop :=
  (∀ a, (k0_off66 v291) a + S1x1024.size a ≤ S128000x1024.size a)
instance k0_chk33.dec : ∀ (v291 : BitVec 32), Decidable (k0_chk33 v291) := fun v291 => decidable_of_iff' _ (Iff.of_eq (k0_chk33.eq_1 v291))
theorem k0_off66_inb : ∀ (v291 : BitVec 32) (k0_hw33 : k0_chk33 v291), ∀ a, (k0_off66 v291) a + S1x1024.size a ≤ S128000x1024.size a := fun v291 k0_hw33 => k0_hw33

def k0_off67 (i : grid0.Coords) : Fin 1 → Nat :=
  let arg0 : BitVec 32 := BitVec.ofNat 32 (i 0).val
  let c256_i32 : BitVec 32 := 256#32
  let v0 : BitVec 32 := Scalar.muli arg0 c256_i32
  let c33_i32 : BitVec 32 := 33#32
  let v298 : BitVec 32 := Scalar.addi v0 c33_i32
  let v299 : Index := Scalar.indexCast v298
  ![v299.toNat]
def k0_off68 (v300 : BitVec 32) : Fin 2 → Nat :=
  let c0_i32_135 : BitVec 32 := 0#32
  ![v300.toNat, 0]

def k0_chk34 (v300 : BitVec 32) : Prop :=
  (∀ a, (k0_off68 v300) a + S1x1024.size a ≤ S128000x1024.size a)
instance k0_chk34.dec : ∀ (v300 : BitVec 32), Decidable (k0_chk34 v300) := fun v300 => decidable_of_iff' _ (Iff.of_eq (k0_chk34.eq_1 v300))
theorem k0_off68_inb : ∀ (v300 : BitVec 32) (k0_hw34 : k0_chk34 v300), ∀ a, (k0_off68 v300) a + S1x1024.size a ≤ S128000x1024.size a := fun v300 k0_hw34 => k0_hw34

def k0_off69 (i : grid0.Coords) : Fin 1 → Nat :=
  let arg0 : BitVec 32 := BitVec.ofNat 32 (i 0).val
  let c256_i32 : BitVec 32 := 256#32
  let v0 : BitVec 32 := Scalar.muli arg0 c256_i32
  let c34_i32 : BitVec 32 := 34#32
  let v307 : BitVec 32 := Scalar.addi v0 c34_i32
  let v308 : Index := Scalar.indexCast v307
  ![v308.toNat]
def k0_off70 (v309 : BitVec 32) : Fin 2 → Nat :=
  let c0_i32_139 : BitVec 32 := 0#32
  ![v309.toNat, 0]

def k0_chk35 (v309 : BitVec 32) : Prop :=
  (∀ a, (k0_off70 v309) a + S1x1024.size a ≤ S128000x1024.size a)
instance k0_chk35.dec : ∀ (v309 : BitVec 32), Decidable (k0_chk35 v309) := fun v309 => decidable_of_iff' _ (Iff.of_eq (k0_chk35.eq_1 v309))
theorem k0_off70_inb : ∀ (v309 : BitVec 32) (k0_hw35 : k0_chk35 v309), ∀ a, (k0_off70 v309) a + S1x1024.size a ≤ S128000x1024.size a := fun v309 k0_hw35 => k0_hw35

def k0_off71 (i : grid0.Coords) : Fin 1 → Nat :=
  let arg0 : BitVec 32 := BitVec.ofNat 32 (i 0).val
  let c256_i32 : BitVec 32 := 256#32
  let v0 : BitVec 32 := Scalar.muli arg0 c256_i32
  let c35_i32 : BitVec 32 := 35#32
  let v316 : BitVec 32 := Scalar.addi v0 c35_i32
  let v317 : Index := Scalar.indexCast v316
  ![v317.toNat]
def k0_off72 (v318 : BitVec 32) : Fin 2 → Nat :=
  let c0_i32_143 : BitVec 32 := 0#32
  ![v318.toNat, 0]

def k0_chk36 (v318 : BitVec 32) : Prop :=
  (∀ a, (k0_off72 v318) a + S1x1024.size a ≤ S128000x1024.size a)
instance k0_chk36.dec : ∀ (v318 : BitVec 32), Decidable (k0_chk36 v318) := fun v318 => decidable_of_iff' _ (Iff.of_eq (k0_chk36.eq_1 v318))
theorem k0_off72_inb : ∀ (v318 : BitVec 32) (k0_hw36 : k0_chk36 v318), ∀ a, (k0_off72 v318) a + S1x1024.size a ≤ S128000x1024.size a := fun v318 k0_hw36 => k0_hw36

def k0_off73 (i : grid0.Coords) : Fin 1 → Nat :=
  let arg0 : BitVec 32 := BitVec.ofNat 32 (i 0).val
  let c256_i32 : BitVec 32 := 256#32
  let v0 : BitVec 32 := Scalar.muli arg0 c256_i32
  let c36_i32 : BitVec 32 := 36#32
  let v325 : BitVec 32 := Scalar.addi v0 c36_i32
  let v326 : Index := Scalar.indexCast v325
  ![v326.toNat]
def k0_off74 (v327 : BitVec 32) : Fin 2 → Nat :=
  let c0_i32_147 : BitVec 32 := 0#32
  ![v327.toNat, 0]

def k0_chk37 (v327 : BitVec 32) : Prop :=
  (∀ a, (k0_off74 v327) a + S1x1024.size a ≤ S128000x1024.size a)
instance k0_chk37.dec : ∀ (v327 : BitVec 32), Decidable (k0_chk37 v327) := fun v327 => decidable_of_iff' _ (Iff.of_eq (k0_chk37.eq_1 v327))
theorem k0_off74_inb : ∀ (v327 : BitVec 32) (k0_hw37 : k0_chk37 v327), ∀ a, (k0_off74 v327) a + S1x1024.size a ≤ S128000x1024.size a := fun v327 k0_hw37 => k0_hw37

def k0_off75 (i : grid0.Coords) : Fin 1 → Nat :=
  let arg0 : BitVec 32 := BitVec.ofNat 32 (i 0).val
  let c256_i32 : BitVec 32 := 256#32
  let v0 : BitVec 32 := Scalar.muli arg0 c256_i32
  let c37_i32 : BitVec 32 := 37#32
  let v334 : BitVec 32 := Scalar.addi v0 c37_i32
  let v335 : Index := Scalar.indexCast v334
  ![v335.toNat]
def k0_off76 (v336 : BitVec 32) : Fin 2 → Nat :=
  let c0_i32_151 : BitVec 32 := 0#32
  ![v336.toNat, 0]

def k0_chk38 (v336 : BitVec 32) : Prop :=
  (∀ a, (k0_off76 v336) a + S1x1024.size a ≤ S128000x1024.size a)
instance k0_chk38.dec : ∀ (v336 : BitVec 32), Decidable (k0_chk38 v336) := fun v336 => decidable_of_iff' _ (Iff.of_eq (k0_chk38.eq_1 v336))
theorem k0_off76_inb : ∀ (v336 : BitVec 32) (k0_hw38 : k0_chk38 v336), ∀ a, (k0_off76 v336) a + S1x1024.size a ≤ S128000x1024.size a := fun v336 k0_hw38 => k0_hw38

def k0_off77 (i : grid0.Coords) : Fin 1 → Nat :=
  let arg0 : BitVec 32 := BitVec.ofNat 32 (i 0).val
  let c256_i32 : BitVec 32 := 256#32
  let v0 : BitVec 32 := Scalar.muli arg0 c256_i32
  let c38_i32 : BitVec 32 := 38#32
  let v343 : BitVec 32 := Scalar.addi v0 c38_i32
  let v344 : Index := Scalar.indexCast v343
  ![v344.toNat]
def k0_off78 (v345 : BitVec 32) : Fin 2 → Nat :=
  let c0_i32_155 : BitVec 32 := 0#32
  ![v345.toNat, 0]

def k0_chk39 (v345 : BitVec 32) : Prop :=
  (∀ a, (k0_off78 v345) a + S1x1024.size a ≤ S128000x1024.size a)
instance k0_chk39.dec : ∀ (v345 : BitVec 32), Decidable (k0_chk39 v345) := fun v345 => decidable_of_iff' _ (Iff.of_eq (k0_chk39.eq_1 v345))
theorem k0_off78_inb : ∀ (v345 : BitVec 32) (k0_hw39 : k0_chk39 v345), ∀ a, (k0_off78 v345) a + S1x1024.size a ≤ S128000x1024.size a := fun v345 k0_hw39 => k0_hw39

def k0_off79 (i : grid0.Coords) : Fin 1 → Nat :=
  let arg0 : BitVec 32 := BitVec.ofNat 32 (i 0).val
  let c256_i32 : BitVec 32 := 256#32
  let v0 : BitVec 32 := Scalar.muli arg0 c256_i32
  let c39_i32 : BitVec 32 := 39#32
  let v352 : BitVec 32 := Scalar.addi v0 c39_i32
  let v353 : Index := Scalar.indexCast v352
  ![v353.toNat]
def k0_off80 (v354 : BitVec 32) : Fin 2 → Nat :=
  let c0_i32_159 : BitVec 32 := 0#32
  ![v354.toNat, 0]

def k0_chk40 (v354 : BitVec 32) : Prop :=
  (∀ a, (k0_off80 v354) a + S1x1024.size a ≤ S128000x1024.size a)
instance k0_chk40.dec : ∀ (v354 : BitVec 32), Decidable (k0_chk40 v354) := fun v354 => decidable_of_iff' _ (Iff.of_eq (k0_chk40.eq_1 v354))
theorem k0_off80_inb : ∀ (v354 : BitVec 32) (k0_hw40 : k0_chk40 v354), ∀ a, (k0_off80 v354) a + S1x1024.size a ≤ S128000x1024.size a := fun v354 k0_hw40 => k0_hw40

def k0_off81 (i : grid0.Coords) : Fin 1 → Nat :=
  let arg0 : BitVec 32 := BitVec.ofNat 32 (i 0).val
  let c256_i32 : BitVec 32 := 256#32
  let v0 : BitVec 32 := Scalar.muli arg0 c256_i32
  let c40_i32 : BitVec 32 := 40#32
  let v361 : BitVec 32 := Scalar.addi v0 c40_i32
  let v362 : Index := Scalar.indexCast v361
  ![v362.toNat]
def k0_off82 (v363 : BitVec 32) : Fin 2 → Nat :=
  let c0_i32_163 : BitVec 32 := 0#32
  ![v363.toNat, 0]

def k0_chk41 (v363 : BitVec 32) : Prop :=
  (∀ a, (k0_off82 v363) a + S1x1024.size a ≤ S128000x1024.size a)
instance k0_chk41.dec : ∀ (v363 : BitVec 32), Decidable (k0_chk41 v363) := fun v363 => decidable_of_iff' _ (Iff.of_eq (k0_chk41.eq_1 v363))
theorem k0_off82_inb : ∀ (v363 : BitVec 32) (k0_hw41 : k0_chk41 v363), ∀ a, (k0_off82 v363) a + S1x1024.size a ≤ S128000x1024.size a := fun v363 k0_hw41 => k0_hw41

def k0_off83 (i : grid0.Coords) : Fin 1 → Nat :=
  let arg0 : BitVec 32 := BitVec.ofNat 32 (i 0).val
  let c256_i32 : BitVec 32 := 256#32
  let v0 : BitVec 32 := Scalar.muli arg0 c256_i32
  let c41_i32 : BitVec 32 := 41#32
  let v370 : BitVec 32 := Scalar.addi v0 c41_i32
  let v371 : Index := Scalar.indexCast v370
  ![v371.toNat]
def k0_off84 (v372 : BitVec 32) : Fin 2 → Nat :=
  let c0_i32_167 : BitVec 32 := 0#32
  ![v372.toNat, 0]

def k0_chk42 (v372 : BitVec 32) : Prop :=
  (∀ a, (k0_off84 v372) a + S1x1024.size a ≤ S128000x1024.size a)
instance k0_chk42.dec : ∀ (v372 : BitVec 32), Decidable (k0_chk42 v372) := fun v372 => decidable_of_iff' _ (Iff.of_eq (k0_chk42.eq_1 v372))
theorem k0_off84_inb : ∀ (v372 : BitVec 32) (k0_hw42 : k0_chk42 v372), ∀ a, (k0_off84 v372) a + S1x1024.size a ≤ S128000x1024.size a := fun v372 k0_hw42 => k0_hw42

def k0_off85 (i : grid0.Coords) : Fin 1 → Nat :=
  let arg0 : BitVec 32 := BitVec.ofNat 32 (i 0).val
  let c256_i32 : BitVec 32 := 256#32
  let v0 : BitVec 32 := Scalar.muli arg0 c256_i32
  let c42_i32 : BitVec 32 := 42#32
  let v379 : BitVec 32 := Scalar.addi v0 c42_i32
  let v380 : Index := Scalar.indexCast v379
  ![v380.toNat]
def k0_off86 (v381 : BitVec 32) : Fin 2 → Nat :=
  let c0_i32_171 : BitVec 32 := 0#32
  ![v381.toNat, 0]

def k0_chk43 (v381 : BitVec 32) : Prop :=
  (∀ a, (k0_off86 v381) a + S1x1024.size a ≤ S128000x1024.size a)
instance k0_chk43.dec : ∀ (v381 : BitVec 32), Decidable (k0_chk43 v381) := fun v381 => decidable_of_iff' _ (Iff.of_eq (k0_chk43.eq_1 v381))
theorem k0_off86_inb : ∀ (v381 : BitVec 32) (k0_hw43 : k0_chk43 v381), ∀ a, (k0_off86 v381) a + S1x1024.size a ≤ S128000x1024.size a := fun v381 k0_hw43 => k0_hw43

def k0_off87 (i : grid0.Coords) : Fin 1 → Nat :=
  let arg0 : BitVec 32 := BitVec.ofNat 32 (i 0).val
  let c256_i32 : BitVec 32 := 256#32
  let v0 : BitVec 32 := Scalar.muli arg0 c256_i32
  let c43_i32 : BitVec 32 := 43#32
  let v388 : BitVec 32 := Scalar.addi v0 c43_i32
  let v389 : Index := Scalar.indexCast v388
  ![v389.toNat]
def k0_off88 (v390 : BitVec 32) : Fin 2 → Nat :=
  let c0_i32_175 : BitVec 32 := 0#32
  ![v390.toNat, 0]

def k0_chk44 (v390 : BitVec 32) : Prop :=
  (∀ a, (k0_off88 v390) a + S1x1024.size a ≤ S128000x1024.size a)
instance k0_chk44.dec : ∀ (v390 : BitVec 32), Decidable (k0_chk44 v390) := fun v390 => decidable_of_iff' _ (Iff.of_eq (k0_chk44.eq_1 v390))
theorem k0_off88_inb : ∀ (v390 : BitVec 32) (k0_hw44 : k0_chk44 v390), ∀ a, (k0_off88 v390) a + S1x1024.size a ≤ S128000x1024.size a := fun v390 k0_hw44 => k0_hw44

def k0_off89 (i : grid0.Coords) : Fin 1 → Nat :=
  let arg0 : BitVec 32 := BitVec.ofNat 32 (i 0).val
  let c256_i32 : BitVec 32 := 256#32
  let v0 : BitVec 32 := Scalar.muli arg0 c256_i32
  let c44_i32 : BitVec 32 := 44#32
  let v397 : BitVec 32 := Scalar.addi v0 c44_i32
  let v398 : Index := Scalar.indexCast v397
  ![v398.toNat]
def k0_off90 (v399 : BitVec 32) : Fin 2 → Nat :=
  let c0_i32_179 : BitVec 32 := 0#32
  ![v399.toNat, 0]

def k0_chk45 (v399 : BitVec 32) : Prop :=
  (∀ a, (k0_off90 v399) a + S1x1024.size a ≤ S128000x1024.size a)
instance k0_chk45.dec : ∀ (v399 : BitVec 32), Decidable (k0_chk45 v399) := fun v399 => decidable_of_iff' _ (Iff.of_eq (k0_chk45.eq_1 v399))
theorem k0_off90_inb : ∀ (v399 : BitVec 32) (k0_hw45 : k0_chk45 v399), ∀ a, (k0_off90 v399) a + S1x1024.size a ≤ S128000x1024.size a := fun v399 k0_hw45 => k0_hw45

def k0_off91 (i : grid0.Coords) : Fin 1 → Nat :=
  let arg0 : BitVec 32 := BitVec.ofNat 32 (i 0).val
  let c256_i32 : BitVec 32 := 256#32
  let v0 : BitVec 32 := Scalar.muli arg0 c256_i32
  let c45_i32 : BitVec 32 := 45#32
  let v406 : BitVec 32 := Scalar.addi v0 c45_i32
  let v407 : Index := Scalar.indexCast v406
  ![v407.toNat]
def k0_off92 (v408 : BitVec 32) : Fin 2 → Nat :=
  let c0_i32_183 : BitVec 32 := 0#32
  ![v408.toNat, 0]

def k0_chk46 (v408 : BitVec 32) : Prop :=
  (∀ a, (k0_off92 v408) a + S1x1024.size a ≤ S128000x1024.size a)
instance k0_chk46.dec : ∀ (v408 : BitVec 32), Decidable (k0_chk46 v408) := fun v408 => decidable_of_iff' _ (Iff.of_eq (k0_chk46.eq_1 v408))
theorem k0_off92_inb : ∀ (v408 : BitVec 32) (k0_hw46 : k0_chk46 v408), ∀ a, (k0_off92 v408) a + S1x1024.size a ≤ S128000x1024.size a := fun v408 k0_hw46 => k0_hw46

def k0_off93 (i : grid0.Coords) : Fin 1 → Nat :=
  let arg0 : BitVec 32 := BitVec.ofNat 32 (i 0).val
  let c256_i32 : BitVec 32 := 256#32
  let v0 : BitVec 32 := Scalar.muli arg0 c256_i32
  let c46_i32 : BitVec 32 := 46#32
  let v415 : BitVec 32 := Scalar.addi v0 c46_i32
  let v416 : Index := Scalar.indexCast v415
  ![v416.toNat]
def k0_off94 (v417 : BitVec 32) : Fin 2 → Nat :=
  let c0_i32_187 : BitVec 32 := 0#32
  ![v417.toNat, 0]

def k0_chk47 (v417 : BitVec 32) : Prop :=
  (∀ a, (k0_off94 v417) a + S1x1024.size a ≤ S128000x1024.size a)
instance k0_chk47.dec : ∀ (v417 : BitVec 32), Decidable (k0_chk47 v417) := fun v417 => decidable_of_iff' _ (Iff.of_eq (k0_chk47.eq_1 v417))
theorem k0_off94_inb : ∀ (v417 : BitVec 32) (k0_hw47 : k0_chk47 v417), ∀ a, (k0_off94 v417) a + S1x1024.size a ≤ S128000x1024.size a := fun v417 k0_hw47 => k0_hw47

def k0_off95 (i : grid0.Coords) : Fin 1 → Nat :=
  let arg0 : BitVec 32 := BitVec.ofNat 32 (i 0).val
  let c256_i32 : BitVec 32 := 256#32
  let v0 : BitVec 32 := Scalar.muli arg0 c256_i32
  let c47_i32 : BitVec 32 := 47#32
  let v424 : BitVec 32 := Scalar.addi v0 c47_i32
  let v425 : Index := Scalar.indexCast v424
  ![v425.toNat]
def k0_off96 (v426 : BitVec 32) : Fin 2 → Nat :=
  let c0_i32_191 : BitVec 32 := 0#32
  ![v426.toNat, 0]

def k0_chk48 (v426 : BitVec 32) : Prop :=
  (∀ a, (k0_off96 v426) a + S1x1024.size a ≤ S128000x1024.size a)
instance k0_chk48.dec : ∀ (v426 : BitVec 32), Decidable (k0_chk48 v426) := fun v426 => decidable_of_iff' _ (Iff.of_eq (k0_chk48.eq_1 v426))
theorem k0_off96_inb : ∀ (v426 : BitVec 32) (k0_hw48 : k0_chk48 v426), ∀ a, (k0_off96 v426) a + S1x1024.size a ≤ S128000x1024.size a := fun v426 k0_hw48 => k0_hw48

def k0_off97 (i : grid0.Coords) : Fin 1 → Nat :=
  let arg0 : BitVec 32 := BitVec.ofNat 32 (i 0).val
  let c256_i32 : BitVec 32 := 256#32
  let v0 : BitVec 32 := Scalar.muli arg0 c256_i32
  let c48_i32 : BitVec 32 := 48#32
  let v433 : BitVec 32 := Scalar.addi v0 c48_i32
  let v434 : Index := Scalar.indexCast v433
  ![v434.toNat]
def k0_off98 (v435 : BitVec 32) : Fin 2 → Nat :=
  let c0_i32_195 : BitVec 32 := 0#32
  ![v435.toNat, 0]

def k0_chk49 (v435 : BitVec 32) : Prop :=
  (∀ a, (k0_off98 v435) a + S1x1024.size a ≤ S128000x1024.size a)
instance k0_chk49.dec : ∀ (v435 : BitVec 32), Decidable (k0_chk49 v435) := fun v435 => decidable_of_iff' _ (Iff.of_eq (k0_chk49.eq_1 v435))
theorem k0_off98_inb : ∀ (v435 : BitVec 32) (k0_hw49 : k0_chk49 v435), ∀ a, (k0_off98 v435) a + S1x1024.size a ≤ S128000x1024.size a := fun v435 k0_hw49 => k0_hw49

def k0_off99 (i : grid0.Coords) : Fin 1 → Nat :=
  let arg0 : BitVec 32 := BitVec.ofNat 32 (i 0).val
  let c256_i32 : BitVec 32 := 256#32
  let v0 : BitVec 32 := Scalar.muli arg0 c256_i32
  let c49_i32 : BitVec 32 := 49#32
  let v442 : BitVec 32 := Scalar.addi v0 c49_i32
  let v443 : Index := Scalar.indexCast v442
  ![v443.toNat]
def k0_off100 (v444 : BitVec 32) : Fin 2 → Nat :=
  let c0_i32_199 : BitVec 32 := 0#32
  ![v444.toNat, 0]

def k0_chk50 (v444 : BitVec 32) : Prop :=
  (∀ a, (k0_off100 v444) a + S1x1024.size a ≤ S128000x1024.size a)
instance k0_chk50.dec : ∀ (v444 : BitVec 32), Decidable (k0_chk50 v444) := fun v444 => decidable_of_iff' _ (Iff.of_eq (k0_chk50.eq_1 v444))
theorem k0_off100_inb : ∀ (v444 : BitVec 32) (k0_hw50 : k0_chk50 v444), ∀ a, (k0_off100 v444) a + S1x1024.size a ≤ S128000x1024.size a := fun v444 k0_hw50 => k0_hw50

def k0_off101 (i : grid0.Coords) : Fin 1 → Nat :=
  let arg0 : BitVec 32 := BitVec.ofNat 32 (i 0).val
  let c256_i32 : BitVec 32 := 256#32
  let v0 : BitVec 32 := Scalar.muli arg0 c256_i32
  let c50_i32 : BitVec 32 := 50#32
  let v451 : BitVec 32 := Scalar.addi v0 c50_i32
  let v452 : Index := Scalar.indexCast v451
  ![v452.toNat]
def k0_off102 (v453 : BitVec 32) : Fin 2 → Nat :=
  let c0_i32_203 : BitVec 32 := 0#32
  ![v453.toNat, 0]

def k0_chk51 (v453 : BitVec 32) : Prop :=
  (∀ a, (k0_off102 v453) a + S1x1024.size a ≤ S128000x1024.size a)
instance k0_chk51.dec : ∀ (v453 : BitVec 32), Decidable (k0_chk51 v453) := fun v453 => decidable_of_iff' _ (Iff.of_eq (k0_chk51.eq_1 v453))
theorem k0_off102_inb : ∀ (v453 : BitVec 32) (k0_hw51 : k0_chk51 v453), ∀ a, (k0_off102 v453) a + S1x1024.size a ≤ S128000x1024.size a := fun v453 k0_hw51 => k0_hw51

def k0_off103 (i : grid0.Coords) : Fin 1 → Nat :=
  let arg0 : BitVec 32 := BitVec.ofNat 32 (i 0).val
  let c256_i32 : BitVec 32 := 256#32
  let v0 : BitVec 32 := Scalar.muli arg0 c256_i32
  let c51_i32 : BitVec 32 := 51#32
  let v460 : BitVec 32 := Scalar.addi v0 c51_i32
  let v461 : Index := Scalar.indexCast v460
  ![v461.toNat]
def k0_off104 (v462 : BitVec 32) : Fin 2 → Nat :=
  let c0_i32_207 : BitVec 32 := 0#32
  ![v462.toNat, 0]

def k0_chk52 (v462 : BitVec 32) : Prop :=
  (∀ a, (k0_off104 v462) a + S1x1024.size a ≤ S128000x1024.size a)
instance k0_chk52.dec : ∀ (v462 : BitVec 32), Decidable (k0_chk52 v462) := fun v462 => decidable_of_iff' _ (Iff.of_eq (k0_chk52.eq_1 v462))
theorem k0_off104_inb : ∀ (v462 : BitVec 32) (k0_hw52 : k0_chk52 v462), ∀ a, (k0_off104 v462) a + S1x1024.size a ≤ S128000x1024.size a := fun v462 k0_hw52 => k0_hw52

def k0_off105 (i : grid0.Coords) : Fin 1 → Nat :=
  let arg0 : BitVec 32 := BitVec.ofNat 32 (i 0).val
  let c256_i32 : BitVec 32 := 256#32
  let v0 : BitVec 32 := Scalar.muli arg0 c256_i32
  let c52_i32 : BitVec 32 := 52#32
  let v469 : BitVec 32 := Scalar.addi v0 c52_i32
  let v470 : Index := Scalar.indexCast v469
  ![v470.toNat]
def k0_off106 (v471 : BitVec 32) : Fin 2 → Nat :=
  let c0_i32_211 : BitVec 32 := 0#32
  ![v471.toNat, 0]

def k0_chk53 (v471 : BitVec 32) : Prop :=
  (∀ a, (k0_off106 v471) a + S1x1024.size a ≤ S128000x1024.size a)
instance k0_chk53.dec : ∀ (v471 : BitVec 32), Decidable (k0_chk53 v471) := fun v471 => decidable_of_iff' _ (Iff.of_eq (k0_chk53.eq_1 v471))
theorem k0_off106_inb : ∀ (v471 : BitVec 32) (k0_hw53 : k0_chk53 v471), ∀ a, (k0_off106 v471) a + S1x1024.size a ≤ S128000x1024.size a := fun v471 k0_hw53 => k0_hw53

def k0_off107 (i : grid0.Coords) : Fin 1 → Nat :=
  let arg0 : BitVec 32 := BitVec.ofNat 32 (i 0).val
  let c256_i32 : BitVec 32 := 256#32
  let v0 : BitVec 32 := Scalar.muli arg0 c256_i32
  let c53_i32 : BitVec 32 := 53#32
  let v478 : BitVec 32 := Scalar.addi v0 c53_i32
  let v479 : Index := Scalar.indexCast v478
  ![v479.toNat]
def k0_off108 (v480 : BitVec 32) : Fin 2 → Nat :=
  let c0_i32_215 : BitVec 32 := 0#32
  ![v480.toNat, 0]

def k0_chk54 (v480 : BitVec 32) : Prop :=
  (∀ a, (k0_off108 v480) a + S1x1024.size a ≤ S128000x1024.size a)
instance k0_chk54.dec : ∀ (v480 : BitVec 32), Decidable (k0_chk54 v480) := fun v480 => decidable_of_iff' _ (Iff.of_eq (k0_chk54.eq_1 v480))
theorem k0_off108_inb : ∀ (v480 : BitVec 32) (k0_hw54 : k0_chk54 v480), ∀ a, (k0_off108 v480) a + S1x1024.size a ≤ S128000x1024.size a := fun v480 k0_hw54 => k0_hw54

def k0_off109 (i : grid0.Coords) : Fin 1 → Nat :=
  let arg0 : BitVec 32 := BitVec.ofNat 32 (i 0).val
  let c256_i32 : BitVec 32 := 256#32
  let v0 : BitVec 32 := Scalar.muli arg0 c256_i32
  let c54_i32 : BitVec 32 := 54#32
  let v487 : BitVec 32 := Scalar.addi v0 c54_i32
  let v488 : Index := Scalar.indexCast v487
  ![v488.toNat]
def k0_off110 (v489 : BitVec 32) : Fin 2 → Nat :=
  let c0_i32_219 : BitVec 32 := 0#32
  ![v489.toNat, 0]

def k0_chk55 (v489 : BitVec 32) : Prop :=
  (∀ a, (k0_off110 v489) a + S1x1024.size a ≤ S128000x1024.size a)
instance k0_chk55.dec : ∀ (v489 : BitVec 32), Decidable (k0_chk55 v489) := fun v489 => decidable_of_iff' _ (Iff.of_eq (k0_chk55.eq_1 v489))
theorem k0_off110_inb : ∀ (v489 : BitVec 32) (k0_hw55 : k0_chk55 v489), ∀ a, (k0_off110 v489) a + S1x1024.size a ≤ S128000x1024.size a := fun v489 k0_hw55 => k0_hw55

def k0_off111 (i : grid0.Coords) : Fin 1 → Nat :=
  let arg0 : BitVec 32 := BitVec.ofNat 32 (i 0).val
  let c256_i32 : BitVec 32 := 256#32
  let v0 : BitVec 32 := Scalar.muli arg0 c256_i32
  let c55_i32 : BitVec 32 := 55#32
  let v496 : BitVec 32 := Scalar.addi v0 c55_i32
  let v497 : Index := Scalar.indexCast v496
  ![v497.toNat]
def k0_off112 (v498 : BitVec 32) : Fin 2 → Nat :=
  let c0_i32_223 : BitVec 32 := 0#32
  ![v498.toNat, 0]

def k0_chk56 (v498 : BitVec 32) : Prop :=
  (∀ a, (k0_off112 v498) a + S1x1024.size a ≤ S128000x1024.size a)
instance k0_chk56.dec : ∀ (v498 : BitVec 32), Decidable (k0_chk56 v498) := fun v498 => decidable_of_iff' _ (Iff.of_eq (k0_chk56.eq_1 v498))
theorem k0_off112_inb : ∀ (v498 : BitVec 32) (k0_hw56 : k0_chk56 v498), ∀ a, (k0_off112 v498) a + S1x1024.size a ≤ S128000x1024.size a := fun v498 k0_hw56 => k0_hw56

def k0_off113 (i : grid0.Coords) : Fin 1 → Nat :=
  let arg0 : BitVec 32 := BitVec.ofNat 32 (i 0).val
  let c256_i32 : BitVec 32 := 256#32
  let v0 : BitVec 32 := Scalar.muli arg0 c256_i32
  let c56_i32 : BitVec 32 := 56#32
  let v505 : BitVec 32 := Scalar.addi v0 c56_i32
  let v506 : Index := Scalar.indexCast v505
  ![v506.toNat]
def k0_off114 (v507 : BitVec 32) : Fin 2 → Nat :=
  let c0_i32_227 : BitVec 32 := 0#32
  ![v507.toNat, 0]

def k0_chk57 (v507 : BitVec 32) : Prop :=
  (∀ a, (k0_off114 v507) a + S1x1024.size a ≤ S128000x1024.size a)
instance k0_chk57.dec : ∀ (v507 : BitVec 32), Decidable (k0_chk57 v507) := fun v507 => decidable_of_iff' _ (Iff.of_eq (k0_chk57.eq_1 v507))
theorem k0_off114_inb : ∀ (v507 : BitVec 32) (k0_hw57 : k0_chk57 v507), ∀ a, (k0_off114 v507) a + S1x1024.size a ≤ S128000x1024.size a := fun v507 k0_hw57 => k0_hw57

def k0_off115 (i : grid0.Coords) : Fin 1 → Nat :=
  let arg0 : BitVec 32 := BitVec.ofNat 32 (i 0).val
  let c256_i32 : BitVec 32 := 256#32
  let v0 : BitVec 32 := Scalar.muli arg0 c256_i32
  let c57_i32 : BitVec 32 := 57#32
  let v514 : BitVec 32 := Scalar.addi v0 c57_i32
  let v515 : Index := Scalar.indexCast v514
  ![v515.toNat]
def k0_off116 (v516 : BitVec 32) : Fin 2 → Nat :=
  let c0_i32_231 : BitVec 32 := 0#32
  ![v516.toNat, 0]

def k0_chk58 (v516 : BitVec 32) : Prop :=
  (∀ a, (k0_off116 v516) a + S1x1024.size a ≤ S128000x1024.size a)
instance k0_chk58.dec : ∀ (v516 : BitVec 32), Decidable (k0_chk58 v516) := fun v516 => decidable_of_iff' _ (Iff.of_eq (k0_chk58.eq_1 v516))
theorem k0_off116_inb : ∀ (v516 : BitVec 32) (k0_hw58 : k0_chk58 v516), ∀ a, (k0_off116 v516) a + S1x1024.size a ≤ S128000x1024.size a := fun v516 k0_hw58 => k0_hw58

def k0_off117 (i : grid0.Coords) : Fin 1 → Nat :=
  let arg0 : BitVec 32 := BitVec.ofNat 32 (i 0).val
  let c256_i32 : BitVec 32 := 256#32
  let v0 : BitVec 32 := Scalar.muli arg0 c256_i32
  let c58_i32 : BitVec 32 := 58#32
  let v523 : BitVec 32 := Scalar.addi v0 c58_i32
  let v524 : Index := Scalar.indexCast v523
  ![v524.toNat]
def k0_off118 (v525 : BitVec 32) : Fin 2 → Nat :=
  let c0_i32_235 : BitVec 32 := 0#32
  ![v525.toNat, 0]

def k0_chk59 (v525 : BitVec 32) : Prop :=
  (∀ a, (k0_off118 v525) a + S1x1024.size a ≤ S128000x1024.size a)
instance k0_chk59.dec : ∀ (v525 : BitVec 32), Decidable (k0_chk59 v525) := fun v525 => decidable_of_iff' _ (Iff.of_eq (k0_chk59.eq_1 v525))
theorem k0_off118_inb : ∀ (v525 : BitVec 32) (k0_hw59 : k0_chk59 v525), ∀ a, (k0_off118 v525) a + S1x1024.size a ≤ S128000x1024.size a := fun v525 k0_hw59 => k0_hw59

def k0_off119 (i : grid0.Coords) : Fin 1 → Nat :=
  let arg0 : BitVec 32 := BitVec.ofNat 32 (i 0).val
  let c256_i32 : BitVec 32 := 256#32
  let v0 : BitVec 32 := Scalar.muli arg0 c256_i32
  let c59_i32 : BitVec 32 := 59#32
  let v532 : BitVec 32 := Scalar.addi v0 c59_i32
  let v533 : Index := Scalar.indexCast v532
  ![v533.toNat]
def k0_off120 (v534 : BitVec 32) : Fin 2 → Nat :=
  let c0_i32_239 : BitVec 32 := 0#32
  ![v534.toNat, 0]

def k0_chk60 (v534 : BitVec 32) : Prop :=
  (∀ a, (k0_off120 v534) a + S1x1024.size a ≤ S128000x1024.size a)
instance k0_chk60.dec : ∀ (v534 : BitVec 32), Decidable (k0_chk60 v534) := fun v534 => decidable_of_iff' _ (Iff.of_eq (k0_chk60.eq_1 v534))
theorem k0_off120_inb : ∀ (v534 : BitVec 32) (k0_hw60 : k0_chk60 v534), ∀ a, (k0_off120 v534) a + S1x1024.size a ≤ S128000x1024.size a := fun v534 k0_hw60 => k0_hw60

def k0_off121 (i : grid0.Coords) : Fin 1 → Nat :=
  let arg0 : BitVec 32 := BitVec.ofNat 32 (i 0).val
  let c256_i32 : BitVec 32 := 256#32
  let v0 : BitVec 32 := Scalar.muli arg0 c256_i32
  let c60_i32 : BitVec 32 := 60#32
  let v541 : BitVec 32 := Scalar.addi v0 c60_i32
  let v542 : Index := Scalar.indexCast v541
  ![v542.toNat]
def k0_off122 (v543 : BitVec 32) : Fin 2 → Nat :=
  let c0_i32_243 : BitVec 32 := 0#32
  ![v543.toNat, 0]

def k0_chk61 (v543 : BitVec 32) : Prop :=
  (∀ a, (k0_off122 v543) a + S1x1024.size a ≤ S128000x1024.size a)
instance k0_chk61.dec : ∀ (v543 : BitVec 32), Decidable (k0_chk61 v543) := fun v543 => decidable_of_iff' _ (Iff.of_eq (k0_chk61.eq_1 v543))
theorem k0_off122_inb : ∀ (v543 : BitVec 32) (k0_hw61 : k0_chk61 v543), ∀ a, (k0_off122 v543) a + S1x1024.size a ≤ S128000x1024.size a := fun v543 k0_hw61 => k0_hw61

def k0_off123 (i : grid0.Coords) : Fin 1 → Nat :=
  let arg0 : BitVec 32 := BitVec.ofNat 32 (i 0).val
  let c256_i32 : BitVec 32 := 256#32
  let v0 : BitVec 32 := Scalar.muli arg0 c256_i32
  let c61_i32 : BitVec 32 := 61#32
  let v550 : BitVec 32 := Scalar.addi v0 c61_i32
  let v551 : Index := Scalar.indexCast v550
  ![v551.toNat]
def k0_off124 (v552 : BitVec 32) : Fin 2 → Nat :=
  let c0_i32_247 : BitVec 32 := 0#32
  ![v552.toNat, 0]

def k0_chk62 (v552 : BitVec 32) : Prop :=
  (∀ a, (k0_off124 v552) a + S1x1024.size a ≤ S128000x1024.size a)
instance k0_chk62.dec : ∀ (v552 : BitVec 32), Decidable (k0_chk62 v552) := fun v552 => decidable_of_iff' _ (Iff.of_eq (k0_chk62.eq_1 v552))
theorem k0_off124_inb : ∀ (v552 : BitVec 32) (k0_hw62 : k0_chk62 v552), ∀ a, (k0_off124 v552) a + S1x1024.size a ≤ S128000x1024.size a := fun v552 k0_hw62 => k0_hw62

def k0_off125 (i : grid0.Coords) : Fin 1 → Nat :=
  let arg0 : BitVec 32 := BitVec.ofNat 32 (i 0).val
  let c256_i32 : BitVec 32 := 256#32
  let v0 : BitVec 32 := Scalar.muli arg0 c256_i32
  let c62_i32 : BitVec 32 := 62#32
  let v559 : BitVec 32 := Scalar.addi v0 c62_i32
  let v560 : Index := Scalar.indexCast v559
  ![v560.toNat]
def k0_off126 (v561 : BitVec 32) : Fin 2 → Nat :=
  let c0_i32_251 : BitVec 32 := 0#32
  ![v561.toNat, 0]

def k0_chk63 (v561 : BitVec 32) : Prop :=
  (∀ a, (k0_off126 v561) a + S1x1024.size a ≤ S128000x1024.size a)
instance k0_chk63.dec : ∀ (v561 : BitVec 32), Decidable (k0_chk63 v561) := fun v561 => decidable_of_iff' _ (Iff.of_eq (k0_chk63.eq_1 v561))
theorem k0_off126_inb : ∀ (v561 : BitVec 32) (k0_hw63 : k0_chk63 v561), ∀ a, (k0_off126 v561) a + S1x1024.size a ≤ S128000x1024.size a := fun v561 k0_hw63 => k0_hw63

def k0_off127 (i : grid0.Coords) : Fin 1 → Nat :=
  let arg0 : BitVec 32 := BitVec.ofNat 32 (i 0).val
  let c256_i32 : BitVec 32 := 256#32
  let v0 : BitVec 32 := Scalar.muli arg0 c256_i32
  let c63_i32 : BitVec 32 := 63#32
  let v568 : BitVec 32 := Scalar.addi v0 c63_i32
  let v569 : Index := Scalar.indexCast v568
  ![v569.toNat]
def k0_off128 (v570 : BitVec 32) : Fin 2 → Nat :=
  let c0_i32_255 : BitVec 32 := 0#32
  ![v570.toNat, 0]

def k0_chk64 (v570 : BitVec 32) : Prop :=
  (∀ a, (k0_off128 v570) a + S1x1024.size a ≤ S128000x1024.size a)
instance k0_chk64.dec : ∀ (v570 : BitVec 32), Decidable (k0_chk64 v570) := fun v570 => decidable_of_iff' _ (Iff.of_eq (k0_chk64.eq_1 v570))
theorem k0_off128_inb : ∀ (v570 : BitVec 32) (k0_hw64 : k0_chk64 v570), ∀ a, (k0_off128 v570) a + S1x1024.size a ≤ S128000x1024.size a := fun v570 k0_hw64 => k0_hw64

def k0_off129 (i : grid0.Coords) : Fin 1 → Nat :=
  let arg0 : BitVec 32 := BitVec.ofNat 32 (i 0).val
  let c256_i32 : BitVec 32 := 256#32
  let v0 : BitVec 32 := Scalar.muli arg0 c256_i32
  let c64_i32 : BitVec 32 := 64#32
  let v577 : BitVec 32 := Scalar.addi v0 c64_i32
  let v578 : Index := Scalar.indexCast v577
  ![v578.toNat]
def k0_off130 (v579 : BitVec 32) : Fin 2 → Nat :=
  let c0_i32_259 : BitVec 32 := 0#32
  ![v579.toNat, 0]

def k0_chk65 (v579 : BitVec 32) : Prop :=
  (∀ a, (k0_off130 v579) a + S1x1024.size a ≤ S128000x1024.size a)
instance k0_chk65.dec : ∀ (v579 : BitVec 32), Decidable (k0_chk65 v579) := fun v579 => decidable_of_iff' _ (Iff.of_eq (k0_chk65.eq_1 v579))
theorem k0_off130_inb : ∀ (v579 : BitVec 32) (k0_hw65 : k0_chk65 v579), ∀ a, (k0_off130 v579) a + S1x1024.size a ≤ S128000x1024.size a := fun v579 k0_hw65 => k0_hw65

def k0_off131 (i : grid0.Coords) : Fin 1 → Nat :=
  let arg0 : BitVec 32 := BitVec.ofNat 32 (i 0).val
  let c256_i32 : BitVec 32 := 256#32
  let v0 : BitVec 32 := Scalar.muli arg0 c256_i32
  let c65_i32 : BitVec 32 := 65#32
  let v586 : BitVec 32 := Scalar.addi v0 c65_i32
  let v587 : Index := Scalar.indexCast v586
  ![v587.toNat]
def k0_off132 (v588 : BitVec 32) : Fin 2 → Nat :=
  let c0_i32_263 : BitVec 32 := 0#32
  ![v588.toNat, 0]

def k0_chk66 (v588 : BitVec 32) : Prop :=
  (∀ a, (k0_off132 v588) a + S1x1024.size a ≤ S128000x1024.size a)
instance k0_chk66.dec : ∀ (v588 : BitVec 32), Decidable (k0_chk66 v588) := fun v588 => decidable_of_iff' _ (Iff.of_eq (k0_chk66.eq_1 v588))
theorem k0_off132_inb : ∀ (v588 : BitVec 32) (k0_hw66 : k0_chk66 v588), ∀ a, (k0_off132 v588) a + S1x1024.size a ≤ S128000x1024.size a := fun v588 k0_hw66 => k0_hw66

def k0_off133 (i : grid0.Coords) : Fin 1 → Nat :=
  let arg0 : BitVec 32 := BitVec.ofNat 32 (i 0).val
  let c256_i32 : BitVec 32 := 256#32
  let v0 : BitVec 32 := Scalar.muli arg0 c256_i32
  let c66_i32 : BitVec 32 := 66#32
  let v595 : BitVec 32 := Scalar.addi v0 c66_i32
  let v596 : Index := Scalar.indexCast v595
  ![v596.toNat]
def k0_off134 (v597 : BitVec 32) : Fin 2 → Nat :=
  let c0_i32_267 : BitVec 32 := 0#32
  ![v597.toNat, 0]

def k0_chk67 (v597 : BitVec 32) : Prop :=
  (∀ a, (k0_off134 v597) a + S1x1024.size a ≤ S128000x1024.size a)
instance k0_chk67.dec : ∀ (v597 : BitVec 32), Decidable (k0_chk67 v597) := fun v597 => decidable_of_iff' _ (Iff.of_eq (k0_chk67.eq_1 v597))
theorem k0_off134_inb : ∀ (v597 : BitVec 32) (k0_hw67 : k0_chk67 v597), ∀ a, (k0_off134 v597) a + S1x1024.size a ≤ S128000x1024.size a := fun v597 k0_hw67 => k0_hw67

def k0_off135 (i : grid0.Coords) : Fin 1 → Nat :=
  let arg0 : BitVec 32 := BitVec.ofNat 32 (i 0).val
  let c256_i32 : BitVec 32 := 256#32
  let v0 : BitVec 32 := Scalar.muli arg0 c256_i32
  let c67_i32 : BitVec 32 := 67#32
  let v604 : BitVec 32 := Scalar.addi v0 c67_i32
  let v605 : Index := Scalar.indexCast v604
  ![v605.toNat]
def k0_off136 (v606 : BitVec 32) : Fin 2 → Nat :=
  let c0_i32_271 : BitVec 32 := 0#32
  ![v606.toNat, 0]

def k0_chk68 (v606 : BitVec 32) : Prop :=
  (∀ a, (k0_off136 v606) a + S1x1024.size a ≤ S128000x1024.size a)
instance k0_chk68.dec : ∀ (v606 : BitVec 32), Decidable (k0_chk68 v606) := fun v606 => decidable_of_iff' _ (Iff.of_eq (k0_chk68.eq_1 v606))
theorem k0_off136_inb : ∀ (v606 : BitVec 32) (k0_hw68 : k0_chk68 v606), ∀ a, (k0_off136 v606) a + S1x1024.size a ≤ S128000x1024.size a := fun v606 k0_hw68 => k0_hw68

def k0_off137 (i : grid0.Coords) : Fin 1 → Nat :=
  let arg0 : BitVec 32 := BitVec.ofNat 32 (i 0).val
  let c256_i32 : BitVec 32 := 256#32
  let v0 : BitVec 32 := Scalar.muli arg0 c256_i32
  let c68_i32 : BitVec 32 := 68#32
  let v613 : BitVec 32 := Scalar.addi v0 c68_i32
  let v614 : Index := Scalar.indexCast v613
  ![v614.toNat]
def k0_off138 (v615 : BitVec 32) : Fin 2 → Nat :=
  let c0_i32_275 : BitVec 32 := 0#32
  ![v615.toNat, 0]

def k0_chk69 (v615 : BitVec 32) : Prop :=
  (∀ a, (k0_off138 v615) a + S1x1024.size a ≤ S128000x1024.size a)
instance k0_chk69.dec : ∀ (v615 : BitVec 32), Decidable (k0_chk69 v615) := fun v615 => decidable_of_iff' _ (Iff.of_eq (k0_chk69.eq_1 v615))
theorem k0_off138_inb : ∀ (v615 : BitVec 32) (k0_hw69 : k0_chk69 v615), ∀ a, (k0_off138 v615) a + S1x1024.size a ≤ S128000x1024.size a := fun v615 k0_hw69 => k0_hw69

def k0_off139 (i : grid0.Coords) : Fin 1 → Nat :=
  let arg0 : BitVec 32 := BitVec.ofNat 32 (i 0).val
  let c256_i32 : BitVec 32 := 256#32
  let v0 : BitVec 32 := Scalar.muli arg0 c256_i32
  let c69_i32 : BitVec 32 := 69#32
  let v622 : BitVec 32 := Scalar.addi v0 c69_i32
  let v623 : Index := Scalar.indexCast v622
  ![v623.toNat]
def k0_off140 (v624 : BitVec 32) : Fin 2 → Nat :=
  let c0_i32_279 : BitVec 32 := 0#32
  ![v624.toNat, 0]

def k0_chk70 (v624 : BitVec 32) : Prop :=
  (∀ a, (k0_off140 v624) a + S1x1024.size a ≤ S128000x1024.size a)
instance k0_chk70.dec : ∀ (v624 : BitVec 32), Decidable (k0_chk70 v624) := fun v624 => decidable_of_iff' _ (Iff.of_eq (k0_chk70.eq_1 v624))
theorem k0_off140_inb : ∀ (v624 : BitVec 32) (k0_hw70 : k0_chk70 v624), ∀ a, (k0_off140 v624) a + S1x1024.size a ≤ S128000x1024.size a := fun v624 k0_hw70 => k0_hw70

def k0_off141 (i : grid0.Coords) : Fin 1 → Nat :=
  let arg0 : BitVec 32 := BitVec.ofNat 32 (i 0).val
  let c256_i32 : BitVec 32 := 256#32
  let v0 : BitVec 32 := Scalar.muli arg0 c256_i32
  let c70_i32 : BitVec 32 := 70#32
  let v631 : BitVec 32 := Scalar.addi v0 c70_i32
  let v632 : Index := Scalar.indexCast v631
  ![v632.toNat]
def k0_off142 (v633 : BitVec 32) : Fin 2 → Nat :=
  let c0_i32_283 : BitVec 32 := 0#32
  ![v633.toNat, 0]

def k0_chk71 (v633 : BitVec 32) : Prop :=
  (∀ a, (k0_off142 v633) a + S1x1024.size a ≤ S128000x1024.size a)
instance k0_chk71.dec : ∀ (v633 : BitVec 32), Decidable (k0_chk71 v633) := fun v633 => decidable_of_iff' _ (Iff.of_eq (k0_chk71.eq_1 v633))
theorem k0_off142_inb : ∀ (v633 : BitVec 32) (k0_hw71 : k0_chk71 v633), ∀ a, (k0_off142 v633) a + S1x1024.size a ≤ S128000x1024.size a := fun v633 k0_hw71 => k0_hw71

def k0_off143 (i : grid0.Coords) : Fin 1 → Nat :=
  let arg0 : BitVec 32 := BitVec.ofNat 32 (i 0).val
  let c256_i32 : BitVec 32 := 256#32
  let v0 : BitVec 32 := Scalar.muli arg0 c256_i32
  let c71_i32 : BitVec 32 := 71#32
  let v640 : BitVec 32 := Scalar.addi v0 c71_i32
  let v641 : Index := Scalar.indexCast v640
  ![v641.toNat]
def k0_off144 (v642 : BitVec 32) : Fin 2 → Nat :=
  let c0_i32_287 : BitVec 32 := 0#32
  ![v642.toNat, 0]

def k0_chk72 (v642 : BitVec 32) : Prop :=
  (∀ a, (k0_off144 v642) a + S1x1024.size a ≤ S128000x1024.size a)
instance k0_chk72.dec : ∀ (v642 : BitVec 32), Decidable (k0_chk72 v642) := fun v642 => decidable_of_iff' _ (Iff.of_eq (k0_chk72.eq_1 v642))
theorem k0_off144_inb : ∀ (v642 : BitVec 32) (k0_hw72 : k0_chk72 v642), ∀ a, (k0_off144 v642) a + S1x1024.size a ≤ S128000x1024.size a := fun v642 k0_hw72 => k0_hw72

def k0_off145 (i : grid0.Coords) : Fin 1 → Nat :=
  let arg0 : BitVec 32 := BitVec.ofNat 32 (i 0).val
  let c256_i32 : BitVec 32 := 256#32
  let v0 : BitVec 32 := Scalar.muli arg0 c256_i32
  let c72_i32 : BitVec 32 := 72#32
  let v649 : BitVec 32 := Scalar.addi v0 c72_i32
  let v650 : Index := Scalar.indexCast v649
  ![v650.toNat]
def k0_off146 (v651 : BitVec 32) : Fin 2 → Nat :=
  let c0_i32_291 : BitVec 32 := 0#32
  ![v651.toNat, 0]

def k0_chk73 (v651 : BitVec 32) : Prop :=
  (∀ a, (k0_off146 v651) a + S1x1024.size a ≤ S128000x1024.size a)
instance k0_chk73.dec : ∀ (v651 : BitVec 32), Decidable (k0_chk73 v651) := fun v651 => decidable_of_iff' _ (Iff.of_eq (k0_chk73.eq_1 v651))
theorem k0_off146_inb : ∀ (v651 : BitVec 32) (k0_hw73 : k0_chk73 v651), ∀ a, (k0_off146 v651) a + S1x1024.size a ≤ S128000x1024.size a := fun v651 k0_hw73 => k0_hw73

def k0_off147 (i : grid0.Coords) : Fin 1 → Nat :=
  let arg0 : BitVec 32 := BitVec.ofNat 32 (i 0).val
  let c256_i32 : BitVec 32 := 256#32
  let v0 : BitVec 32 := Scalar.muli arg0 c256_i32
  let c73_i32 : BitVec 32 := 73#32
  let v658 : BitVec 32 := Scalar.addi v0 c73_i32
  let v659 : Index := Scalar.indexCast v658
  ![v659.toNat]
def k0_off148 (v660 : BitVec 32) : Fin 2 → Nat :=
  let c0_i32_295 : BitVec 32 := 0#32
  ![v660.toNat, 0]

def k0_chk74 (v660 : BitVec 32) : Prop :=
  (∀ a, (k0_off148 v660) a + S1x1024.size a ≤ S128000x1024.size a)
instance k0_chk74.dec : ∀ (v660 : BitVec 32), Decidable (k0_chk74 v660) := fun v660 => decidable_of_iff' _ (Iff.of_eq (k0_chk74.eq_1 v660))
theorem k0_off148_inb : ∀ (v660 : BitVec 32) (k0_hw74 : k0_chk74 v660), ∀ a, (k0_off148 v660) a + S1x1024.size a ≤ S128000x1024.size a := fun v660 k0_hw74 => k0_hw74

def k0_off149 (i : grid0.Coords) : Fin 1 → Nat :=
  let arg0 : BitVec 32 := BitVec.ofNat 32 (i 0).val
  let c256_i32 : BitVec 32 := 256#32
  let v0 : BitVec 32 := Scalar.muli arg0 c256_i32
  let c74_i32 : BitVec 32 := 74#32
  let v667 : BitVec 32 := Scalar.addi v0 c74_i32
  let v668 : Index := Scalar.indexCast v667
  ![v668.toNat]
def k0_off150 (v669 : BitVec 32) : Fin 2 → Nat :=
  let c0_i32_299 : BitVec 32 := 0#32
  ![v669.toNat, 0]

def k0_chk75 (v669 : BitVec 32) : Prop :=
  (∀ a, (k0_off150 v669) a + S1x1024.size a ≤ S128000x1024.size a)
instance k0_chk75.dec : ∀ (v669 : BitVec 32), Decidable (k0_chk75 v669) := fun v669 => decidable_of_iff' _ (Iff.of_eq (k0_chk75.eq_1 v669))
theorem k0_off150_inb : ∀ (v669 : BitVec 32) (k0_hw75 : k0_chk75 v669), ∀ a, (k0_off150 v669) a + S1x1024.size a ≤ S128000x1024.size a := fun v669 k0_hw75 => k0_hw75

def k0_off151 (i : grid0.Coords) : Fin 1 → Nat :=
  let arg0 : BitVec 32 := BitVec.ofNat 32 (i 0).val
  let c256_i32 : BitVec 32 := 256#32
  let v0 : BitVec 32 := Scalar.muli arg0 c256_i32
  let c75_i32 : BitVec 32 := 75#32
  let v676 : BitVec 32 := Scalar.addi v0 c75_i32
  let v677 : Index := Scalar.indexCast v676
  ![v677.toNat]
def k0_off152 (v678 : BitVec 32) : Fin 2 → Nat :=
  let c0_i32_303 : BitVec 32 := 0#32
  ![v678.toNat, 0]

def k0_chk76 (v678 : BitVec 32) : Prop :=
  (∀ a, (k0_off152 v678) a + S1x1024.size a ≤ S128000x1024.size a)
instance k0_chk76.dec : ∀ (v678 : BitVec 32), Decidable (k0_chk76 v678) := fun v678 => decidable_of_iff' _ (Iff.of_eq (k0_chk76.eq_1 v678))
theorem k0_off152_inb : ∀ (v678 : BitVec 32) (k0_hw76 : k0_chk76 v678), ∀ a, (k0_off152 v678) a + S1x1024.size a ≤ S128000x1024.size a := fun v678 k0_hw76 => k0_hw76

def k0_off153 (i : grid0.Coords) : Fin 1 → Nat :=
  let arg0 : BitVec 32 := BitVec.ofNat 32 (i 0).val
  let c256_i32 : BitVec 32 := 256#32
  let v0 : BitVec 32 := Scalar.muli arg0 c256_i32
  let c76_i32 : BitVec 32 := 76#32
  let v685 : BitVec 32 := Scalar.addi v0 c76_i32
  let v686 : Index := Scalar.indexCast v685
  ![v686.toNat]
def k0_off154 (v687 : BitVec 32) : Fin 2 → Nat :=
  let c0_i32_307 : BitVec 32 := 0#32
  ![v687.toNat, 0]

def k0_chk77 (v687 : BitVec 32) : Prop :=
  (∀ a, (k0_off154 v687) a + S1x1024.size a ≤ S128000x1024.size a)
instance k0_chk77.dec : ∀ (v687 : BitVec 32), Decidable (k0_chk77 v687) := fun v687 => decidable_of_iff' _ (Iff.of_eq (k0_chk77.eq_1 v687))
theorem k0_off154_inb : ∀ (v687 : BitVec 32) (k0_hw77 : k0_chk77 v687), ∀ a, (k0_off154 v687) a + S1x1024.size a ≤ S128000x1024.size a := fun v687 k0_hw77 => k0_hw77

def k0_off155 (i : grid0.Coords) : Fin 1 → Nat :=
  let arg0 : BitVec 32 := BitVec.ofNat 32 (i 0).val
  let c256_i32 : BitVec 32 := 256#32
  let v0 : BitVec 32 := Scalar.muli arg0 c256_i32
  let c77_i32 : BitVec 32 := 77#32
  let v694 : BitVec 32 := Scalar.addi v0 c77_i32
  let v695 : Index := Scalar.indexCast v694
  ![v695.toNat]
def k0_off156 (v696 : BitVec 32) : Fin 2 → Nat :=
  let c0_i32_311 : BitVec 32 := 0#32
  ![v696.toNat, 0]

def k0_chk78 (v696 : BitVec 32) : Prop :=
  (∀ a, (k0_off156 v696) a + S1x1024.size a ≤ S128000x1024.size a)
instance k0_chk78.dec : ∀ (v696 : BitVec 32), Decidable (k0_chk78 v696) := fun v696 => decidable_of_iff' _ (Iff.of_eq (k0_chk78.eq_1 v696))
theorem k0_off156_inb : ∀ (v696 : BitVec 32) (k0_hw78 : k0_chk78 v696), ∀ a, (k0_off156 v696) a + S1x1024.size a ≤ S128000x1024.size a := fun v696 k0_hw78 => k0_hw78

def k0_off157 (i : grid0.Coords) : Fin 1 → Nat :=
  let arg0 : BitVec 32 := BitVec.ofNat 32 (i 0).val
  let c256_i32 : BitVec 32 := 256#32
  let v0 : BitVec 32 := Scalar.muli arg0 c256_i32
  let c78_i32 : BitVec 32 := 78#32
  let v703 : BitVec 32 := Scalar.addi v0 c78_i32
  let v704 : Index := Scalar.indexCast v703
  ![v704.toNat]
def k0_off158 (v705 : BitVec 32) : Fin 2 → Nat :=
  let c0_i32_315 : BitVec 32 := 0#32
  ![v705.toNat, 0]

def k0_chk79 (v705 : BitVec 32) : Prop :=
  (∀ a, (k0_off158 v705) a + S1x1024.size a ≤ S128000x1024.size a)
instance k0_chk79.dec : ∀ (v705 : BitVec 32), Decidable (k0_chk79 v705) := fun v705 => decidable_of_iff' _ (Iff.of_eq (k0_chk79.eq_1 v705))
theorem k0_off158_inb : ∀ (v705 : BitVec 32) (k0_hw79 : k0_chk79 v705), ∀ a, (k0_off158 v705) a + S1x1024.size a ≤ S128000x1024.size a := fun v705 k0_hw79 => k0_hw79

def k0_off159 (i : grid0.Coords) : Fin 1 → Nat :=
  let arg0 : BitVec 32 := BitVec.ofNat 32 (i 0).val
  let c256_i32 : BitVec 32 := 256#32
  let v0 : BitVec 32 := Scalar.muli arg0 c256_i32
  let c79_i32 : BitVec 32 := 79#32
  let v712 : BitVec 32 := Scalar.addi v0 c79_i32
  let v713 : Index := Scalar.indexCast v712
  ![v713.toNat]
def k0_off160 (v714 : BitVec 32) : Fin 2 → Nat :=
  let c0_i32_319 : BitVec 32 := 0#32
  ![v714.toNat, 0]

def k0_chk80 (v714 : BitVec 32) : Prop :=
  (∀ a, (k0_off160 v714) a + S1x1024.size a ≤ S128000x1024.size a)
instance k0_chk80.dec : ∀ (v714 : BitVec 32), Decidable (k0_chk80 v714) := fun v714 => decidable_of_iff' _ (Iff.of_eq (k0_chk80.eq_1 v714))
theorem k0_off160_inb : ∀ (v714 : BitVec 32) (k0_hw80 : k0_chk80 v714), ∀ a, (k0_off160 v714) a + S1x1024.size a ≤ S128000x1024.size a := fun v714 k0_hw80 => k0_hw80

def k0_off161 (i : grid0.Coords) : Fin 1 → Nat :=
  let arg0 : BitVec 32 := BitVec.ofNat 32 (i 0).val
  let c256_i32 : BitVec 32 := 256#32
  let v0 : BitVec 32 := Scalar.muli arg0 c256_i32
  let c80_i32 : BitVec 32 := 80#32
  let v721 : BitVec 32 := Scalar.addi v0 c80_i32
  let v722 : Index := Scalar.indexCast v721
  ![v722.toNat]
def k0_off162 (v723 : BitVec 32) : Fin 2 → Nat :=
  let c0_i32_323 : BitVec 32 := 0#32
  ![v723.toNat, 0]

def k0_chk81 (v723 : BitVec 32) : Prop :=
  (∀ a, (k0_off162 v723) a + S1x1024.size a ≤ S128000x1024.size a)
instance k0_chk81.dec : ∀ (v723 : BitVec 32), Decidable (k0_chk81 v723) := fun v723 => decidable_of_iff' _ (Iff.of_eq (k0_chk81.eq_1 v723))
theorem k0_off162_inb : ∀ (v723 : BitVec 32) (k0_hw81 : k0_chk81 v723), ∀ a, (k0_off162 v723) a + S1x1024.size a ≤ S128000x1024.size a := fun v723 k0_hw81 => k0_hw81

def k0_off163 (i : grid0.Coords) : Fin 1 → Nat :=
  let arg0 : BitVec 32 := BitVec.ofNat 32 (i 0).val
  let c256_i32 : BitVec 32 := 256#32
  let v0 : BitVec 32 := Scalar.muli arg0 c256_i32
  let c81_i32 : BitVec 32 := 81#32
  let v730 : BitVec 32 := Scalar.addi v0 c81_i32
  let v731 : Index := Scalar.indexCast v730
  ![v731.toNat]
def k0_off164 (v732 : BitVec 32) : Fin 2 → Nat :=
  let c0_i32_327 : BitVec 32 := 0#32
  ![v732.toNat, 0]

def k0_chk82 (v732 : BitVec 32) : Prop :=
  (∀ a, (k0_off164 v732) a + S1x1024.size a ≤ S128000x1024.size a)
instance k0_chk82.dec : ∀ (v732 : BitVec 32), Decidable (k0_chk82 v732) := fun v732 => decidable_of_iff' _ (Iff.of_eq (k0_chk82.eq_1 v732))
theorem k0_off164_inb : ∀ (v732 : BitVec 32) (k0_hw82 : k0_chk82 v732), ∀ a, (k0_off164 v732) a + S1x1024.size a ≤ S128000x1024.size a := fun v732 k0_hw82 => k0_hw82

def k0_off165 (i : grid0.Coords) : Fin 1 → Nat :=
  let arg0 : BitVec 32 := BitVec.ofNat 32 (i 0).val
  let c256_i32 : BitVec 32 := 256#32
  let v0 : BitVec 32 := Scalar.muli arg0 c256_i32
  let c82_i32 : BitVec 32 := 82#32
  let v739 : BitVec 32 := Scalar.addi v0 c82_i32
  let v740 : Index := Scalar.indexCast v739
  ![v740.toNat]
def k0_off166 (v741 : BitVec 32) : Fin 2 → Nat :=
  let c0_i32_331 : BitVec 32 := 0#32
  ![v741.toNat, 0]

def k0_chk83 (v741 : BitVec 32) : Prop :=
  (∀ a, (k0_off166 v741) a + S1x1024.size a ≤ S128000x1024.size a)
instance k0_chk83.dec : ∀ (v741 : BitVec 32), Decidable (k0_chk83 v741) := fun v741 => decidable_of_iff' _ (Iff.of_eq (k0_chk83.eq_1 v741))
theorem k0_off166_inb : ∀ (v741 : BitVec 32) (k0_hw83 : k0_chk83 v741), ∀ a, (k0_off166 v741) a + S1x1024.size a ≤ S128000x1024.size a := fun v741 k0_hw83 => k0_hw83

def k0_off167 (i : grid0.Coords) : Fin 1 → Nat :=
  let arg0 : BitVec 32 := BitVec.ofNat 32 (i 0).val
  let c256_i32 : BitVec 32 := 256#32
  let v0 : BitVec 32 := Scalar.muli arg0 c256_i32
  let c83_i32 : BitVec 32 := 83#32
  let v748 : BitVec 32 := Scalar.addi v0 c83_i32
  let v749 : Index := Scalar.indexCast v748
  ![v749.toNat]
def k0_off168 (v750 : BitVec 32) : Fin 2 → Nat :=
  let c0_i32_335 : BitVec 32 := 0#32
  ![v750.toNat, 0]

def k0_chk84 (v750 : BitVec 32) : Prop :=
  (∀ a, (k0_off168 v750) a + S1x1024.size a ≤ S128000x1024.size a)
instance k0_chk84.dec : ∀ (v750 : BitVec 32), Decidable (k0_chk84 v750) := fun v750 => decidable_of_iff' _ (Iff.of_eq (k0_chk84.eq_1 v750))
theorem k0_off168_inb : ∀ (v750 : BitVec 32) (k0_hw84 : k0_chk84 v750), ∀ a, (k0_off168 v750) a + S1x1024.size a ≤ S128000x1024.size a := fun v750 k0_hw84 => k0_hw84

def k0_off169 (i : grid0.Coords) : Fin 1 → Nat :=
  let arg0 : BitVec 32 := BitVec.ofNat 32 (i 0).val
  let c256_i32 : BitVec 32 := 256#32
  let v0 : BitVec 32 := Scalar.muli arg0 c256_i32
  let c84_i32 : BitVec 32 := 84#32
  let v757 : BitVec 32 := Scalar.addi v0 c84_i32
  let v758 : Index := Scalar.indexCast v757
  ![v758.toNat]
def k0_off170 (v759 : BitVec 32) : Fin 2 → Nat :=
  let c0_i32_339 : BitVec 32 := 0#32
  ![v759.toNat, 0]

def k0_chk85 (v759 : BitVec 32) : Prop :=
  (∀ a, (k0_off170 v759) a + S1x1024.size a ≤ S128000x1024.size a)
instance k0_chk85.dec : ∀ (v759 : BitVec 32), Decidable (k0_chk85 v759) := fun v759 => decidable_of_iff' _ (Iff.of_eq (k0_chk85.eq_1 v759))
theorem k0_off170_inb : ∀ (v759 : BitVec 32) (k0_hw85 : k0_chk85 v759), ∀ a, (k0_off170 v759) a + S1x1024.size a ≤ S128000x1024.size a := fun v759 k0_hw85 => k0_hw85

def k0_off171 (i : grid0.Coords) : Fin 1 → Nat :=
  let arg0 : BitVec 32 := BitVec.ofNat 32 (i 0).val
  let c256_i32 : BitVec 32 := 256#32
  let v0 : BitVec 32 := Scalar.muli arg0 c256_i32
  let c85_i32 : BitVec 32 := 85#32
  let v766 : BitVec 32 := Scalar.addi v0 c85_i32
  let v767 : Index := Scalar.indexCast v766
  ![v767.toNat]
def k0_off172 (v768 : BitVec 32) : Fin 2 → Nat :=
  let c0_i32_343 : BitVec 32 := 0#32
  ![v768.toNat, 0]

def k0_chk86 (v768 : BitVec 32) : Prop :=
  (∀ a, (k0_off172 v768) a + S1x1024.size a ≤ S128000x1024.size a)
instance k0_chk86.dec : ∀ (v768 : BitVec 32), Decidable (k0_chk86 v768) := fun v768 => decidable_of_iff' _ (Iff.of_eq (k0_chk86.eq_1 v768))
theorem k0_off172_inb : ∀ (v768 : BitVec 32) (k0_hw86 : k0_chk86 v768), ∀ a, (k0_off172 v768) a + S1x1024.size a ≤ S128000x1024.size a := fun v768 k0_hw86 => k0_hw86

def k0_off173 (i : grid0.Coords) : Fin 1 → Nat :=
  let arg0 : BitVec 32 := BitVec.ofNat 32 (i 0).val
  let c256_i32 : BitVec 32 := 256#32
  let v0 : BitVec 32 := Scalar.muli arg0 c256_i32
  let c86_i32 : BitVec 32 := 86#32
  let v775 : BitVec 32 := Scalar.addi v0 c86_i32
  let v776 : Index := Scalar.indexCast v775
  ![v776.toNat]
def k0_off174 (v777 : BitVec 32) : Fin 2 → Nat :=
  let c0_i32_347 : BitVec 32 := 0#32
  ![v777.toNat, 0]

def k0_chk87 (v777 : BitVec 32) : Prop :=
  (∀ a, (k0_off174 v777) a + S1x1024.size a ≤ S128000x1024.size a)
instance k0_chk87.dec : ∀ (v777 : BitVec 32), Decidable (k0_chk87 v777) := fun v777 => decidable_of_iff' _ (Iff.of_eq (k0_chk87.eq_1 v777))
theorem k0_off174_inb : ∀ (v777 : BitVec 32) (k0_hw87 : k0_chk87 v777), ∀ a, (k0_off174 v777) a + S1x1024.size a ≤ S128000x1024.size a := fun v777 k0_hw87 => k0_hw87

def k0_off175 (i : grid0.Coords) : Fin 1 → Nat :=
  let arg0 : BitVec 32 := BitVec.ofNat 32 (i 0).val
  let c256_i32 : BitVec 32 := 256#32
  let v0 : BitVec 32 := Scalar.muli arg0 c256_i32
  let c87_i32 : BitVec 32 := 87#32
  let v784 : BitVec 32 := Scalar.addi v0 c87_i32
  let v785 : Index := Scalar.indexCast v784
  ![v785.toNat]
def k0_off176 (v786 : BitVec 32) : Fin 2 → Nat :=
  let c0_i32_351 : BitVec 32 := 0#32
  ![v786.toNat, 0]

def k0_chk88 (v786 : BitVec 32) : Prop :=
  (∀ a, (k0_off176 v786) a + S1x1024.size a ≤ S128000x1024.size a)
instance k0_chk88.dec : ∀ (v786 : BitVec 32), Decidable (k0_chk88 v786) := fun v786 => decidable_of_iff' _ (Iff.of_eq (k0_chk88.eq_1 v786))
theorem k0_off176_inb : ∀ (v786 : BitVec 32) (k0_hw88 : k0_chk88 v786), ∀ a, (k0_off176 v786) a + S1x1024.size a ≤ S128000x1024.size a := fun v786 k0_hw88 => k0_hw88

def k0_off177 (i : grid0.Coords) : Fin 1 → Nat :=
  let arg0 : BitVec 32 := BitVec.ofNat 32 (i 0).val
  let c256_i32 : BitVec 32 := 256#32
  let v0 : BitVec 32 := Scalar.muli arg0 c256_i32
  let c88_i32 : BitVec 32 := 88#32
  let v793 : BitVec 32 := Scalar.addi v0 c88_i32
  let v794 : Index := Scalar.indexCast v793
  ![v794.toNat]
def k0_off178 (v795 : BitVec 32) : Fin 2 → Nat :=
  let c0_i32_355 : BitVec 32 := 0#32
  ![v795.toNat, 0]

def k0_chk89 (v795 : BitVec 32) : Prop :=
  (∀ a, (k0_off178 v795) a + S1x1024.size a ≤ S128000x1024.size a)
instance k0_chk89.dec : ∀ (v795 : BitVec 32), Decidable (k0_chk89 v795) := fun v795 => decidable_of_iff' _ (Iff.of_eq (k0_chk89.eq_1 v795))
theorem k0_off178_inb : ∀ (v795 : BitVec 32) (k0_hw89 : k0_chk89 v795), ∀ a, (k0_off178 v795) a + S1x1024.size a ≤ S128000x1024.size a := fun v795 k0_hw89 => k0_hw89

def k0_off179 (i : grid0.Coords) : Fin 1 → Nat :=
  let arg0 : BitVec 32 := BitVec.ofNat 32 (i 0).val
  let c256_i32 : BitVec 32 := 256#32
  let v0 : BitVec 32 := Scalar.muli arg0 c256_i32
  let c89_i32 : BitVec 32 := 89#32
  let v802 : BitVec 32 := Scalar.addi v0 c89_i32
  let v803 : Index := Scalar.indexCast v802
  ![v803.toNat]
def k0_off180 (v804 : BitVec 32) : Fin 2 → Nat :=
  let c0_i32_359 : BitVec 32 := 0#32
  ![v804.toNat, 0]

def k0_chk90 (v804 : BitVec 32) : Prop :=
  (∀ a, (k0_off180 v804) a + S1x1024.size a ≤ S128000x1024.size a)
instance k0_chk90.dec : ∀ (v804 : BitVec 32), Decidable (k0_chk90 v804) := fun v804 => decidable_of_iff' _ (Iff.of_eq (k0_chk90.eq_1 v804))
theorem k0_off180_inb : ∀ (v804 : BitVec 32) (k0_hw90 : k0_chk90 v804), ∀ a, (k0_off180 v804) a + S1x1024.size a ≤ S128000x1024.size a := fun v804 k0_hw90 => k0_hw90

def k0_off181 (i : grid0.Coords) : Fin 1 → Nat :=
  let arg0 : BitVec 32 := BitVec.ofNat 32 (i 0).val
  let c256_i32 : BitVec 32 := 256#32
  let v0 : BitVec 32 := Scalar.muli arg0 c256_i32
  let c90_i32 : BitVec 32 := 90#32
  let v811 : BitVec 32 := Scalar.addi v0 c90_i32
  let v812 : Index := Scalar.indexCast v811
  ![v812.toNat]
def k0_off182 (v813 : BitVec 32) : Fin 2 → Nat :=
  let c0_i32_363 : BitVec 32 := 0#32
  ![v813.toNat, 0]

def k0_chk91 (v813 : BitVec 32) : Prop :=
  (∀ a, (k0_off182 v813) a + S1x1024.size a ≤ S128000x1024.size a)
instance k0_chk91.dec : ∀ (v813 : BitVec 32), Decidable (k0_chk91 v813) := fun v813 => decidable_of_iff' _ (Iff.of_eq (k0_chk91.eq_1 v813))
theorem k0_off182_inb : ∀ (v813 : BitVec 32) (k0_hw91 : k0_chk91 v813), ∀ a, (k0_off182 v813) a + S1x1024.size a ≤ S128000x1024.size a := fun v813 k0_hw91 => k0_hw91

def k0_off183 (i : grid0.Coords) : Fin 1 → Nat :=
  let arg0 : BitVec 32 := BitVec.ofNat 32 (i 0).val
  let c256_i32 : BitVec 32 := 256#32
  let v0 : BitVec 32 := Scalar.muli arg0 c256_i32
  let c91_i32 : BitVec 32 := 91#32
  let v820 : BitVec 32 := Scalar.addi v0 c91_i32
  let v821 : Index := Scalar.indexCast v820
  ![v821.toNat]
def k0_off184 (v822 : BitVec 32) : Fin 2 → Nat :=
  let c0_i32_367 : BitVec 32 := 0#32
  ![v822.toNat, 0]

def k0_chk92 (v822 : BitVec 32) : Prop :=
  (∀ a, (k0_off184 v822) a + S1x1024.size a ≤ S128000x1024.size a)
instance k0_chk92.dec : ∀ (v822 : BitVec 32), Decidable (k0_chk92 v822) := fun v822 => decidable_of_iff' _ (Iff.of_eq (k0_chk92.eq_1 v822))
theorem k0_off184_inb : ∀ (v822 : BitVec 32) (k0_hw92 : k0_chk92 v822), ∀ a, (k0_off184 v822) a + S1x1024.size a ≤ S128000x1024.size a := fun v822 k0_hw92 => k0_hw92

def k0_off185 (i : grid0.Coords) : Fin 1 → Nat :=
  let arg0 : BitVec 32 := BitVec.ofNat 32 (i 0).val
  let c256_i32 : BitVec 32 := 256#32
  let v0 : BitVec 32 := Scalar.muli arg0 c256_i32
  let c92_i32 : BitVec 32 := 92#32
  let v829 : BitVec 32 := Scalar.addi v0 c92_i32
  let v830 : Index := Scalar.indexCast v829
  ![v830.toNat]
def k0_off186 (v831 : BitVec 32) : Fin 2 → Nat :=
  let c0_i32_371 : BitVec 32 := 0#32
  ![v831.toNat, 0]

def k0_chk93 (v831 : BitVec 32) : Prop :=
  (∀ a, (k0_off186 v831) a + S1x1024.size a ≤ S128000x1024.size a)
instance k0_chk93.dec : ∀ (v831 : BitVec 32), Decidable (k0_chk93 v831) := fun v831 => decidable_of_iff' _ (Iff.of_eq (k0_chk93.eq_1 v831))
theorem k0_off186_inb : ∀ (v831 : BitVec 32) (k0_hw93 : k0_chk93 v831), ∀ a, (k0_off186 v831) a + S1x1024.size a ≤ S128000x1024.size a := fun v831 k0_hw93 => k0_hw93

def k0_off187 (i : grid0.Coords) : Fin 1 → Nat :=
  let arg0 : BitVec 32 := BitVec.ofNat 32 (i 0).val
  let c256_i32 : BitVec 32 := 256#32
  let v0 : BitVec 32 := Scalar.muli arg0 c256_i32
  let c93_i32 : BitVec 32 := 93#32
  let v838 : BitVec 32 := Scalar.addi v0 c93_i32
  let v839 : Index := Scalar.indexCast v838
  ![v839.toNat]
def k0_off188 (v840 : BitVec 32) : Fin 2 → Nat :=
  let c0_i32_375 : BitVec 32 := 0#32
  ![v840.toNat, 0]

def k0_chk94 (v840 : BitVec 32) : Prop :=
  (∀ a, (k0_off188 v840) a + S1x1024.size a ≤ S128000x1024.size a)
instance k0_chk94.dec : ∀ (v840 : BitVec 32), Decidable (k0_chk94 v840) := fun v840 => decidable_of_iff' _ (Iff.of_eq (k0_chk94.eq_1 v840))
theorem k0_off188_inb : ∀ (v840 : BitVec 32) (k0_hw94 : k0_chk94 v840), ∀ a, (k0_off188 v840) a + S1x1024.size a ≤ S128000x1024.size a := fun v840 k0_hw94 => k0_hw94

def k0_off189 (i : grid0.Coords) : Fin 1 → Nat :=
  let arg0 : BitVec 32 := BitVec.ofNat 32 (i 0).val
  let c256_i32 : BitVec 32 := 256#32
  let v0 : BitVec 32 := Scalar.muli arg0 c256_i32
  let c94_i32 : BitVec 32 := 94#32
  let v847 : BitVec 32 := Scalar.addi v0 c94_i32
  let v848 : Index := Scalar.indexCast v847
  ![v848.toNat]
def k0_off190 (v849 : BitVec 32) : Fin 2 → Nat :=
  let c0_i32_379 : BitVec 32 := 0#32
  ![v849.toNat, 0]

def k0_chk95 (v849 : BitVec 32) : Prop :=
  (∀ a, (k0_off190 v849) a + S1x1024.size a ≤ S128000x1024.size a)
instance k0_chk95.dec : ∀ (v849 : BitVec 32), Decidable (k0_chk95 v849) := fun v849 => decidable_of_iff' _ (Iff.of_eq (k0_chk95.eq_1 v849))
theorem k0_off190_inb : ∀ (v849 : BitVec 32) (k0_hw95 : k0_chk95 v849), ∀ a, (k0_off190 v849) a + S1x1024.size a ≤ S128000x1024.size a := fun v849 k0_hw95 => k0_hw95

def k0_off191 (i : grid0.Coords) : Fin 1 → Nat :=
  let arg0 : BitVec 32 := BitVec.ofNat 32 (i 0).val
  let c256_i32 : BitVec 32 := 256#32
  let v0 : BitVec 32 := Scalar.muli arg0 c256_i32
  let c95_i32 : BitVec 32 := 95#32
  let v856 : BitVec 32 := Scalar.addi v0 c95_i32
  let v857 : Index := Scalar.indexCast v856
  ![v857.toNat]
def k0_off192 (v858 : BitVec 32) : Fin 2 → Nat :=
  let c0_i32_383 : BitVec 32 := 0#32
  ![v858.toNat, 0]

def k0_chk96 (v858 : BitVec 32) : Prop :=
  (∀ a, (k0_off192 v858) a + S1x1024.size a ≤ S128000x1024.size a)
instance k0_chk96.dec : ∀ (v858 : BitVec 32), Decidable (k0_chk96 v858) := fun v858 => decidable_of_iff' _ (Iff.of_eq (k0_chk96.eq_1 v858))
theorem k0_off192_inb : ∀ (v858 : BitVec 32) (k0_hw96 : k0_chk96 v858), ∀ a, (k0_off192 v858) a + S1x1024.size a ≤ S128000x1024.size a := fun v858 k0_hw96 => k0_hw96

def k0_off193 (i : grid0.Coords) : Fin 1 → Nat :=
  let arg0 : BitVec 32 := BitVec.ofNat 32 (i 0).val
  let c256_i32 : BitVec 32 := 256#32
  let v0 : BitVec 32 := Scalar.muli arg0 c256_i32
  let c96_i32 : BitVec 32 := 96#32
  let v865 : BitVec 32 := Scalar.addi v0 c96_i32
  let v866 : Index := Scalar.indexCast v865
  ![v866.toNat]
def k0_off194 (v867 : BitVec 32) : Fin 2 → Nat :=
  let c0_i32_387 : BitVec 32 := 0#32
  ![v867.toNat, 0]

def k0_chk97 (v867 : BitVec 32) : Prop :=
  (∀ a, (k0_off194 v867) a + S1x1024.size a ≤ S128000x1024.size a)
instance k0_chk97.dec : ∀ (v867 : BitVec 32), Decidable (k0_chk97 v867) := fun v867 => decidable_of_iff' _ (Iff.of_eq (k0_chk97.eq_1 v867))
theorem k0_off194_inb : ∀ (v867 : BitVec 32) (k0_hw97 : k0_chk97 v867), ∀ a, (k0_off194 v867) a + S1x1024.size a ≤ S128000x1024.size a := fun v867 k0_hw97 => k0_hw97

def k0_off195 (i : grid0.Coords) : Fin 1 → Nat :=
  let arg0 : BitVec 32 := BitVec.ofNat 32 (i 0).val
  let c256_i32 : BitVec 32 := 256#32
  let v0 : BitVec 32 := Scalar.muli arg0 c256_i32
  let c97_i32 : BitVec 32 := 97#32
  let v874 : BitVec 32 := Scalar.addi v0 c97_i32
  let v875 : Index := Scalar.indexCast v874
  ![v875.toNat]
def k0_off196 (v876 : BitVec 32) : Fin 2 → Nat :=
  let c0_i32_391 : BitVec 32 := 0#32
  ![v876.toNat, 0]

def k0_chk98 (v876 : BitVec 32) : Prop :=
  (∀ a, (k0_off196 v876) a + S1x1024.size a ≤ S128000x1024.size a)
instance k0_chk98.dec : ∀ (v876 : BitVec 32), Decidable (k0_chk98 v876) := fun v876 => decidable_of_iff' _ (Iff.of_eq (k0_chk98.eq_1 v876))
theorem k0_off196_inb : ∀ (v876 : BitVec 32) (k0_hw98 : k0_chk98 v876), ∀ a, (k0_off196 v876) a + S1x1024.size a ≤ S128000x1024.size a := fun v876 k0_hw98 => k0_hw98

def k0_off197 (i : grid0.Coords) : Fin 1 → Nat :=
  let arg0 : BitVec 32 := BitVec.ofNat 32 (i 0).val
  let c256_i32 : BitVec 32 := 256#32
  let v0 : BitVec 32 := Scalar.muli arg0 c256_i32
  let c98_i32 : BitVec 32 := 98#32
  let v883 : BitVec 32 := Scalar.addi v0 c98_i32
  let v884 : Index := Scalar.indexCast v883
  ![v884.toNat]
def k0_off198 (v885 : BitVec 32) : Fin 2 → Nat :=
  let c0_i32_395 : BitVec 32 := 0#32
  ![v885.toNat, 0]

def k0_chk99 (v885 : BitVec 32) : Prop :=
  (∀ a, (k0_off198 v885) a + S1x1024.size a ≤ S128000x1024.size a)
instance k0_chk99.dec : ∀ (v885 : BitVec 32), Decidable (k0_chk99 v885) := fun v885 => decidable_of_iff' _ (Iff.of_eq (k0_chk99.eq_1 v885))
theorem k0_off198_inb : ∀ (v885 : BitVec 32) (k0_hw99 : k0_chk99 v885), ∀ a, (k0_off198 v885) a + S1x1024.size a ≤ S128000x1024.size a := fun v885 k0_hw99 => k0_hw99

def k0_off199 (i : grid0.Coords) : Fin 1 → Nat :=
  let arg0 : BitVec 32 := BitVec.ofNat 32 (i 0).val
  let c256_i32 : BitVec 32 := 256#32
  let v0 : BitVec 32 := Scalar.muli arg0 c256_i32
  let c99_i32 : BitVec 32 := 99#32
  let v892 : BitVec 32 := Scalar.addi v0 c99_i32
  let v893 : Index := Scalar.indexCast v892
  ![v893.toNat]
def k0_off200 (v894 : BitVec 32) : Fin 2 → Nat :=
  let c0_i32_399 : BitVec 32 := 0#32
  ![v894.toNat, 0]

def k0_chk100 (v894 : BitVec 32) : Prop :=
  (∀ a, (k0_off200 v894) a + S1x1024.size a ≤ S128000x1024.size a)
instance k0_chk100.dec : ∀ (v894 : BitVec 32), Decidable (k0_chk100 v894) := fun v894 => decidable_of_iff' _ (Iff.of_eq (k0_chk100.eq_1 v894))
theorem k0_off200_inb : ∀ (v894 : BitVec 32) (k0_hw100 : k0_chk100 v894), ∀ a, (k0_off200 v894) a + S1x1024.size a ≤ S128000x1024.size a := fun v894 k0_hw100 => k0_hw100

def k0_off201 (i : grid0.Coords) : Fin 1 → Nat :=
  let arg0 : BitVec 32 := BitVec.ofNat 32 (i 0).val
  let c256_i32 : BitVec 32 := 256#32
  let v0 : BitVec 32 := Scalar.muli arg0 c256_i32
  let c100_i32 : BitVec 32 := 100#32
  let v901 : BitVec 32 := Scalar.addi v0 c100_i32
  let v902 : Index := Scalar.indexCast v901
  ![v902.toNat]
def k0_off202 (v903 : BitVec 32) : Fin 2 → Nat :=
  let c0_i32_403 : BitVec 32 := 0#32
  ![v903.toNat, 0]

def k0_chk101 (v903 : BitVec 32) : Prop :=
  (∀ a, (k0_off202 v903) a + S1x1024.size a ≤ S128000x1024.size a)
instance k0_chk101.dec : ∀ (v903 : BitVec 32), Decidable (k0_chk101 v903) := fun v903 => decidable_of_iff' _ (Iff.of_eq (k0_chk101.eq_1 v903))
theorem k0_off202_inb : ∀ (v903 : BitVec 32) (k0_hw101 : k0_chk101 v903), ∀ a, (k0_off202 v903) a + S1x1024.size a ≤ S128000x1024.size a := fun v903 k0_hw101 => k0_hw101

def k0_off203 (i : grid0.Coords) : Fin 1 → Nat :=
  let arg0 : BitVec 32 := BitVec.ofNat 32 (i 0).val
  let c256_i32 : BitVec 32 := 256#32
  let v0 : BitVec 32 := Scalar.muli arg0 c256_i32
  let c101_i32 : BitVec 32 := 101#32
  let v910 : BitVec 32 := Scalar.addi v0 c101_i32
  let v911 : Index := Scalar.indexCast v910
  ![v911.toNat]
def k0_off204 (v912 : BitVec 32) : Fin 2 → Nat :=
  let c0_i32_407 : BitVec 32 := 0#32
  ![v912.toNat, 0]

def k0_chk102 (v912 : BitVec 32) : Prop :=
  (∀ a, (k0_off204 v912) a + S1x1024.size a ≤ S128000x1024.size a)
instance k0_chk102.dec : ∀ (v912 : BitVec 32), Decidable (k0_chk102 v912) := fun v912 => decidable_of_iff' _ (Iff.of_eq (k0_chk102.eq_1 v912))
theorem k0_off204_inb : ∀ (v912 : BitVec 32) (k0_hw102 : k0_chk102 v912), ∀ a, (k0_off204 v912) a + S1x1024.size a ≤ S128000x1024.size a := fun v912 k0_hw102 => k0_hw102

def k0_off205 (i : grid0.Coords) : Fin 1 → Nat :=
  let arg0 : BitVec 32 := BitVec.ofNat 32 (i 0).val
  let c256_i32 : BitVec 32 := 256#32
  let v0 : BitVec 32 := Scalar.muli arg0 c256_i32
  let c102_i32 : BitVec 32 := 102#32
  let v919 : BitVec 32 := Scalar.addi v0 c102_i32
  let v920 : Index := Scalar.indexCast v919
  ![v920.toNat]
def k0_off206 (v921 : BitVec 32) : Fin 2 → Nat :=
  let c0_i32_411 : BitVec 32 := 0#32
  ![v921.toNat, 0]

def k0_chk103 (v921 : BitVec 32) : Prop :=
  (∀ a, (k0_off206 v921) a + S1x1024.size a ≤ S128000x1024.size a)
instance k0_chk103.dec : ∀ (v921 : BitVec 32), Decidable (k0_chk103 v921) := fun v921 => decidable_of_iff' _ (Iff.of_eq (k0_chk103.eq_1 v921))
theorem k0_off206_inb : ∀ (v921 : BitVec 32) (k0_hw103 : k0_chk103 v921), ∀ a, (k0_off206 v921) a + S1x1024.size a ≤ S128000x1024.size a := fun v921 k0_hw103 => k0_hw103

def k0_off207 (i : grid0.Coords) : Fin 1 → Nat :=
  let arg0 : BitVec 32 := BitVec.ofNat 32 (i 0).val
  let c256_i32 : BitVec 32 := 256#32
  let v0 : BitVec 32 := Scalar.muli arg0 c256_i32
  let c103_i32 : BitVec 32 := 103#32
  let v928 : BitVec 32 := Scalar.addi v0 c103_i32
  let v929 : Index := Scalar.indexCast v928
  ![v929.toNat]
def k0_off208 (v930 : BitVec 32) : Fin 2 → Nat :=
  let c0_i32_415 : BitVec 32 := 0#32
  ![v930.toNat, 0]

def k0_chk104 (v930 : BitVec 32) : Prop :=
  (∀ a, (k0_off208 v930) a + S1x1024.size a ≤ S128000x1024.size a)
instance k0_chk104.dec : ∀ (v930 : BitVec 32), Decidable (k0_chk104 v930) := fun v930 => decidable_of_iff' _ (Iff.of_eq (k0_chk104.eq_1 v930))
theorem k0_off208_inb : ∀ (v930 : BitVec 32) (k0_hw104 : k0_chk104 v930), ∀ a, (k0_off208 v930) a + S1x1024.size a ≤ S128000x1024.size a := fun v930 k0_hw104 => k0_hw104

def k0_off209 (i : grid0.Coords) : Fin 1 → Nat :=
  let arg0 : BitVec 32 := BitVec.ofNat 32 (i 0).val
  let c256_i32 : BitVec 32 := 256#32
  let v0 : BitVec 32 := Scalar.muli arg0 c256_i32
  let c104_i32 : BitVec 32 := 104#32
  let v937 : BitVec 32 := Scalar.addi v0 c104_i32
  let v938 : Index := Scalar.indexCast v937
  ![v938.toNat]
def k0_off210 (v939 : BitVec 32) : Fin 2 → Nat :=
  let c0_i32_419 : BitVec 32 := 0#32
  ![v939.toNat, 0]

def k0_chk105 (v939 : BitVec 32) : Prop :=
  (∀ a, (k0_off210 v939) a + S1x1024.size a ≤ S128000x1024.size a)
instance k0_chk105.dec : ∀ (v939 : BitVec 32), Decidable (k0_chk105 v939) := fun v939 => decidable_of_iff' _ (Iff.of_eq (k0_chk105.eq_1 v939))
theorem k0_off210_inb : ∀ (v939 : BitVec 32) (k0_hw105 : k0_chk105 v939), ∀ a, (k0_off210 v939) a + S1x1024.size a ≤ S128000x1024.size a := fun v939 k0_hw105 => k0_hw105

def k0_off211 (i : grid0.Coords) : Fin 1 → Nat :=
  let arg0 : BitVec 32 := BitVec.ofNat 32 (i 0).val
  let c256_i32 : BitVec 32 := 256#32
  let v0 : BitVec 32 := Scalar.muli arg0 c256_i32
  let c105_i32 : BitVec 32 := 105#32
  let v946 : BitVec 32 := Scalar.addi v0 c105_i32
  let v947 : Index := Scalar.indexCast v946
  ![v947.toNat]
def k0_off212 (v948 : BitVec 32) : Fin 2 → Nat :=
  let c0_i32_423 : BitVec 32 := 0#32
  ![v948.toNat, 0]

def k0_chk106 (v948 : BitVec 32) : Prop :=
  (∀ a, (k0_off212 v948) a + S1x1024.size a ≤ S128000x1024.size a)
instance k0_chk106.dec : ∀ (v948 : BitVec 32), Decidable (k0_chk106 v948) := fun v948 => decidable_of_iff' _ (Iff.of_eq (k0_chk106.eq_1 v948))
theorem k0_off212_inb : ∀ (v948 : BitVec 32) (k0_hw106 : k0_chk106 v948), ∀ a, (k0_off212 v948) a + S1x1024.size a ≤ S128000x1024.size a := fun v948 k0_hw106 => k0_hw106

def k0_off213 (i : grid0.Coords) : Fin 1 → Nat :=
  let arg0 : BitVec 32 := BitVec.ofNat 32 (i 0).val
  let c256_i32 : BitVec 32 := 256#32
  let v0 : BitVec 32 := Scalar.muli arg0 c256_i32
  let c106_i32 : BitVec 32 := 106#32
  let v955 : BitVec 32 := Scalar.addi v0 c106_i32
  let v956 : Index := Scalar.indexCast v955
  ![v956.toNat]
def k0_off214 (v957 : BitVec 32) : Fin 2 → Nat :=
  let c0_i32_427 : BitVec 32 := 0#32
  ![v957.toNat, 0]

def k0_chk107 (v957 : BitVec 32) : Prop :=
  (∀ a, (k0_off214 v957) a + S1x1024.size a ≤ S128000x1024.size a)
instance k0_chk107.dec : ∀ (v957 : BitVec 32), Decidable (k0_chk107 v957) := fun v957 => decidable_of_iff' _ (Iff.of_eq (k0_chk107.eq_1 v957))
theorem k0_off214_inb : ∀ (v957 : BitVec 32) (k0_hw107 : k0_chk107 v957), ∀ a, (k0_off214 v957) a + S1x1024.size a ≤ S128000x1024.size a := fun v957 k0_hw107 => k0_hw107

def k0_off215 (i : grid0.Coords) : Fin 1 → Nat :=
  let arg0 : BitVec 32 := BitVec.ofNat 32 (i 0).val
  let c256_i32 : BitVec 32 := 256#32
  let v0 : BitVec 32 := Scalar.muli arg0 c256_i32
  let c107_i32 : BitVec 32 := 107#32
  let v964 : BitVec 32 := Scalar.addi v0 c107_i32
  let v965 : Index := Scalar.indexCast v964
  ![v965.toNat]
def k0_off216 (v966 : BitVec 32) : Fin 2 → Nat :=
  let c0_i32_431 : BitVec 32 := 0#32
  ![v966.toNat, 0]

def k0_chk108 (v966 : BitVec 32) : Prop :=
  (∀ a, (k0_off216 v966) a + S1x1024.size a ≤ S128000x1024.size a)
instance k0_chk108.dec : ∀ (v966 : BitVec 32), Decidable (k0_chk108 v966) := fun v966 => decidable_of_iff' _ (Iff.of_eq (k0_chk108.eq_1 v966))
theorem k0_off216_inb : ∀ (v966 : BitVec 32) (k0_hw108 : k0_chk108 v966), ∀ a, (k0_off216 v966) a + S1x1024.size a ≤ S128000x1024.size a := fun v966 k0_hw108 => k0_hw108

def k0_off217 (i : grid0.Coords) : Fin 1 → Nat :=
  let arg0 : BitVec 32 := BitVec.ofNat 32 (i 0).val
  let c256_i32 : BitVec 32 := 256#32
  let v0 : BitVec 32 := Scalar.muli arg0 c256_i32
  let c108_i32 : BitVec 32 := 108#32
  let v973 : BitVec 32 := Scalar.addi v0 c108_i32
  let v974 : Index := Scalar.indexCast v973
  ![v974.toNat]
def k0_off218 (v975 : BitVec 32) : Fin 2 → Nat :=
  let c0_i32_435 : BitVec 32 := 0#32
  ![v975.toNat, 0]

def k0_chk109 (v975 : BitVec 32) : Prop :=
  (∀ a, (k0_off218 v975) a + S1x1024.size a ≤ S128000x1024.size a)
instance k0_chk109.dec : ∀ (v975 : BitVec 32), Decidable (k0_chk109 v975) := fun v975 => decidable_of_iff' _ (Iff.of_eq (k0_chk109.eq_1 v975))
theorem k0_off218_inb : ∀ (v975 : BitVec 32) (k0_hw109 : k0_chk109 v975), ∀ a, (k0_off218 v975) a + S1x1024.size a ≤ S128000x1024.size a := fun v975 k0_hw109 => k0_hw109

def k0_off219 (i : grid0.Coords) : Fin 1 → Nat :=
  let arg0 : BitVec 32 := BitVec.ofNat 32 (i 0).val
  let c256_i32 : BitVec 32 := 256#32
  let v0 : BitVec 32 := Scalar.muli arg0 c256_i32
  let c109_i32 : BitVec 32 := 109#32
  let v982 : BitVec 32 := Scalar.addi v0 c109_i32
  let v983 : Index := Scalar.indexCast v982
  ![v983.toNat]
def k0_off220 (v984 : BitVec 32) : Fin 2 → Nat :=
  let c0_i32_439 : BitVec 32 := 0#32
  ![v984.toNat, 0]

def k0_chk110 (v984 : BitVec 32) : Prop :=
  (∀ a, (k0_off220 v984) a + S1x1024.size a ≤ S128000x1024.size a)
instance k0_chk110.dec : ∀ (v984 : BitVec 32), Decidable (k0_chk110 v984) := fun v984 => decidable_of_iff' _ (Iff.of_eq (k0_chk110.eq_1 v984))
theorem k0_off220_inb : ∀ (v984 : BitVec 32) (k0_hw110 : k0_chk110 v984), ∀ a, (k0_off220 v984) a + S1x1024.size a ≤ S128000x1024.size a := fun v984 k0_hw110 => k0_hw110

def k0_off221 (i : grid0.Coords) : Fin 1 → Nat :=
  let arg0 : BitVec 32 := BitVec.ofNat 32 (i 0).val
  let c256_i32 : BitVec 32 := 256#32
  let v0 : BitVec 32 := Scalar.muli arg0 c256_i32
  let c110_i32 : BitVec 32 := 110#32
  let v991 : BitVec 32 := Scalar.addi v0 c110_i32
  let v992 : Index := Scalar.indexCast v991
  ![v992.toNat]
def k0_off222 (v993 : BitVec 32) : Fin 2 → Nat :=
  let c0_i32_443 : BitVec 32 := 0#32
  ![v993.toNat, 0]

def k0_chk111 (v993 : BitVec 32) : Prop :=
  (∀ a, (k0_off222 v993) a + S1x1024.size a ≤ S128000x1024.size a)
instance k0_chk111.dec : ∀ (v993 : BitVec 32), Decidable (k0_chk111 v993) := fun v993 => decidable_of_iff' _ (Iff.of_eq (k0_chk111.eq_1 v993))
theorem k0_off222_inb : ∀ (v993 : BitVec 32) (k0_hw111 : k0_chk111 v993), ∀ a, (k0_off222 v993) a + S1x1024.size a ≤ S128000x1024.size a := fun v993 k0_hw111 => k0_hw111

def k0_off223 (i : grid0.Coords) : Fin 1 → Nat :=
  let arg0 : BitVec 32 := BitVec.ofNat 32 (i 0).val
  let c256_i32 : BitVec 32 := 256#32
  let v0 : BitVec 32 := Scalar.muli arg0 c256_i32
  let c111_i32 : BitVec 32 := 111#32
  let v1000 : BitVec 32 := Scalar.addi v0 c111_i32
  let v1001 : Index := Scalar.indexCast v1000
  ![v1001.toNat]
def k0_off224 (v1002 : BitVec 32) : Fin 2 → Nat :=
  let c0_i32_447 : BitVec 32 := 0#32
  ![v1002.toNat, 0]

def k0_chk112 (v1002 : BitVec 32) : Prop :=
  (∀ a, (k0_off224 v1002) a + S1x1024.size a ≤ S128000x1024.size a)
instance k0_chk112.dec : ∀ (v1002 : BitVec 32), Decidable (k0_chk112 v1002) := fun v1002 => decidable_of_iff' _ (Iff.of_eq (k0_chk112.eq_1 v1002))
theorem k0_off224_inb : ∀ (v1002 : BitVec 32) (k0_hw112 : k0_chk112 v1002), ∀ a, (k0_off224 v1002) a + S1x1024.size a ≤ S128000x1024.size a := fun v1002 k0_hw112 => k0_hw112

def k0_off225 (i : grid0.Coords) : Fin 1 → Nat :=
  let arg0 : BitVec 32 := BitVec.ofNat 32 (i 0).val
  let c256_i32 : BitVec 32 := 256#32
  let v0 : BitVec 32 := Scalar.muli arg0 c256_i32
  let c112_i32 : BitVec 32 := 112#32
  let v1009 : BitVec 32 := Scalar.addi v0 c112_i32
  let v1010 : Index := Scalar.indexCast v1009
  ![v1010.toNat]
def k0_off226 (v1011 : BitVec 32) : Fin 2 → Nat :=
  let c0_i32_451 : BitVec 32 := 0#32
  ![v1011.toNat, 0]

def k0_chk113 (v1011 : BitVec 32) : Prop :=
  (∀ a, (k0_off226 v1011) a + S1x1024.size a ≤ S128000x1024.size a)
instance k0_chk113.dec : ∀ (v1011 : BitVec 32), Decidable (k0_chk113 v1011) := fun v1011 => decidable_of_iff' _ (Iff.of_eq (k0_chk113.eq_1 v1011))
theorem k0_off226_inb : ∀ (v1011 : BitVec 32) (k0_hw113 : k0_chk113 v1011), ∀ a, (k0_off226 v1011) a + S1x1024.size a ≤ S128000x1024.size a := fun v1011 k0_hw113 => k0_hw113

def k0_off227 (i : grid0.Coords) : Fin 1 → Nat :=
  let arg0 : BitVec 32 := BitVec.ofNat 32 (i 0).val
  let c256_i32 : BitVec 32 := 256#32
  let v0 : BitVec 32 := Scalar.muli arg0 c256_i32
  let c113_i32 : BitVec 32 := 113#32
  let v1018 : BitVec 32 := Scalar.addi v0 c113_i32
  let v1019 : Index := Scalar.indexCast v1018
  ![v1019.toNat]
def k0_off228 (v1020 : BitVec 32) : Fin 2 → Nat :=
  let c0_i32_455 : BitVec 32 := 0#32
  ![v1020.toNat, 0]

def k0_chk114 (v1020 : BitVec 32) : Prop :=
  (∀ a, (k0_off228 v1020) a + S1x1024.size a ≤ S128000x1024.size a)
instance k0_chk114.dec : ∀ (v1020 : BitVec 32), Decidable (k0_chk114 v1020) := fun v1020 => decidable_of_iff' _ (Iff.of_eq (k0_chk114.eq_1 v1020))
theorem k0_off228_inb : ∀ (v1020 : BitVec 32) (k0_hw114 : k0_chk114 v1020), ∀ a, (k0_off228 v1020) a + S1x1024.size a ≤ S128000x1024.size a := fun v1020 k0_hw114 => k0_hw114

def k0_off229 (i : grid0.Coords) : Fin 1 → Nat :=
  let arg0 : BitVec 32 := BitVec.ofNat 32 (i 0).val
  let c256_i32 : BitVec 32 := 256#32
  let v0 : BitVec 32 := Scalar.muli arg0 c256_i32
  let c114_i32 : BitVec 32 := 114#32
  let v1027 : BitVec 32 := Scalar.addi v0 c114_i32
  let v1028 : Index := Scalar.indexCast v1027
  ![v1028.toNat]
def k0_off230 (v1029 : BitVec 32) : Fin 2 → Nat :=
  let c0_i32_459 : BitVec 32 := 0#32
  ![v1029.toNat, 0]

def k0_chk115 (v1029 : BitVec 32) : Prop :=
  (∀ a, (k0_off230 v1029) a + S1x1024.size a ≤ S128000x1024.size a)
instance k0_chk115.dec : ∀ (v1029 : BitVec 32), Decidable (k0_chk115 v1029) := fun v1029 => decidable_of_iff' _ (Iff.of_eq (k0_chk115.eq_1 v1029))
theorem k0_off230_inb : ∀ (v1029 : BitVec 32) (k0_hw115 : k0_chk115 v1029), ∀ a, (k0_off230 v1029) a + S1x1024.size a ≤ S128000x1024.size a := fun v1029 k0_hw115 => k0_hw115

def k0_off231 (i : grid0.Coords) : Fin 1 → Nat :=
  let arg0 : BitVec 32 := BitVec.ofNat 32 (i 0).val
  let c256_i32 : BitVec 32 := 256#32
  let v0 : BitVec 32 := Scalar.muli arg0 c256_i32
  let c115_i32 : BitVec 32 := 115#32
  let v1036 : BitVec 32 := Scalar.addi v0 c115_i32
  let v1037 : Index := Scalar.indexCast v1036
  ![v1037.toNat]
def k0_off232 (v1038 : BitVec 32) : Fin 2 → Nat :=
  let c0_i32_463 : BitVec 32 := 0#32
  ![v1038.toNat, 0]

def k0_chk116 (v1038 : BitVec 32) : Prop :=
  (∀ a, (k0_off232 v1038) a + S1x1024.size a ≤ S128000x1024.size a)
instance k0_chk116.dec : ∀ (v1038 : BitVec 32), Decidable (k0_chk116 v1038) := fun v1038 => decidable_of_iff' _ (Iff.of_eq (k0_chk116.eq_1 v1038))
theorem k0_off232_inb : ∀ (v1038 : BitVec 32) (k0_hw116 : k0_chk116 v1038), ∀ a, (k0_off232 v1038) a + S1x1024.size a ≤ S128000x1024.size a := fun v1038 k0_hw116 => k0_hw116

def k0_off233 (i : grid0.Coords) : Fin 1 → Nat :=
  let arg0 : BitVec 32 := BitVec.ofNat 32 (i 0).val
  let c256_i32 : BitVec 32 := 256#32
  let v0 : BitVec 32 := Scalar.muli arg0 c256_i32
  let c116_i32 : BitVec 32 := 116#32
  let v1045 : BitVec 32 := Scalar.addi v0 c116_i32
  let v1046 : Index := Scalar.indexCast v1045
  ![v1046.toNat]
def k0_off234 (v1047 : BitVec 32) : Fin 2 → Nat :=
  let c0_i32_467 : BitVec 32 := 0#32
  ![v1047.toNat, 0]

def k0_chk117 (v1047 : BitVec 32) : Prop :=
  (∀ a, (k0_off234 v1047) a + S1x1024.size a ≤ S128000x1024.size a)
instance k0_chk117.dec : ∀ (v1047 : BitVec 32), Decidable (k0_chk117 v1047) := fun v1047 => decidable_of_iff' _ (Iff.of_eq (k0_chk117.eq_1 v1047))
theorem k0_off234_inb : ∀ (v1047 : BitVec 32) (k0_hw117 : k0_chk117 v1047), ∀ a, (k0_off234 v1047) a + S1x1024.size a ≤ S128000x1024.size a := fun v1047 k0_hw117 => k0_hw117

def k0_off235 (i : grid0.Coords) : Fin 1 → Nat :=
  let arg0 : BitVec 32 := BitVec.ofNat 32 (i 0).val
  let c256_i32 : BitVec 32 := 256#32
  let v0 : BitVec 32 := Scalar.muli arg0 c256_i32
  let c117_i32 : BitVec 32 := 117#32
  let v1054 : BitVec 32 := Scalar.addi v0 c117_i32
  let v1055 : Index := Scalar.indexCast v1054
  ![v1055.toNat]
def k0_off236 (v1056 : BitVec 32) : Fin 2 → Nat :=
  let c0_i32_471 : BitVec 32 := 0#32
  ![v1056.toNat, 0]

def k0_chk118 (v1056 : BitVec 32) : Prop :=
  (∀ a, (k0_off236 v1056) a + S1x1024.size a ≤ S128000x1024.size a)
instance k0_chk118.dec : ∀ (v1056 : BitVec 32), Decidable (k0_chk118 v1056) := fun v1056 => decidable_of_iff' _ (Iff.of_eq (k0_chk118.eq_1 v1056))
theorem k0_off236_inb : ∀ (v1056 : BitVec 32) (k0_hw118 : k0_chk118 v1056), ∀ a, (k0_off236 v1056) a + S1x1024.size a ≤ S128000x1024.size a := fun v1056 k0_hw118 => k0_hw118

def k0_off237 (i : grid0.Coords) : Fin 1 → Nat :=
  let arg0 : BitVec 32 := BitVec.ofNat 32 (i 0).val
  let c256_i32 : BitVec 32 := 256#32
  let v0 : BitVec 32 := Scalar.muli arg0 c256_i32
  let c118_i32 : BitVec 32 := 118#32
  let v1063 : BitVec 32 := Scalar.addi v0 c118_i32
  let v1064 : Index := Scalar.indexCast v1063
  ![v1064.toNat]
def k0_off238 (v1065 : BitVec 32) : Fin 2 → Nat :=
  let c0_i32_475 : BitVec 32 := 0#32
  ![v1065.toNat, 0]

def k0_chk119 (v1065 : BitVec 32) : Prop :=
  (∀ a, (k0_off238 v1065) a + S1x1024.size a ≤ S128000x1024.size a)
instance k0_chk119.dec : ∀ (v1065 : BitVec 32), Decidable (k0_chk119 v1065) := fun v1065 => decidable_of_iff' _ (Iff.of_eq (k0_chk119.eq_1 v1065))
theorem k0_off238_inb : ∀ (v1065 : BitVec 32) (k0_hw119 : k0_chk119 v1065), ∀ a, (k0_off238 v1065) a + S1x1024.size a ≤ S128000x1024.size a := fun v1065 k0_hw119 => k0_hw119

def k0_off239 (i : grid0.Coords) : Fin 1 → Nat :=
  let arg0 : BitVec 32 := BitVec.ofNat 32 (i 0).val
  let c256_i32 : BitVec 32 := 256#32
  let v0 : BitVec 32 := Scalar.muli arg0 c256_i32
  let c119_i32 : BitVec 32 := 119#32
  let v1072 : BitVec 32 := Scalar.addi v0 c119_i32
  let v1073 : Index := Scalar.indexCast v1072
  ![v1073.toNat]
def k0_off240 (v1074 : BitVec 32) : Fin 2 → Nat :=
  let c0_i32_479 : BitVec 32 := 0#32
  ![v1074.toNat, 0]

def k0_chk120 (v1074 : BitVec 32) : Prop :=
  (∀ a, (k0_off240 v1074) a + S1x1024.size a ≤ S128000x1024.size a)
instance k0_chk120.dec : ∀ (v1074 : BitVec 32), Decidable (k0_chk120 v1074) := fun v1074 => decidable_of_iff' _ (Iff.of_eq (k0_chk120.eq_1 v1074))
theorem k0_off240_inb : ∀ (v1074 : BitVec 32) (k0_hw120 : k0_chk120 v1074), ∀ a, (k0_off240 v1074) a + S1x1024.size a ≤ S128000x1024.size a := fun v1074 k0_hw120 => k0_hw120

def k0_off241 (i : grid0.Coords) : Fin 1 → Nat :=
  let arg0 : BitVec 32 := BitVec.ofNat 32 (i 0).val
  let c256_i32 : BitVec 32 := 256#32
  let v0 : BitVec 32 := Scalar.muli arg0 c256_i32
  let c120_i32 : BitVec 32 := 120#32
  let v1081 : BitVec 32 := Scalar.addi v0 c120_i32
  let v1082 : Index := Scalar.indexCast v1081
  ![v1082.toNat]
def k0_off242 (v1083 : BitVec 32) : Fin 2 → Nat :=
  let c0_i32_483 : BitVec 32 := 0#32
  ![v1083.toNat, 0]

def k0_chk121 (v1083 : BitVec 32) : Prop :=
  (∀ a, (k0_off242 v1083) a + S1x1024.size a ≤ S128000x1024.size a)
instance k0_chk121.dec : ∀ (v1083 : BitVec 32), Decidable (k0_chk121 v1083) := fun v1083 => decidable_of_iff' _ (Iff.of_eq (k0_chk121.eq_1 v1083))
theorem k0_off242_inb : ∀ (v1083 : BitVec 32) (k0_hw121 : k0_chk121 v1083), ∀ a, (k0_off242 v1083) a + S1x1024.size a ≤ S128000x1024.size a := fun v1083 k0_hw121 => k0_hw121

def k0_off243 (i : grid0.Coords) : Fin 1 → Nat :=
  let arg0 : BitVec 32 := BitVec.ofNat 32 (i 0).val
  let c256_i32 : BitVec 32 := 256#32
  let v0 : BitVec 32 := Scalar.muli arg0 c256_i32
  let c121_i32 : BitVec 32 := 121#32
  let v1090 : BitVec 32 := Scalar.addi v0 c121_i32
  let v1091 : Index := Scalar.indexCast v1090
  ![v1091.toNat]
def k0_off244 (v1092 : BitVec 32) : Fin 2 → Nat :=
  let c0_i32_487 : BitVec 32 := 0#32
  ![v1092.toNat, 0]

def k0_chk122 (v1092 : BitVec 32) : Prop :=
  (∀ a, (k0_off244 v1092) a + S1x1024.size a ≤ S128000x1024.size a)
instance k0_chk122.dec : ∀ (v1092 : BitVec 32), Decidable (k0_chk122 v1092) := fun v1092 => decidable_of_iff' _ (Iff.of_eq (k0_chk122.eq_1 v1092))
theorem k0_off244_inb : ∀ (v1092 : BitVec 32) (k0_hw122 : k0_chk122 v1092), ∀ a, (k0_off244 v1092) a + S1x1024.size a ≤ S128000x1024.size a := fun v1092 k0_hw122 => k0_hw122

def k0_off245 (i : grid0.Coords) : Fin 1 → Nat :=
  let arg0 : BitVec 32 := BitVec.ofNat 32 (i 0).val
  let c256_i32 : BitVec 32 := 256#32
  let v0 : BitVec 32 := Scalar.muli arg0 c256_i32
  let c122_i32 : BitVec 32 := 122#32
  let v1099 : BitVec 32 := Scalar.addi v0 c122_i32
  let v1100 : Index := Scalar.indexCast v1099
  ![v1100.toNat]
def k0_off246 (v1101 : BitVec 32) : Fin 2 → Nat :=
  let c0_i32_491 : BitVec 32 := 0#32
  ![v1101.toNat, 0]

def k0_chk123 (v1101 : BitVec 32) : Prop :=
  (∀ a, (k0_off246 v1101) a + S1x1024.size a ≤ S128000x1024.size a)
instance k0_chk123.dec : ∀ (v1101 : BitVec 32), Decidable (k0_chk123 v1101) := fun v1101 => decidable_of_iff' _ (Iff.of_eq (k0_chk123.eq_1 v1101))
theorem k0_off246_inb : ∀ (v1101 : BitVec 32) (k0_hw123 : k0_chk123 v1101), ∀ a, (k0_off246 v1101) a + S1x1024.size a ≤ S128000x1024.size a := fun v1101 k0_hw123 => k0_hw123

def k0_off247 (i : grid0.Coords) : Fin 1 → Nat :=
  let arg0 : BitVec 32 := BitVec.ofNat 32 (i 0).val
  let c256_i32 : BitVec 32 := 256#32
  let v0 : BitVec 32 := Scalar.muli arg0 c256_i32
  let c123_i32 : BitVec 32 := 123#32
  let v1108 : BitVec 32 := Scalar.addi v0 c123_i32
  let v1109 : Index := Scalar.indexCast v1108
  ![v1109.toNat]
def k0_off248 (v1110 : BitVec 32) : Fin 2 → Nat :=
  let c0_i32_495 : BitVec 32 := 0#32
  ![v1110.toNat, 0]

def k0_chk124 (v1110 : BitVec 32) : Prop :=
  (∀ a, (k0_off248 v1110) a + S1x1024.size a ≤ S128000x1024.size a)
instance k0_chk124.dec : ∀ (v1110 : BitVec 32), Decidable (k0_chk124 v1110) := fun v1110 => decidable_of_iff' _ (Iff.of_eq (k0_chk124.eq_1 v1110))
theorem k0_off248_inb : ∀ (v1110 : BitVec 32) (k0_hw124 : k0_chk124 v1110), ∀ a, (k0_off248 v1110) a + S1x1024.size a ≤ S128000x1024.size a := fun v1110 k0_hw124 => k0_hw124

def k0_off249 (i : grid0.Coords) : Fin 1 → Nat :=
  let arg0 : BitVec 32 := BitVec.ofNat 32 (i 0).val
  let c256_i32 : BitVec 32 := 256#32
  let v0 : BitVec 32 := Scalar.muli arg0 c256_i32
  let c124_i32 : BitVec 32 := 124#32
  let v1117 : BitVec 32 := Scalar.addi v0 c124_i32
  let v1118 : Index := Scalar.indexCast v1117
  ![v1118.toNat]
def k0_off250 (v1119 : BitVec 32) : Fin 2 → Nat :=
  let c0_i32_499 : BitVec 32 := 0#32
  ![v1119.toNat, 0]

def k0_chk125 (v1119 : BitVec 32) : Prop :=
  (∀ a, (k0_off250 v1119) a + S1x1024.size a ≤ S128000x1024.size a)
instance k0_chk125.dec : ∀ (v1119 : BitVec 32), Decidable (k0_chk125 v1119) := fun v1119 => decidable_of_iff' _ (Iff.of_eq (k0_chk125.eq_1 v1119))
theorem k0_off250_inb : ∀ (v1119 : BitVec 32) (k0_hw125 : k0_chk125 v1119), ∀ a, (k0_off250 v1119) a + S1x1024.size a ≤ S128000x1024.size a := fun v1119 k0_hw125 => k0_hw125

def k0_off251 (i : grid0.Coords) : Fin 1 → Nat :=
  let arg0 : BitVec 32 := BitVec.ofNat 32 (i 0).val
  let c256_i32 : BitVec 32 := 256#32
  let v0 : BitVec 32 := Scalar.muli arg0 c256_i32
  let c125_i32 : BitVec 32 := 125#32
  let v1126 : BitVec 32 := Scalar.addi v0 c125_i32
  let v1127 : Index := Scalar.indexCast v1126
  ![v1127.toNat]
def k0_off252 (v1128 : BitVec 32) : Fin 2 → Nat :=
  let c0_i32_503 : BitVec 32 := 0#32
  ![v1128.toNat, 0]

def k0_chk126 (v1128 : BitVec 32) : Prop :=
  (∀ a, (k0_off252 v1128) a + S1x1024.size a ≤ S128000x1024.size a)
instance k0_chk126.dec : ∀ (v1128 : BitVec 32), Decidable (k0_chk126 v1128) := fun v1128 => decidable_of_iff' _ (Iff.of_eq (k0_chk126.eq_1 v1128))
theorem k0_off252_inb : ∀ (v1128 : BitVec 32) (k0_hw126 : k0_chk126 v1128), ∀ a, (k0_off252 v1128) a + S1x1024.size a ≤ S128000x1024.size a := fun v1128 k0_hw126 => k0_hw126

def k0_off253 (i : grid0.Coords) : Fin 1 → Nat :=
  let arg0 : BitVec 32 := BitVec.ofNat 32 (i 0).val
  let c256_i32 : BitVec 32 := 256#32
  let v0 : BitVec 32 := Scalar.muli arg0 c256_i32
  let c126_i32 : BitVec 32 := 126#32
  let v1135 : BitVec 32 := Scalar.addi v0 c126_i32
  let v1136 : Index := Scalar.indexCast v1135
  ![v1136.toNat]
def k0_off254 (v1137 : BitVec 32) : Fin 2 → Nat :=
  let c0_i32_507 : BitVec 32 := 0#32
  ![v1137.toNat, 0]

def k0_chk127 (v1137 : BitVec 32) : Prop :=
  (∀ a, (k0_off254 v1137) a + S1x1024.size a ≤ S128000x1024.size a)
instance k0_chk127.dec : ∀ (v1137 : BitVec 32), Decidable (k0_chk127 v1137) := fun v1137 => decidable_of_iff' _ (Iff.of_eq (k0_chk127.eq_1 v1137))
theorem k0_off254_inb : ∀ (v1137 : BitVec 32) (k0_hw127 : k0_chk127 v1137), ∀ a, (k0_off254 v1137) a + S1x1024.size a ≤ S128000x1024.size a := fun v1137 k0_hw127 => k0_hw127

def k0_off255 (i : grid0.Coords) : Fin 1 → Nat :=
  let arg0 : BitVec 32 := BitVec.ofNat 32 (i 0).val
  let c256_i32 : BitVec 32 := 256#32
  let v0 : BitVec 32 := Scalar.muli arg0 c256_i32
  let c127_i32 : BitVec 32 := 127#32
  let v1144 : BitVec 32 := Scalar.addi v0 c127_i32
  let v1145 : Index := Scalar.indexCast v1144
  ![v1145.toNat]
def k0_off256 (v1146 : BitVec 32) : Fin 2 → Nat :=
  let c0_i32_511 : BitVec 32 := 0#32
  ![v1146.toNat, 0]

def k0_chk128 (v1146 : BitVec 32) : Prop :=
  (∀ a, (k0_off256 v1146) a + S1x1024.size a ≤ S128000x1024.size a)
instance k0_chk128.dec : ∀ (v1146 : BitVec 32), Decidable (k0_chk128 v1146) := fun v1146 => decidable_of_iff' _ (Iff.of_eq (k0_chk128.eq_1 v1146))
theorem k0_off256_inb : ∀ (v1146 : BitVec 32) (k0_hw128 : k0_chk128 v1146), ∀ a, (k0_off256 v1146) a + S1x1024.size a ≤ S128000x1024.size a := fun v1146 k0_hw128 => k0_hw128

def k0_off257 (i : grid0.Coords) : Fin 1 → Nat :=
  let arg0 : BitVec 32 := BitVec.ofNat 32 (i 0).val
  let c256_i32 : BitVec 32 := 256#32
  let v0 : BitVec 32 := Scalar.muli arg0 c256_i32
  let c128_i32 : BitVec 32 := 128#32
  let v1153 : BitVec 32 := Scalar.addi v0 c128_i32
  let v1154 : Index := Scalar.indexCast v1153
  ![v1154.toNat]
def k0_off258 (v1155 : BitVec 32) : Fin 2 → Nat :=
  let c0_i32_515 : BitVec 32 := 0#32
  ![v1155.toNat, 0]

def k0_chk129 (v1155 : BitVec 32) : Prop :=
  (∀ a, (k0_off258 v1155) a + S1x1024.size a ≤ S128000x1024.size a)
instance k0_chk129.dec : ∀ (v1155 : BitVec 32), Decidable (k0_chk129 v1155) := fun v1155 => decidable_of_iff' _ (Iff.of_eq (k0_chk129.eq_1 v1155))
theorem k0_off258_inb : ∀ (v1155 : BitVec 32) (k0_hw129 : k0_chk129 v1155), ∀ a, (k0_off258 v1155) a + S1x1024.size a ≤ S128000x1024.size a := fun v1155 k0_hw129 => k0_hw129

def k0_off259 (i : grid0.Coords) : Fin 1 → Nat :=
  let arg0 : BitVec 32 := BitVec.ofNat 32 (i 0).val
  let c256_i32 : BitVec 32 := 256#32
  let v0 : BitVec 32 := Scalar.muli arg0 c256_i32
  let c129_i32 : BitVec 32 := 129#32
  let v1162 : BitVec 32 := Scalar.addi v0 c129_i32
  let v1163 : Index := Scalar.indexCast v1162
  ![v1163.toNat]
def k0_off260 (v1164 : BitVec 32) : Fin 2 → Nat :=
  let c0_i32_519 : BitVec 32 := 0#32
  ![v1164.toNat, 0]

def k0_chk130 (v1164 : BitVec 32) : Prop :=
  (∀ a, (k0_off260 v1164) a + S1x1024.size a ≤ S128000x1024.size a)
instance k0_chk130.dec : ∀ (v1164 : BitVec 32), Decidable (k0_chk130 v1164) := fun v1164 => decidable_of_iff' _ (Iff.of_eq (k0_chk130.eq_1 v1164))
theorem k0_off260_inb : ∀ (v1164 : BitVec 32) (k0_hw130 : k0_chk130 v1164), ∀ a, (k0_off260 v1164) a + S1x1024.size a ≤ S128000x1024.size a := fun v1164 k0_hw130 => k0_hw130

def k0_off261 (i : grid0.Coords) : Fin 1 → Nat :=
  let arg0 : BitVec 32 := BitVec.ofNat 32 (i 0).val
  let c256_i32 : BitVec 32 := 256#32
  let v0 : BitVec 32 := Scalar.muli arg0 c256_i32
  let c130_i32 : BitVec 32 := 130#32
  let v1171 : BitVec 32 := Scalar.addi v0 c130_i32
  let v1172 : Index := Scalar.indexCast v1171
  ![v1172.toNat]
def k0_off262 (v1173 : BitVec 32) : Fin 2 → Nat :=
  let c0_i32_523 : BitVec 32 := 0#32
  ![v1173.toNat, 0]

def k0_chk131 (v1173 : BitVec 32) : Prop :=
  (∀ a, (k0_off262 v1173) a + S1x1024.size a ≤ S128000x1024.size a)
instance k0_chk131.dec : ∀ (v1173 : BitVec 32), Decidable (k0_chk131 v1173) := fun v1173 => decidable_of_iff' _ (Iff.of_eq (k0_chk131.eq_1 v1173))
theorem k0_off262_inb : ∀ (v1173 : BitVec 32) (k0_hw131 : k0_chk131 v1173), ∀ a, (k0_off262 v1173) a + S1x1024.size a ≤ S128000x1024.size a := fun v1173 k0_hw131 => k0_hw131

def k0_off263 (i : grid0.Coords) : Fin 1 → Nat :=
  let arg0 : BitVec 32 := BitVec.ofNat 32 (i 0).val
  let c256_i32 : BitVec 32 := 256#32
  let v0 : BitVec 32 := Scalar.muli arg0 c256_i32
  let c131_i32 : BitVec 32 := 131#32
  let v1180 : BitVec 32 := Scalar.addi v0 c131_i32
  let v1181 : Index := Scalar.indexCast v1180
  ![v1181.toNat]
def k0_off264 (v1182 : BitVec 32) : Fin 2 → Nat :=
  let c0_i32_527 : BitVec 32 := 0#32
  ![v1182.toNat, 0]

def k0_chk132 (v1182 : BitVec 32) : Prop :=
  (∀ a, (k0_off264 v1182) a + S1x1024.size a ≤ S128000x1024.size a)
instance k0_chk132.dec : ∀ (v1182 : BitVec 32), Decidable (k0_chk132 v1182) := fun v1182 => decidable_of_iff' _ (Iff.of_eq (k0_chk132.eq_1 v1182))
theorem k0_off264_inb : ∀ (v1182 : BitVec 32) (k0_hw132 : k0_chk132 v1182), ∀ a, (k0_off264 v1182) a + S1x1024.size a ≤ S128000x1024.size a := fun v1182 k0_hw132 => k0_hw132

def k0_off265 (i : grid0.Coords) : Fin 1 → Nat :=
  let arg0 : BitVec 32 := BitVec.ofNat 32 (i 0).val
  let c256_i32 : BitVec 32 := 256#32
  let v0 : BitVec 32 := Scalar.muli arg0 c256_i32
  let c132_i32 : BitVec 32 := 132#32
  let v1189 : BitVec 32 := Scalar.addi v0 c132_i32
  let v1190 : Index := Scalar.indexCast v1189
  ![v1190.toNat]
def k0_off266 (v1191 : BitVec 32) : Fin 2 → Nat :=
  let c0_i32_531 : BitVec 32 := 0#32
  ![v1191.toNat, 0]

def k0_chk133 (v1191 : BitVec 32) : Prop :=
  (∀ a, (k0_off266 v1191) a + S1x1024.size a ≤ S128000x1024.size a)
instance k0_chk133.dec : ∀ (v1191 : BitVec 32), Decidable (k0_chk133 v1191) := fun v1191 => decidable_of_iff' _ (Iff.of_eq (k0_chk133.eq_1 v1191))
theorem k0_off266_inb : ∀ (v1191 : BitVec 32) (k0_hw133 : k0_chk133 v1191), ∀ a, (k0_off266 v1191) a + S1x1024.size a ≤ S128000x1024.size a := fun v1191 k0_hw133 => k0_hw133

def k0_off267 (i : grid0.Coords) : Fin 1 → Nat :=
  let arg0 : BitVec 32 := BitVec.ofNat 32 (i 0).val
  let c256_i32 : BitVec 32 := 256#32
  let v0 : BitVec 32 := Scalar.muli arg0 c256_i32
  let c133_i32 : BitVec 32 := 133#32
  let v1198 : BitVec 32 := Scalar.addi v0 c133_i32
  let v1199 : Index := Scalar.indexCast v1198
  ![v1199.toNat]
def k0_off268 (v1200 : BitVec 32) : Fin 2 → Nat :=
  let c0_i32_535 : BitVec 32 := 0#32
  ![v1200.toNat, 0]

def k0_chk134 (v1200 : BitVec 32) : Prop :=
  (∀ a, (k0_off268 v1200) a + S1x1024.size a ≤ S128000x1024.size a)
instance k0_chk134.dec : ∀ (v1200 : BitVec 32), Decidable (k0_chk134 v1200) := fun v1200 => decidable_of_iff' _ (Iff.of_eq (k0_chk134.eq_1 v1200))
theorem k0_off268_inb : ∀ (v1200 : BitVec 32) (k0_hw134 : k0_chk134 v1200), ∀ a, (k0_off268 v1200) a + S1x1024.size a ≤ S128000x1024.size a := fun v1200 k0_hw134 => k0_hw134

def k0_off269 (i : grid0.Coords) : Fin 1 → Nat :=
  let arg0 : BitVec 32 := BitVec.ofNat 32 (i 0).val
  let c256_i32 : BitVec 32 := 256#32
  let v0 : BitVec 32 := Scalar.muli arg0 c256_i32
  let c134_i32 : BitVec 32 := 134#32
  let v1207 : BitVec 32 := Scalar.addi v0 c134_i32
  let v1208 : Index := Scalar.indexCast v1207
  ![v1208.toNat]
def k0_off270 (v1209 : BitVec 32) : Fin 2 → Nat :=
  let c0_i32_539 : BitVec 32 := 0#32
  ![v1209.toNat, 0]

def k0_chk135 (v1209 : BitVec 32) : Prop :=
  (∀ a, (k0_off270 v1209) a + S1x1024.size a ≤ S128000x1024.size a)
instance k0_chk135.dec : ∀ (v1209 : BitVec 32), Decidable (k0_chk135 v1209) := fun v1209 => decidable_of_iff' _ (Iff.of_eq (k0_chk135.eq_1 v1209))
theorem k0_off270_inb : ∀ (v1209 : BitVec 32) (k0_hw135 : k0_chk135 v1209), ∀ a, (k0_off270 v1209) a + S1x1024.size a ≤ S128000x1024.size a := fun v1209 k0_hw135 => k0_hw135

def k0_off271 (i : grid0.Coords) : Fin 1 → Nat :=
  let arg0 : BitVec 32 := BitVec.ofNat 32 (i 0).val
  let c256_i32 : BitVec 32 := 256#32
  let v0 : BitVec 32 := Scalar.muli arg0 c256_i32
  let c135_i32 : BitVec 32 := 135#32
  let v1216 : BitVec 32 := Scalar.addi v0 c135_i32
  let v1217 : Index := Scalar.indexCast v1216
  ![v1217.toNat]
def k0_off272 (v1218 : BitVec 32) : Fin 2 → Nat :=
  let c0_i32_543 : BitVec 32 := 0#32
  ![v1218.toNat, 0]

def k0_chk136 (v1218 : BitVec 32) : Prop :=
  (∀ a, (k0_off272 v1218) a + S1x1024.size a ≤ S128000x1024.size a)
instance k0_chk136.dec : ∀ (v1218 : BitVec 32), Decidable (k0_chk136 v1218) := fun v1218 => decidable_of_iff' _ (Iff.of_eq (k0_chk136.eq_1 v1218))
theorem k0_off272_inb : ∀ (v1218 : BitVec 32) (k0_hw136 : k0_chk136 v1218), ∀ a, (k0_off272 v1218) a + S1x1024.size a ≤ S128000x1024.size a := fun v1218 k0_hw136 => k0_hw136

def k0_off273 (i : grid0.Coords) : Fin 1 → Nat :=
  let arg0 : BitVec 32 := BitVec.ofNat 32 (i 0).val
  let c256_i32 : BitVec 32 := 256#32
  let v0 : BitVec 32 := Scalar.muli arg0 c256_i32
  let c136_i32 : BitVec 32 := 136#32
  let v1225 : BitVec 32 := Scalar.addi v0 c136_i32
  let v1226 : Index := Scalar.indexCast v1225
  ![v1226.toNat]
def k0_off274 (v1227 : BitVec 32) : Fin 2 → Nat :=
  let c0_i32_547 : BitVec 32 := 0#32
  ![v1227.toNat, 0]

def k0_chk137 (v1227 : BitVec 32) : Prop :=
  (∀ a, (k0_off274 v1227) a + S1x1024.size a ≤ S128000x1024.size a)
instance k0_chk137.dec : ∀ (v1227 : BitVec 32), Decidable (k0_chk137 v1227) := fun v1227 => decidable_of_iff' _ (Iff.of_eq (k0_chk137.eq_1 v1227))
theorem k0_off274_inb : ∀ (v1227 : BitVec 32) (k0_hw137 : k0_chk137 v1227), ∀ a, (k0_off274 v1227) a + S1x1024.size a ≤ S128000x1024.size a := fun v1227 k0_hw137 => k0_hw137

def k0_off275 (i : grid0.Coords) : Fin 1 → Nat :=
  let arg0 : BitVec 32 := BitVec.ofNat 32 (i 0).val
  let c256_i32 : BitVec 32 := 256#32
  let v0 : BitVec 32 := Scalar.muli arg0 c256_i32
  let c137_i32 : BitVec 32 := 137#32
  let v1234 : BitVec 32 := Scalar.addi v0 c137_i32
  let v1235 : Index := Scalar.indexCast v1234
  ![v1235.toNat]
def k0_off276 (v1236 : BitVec 32) : Fin 2 → Nat :=
  let c0_i32_551 : BitVec 32 := 0#32
  ![v1236.toNat, 0]

def k0_chk138 (v1236 : BitVec 32) : Prop :=
  (∀ a, (k0_off276 v1236) a + S1x1024.size a ≤ S128000x1024.size a)
instance k0_chk138.dec : ∀ (v1236 : BitVec 32), Decidable (k0_chk138 v1236) := fun v1236 => decidable_of_iff' _ (Iff.of_eq (k0_chk138.eq_1 v1236))
theorem k0_off276_inb : ∀ (v1236 : BitVec 32) (k0_hw138 : k0_chk138 v1236), ∀ a, (k0_off276 v1236) a + S1x1024.size a ≤ S128000x1024.size a := fun v1236 k0_hw138 => k0_hw138

def k0_off277 (i : grid0.Coords) : Fin 1 → Nat :=
  let arg0 : BitVec 32 := BitVec.ofNat 32 (i 0).val
  let c256_i32 : BitVec 32 := 256#32
  let v0 : BitVec 32 := Scalar.muli arg0 c256_i32
  let c138_i32 : BitVec 32 := 138#32
  let v1243 : BitVec 32 := Scalar.addi v0 c138_i32
  let v1244 : Index := Scalar.indexCast v1243
  ![v1244.toNat]
def k0_off278 (v1245 : BitVec 32) : Fin 2 → Nat :=
  let c0_i32_555 : BitVec 32 := 0#32
  ![v1245.toNat, 0]

def k0_chk139 (v1245 : BitVec 32) : Prop :=
  (∀ a, (k0_off278 v1245) a + S1x1024.size a ≤ S128000x1024.size a)
instance k0_chk139.dec : ∀ (v1245 : BitVec 32), Decidable (k0_chk139 v1245) := fun v1245 => decidable_of_iff' _ (Iff.of_eq (k0_chk139.eq_1 v1245))
theorem k0_off278_inb : ∀ (v1245 : BitVec 32) (k0_hw139 : k0_chk139 v1245), ∀ a, (k0_off278 v1245) a + S1x1024.size a ≤ S128000x1024.size a := fun v1245 k0_hw139 => k0_hw139

def k0_off279 (i : grid0.Coords) : Fin 1 → Nat :=
  let arg0 : BitVec 32 := BitVec.ofNat 32 (i 0).val
  let c256_i32 : BitVec 32 := 256#32
  let v0 : BitVec 32 := Scalar.muli arg0 c256_i32
  let c139_i32 : BitVec 32 := 139#32
  let v1252 : BitVec 32 := Scalar.addi v0 c139_i32
  let v1253 : Index := Scalar.indexCast v1252
  ![v1253.toNat]
def k0_off280 (v1254 : BitVec 32) : Fin 2 → Nat :=
  let c0_i32_559 : BitVec 32 := 0#32
  ![v1254.toNat, 0]

def k0_chk140 (v1254 : BitVec 32) : Prop :=
  (∀ a, (k0_off280 v1254) a + S1x1024.size a ≤ S128000x1024.size a)
instance k0_chk140.dec : ∀ (v1254 : BitVec 32), Decidable (k0_chk140 v1254) := fun v1254 => decidable_of_iff' _ (Iff.of_eq (k0_chk140.eq_1 v1254))
theorem k0_off280_inb : ∀ (v1254 : BitVec 32) (k0_hw140 : k0_chk140 v1254), ∀ a, (k0_off280 v1254) a + S1x1024.size a ≤ S128000x1024.size a := fun v1254 k0_hw140 => k0_hw140

def k0_off281 (i : grid0.Coords) : Fin 1 → Nat :=
  let arg0 : BitVec 32 := BitVec.ofNat 32 (i 0).val
  let c256_i32 : BitVec 32 := 256#32
  let v0 : BitVec 32 := Scalar.muli arg0 c256_i32
  let c140_i32 : BitVec 32 := 140#32
  let v1261 : BitVec 32 := Scalar.addi v0 c140_i32
  let v1262 : Index := Scalar.indexCast v1261
  ![v1262.toNat]
def k0_off282 (v1263 : BitVec 32) : Fin 2 → Nat :=
  let c0_i32_563 : BitVec 32 := 0#32
  ![v1263.toNat, 0]

def k0_chk141 (v1263 : BitVec 32) : Prop :=
  (∀ a, (k0_off282 v1263) a + S1x1024.size a ≤ S128000x1024.size a)
instance k0_chk141.dec : ∀ (v1263 : BitVec 32), Decidable (k0_chk141 v1263) := fun v1263 => decidable_of_iff' _ (Iff.of_eq (k0_chk141.eq_1 v1263))
theorem k0_off282_inb : ∀ (v1263 : BitVec 32) (k0_hw141 : k0_chk141 v1263), ∀ a, (k0_off282 v1263) a + S1x1024.size a ≤ S128000x1024.size a := fun v1263 k0_hw141 => k0_hw141

def k0_off283 (i : grid0.Coords) : Fin 1 → Nat :=
  let arg0 : BitVec 32 := BitVec.ofNat 32 (i 0).val
  let c256_i32 : BitVec 32 := 256#32
  let v0 : BitVec 32 := Scalar.muli arg0 c256_i32
  let c141_i32 : BitVec 32 := 141#32
  let v1270 : BitVec 32 := Scalar.addi v0 c141_i32
  let v1271 : Index := Scalar.indexCast v1270
  ![v1271.toNat]
def k0_off284 (v1272 : BitVec 32) : Fin 2 → Nat :=
  let c0_i32_567 : BitVec 32 := 0#32
  ![v1272.toNat, 0]

def k0_chk142 (v1272 : BitVec 32) : Prop :=
  (∀ a, (k0_off284 v1272) a + S1x1024.size a ≤ S128000x1024.size a)
instance k0_chk142.dec : ∀ (v1272 : BitVec 32), Decidable (k0_chk142 v1272) := fun v1272 => decidable_of_iff' _ (Iff.of_eq (k0_chk142.eq_1 v1272))
theorem k0_off284_inb : ∀ (v1272 : BitVec 32) (k0_hw142 : k0_chk142 v1272), ∀ a, (k0_off284 v1272) a + S1x1024.size a ≤ S128000x1024.size a := fun v1272 k0_hw142 => k0_hw142

def k0_off285 (i : grid0.Coords) : Fin 1 → Nat :=
  let arg0 : BitVec 32 := BitVec.ofNat 32 (i 0).val
  let c256_i32 : BitVec 32 := 256#32
  let v0 : BitVec 32 := Scalar.muli arg0 c256_i32
  let c142_i32 : BitVec 32 := 142#32
  let v1279 : BitVec 32 := Scalar.addi v0 c142_i32
  let v1280 : Index := Scalar.indexCast v1279
  ![v1280.toNat]
def k0_off286 (v1281 : BitVec 32) : Fin 2 → Nat :=
  let c0_i32_571 : BitVec 32 := 0#32
  ![v1281.toNat, 0]

def k0_chk143 (v1281 : BitVec 32) : Prop :=
  (∀ a, (k0_off286 v1281) a + S1x1024.size a ≤ S128000x1024.size a)
instance k0_chk143.dec : ∀ (v1281 : BitVec 32), Decidable (k0_chk143 v1281) := fun v1281 => decidable_of_iff' _ (Iff.of_eq (k0_chk143.eq_1 v1281))
theorem k0_off286_inb : ∀ (v1281 : BitVec 32) (k0_hw143 : k0_chk143 v1281), ∀ a, (k0_off286 v1281) a + S1x1024.size a ≤ S128000x1024.size a := fun v1281 k0_hw143 => k0_hw143

def k0_off287 (i : grid0.Coords) : Fin 1 → Nat :=
  let arg0 : BitVec 32 := BitVec.ofNat 32 (i 0).val
  let c256_i32 : BitVec 32 := 256#32
  let v0 : BitVec 32 := Scalar.muli arg0 c256_i32
  let c143_i32 : BitVec 32 := 143#32
  let v1288 : BitVec 32 := Scalar.addi v0 c143_i32
  let v1289 : Index := Scalar.indexCast v1288
  ![v1289.toNat]
def k0_off288 (v1290 : BitVec 32) : Fin 2 → Nat :=
  let c0_i32_575 : BitVec 32 := 0#32
  ![v1290.toNat, 0]

def k0_chk144 (v1290 : BitVec 32) : Prop :=
  (∀ a, (k0_off288 v1290) a + S1x1024.size a ≤ S128000x1024.size a)
instance k0_chk144.dec : ∀ (v1290 : BitVec 32), Decidable (k0_chk144 v1290) := fun v1290 => decidable_of_iff' _ (Iff.of_eq (k0_chk144.eq_1 v1290))
theorem k0_off288_inb : ∀ (v1290 : BitVec 32) (k0_hw144 : k0_chk144 v1290), ∀ a, (k0_off288 v1290) a + S1x1024.size a ≤ S128000x1024.size a := fun v1290 k0_hw144 => k0_hw144

def k0_off289 (i : grid0.Coords) : Fin 1 → Nat :=
  let arg0 : BitVec 32 := BitVec.ofNat 32 (i 0).val
  let c256_i32 : BitVec 32 := 256#32
  let v0 : BitVec 32 := Scalar.muli arg0 c256_i32
  let c144_i32 : BitVec 32 := 144#32
  let v1297 : BitVec 32 := Scalar.addi v0 c144_i32
  let v1298 : Index := Scalar.indexCast v1297
  ![v1298.toNat]
def k0_off290 (v1299 : BitVec 32) : Fin 2 → Nat :=
  let c0_i32_579 : BitVec 32 := 0#32
  ![v1299.toNat, 0]

def k0_chk145 (v1299 : BitVec 32) : Prop :=
  (∀ a, (k0_off290 v1299) a + S1x1024.size a ≤ S128000x1024.size a)
instance k0_chk145.dec : ∀ (v1299 : BitVec 32), Decidable (k0_chk145 v1299) := fun v1299 => decidable_of_iff' _ (Iff.of_eq (k0_chk145.eq_1 v1299))
theorem k0_off290_inb : ∀ (v1299 : BitVec 32) (k0_hw145 : k0_chk145 v1299), ∀ a, (k0_off290 v1299) a + S1x1024.size a ≤ S128000x1024.size a := fun v1299 k0_hw145 => k0_hw145

def k0_off291 (i : grid0.Coords) : Fin 1 → Nat :=
  let arg0 : BitVec 32 := BitVec.ofNat 32 (i 0).val
  let c256_i32 : BitVec 32 := 256#32
  let v0 : BitVec 32 := Scalar.muli arg0 c256_i32
  let c145_i32 : BitVec 32 := 145#32
  let v1306 : BitVec 32 := Scalar.addi v0 c145_i32
  let v1307 : Index := Scalar.indexCast v1306
  ![v1307.toNat]
def k0_off292 (v1308 : BitVec 32) : Fin 2 → Nat :=
  let c0_i32_583 : BitVec 32 := 0#32
  ![v1308.toNat, 0]

def k0_chk146 (v1308 : BitVec 32) : Prop :=
  (∀ a, (k0_off292 v1308) a + S1x1024.size a ≤ S128000x1024.size a)
instance k0_chk146.dec : ∀ (v1308 : BitVec 32), Decidable (k0_chk146 v1308) := fun v1308 => decidable_of_iff' _ (Iff.of_eq (k0_chk146.eq_1 v1308))
theorem k0_off292_inb : ∀ (v1308 : BitVec 32) (k0_hw146 : k0_chk146 v1308), ∀ a, (k0_off292 v1308) a + S1x1024.size a ≤ S128000x1024.size a := fun v1308 k0_hw146 => k0_hw146

def k0_off293 (i : grid0.Coords) : Fin 1 → Nat :=
  let arg0 : BitVec 32 := BitVec.ofNat 32 (i 0).val
  let c256_i32 : BitVec 32 := 256#32
  let v0 : BitVec 32 := Scalar.muli arg0 c256_i32
  let c146_i32 : BitVec 32 := 146#32
  let v1315 : BitVec 32 := Scalar.addi v0 c146_i32
  let v1316 : Index := Scalar.indexCast v1315
  ![v1316.toNat]
def k0_off294 (v1317 : BitVec 32) : Fin 2 → Nat :=
  let c0_i32_587 : BitVec 32 := 0#32
  ![v1317.toNat, 0]

def k0_chk147 (v1317 : BitVec 32) : Prop :=
  (∀ a, (k0_off294 v1317) a + S1x1024.size a ≤ S128000x1024.size a)
instance k0_chk147.dec : ∀ (v1317 : BitVec 32), Decidable (k0_chk147 v1317) := fun v1317 => decidable_of_iff' _ (Iff.of_eq (k0_chk147.eq_1 v1317))
theorem k0_off294_inb : ∀ (v1317 : BitVec 32) (k0_hw147 : k0_chk147 v1317), ∀ a, (k0_off294 v1317) a + S1x1024.size a ≤ S128000x1024.size a := fun v1317 k0_hw147 => k0_hw147

def k0_off295 (i : grid0.Coords) : Fin 1 → Nat :=
  let arg0 : BitVec 32 := BitVec.ofNat 32 (i 0).val
  let c256_i32 : BitVec 32 := 256#32
  let v0 : BitVec 32 := Scalar.muli arg0 c256_i32
  let c147_i32 : BitVec 32 := 147#32
  let v1324 : BitVec 32 := Scalar.addi v0 c147_i32
  let v1325 : Index := Scalar.indexCast v1324
  ![v1325.toNat]
def k0_off296 (v1326 : BitVec 32) : Fin 2 → Nat :=
  let c0_i32_591 : BitVec 32 := 0#32
  ![v1326.toNat, 0]

def k0_chk148 (v1326 : BitVec 32) : Prop :=
  (∀ a, (k0_off296 v1326) a + S1x1024.size a ≤ S128000x1024.size a)
instance k0_chk148.dec : ∀ (v1326 : BitVec 32), Decidable (k0_chk148 v1326) := fun v1326 => decidable_of_iff' _ (Iff.of_eq (k0_chk148.eq_1 v1326))
theorem k0_off296_inb : ∀ (v1326 : BitVec 32) (k0_hw148 : k0_chk148 v1326), ∀ a, (k0_off296 v1326) a + S1x1024.size a ≤ S128000x1024.size a := fun v1326 k0_hw148 => k0_hw148

def k0_off297 (i : grid0.Coords) : Fin 1 → Nat :=
  let arg0 : BitVec 32 := BitVec.ofNat 32 (i 0).val
  let c256_i32 : BitVec 32 := 256#32
  let v0 : BitVec 32 := Scalar.muli arg0 c256_i32
  let c148_i32 : BitVec 32 := 148#32
  let v1333 : BitVec 32 := Scalar.addi v0 c148_i32
  let v1334 : Index := Scalar.indexCast v1333
  ![v1334.toNat]
def k0_off298 (v1335 : BitVec 32) : Fin 2 → Nat :=
  let c0_i32_595 : BitVec 32 := 0#32
  ![v1335.toNat, 0]

def k0_chk149 (v1335 : BitVec 32) : Prop :=
  (∀ a, (k0_off298 v1335) a + S1x1024.size a ≤ S128000x1024.size a)
instance k0_chk149.dec : ∀ (v1335 : BitVec 32), Decidable (k0_chk149 v1335) := fun v1335 => decidable_of_iff' _ (Iff.of_eq (k0_chk149.eq_1 v1335))
theorem k0_off298_inb : ∀ (v1335 : BitVec 32) (k0_hw149 : k0_chk149 v1335), ∀ a, (k0_off298 v1335) a + S1x1024.size a ≤ S128000x1024.size a := fun v1335 k0_hw149 => k0_hw149

def k0_off299 (i : grid0.Coords) : Fin 1 → Nat :=
  let arg0 : BitVec 32 := BitVec.ofNat 32 (i 0).val
  let c256_i32 : BitVec 32 := 256#32
  let v0 : BitVec 32 := Scalar.muli arg0 c256_i32
  let c149_i32 : BitVec 32 := 149#32
  let v1342 : BitVec 32 := Scalar.addi v0 c149_i32
  let v1343 : Index := Scalar.indexCast v1342
  ![v1343.toNat]
def k0_off300 (v1344 : BitVec 32) : Fin 2 → Nat :=
  let c0_i32_599 : BitVec 32 := 0#32
  ![v1344.toNat, 0]

def k0_chk150 (v1344 : BitVec 32) : Prop :=
  (∀ a, (k0_off300 v1344) a + S1x1024.size a ≤ S128000x1024.size a)
instance k0_chk150.dec : ∀ (v1344 : BitVec 32), Decidable (k0_chk150 v1344) := fun v1344 => decidable_of_iff' _ (Iff.of_eq (k0_chk150.eq_1 v1344))
theorem k0_off300_inb : ∀ (v1344 : BitVec 32) (k0_hw150 : k0_chk150 v1344), ∀ a, (k0_off300 v1344) a + S1x1024.size a ≤ S128000x1024.size a := fun v1344 k0_hw150 => k0_hw150

def k0_off301 (i : grid0.Coords) : Fin 1 → Nat :=
  let arg0 : BitVec 32 := BitVec.ofNat 32 (i 0).val
  let c256_i32 : BitVec 32 := 256#32
  let v0 : BitVec 32 := Scalar.muli arg0 c256_i32
  let c150_i32 : BitVec 32 := 150#32
  let v1351 : BitVec 32 := Scalar.addi v0 c150_i32
  let v1352 : Index := Scalar.indexCast v1351
  ![v1352.toNat]
def k0_off302 (v1353 : BitVec 32) : Fin 2 → Nat :=
  let c0_i32_603 : BitVec 32 := 0#32
  ![v1353.toNat, 0]

def k0_chk151 (v1353 : BitVec 32) : Prop :=
  (∀ a, (k0_off302 v1353) a + S1x1024.size a ≤ S128000x1024.size a)
instance k0_chk151.dec : ∀ (v1353 : BitVec 32), Decidable (k0_chk151 v1353) := fun v1353 => decidable_of_iff' _ (Iff.of_eq (k0_chk151.eq_1 v1353))
theorem k0_off302_inb : ∀ (v1353 : BitVec 32) (k0_hw151 : k0_chk151 v1353), ∀ a, (k0_off302 v1353) a + S1x1024.size a ≤ S128000x1024.size a := fun v1353 k0_hw151 => k0_hw151

def k0_off303 (i : grid0.Coords) : Fin 1 → Nat :=
  let arg0 : BitVec 32 := BitVec.ofNat 32 (i 0).val
  let c256_i32 : BitVec 32 := 256#32
  let v0 : BitVec 32 := Scalar.muli arg0 c256_i32
  let c151_i32 : BitVec 32 := 151#32
  let v1360 : BitVec 32 := Scalar.addi v0 c151_i32
  let v1361 : Index := Scalar.indexCast v1360
  ![v1361.toNat]
def k0_off304 (v1362 : BitVec 32) : Fin 2 → Nat :=
  let c0_i32_607 : BitVec 32 := 0#32
  ![v1362.toNat, 0]

def k0_chk152 (v1362 : BitVec 32) : Prop :=
  (∀ a, (k0_off304 v1362) a + S1x1024.size a ≤ S128000x1024.size a)
instance k0_chk152.dec : ∀ (v1362 : BitVec 32), Decidable (k0_chk152 v1362) := fun v1362 => decidable_of_iff' _ (Iff.of_eq (k0_chk152.eq_1 v1362))
theorem k0_off304_inb : ∀ (v1362 : BitVec 32) (k0_hw152 : k0_chk152 v1362), ∀ a, (k0_off304 v1362) a + S1x1024.size a ≤ S128000x1024.size a := fun v1362 k0_hw152 => k0_hw152

def k0_off305 (i : grid0.Coords) : Fin 1 → Nat :=
  let arg0 : BitVec 32 := BitVec.ofNat 32 (i 0).val
  let c256_i32 : BitVec 32 := 256#32
  let v0 : BitVec 32 := Scalar.muli arg0 c256_i32
  let c152_i32 : BitVec 32 := 152#32
  let v1369 : BitVec 32 := Scalar.addi v0 c152_i32
  let v1370 : Index := Scalar.indexCast v1369
  ![v1370.toNat]
def k0_off306 (v1371 : BitVec 32) : Fin 2 → Nat :=
  let c0_i32_611 : BitVec 32 := 0#32
  ![v1371.toNat, 0]

def k0_chk153 (v1371 : BitVec 32) : Prop :=
  (∀ a, (k0_off306 v1371) a + S1x1024.size a ≤ S128000x1024.size a)
instance k0_chk153.dec : ∀ (v1371 : BitVec 32), Decidable (k0_chk153 v1371) := fun v1371 => decidable_of_iff' _ (Iff.of_eq (k0_chk153.eq_1 v1371))
theorem k0_off306_inb : ∀ (v1371 : BitVec 32) (k0_hw153 : k0_chk153 v1371), ∀ a, (k0_off306 v1371) a + S1x1024.size a ≤ S128000x1024.size a := fun v1371 k0_hw153 => k0_hw153

def k0_off307 (i : grid0.Coords) : Fin 1 → Nat :=
  let arg0 : BitVec 32 := BitVec.ofNat 32 (i 0).val
  let c256_i32 : BitVec 32 := 256#32
  let v0 : BitVec 32 := Scalar.muli arg0 c256_i32
  let c153_i32 : BitVec 32 := 153#32
  let v1378 : BitVec 32 := Scalar.addi v0 c153_i32
  let v1379 : Index := Scalar.indexCast v1378
  ![v1379.toNat]
def k0_off308 (v1380 : BitVec 32) : Fin 2 → Nat :=
  let c0_i32_615 : BitVec 32 := 0#32
  ![v1380.toNat, 0]

def k0_chk154 (v1380 : BitVec 32) : Prop :=
  (∀ a, (k0_off308 v1380) a + S1x1024.size a ≤ S128000x1024.size a)
instance k0_chk154.dec : ∀ (v1380 : BitVec 32), Decidable (k0_chk154 v1380) := fun v1380 => decidable_of_iff' _ (Iff.of_eq (k0_chk154.eq_1 v1380))
theorem k0_off308_inb : ∀ (v1380 : BitVec 32) (k0_hw154 : k0_chk154 v1380), ∀ a, (k0_off308 v1380) a + S1x1024.size a ≤ S128000x1024.size a := fun v1380 k0_hw154 => k0_hw154

def k0_off309 (i : grid0.Coords) : Fin 1 → Nat :=
  let arg0 : BitVec 32 := BitVec.ofNat 32 (i 0).val
  let c256_i32 : BitVec 32 := 256#32
  let v0 : BitVec 32 := Scalar.muli arg0 c256_i32
  let c154_i32 : BitVec 32 := 154#32
  let v1387 : BitVec 32 := Scalar.addi v0 c154_i32
  let v1388 : Index := Scalar.indexCast v1387
  ![v1388.toNat]
def k0_off310 (v1389 : BitVec 32) : Fin 2 → Nat :=
  let c0_i32_619 : BitVec 32 := 0#32
  ![v1389.toNat, 0]

def k0_chk155 (v1389 : BitVec 32) : Prop :=
  (∀ a, (k0_off310 v1389) a + S1x1024.size a ≤ S128000x1024.size a)
instance k0_chk155.dec : ∀ (v1389 : BitVec 32), Decidable (k0_chk155 v1389) := fun v1389 => decidable_of_iff' _ (Iff.of_eq (k0_chk155.eq_1 v1389))
theorem k0_off310_inb : ∀ (v1389 : BitVec 32) (k0_hw155 : k0_chk155 v1389), ∀ a, (k0_off310 v1389) a + S1x1024.size a ≤ S128000x1024.size a := fun v1389 k0_hw155 => k0_hw155

def k0_off311 (i : grid0.Coords) : Fin 1 → Nat :=
  let arg0 : BitVec 32 := BitVec.ofNat 32 (i 0).val
  let c256_i32 : BitVec 32 := 256#32
  let v0 : BitVec 32 := Scalar.muli arg0 c256_i32
  let c155_i32 : BitVec 32 := 155#32
  let v1396 : BitVec 32 := Scalar.addi v0 c155_i32
  let v1397 : Index := Scalar.indexCast v1396
  ![v1397.toNat]
def k0_off312 (v1398 : BitVec 32) : Fin 2 → Nat :=
  let c0_i32_623 : BitVec 32 := 0#32
  ![v1398.toNat, 0]

def k0_chk156 (v1398 : BitVec 32) : Prop :=
  (∀ a, (k0_off312 v1398) a + S1x1024.size a ≤ S128000x1024.size a)
instance k0_chk156.dec : ∀ (v1398 : BitVec 32), Decidable (k0_chk156 v1398) := fun v1398 => decidable_of_iff' _ (Iff.of_eq (k0_chk156.eq_1 v1398))
theorem k0_off312_inb : ∀ (v1398 : BitVec 32) (k0_hw156 : k0_chk156 v1398), ∀ a, (k0_off312 v1398) a + S1x1024.size a ≤ S128000x1024.size a := fun v1398 k0_hw156 => k0_hw156

def k0_off313 (i : grid0.Coords) : Fin 1 → Nat :=
  let arg0 : BitVec 32 := BitVec.ofNat 32 (i 0).val
  let c256_i32 : BitVec 32 := 256#32
  let v0 : BitVec 32 := Scalar.muli arg0 c256_i32
  let c156_i32 : BitVec 32 := 156#32
  let v1405 : BitVec 32 := Scalar.addi v0 c156_i32
  let v1406 : Index := Scalar.indexCast v1405
  ![v1406.toNat]
def k0_off314 (v1407 : BitVec 32) : Fin 2 → Nat :=
  let c0_i32_627 : BitVec 32 := 0#32
  ![v1407.toNat, 0]

def k0_chk157 (v1407 : BitVec 32) : Prop :=
  (∀ a, (k0_off314 v1407) a + S1x1024.size a ≤ S128000x1024.size a)
instance k0_chk157.dec : ∀ (v1407 : BitVec 32), Decidable (k0_chk157 v1407) := fun v1407 => decidable_of_iff' _ (Iff.of_eq (k0_chk157.eq_1 v1407))
theorem k0_off314_inb : ∀ (v1407 : BitVec 32) (k0_hw157 : k0_chk157 v1407), ∀ a, (k0_off314 v1407) a + S1x1024.size a ≤ S128000x1024.size a := fun v1407 k0_hw157 => k0_hw157

def k0_off315 (i : grid0.Coords) : Fin 1 → Nat :=
  let arg0 : BitVec 32 := BitVec.ofNat 32 (i 0).val
  let c256_i32 : BitVec 32 := 256#32
  let v0 : BitVec 32 := Scalar.muli arg0 c256_i32
  let c157_i32 : BitVec 32 := 157#32
  let v1414 : BitVec 32 := Scalar.addi v0 c157_i32
  let v1415 : Index := Scalar.indexCast v1414
  ![v1415.toNat]
def k0_off316 (v1416 : BitVec 32) : Fin 2 → Nat :=
  let c0_i32_631 : BitVec 32 := 0#32
  ![v1416.toNat, 0]

def k0_chk158 (v1416 : BitVec 32) : Prop :=
  (∀ a, (k0_off316 v1416) a + S1x1024.size a ≤ S128000x1024.size a)
instance k0_chk158.dec : ∀ (v1416 : BitVec 32), Decidable (k0_chk158 v1416) := fun v1416 => decidable_of_iff' _ (Iff.of_eq (k0_chk158.eq_1 v1416))
theorem k0_off316_inb : ∀ (v1416 : BitVec 32) (k0_hw158 : k0_chk158 v1416), ∀ a, (k0_off316 v1416) a + S1x1024.size a ≤ S128000x1024.size a := fun v1416 k0_hw158 => k0_hw158

def k0_off317 (i : grid0.Coords) : Fin 1 → Nat :=
  let arg0 : BitVec 32 := BitVec.ofNat 32 (i 0).val
  let c256_i32 : BitVec 32 := 256#32
  let v0 : BitVec 32 := Scalar.muli arg0 c256_i32
  let c158_i32 : BitVec 32 := 158#32
  let v1423 : BitVec 32 := Scalar.addi v0 c158_i32
  let v1424 : Index := Scalar.indexCast v1423
  ![v1424.toNat]
def k0_off318 (v1425 : BitVec 32) : Fin 2 → Nat :=
  let c0_i32_635 : BitVec 32 := 0#32
  ![v1425.toNat, 0]

def k0_chk159 (v1425 : BitVec 32) : Prop :=
  (∀ a, (k0_off318 v1425) a + S1x1024.size a ≤ S128000x1024.size a)
instance k0_chk159.dec : ∀ (v1425 : BitVec 32), Decidable (k0_chk159 v1425) := fun v1425 => decidable_of_iff' _ (Iff.of_eq (k0_chk159.eq_1 v1425))
theorem k0_off318_inb : ∀ (v1425 : BitVec 32) (k0_hw159 : k0_chk159 v1425), ∀ a, (k0_off318 v1425) a + S1x1024.size a ≤ S128000x1024.size a := fun v1425 k0_hw159 => k0_hw159

def k0_off319 (i : grid0.Coords) : Fin 1 → Nat :=
  let arg0 : BitVec 32 := BitVec.ofNat 32 (i 0).val
  let c256_i32 : BitVec 32 := 256#32
  let v0 : BitVec 32 := Scalar.muli arg0 c256_i32
  let c159_i32 : BitVec 32 := 159#32
  let v1432 : BitVec 32 := Scalar.addi v0 c159_i32
  let v1433 : Index := Scalar.indexCast v1432
  ![v1433.toNat]
def k0_off320 (v1434 : BitVec 32) : Fin 2 → Nat :=
  let c0_i32_639 : BitVec 32 := 0#32
  ![v1434.toNat, 0]

def k0_chk160 (v1434 : BitVec 32) : Prop :=
  (∀ a, (k0_off320 v1434) a + S1x1024.size a ≤ S128000x1024.size a)
instance k0_chk160.dec : ∀ (v1434 : BitVec 32), Decidable (k0_chk160 v1434) := fun v1434 => decidable_of_iff' _ (Iff.of_eq (k0_chk160.eq_1 v1434))
theorem k0_off320_inb : ∀ (v1434 : BitVec 32) (k0_hw160 : k0_chk160 v1434), ∀ a, (k0_off320 v1434) a + S1x1024.size a ≤ S128000x1024.size a := fun v1434 k0_hw160 => k0_hw160

def k0_off321 (i : grid0.Coords) : Fin 1 → Nat :=
  let arg0 : BitVec 32 := BitVec.ofNat 32 (i 0).val
  let c256_i32 : BitVec 32 := 256#32
  let v0 : BitVec 32 := Scalar.muli arg0 c256_i32
  let c160_i32 : BitVec 32 := 160#32
  let v1441 : BitVec 32 := Scalar.addi v0 c160_i32
  let v1442 : Index := Scalar.indexCast v1441
  ![v1442.toNat]
def k0_off322 (v1443 : BitVec 32) : Fin 2 → Nat :=
  let c0_i32_643 : BitVec 32 := 0#32
  ![v1443.toNat, 0]

def k0_chk161 (v1443 : BitVec 32) : Prop :=
  (∀ a, (k0_off322 v1443) a + S1x1024.size a ≤ S128000x1024.size a)
instance k0_chk161.dec : ∀ (v1443 : BitVec 32), Decidable (k0_chk161 v1443) := fun v1443 => decidable_of_iff' _ (Iff.of_eq (k0_chk161.eq_1 v1443))
theorem k0_off322_inb : ∀ (v1443 : BitVec 32) (k0_hw161 : k0_chk161 v1443), ∀ a, (k0_off322 v1443) a + S1x1024.size a ≤ S128000x1024.size a := fun v1443 k0_hw161 => k0_hw161

def k0_off323 (i : grid0.Coords) : Fin 1 → Nat :=
  let arg0 : BitVec 32 := BitVec.ofNat 32 (i 0).val
  let c256_i32 : BitVec 32 := 256#32
  let v0 : BitVec 32 := Scalar.muli arg0 c256_i32
  let c161_i32 : BitVec 32 := 161#32
  let v1450 : BitVec 32 := Scalar.addi v0 c161_i32
  let v1451 : Index := Scalar.indexCast v1450
  ![v1451.toNat]
def k0_off324 (v1452 : BitVec 32) : Fin 2 → Nat :=
  let c0_i32_647 : BitVec 32 := 0#32
  ![v1452.toNat, 0]

def k0_chk162 (v1452 : BitVec 32) : Prop :=
  (∀ a, (k0_off324 v1452) a + S1x1024.size a ≤ S128000x1024.size a)
instance k0_chk162.dec : ∀ (v1452 : BitVec 32), Decidable (k0_chk162 v1452) := fun v1452 => decidable_of_iff' _ (Iff.of_eq (k0_chk162.eq_1 v1452))
theorem k0_off324_inb : ∀ (v1452 : BitVec 32) (k0_hw162 : k0_chk162 v1452), ∀ a, (k0_off324 v1452) a + S1x1024.size a ≤ S128000x1024.size a := fun v1452 k0_hw162 => k0_hw162

def k0_off325 (i : grid0.Coords) : Fin 1 → Nat :=
  let arg0 : BitVec 32 := BitVec.ofNat 32 (i 0).val
  let c256_i32 : BitVec 32 := 256#32
  let v0 : BitVec 32 := Scalar.muli arg0 c256_i32
  let c162_i32 : BitVec 32 := 162#32
  let v1459 : BitVec 32 := Scalar.addi v0 c162_i32
  let v1460 : Index := Scalar.indexCast v1459
  ![v1460.toNat]
def k0_off326 (v1461 : BitVec 32) : Fin 2 → Nat :=
  let c0_i32_651 : BitVec 32 := 0#32
  ![v1461.toNat, 0]

def k0_chk163 (v1461 : BitVec 32) : Prop :=
  (∀ a, (k0_off326 v1461) a + S1x1024.size a ≤ S128000x1024.size a)
instance k0_chk163.dec : ∀ (v1461 : BitVec 32), Decidable (k0_chk163 v1461) := fun v1461 => decidable_of_iff' _ (Iff.of_eq (k0_chk163.eq_1 v1461))
theorem k0_off326_inb : ∀ (v1461 : BitVec 32) (k0_hw163 : k0_chk163 v1461), ∀ a, (k0_off326 v1461) a + S1x1024.size a ≤ S128000x1024.size a := fun v1461 k0_hw163 => k0_hw163

def k0_off327 (i : grid0.Coords) : Fin 1 → Nat :=
  let arg0 : BitVec 32 := BitVec.ofNat 32 (i 0).val
  let c256_i32 : BitVec 32 := 256#32
  let v0 : BitVec 32 := Scalar.muli arg0 c256_i32
  let c163_i32 : BitVec 32 := 163#32
  let v1468 : BitVec 32 := Scalar.addi v0 c163_i32
  let v1469 : Index := Scalar.indexCast v1468
  ![v1469.toNat]
def k0_off328 (v1470 : BitVec 32) : Fin 2 → Nat :=
  let c0_i32_655 : BitVec 32 := 0#32
  ![v1470.toNat, 0]

def k0_chk164 (v1470 : BitVec 32) : Prop :=
  (∀ a, (k0_off328 v1470) a + S1x1024.size a ≤ S128000x1024.size a)
instance k0_chk164.dec : ∀ (v1470 : BitVec 32), Decidable (k0_chk164 v1470) := fun v1470 => decidable_of_iff' _ (Iff.of_eq (k0_chk164.eq_1 v1470))
theorem k0_off328_inb : ∀ (v1470 : BitVec 32) (k0_hw164 : k0_chk164 v1470), ∀ a, (k0_off328 v1470) a + S1x1024.size a ≤ S128000x1024.size a := fun v1470 k0_hw164 => k0_hw164

def k0_off329 (i : grid0.Coords) : Fin 1 → Nat :=
  let arg0 : BitVec 32 := BitVec.ofNat 32 (i 0).val
  let c256_i32 : BitVec 32 := 256#32
  let v0 : BitVec 32 := Scalar.muli arg0 c256_i32
  let c164_i32 : BitVec 32 := 164#32
  let v1477 : BitVec 32 := Scalar.addi v0 c164_i32
  let v1478 : Index := Scalar.indexCast v1477
  ![v1478.toNat]
def k0_off330 (v1479 : BitVec 32) : Fin 2 → Nat :=
  let c0_i32_659 : BitVec 32 := 0#32
  ![v1479.toNat, 0]

def k0_chk165 (v1479 : BitVec 32) : Prop :=
  (∀ a, (k0_off330 v1479) a + S1x1024.size a ≤ S128000x1024.size a)
instance k0_chk165.dec : ∀ (v1479 : BitVec 32), Decidable (k0_chk165 v1479) := fun v1479 => decidable_of_iff' _ (Iff.of_eq (k0_chk165.eq_1 v1479))
theorem k0_off330_inb : ∀ (v1479 : BitVec 32) (k0_hw165 : k0_chk165 v1479), ∀ a, (k0_off330 v1479) a + S1x1024.size a ≤ S128000x1024.size a := fun v1479 k0_hw165 => k0_hw165

def k0_off331 (i : grid0.Coords) : Fin 1 → Nat :=
  let arg0 : BitVec 32 := BitVec.ofNat 32 (i 0).val
  let c256_i32 : BitVec 32 := 256#32
  let v0 : BitVec 32 := Scalar.muli arg0 c256_i32
  let c165_i32 : BitVec 32 := 165#32
  let v1486 : BitVec 32 := Scalar.addi v0 c165_i32
  let v1487 : Index := Scalar.indexCast v1486
  ![v1487.toNat]
def k0_off332 (v1488 : BitVec 32) : Fin 2 → Nat :=
  let c0_i32_663 : BitVec 32 := 0#32
  ![v1488.toNat, 0]

def k0_chk166 (v1488 : BitVec 32) : Prop :=
  (∀ a, (k0_off332 v1488) a + S1x1024.size a ≤ S128000x1024.size a)
instance k0_chk166.dec : ∀ (v1488 : BitVec 32), Decidable (k0_chk166 v1488) := fun v1488 => decidable_of_iff' _ (Iff.of_eq (k0_chk166.eq_1 v1488))
theorem k0_off332_inb : ∀ (v1488 : BitVec 32) (k0_hw166 : k0_chk166 v1488), ∀ a, (k0_off332 v1488) a + S1x1024.size a ≤ S128000x1024.size a := fun v1488 k0_hw166 => k0_hw166

def k0_off333 (i : grid0.Coords) : Fin 1 → Nat :=
  let arg0 : BitVec 32 := BitVec.ofNat 32 (i 0).val
  let c256_i32 : BitVec 32 := 256#32
  let v0 : BitVec 32 := Scalar.muli arg0 c256_i32
  let c166_i32 : BitVec 32 := 166#32
  let v1495 : BitVec 32 := Scalar.addi v0 c166_i32
  let v1496 : Index := Scalar.indexCast v1495
  ![v1496.toNat]
def k0_off334 (v1497 : BitVec 32) : Fin 2 → Nat :=
  let c0_i32_667 : BitVec 32 := 0#32
  ![v1497.toNat, 0]

def k0_chk167 (v1497 : BitVec 32) : Prop :=
  (∀ a, (k0_off334 v1497) a + S1x1024.size a ≤ S128000x1024.size a)
instance k0_chk167.dec : ∀ (v1497 : BitVec 32), Decidable (k0_chk167 v1497) := fun v1497 => decidable_of_iff' _ (Iff.of_eq (k0_chk167.eq_1 v1497))
theorem k0_off334_inb : ∀ (v1497 : BitVec 32) (k0_hw167 : k0_chk167 v1497), ∀ a, (k0_off334 v1497) a + S1x1024.size a ≤ S128000x1024.size a := fun v1497 k0_hw167 => k0_hw167

def k0_off335 (i : grid0.Coords) : Fin 1 → Nat :=
  let arg0 : BitVec 32 := BitVec.ofNat 32 (i 0).val
  let c256_i32 : BitVec 32 := 256#32
  let v0 : BitVec 32 := Scalar.muli arg0 c256_i32
  let c167_i32 : BitVec 32 := 167#32
  let v1504 : BitVec 32 := Scalar.addi v0 c167_i32
  let v1505 : Index := Scalar.indexCast v1504
  ![v1505.toNat]
def k0_off336 (v1506 : BitVec 32) : Fin 2 → Nat :=
  let c0_i32_671 : BitVec 32 := 0#32
  ![v1506.toNat, 0]

def k0_chk168 (v1506 : BitVec 32) : Prop :=
  (∀ a, (k0_off336 v1506) a + S1x1024.size a ≤ S128000x1024.size a)
instance k0_chk168.dec : ∀ (v1506 : BitVec 32), Decidable (k0_chk168 v1506) := fun v1506 => decidable_of_iff' _ (Iff.of_eq (k0_chk168.eq_1 v1506))
theorem k0_off336_inb : ∀ (v1506 : BitVec 32) (k0_hw168 : k0_chk168 v1506), ∀ a, (k0_off336 v1506) a + S1x1024.size a ≤ S128000x1024.size a := fun v1506 k0_hw168 => k0_hw168

def k0_off337 (i : grid0.Coords) : Fin 1 → Nat :=
  let arg0 : BitVec 32 := BitVec.ofNat 32 (i 0).val
  let c256_i32 : BitVec 32 := 256#32
  let v0 : BitVec 32 := Scalar.muli arg0 c256_i32
  let c168_i32 : BitVec 32 := 168#32
  let v1513 : BitVec 32 := Scalar.addi v0 c168_i32
  let v1514 : Index := Scalar.indexCast v1513
  ![v1514.toNat]
def k0_off338 (v1515 : BitVec 32) : Fin 2 → Nat :=
  let c0_i32_675 : BitVec 32 := 0#32
  ![v1515.toNat, 0]

def k0_chk169 (v1515 : BitVec 32) : Prop :=
  (∀ a, (k0_off338 v1515) a + S1x1024.size a ≤ S128000x1024.size a)
instance k0_chk169.dec : ∀ (v1515 : BitVec 32), Decidable (k0_chk169 v1515) := fun v1515 => decidable_of_iff' _ (Iff.of_eq (k0_chk169.eq_1 v1515))
theorem k0_off338_inb : ∀ (v1515 : BitVec 32) (k0_hw169 : k0_chk169 v1515), ∀ a, (k0_off338 v1515) a + S1x1024.size a ≤ S128000x1024.size a := fun v1515 k0_hw169 => k0_hw169

def k0_off339 (i : grid0.Coords) : Fin 1 → Nat :=
  let arg0 : BitVec 32 := BitVec.ofNat 32 (i 0).val
  let c256_i32 : BitVec 32 := 256#32
  let v0 : BitVec 32 := Scalar.muli arg0 c256_i32
  let c169_i32 : BitVec 32 := 169#32
  let v1522 : BitVec 32 := Scalar.addi v0 c169_i32
  let v1523 : Index := Scalar.indexCast v1522
  ![v1523.toNat]
def k0_off340 (v1524 : BitVec 32) : Fin 2 → Nat :=
  let c0_i32_679 : BitVec 32 := 0#32
  ![v1524.toNat, 0]

def k0_chk170 (v1524 : BitVec 32) : Prop :=
  (∀ a, (k0_off340 v1524) a + S1x1024.size a ≤ S128000x1024.size a)
instance k0_chk170.dec : ∀ (v1524 : BitVec 32), Decidable (k0_chk170 v1524) := fun v1524 => decidable_of_iff' _ (Iff.of_eq (k0_chk170.eq_1 v1524))
theorem k0_off340_inb : ∀ (v1524 : BitVec 32) (k0_hw170 : k0_chk170 v1524), ∀ a, (k0_off340 v1524) a + S1x1024.size a ≤ S128000x1024.size a := fun v1524 k0_hw170 => k0_hw170

def k0_off341 (i : grid0.Coords) : Fin 1 → Nat :=
  let arg0 : BitVec 32 := BitVec.ofNat 32 (i 0).val
  let c256_i32 : BitVec 32 := 256#32
  let v0 : BitVec 32 := Scalar.muli arg0 c256_i32
  let c170_i32 : BitVec 32 := 170#32
  let v1531 : BitVec 32 := Scalar.addi v0 c170_i32
  let v1532 : Index := Scalar.indexCast v1531
  ![v1532.toNat]
def k0_off342 (v1533 : BitVec 32) : Fin 2 → Nat :=
  let c0_i32_683 : BitVec 32 := 0#32
  ![v1533.toNat, 0]

def k0_chk171 (v1533 : BitVec 32) : Prop :=
  (∀ a, (k0_off342 v1533) a + S1x1024.size a ≤ S128000x1024.size a)
instance k0_chk171.dec : ∀ (v1533 : BitVec 32), Decidable (k0_chk171 v1533) := fun v1533 => decidable_of_iff' _ (Iff.of_eq (k0_chk171.eq_1 v1533))
theorem k0_off342_inb : ∀ (v1533 : BitVec 32) (k0_hw171 : k0_chk171 v1533), ∀ a, (k0_off342 v1533) a + S1x1024.size a ≤ S128000x1024.size a := fun v1533 k0_hw171 => k0_hw171

def k0_off343 (i : grid0.Coords) : Fin 1 → Nat :=
  let arg0 : BitVec 32 := BitVec.ofNat 32 (i 0).val
  let c256_i32 : BitVec 32 := 256#32
  let v0 : BitVec 32 := Scalar.muli arg0 c256_i32
  let c171_i32 : BitVec 32 := 171#32
  let v1540 : BitVec 32 := Scalar.addi v0 c171_i32
  let v1541 : Index := Scalar.indexCast v1540
  ![v1541.toNat]
def k0_off344 (v1542 : BitVec 32) : Fin 2 → Nat :=
  let c0_i32_687 : BitVec 32 := 0#32
  ![v1542.toNat, 0]

def k0_chk172 (v1542 : BitVec 32) : Prop :=
  (∀ a, (k0_off344 v1542) a + S1x1024.size a ≤ S128000x1024.size a)
instance k0_chk172.dec : ∀ (v1542 : BitVec 32), Decidable (k0_chk172 v1542) := fun v1542 => decidable_of_iff' _ (Iff.of_eq (k0_chk172.eq_1 v1542))
theorem k0_off344_inb : ∀ (v1542 : BitVec 32) (k0_hw172 : k0_chk172 v1542), ∀ a, (k0_off344 v1542) a + S1x1024.size a ≤ S128000x1024.size a := fun v1542 k0_hw172 => k0_hw172

def k0_off345 (i : grid0.Coords) : Fin 1 → Nat :=
  let arg0 : BitVec 32 := BitVec.ofNat 32 (i 0).val
  let c256_i32 : BitVec 32 := 256#32
  let v0 : BitVec 32 := Scalar.muli arg0 c256_i32
  let c172_i32 : BitVec 32 := 172#32
  let v1549 : BitVec 32 := Scalar.addi v0 c172_i32
  let v1550 : Index := Scalar.indexCast v1549
  ![v1550.toNat]
def k0_off346 (v1551 : BitVec 32) : Fin 2 → Nat :=
  let c0_i32_691 : BitVec 32 := 0#32
  ![v1551.toNat, 0]

def k0_chk173 (v1551 : BitVec 32) : Prop :=
  (∀ a, (k0_off346 v1551) a + S1x1024.size a ≤ S128000x1024.size a)
instance k0_chk173.dec : ∀ (v1551 : BitVec 32), Decidable (k0_chk173 v1551) := fun v1551 => decidable_of_iff' _ (Iff.of_eq (k0_chk173.eq_1 v1551))
theorem k0_off346_inb : ∀ (v1551 : BitVec 32) (k0_hw173 : k0_chk173 v1551), ∀ a, (k0_off346 v1551) a + S1x1024.size a ≤ S128000x1024.size a := fun v1551 k0_hw173 => k0_hw173

def k0_off347 (i : grid0.Coords) : Fin 1 → Nat :=
  let arg0 : BitVec 32 := BitVec.ofNat 32 (i 0).val
  let c256_i32 : BitVec 32 := 256#32
  let v0 : BitVec 32 := Scalar.muli arg0 c256_i32
  let c173_i32 : BitVec 32 := 173#32
  let v1558 : BitVec 32 := Scalar.addi v0 c173_i32
  let v1559 : Index := Scalar.indexCast v1558
  ![v1559.toNat]
def k0_off348 (v1560 : BitVec 32) : Fin 2 → Nat :=
  let c0_i32_695 : BitVec 32 := 0#32
  ![v1560.toNat, 0]

def k0_chk174 (v1560 : BitVec 32) : Prop :=
  (∀ a, (k0_off348 v1560) a + S1x1024.size a ≤ S128000x1024.size a)
instance k0_chk174.dec : ∀ (v1560 : BitVec 32), Decidable (k0_chk174 v1560) := fun v1560 => decidable_of_iff' _ (Iff.of_eq (k0_chk174.eq_1 v1560))
theorem k0_off348_inb : ∀ (v1560 : BitVec 32) (k0_hw174 : k0_chk174 v1560), ∀ a, (k0_off348 v1560) a + S1x1024.size a ≤ S128000x1024.size a := fun v1560 k0_hw174 => k0_hw174

def k0_off349 (i : grid0.Coords) : Fin 1 → Nat :=
  let arg0 : BitVec 32 := BitVec.ofNat 32 (i 0).val
  let c256_i32 : BitVec 32 := 256#32
  let v0 : BitVec 32 := Scalar.muli arg0 c256_i32
  let c174_i32 : BitVec 32 := 174#32
  let v1567 : BitVec 32 := Scalar.addi v0 c174_i32
  let v1568 : Index := Scalar.indexCast v1567
  ![v1568.toNat]
def k0_off350 (v1569 : BitVec 32) : Fin 2 → Nat :=
  let c0_i32_699 : BitVec 32 := 0#32
  ![v1569.toNat, 0]

def k0_chk175 (v1569 : BitVec 32) : Prop :=
  (∀ a, (k0_off350 v1569) a + S1x1024.size a ≤ S128000x1024.size a)
instance k0_chk175.dec : ∀ (v1569 : BitVec 32), Decidable (k0_chk175 v1569) := fun v1569 => decidable_of_iff' _ (Iff.of_eq (k0_chk175.eq_1 v1569))
theorem k0_off350_inb : ∀ (v1569 : BitVec 32) (k0_hw175 : k0_chk175 v1569), ∀ a, (k0_off350 v1569) a + S1x1024.size a ≤ S128000x1024.size a := fun v1569 k0_hw175 => k0_hw175

def k0_off351 (i : grid0.Coords) : Fin 1 → Nat :=
  let arg0 : BitVec 32 := BitVec.ofNat 32 (i 0).val
  let c256_i32 : BitVec 32 := 256#32
  let v0 : BitVec 32 := Scalar.muli arg0 c256_i32
  let c175_i32 : BitVec 32 := 175#32
  let v1576 : BitVec 32 := Scalar.addi v0 c175_i32
  let v1577 : Index := Scalar.indexCast v1576
  ![v1577.toNat]
def k0_off352 (v1578 : BitVec 32) : Fin 2 → Nat :=
  let c0_i32_703 : BitVec 32 := 0#32
  ![v1578.toNat, 0]

def k0_chk176 (v1578 : BitVec 32) : Prop :=
  (∀ a, (k0_off352 v1578) a + S1x1024.size a ≤ S128000x1024.size a)
instance k0_chk176.dec : ∀ (v1578 : BitVec 32), Decidable (k0_chk176 v1578) := fun v1578 => decidable_of_iff' _ (Iff.of_eq (k0_chk176.eq_1 v1578))
theorem k0_off352_inb : ∀ (v1578 : BitVec 32) (k0_hw176 : k0_chk176 v1578), ∀ a, (k0_off352 v1578) a + S1x1024.size a ≤ S128000x1024.size a := fun v1578 k0_hw176 => k0_hw176

def k0_off353 (i : grid0.Coords) : Fin 1 → Nat :=
  let arg0 : BitVec 32 := BitVec.ofNat 32 (i 0).val
  let c256_i32 : BitVec 32 := 256#32
  let v0 : BitVec 32 := Scalar.muli arg0 c256_i32
  let c176_i32 : BitVec 32 := 176#32
  let v1585 : BitVec 32 := Scalar.addi v0 c176_i32
  let v1586 : Index := Scalar.indexCast v1585
  ![v1586.toNat]
def k0_off354 (v1587 : BitVec 32) : Fin 2 → Nat :=
  let c0_i32_707 : BitVec 32 := 0#32
  ![v1587.toNat, 0]

def k0_chk177 (v1587 : BitVec 32) : Prop :=
  (∀ a, (k0_off354 v1587) a + S1x1024.size a ≤ S128000x1024.size a)
instance k0_chk177.dec : ∀ (v1587 : BitVec 32), Decidable (k0_chk177 v1587) := fun v1587 => decidable_of_iff' _ (Iff.of_eq (k0_chk177.eq_1 v1587))
theorem k0_off354_inb : ∀ (v1587 : BitVec 32) (k0_hw177 : k0_chk177 v1587), ∀ a, (k0_off354 v1587) a + S1x1024.size a ≤ S128000x1024.size a := fun v1587 k0_hw177 => k0_hw177

def k0_off355 (i : grid0.Coords) : Fin 1 → Nat :=
  let arg0 : BitVec 32 := BitVec.ofNat 32 (i 0).val
  let c256_i32 : BitVec 32 := 256#32
  let v0 : BitVec 32 := Scalar.muli arg0 c256_i32
  let c177_i32 : BitVec 32 := 177#32
  let v1594 : BitVec 32 := Scalar.addi v0 c177_i32
  let v1595 : Index := Scalar.indexCast v1594
  ![v1595.toNat]
def k0_off356 (v1596 : BitVec 32) : Fin 2 → Nat :=
  let c0_i32_711 : BitVec 32 := 0#32
  ![v1596.toNat, 0]

def k0_chk178 (v1596 : BitVec 32) : Prop :=
  (∀ a, (k0_off356 v1596) a + S1x1024.size a ≤ S128000x1024.size a)
instance k0_chk178.dec : ∀ (v1596 : BitVec 32), Decidable (k0_chk178 v1596) := fun v1596 => decidable_of_iff' _ (Iff.of_eq (k0_chk178.eq_1 v1596))
theorem k0_off356_inb : ∀ (v1596 : BitVec 32) (k0_hw178 : k0_chk178 v1596), ∀ a, (k0_off356 v1596) a + S1x1024.size a ≤ S128000x1024.size a := fun v1596 k0_hw178 => k0_hw178

def k0_off357 (i : grid0.Coords) : Fin 1 → Nat :=
  let arg0 : BitVec 32 := BitVec.ofNat 32 (i 0).val
  let c256_i32 : BitVec 32 := 256#32
  let v0 : BitVec 32 := Scalar.muli arg0 c256_i32
  let c178_i32 : BitVec 32 := 178#32
  let v1603 : BitVec 32 := Scalar.addi v0 c178_i32
  let v1604 : Index := Scalar.indexCast v1603
  ![v1604.toNat]
def k0_off358 (v1605 : BitVec 32) : Fin 2 → Nat :=
  let c0_i32_715 : BitVec 32 := 0#32
  ![v1605.toNat, 0]

def k0_chk179 (v1605 : BitVec 32) : Prop :=
  (∀ a, (k0_off358 v1605) a + S1x1024.size a ≤ S128000x1024.size a)
instance k0_chk179.dec : ∀ (v1605 : BitVec 32), Decidable (k0_chk179 v1605) := fun v1605 => decidable_of_iff' _ (Iff.of_eq (k0_chk179.eq_1 v1605))
theorem k0_off358_inb : ∀ (v1605 : BitVec 32) (k0_hw179 : k0_chk179 v1605), ∀ a, (k0_off358 v1605) a + S1x1024.size a ≤ S128000x1024.size a := fun v1605 k0_hw179 => k0_hw179

def k0_off359 (i : grid0.Coords) : Fin 1 → Nat :=
  let arg0 : BitVec 32 := BitVec.ofNat 32 (i 0).val
  let c256_i32 : BitVec 32 := 256#32
  let v0 : BitVec 32 := Scalar.muli arg0 c256_i32
  let c179_i32 : BitVec 32 := 179#32
  let v1612 : BitVec 32 := Scalar.addi v0 c179_i32
  let v1613 : Index := Scalar.indexCast v1612
  ![v1613.toNat]
def k0_off360 (v1614 : BitVec 32) : Fin 2 → Nat :=
  let c0_i32_719 : BitVec 32 := 0#32
  ![v1614.toNat, 0]

def k0_chk180 (v1614 : BitVec 32) : Prop :=
  (∀ a, (k0_off360 v1614) a + S1x1024.size a ≤ S128000x1024.size a)
instance k0_chk180.dec : ∀ (v1614 : BitVec 32), Decidable (k0_chk180 v1614) := fun v1614 => decidable_of_iff' _ (Iff.of_eq (k0_chk180.eq_1 v1614))
theorem k0_off360_inb : ∀ (v1614 : BitVec 32) (k0_hw180 : k0_chk180 v1614), ∀ a, (k0_off360 v1614) a + S1x1024.size a ≤ S128000x1024.size a := fun v1614 k0_hw180 => k0_hw180

def k0_off361 (i : grid0.Coords) : Fin 1 → Nat :=
  let arg0 : BitVec 32 := BitVec.ofNat 32 (i 0).val
  let c256_i32 : BitVec 32 := 256#32
  let v0 : BitVec 32 := Scalar.muli arg0 c256_i32
  let c180_i32 : BitVec 32 := 180#32
  let v1621 : BitVec 32 := Scalar.addi v0 c180_i32
  let v1622 : Index := Scalar.indexCast v1621
  ![v1622.toNat]
def k0_off362 (v1623 : BitVec 32) : Fin 2 → Nat :=
  let c0_i32_723 : BitVec 32 := 0#32
  ![v1623.toNat, 0]

def k0_chk181 (v1623 : BitVec 32) : Prop :=
  (∀ a, (k0_off362 v1623) a + S1x1024.size a ≤ S128000x1024.size a)
instance k0_chk181.dec : ∀ (v1623 : BitVec 32), Decidable (k0_chk181 v1623) := fun v1623 => decidable_of_iff' _ (Iff.of_eq (k0_chk181.eq_1 v1623))
theorem k0_off362_inb : ∀ (v1623 : BitVec 32) (k0_hw181 : k0_chk181 v1623), ∀ a, (k0_off362 v1623) a + S1x1024.size a ≤ S128000x1024.size a := fun v1623 k0_hw181 => k0_hw181

def k0_off363 (i : grid0.Coords) : Fin 1 → Nat :=
  let arg0 : BitVec 32 := BitVec.ofNat 32 (i 0).val
  let c256_i32 : BitVec 32 := 256#32
  let v0 : BitVec 32 := Scalar.muli arg0 c256_i32
  let c181_i32 : BitVec 32 := 181#32
  let v1630 : BitVec 32 := Scalar.addi v0 c181_i32
  let v1631 : Index := Scalar.indexCast v1630
  ![v1631.toNat]
def k0_off364 (v1632 : BitVec 32) : Fin 2 → Nat :=
  let c0_i32_727 : BitVec 32 := 0#32
  ![v1632.toNat, 0]

def k0_chk182 (v1632 : BitVec 32) : Prop :=
  (∀ a, (k0_off364 v1632) a + S1x1024.size a ≤ S128000x1024.size a)
instance k0_chk182.dec : ∀ (v1632 : BitVec 32), Decidable (k0_chk182 v1632) := fun v1632 => decidable_of_iff' _ (Iff.of_eq (k0_chk182.eq_1 v1632))
theorem k0_off364_inb : ∀ (v1632 : BitVec 32) (k0_hw182 : k0_chk182 v1632), ∀ a, (k0_off364 v1632) a + S1x1024.size a ≤ S128000x1024.size a := fun v1632 k0_hw182 => k0_hw182

def k0_off365 (i : grid0.Coords) : Fin 1 → Nat :=
  let arg0 : BitVec 32 := BitVec.ofNat 32 (i 0).val
  let c256_i32 : BitVec 32 := 256#32
  let v0 : BitVec 32 := Scalar.muli arg0 c256_i32
  let c182_i32 : BitVec 32 := 182#32
  let v1639 : BitVec 32 := Scalar.addi v0 c182_i32
  let v1640 : Index := Scalar.indexCast v1639
  ![v1640.toNat]
def k0_off366 (v1641 : BitVec 32) : Fin 2 → Nat :=
  let c0_i32_731 : BitVec 32 := 0#32
  ![v1641.toNat, 0]

def k0_chk183 (v1641 : BitVec 32) : Prop :=
  (∀ a, (k0_off366 v1641) a + S1x1024.size a ≤ S128000x1024.size a)
instance k0_chk183.dec : ∀ (v1641 : BitVec 32), Decidable (k0_chk183 v1641) := fun v1641 => decidable_of_iff' _ (Iff.of_eq (k0_chk183.eq_1 v1641))
theorem k0_off366_inb : ∀ (v1641 : BitVec 32) (k0_hw183 : k0_chk183 v1641), ∀ a, (k0_off366 v1641) a + S1x1024.size a ≤ S128000x1024.size a := fun v1641 k0_hw183 => k0_hw183

def k0_off367 (i : grid0.Coords) : Fin 1 → Nat :=
  let arg0 : BitVec 32 := BitVec.ofNat 32 (i 0).val
  let c256_i32 : BitVec 32 := 256#32
  let v0 : BitVec 32 := Scalar.muli arg0 c256_i32
  let c183_i32 : BitVec 32 := 183#32
  let v1648 : BitVec 32 := Scalar.addi v0 c183_i32
  let v1649 : Index := Scalar.indexCast v1648
  ![v1649.toNat]
def k0_off368 (v1650 : BitVec 32) : Fin 2 → Nat :=
  let c0_i32_735 : BitVec 32 := 0#32
  ![v1650.toNat, 0]

def k0_chk184 (v1650 : BitVec 32) : Prop :=
  (∀ a, (k0_off368 v1650) a + S1x1024.size a ≤ S128000x1024.size a)
instance k0_chk184.dec : ∀ (v1650 : BitVec 32), Decidable (k0_chk184 v1650) := fun v1650 => decidable_of_iff' _ (Iff.of_eq (k0_chk184.eq_1 v1650))
theorem k0_off368_inb : ∀ (v1650 : BitVec 32) (k0_hw184 : k0_chk184 v1650), ∀ a, (k0_off368 v1650) a + S1x1024.size a ≤ S128000x1024.size a := fun v1650 k0_hw184 => k0_hw184

def k0_off369 (i : grid0.Coords) : Fin 1 → Nat :=
  let arg0 : BitVec 32 := BitVec.ofNat 32 (i 0).val
  let c256_i32 : BitVec 32 := 256#32
  let v0 : BitVec 32 := Scalar.muli arg0 c256_i32
  let c184_i32 : BitVec 32 := 184#32
  let v1657 : BitVec 32 := Scalar.addi v0 c184_i32
  let v1658 : Index := Scalar.indexCast v1657
  ![v1658.toNat]
def k0_off370 (v1659 : BitVec 32) : Fin 2 → Nat :=
  let c0_i32_739 : BitVec 32 := 0#32
  ![v1659.toNat, 0]

def k0_chk185 (v1659 : BitVec 32) : Prop :=
  (∀ a, (k0_off370 v1659) a + S1x1024.size a ≤ S128000x1024.size a)
instance k0_chk185.dec : ∀ (v1659 : BitVec 32), Decidable (k0_chk185 v1659) := fun v1659 => decidable_of_iff' _ (Iff.of_eq (k0_chk185.eq_1 v1659))
theorem k0_off370_inb : ∀ (v1659 : BitVec 32) (k0_hw185 : k0_chk185 v1659), ∀ a, (k0_off370 v1659) a + S1x1024.size a ≤ S128000x1024.size a := fun v1659 k0_hw185 => k0_hw185

def k0_off371 (i : grid0.Coords) : Fin 1 → Nat :=
  let arg0 : BitVec 32 := BitVec.ofNat 32 (i 0).val
  let c256_i32 : BitVec 32 := 256#32
  let v0 : BitVec 32 := Scalar.muli arg0 c256_i32
  let c185_i32 : BitVec 32 := 185#32
  let v1666 : BitVec 32 := Scalar.addi v0 c185_i32
  let v1667 : Index := Scalar.indexCast v1666
  ![v1667.toNat]
def k0_off372 (v1668 : BitVec 32) : Fin 2 → Nat :=
  let c0_i32_743 : BitVec 32 := 0#32
  ![v1668.toNat, 0]

def k0_chk186 (v1668 : BitVec 32) : Prop :=
  (∀ a, (k0_off372 v1668) a + S1x1024.size a ≤ S128000x1024.size a)
instance k0_chk186.dec : ∀ (v1668 : BitVec 32), Decidable (k0_chk186 v1668) := fun v1668 => decidable_of_iff' _ (Iff.of_eq (k0_chk186.eq_1 v1668))
theorem k0_off372_inb : ∀ (v1668 : BitVec 32) (k0_hw186 : k0_chk186 v1668), ∀ a, (k0_off372 v1668) a + S1x1024.size a ≤ S128000x1024.size a := fun v1668 k0_hw186 => k0_hw186

def k0_off373 (i : grid0.Coords) : Fin 1 → Nat :=
  let arg0 : BitVec 32 := BitVec.ofNat 32 (i 0).val
  let c256_i32 : BitVec 32 := 256#32
  let v0 : BitVec 32 := Scalar.muli arg0 c256_i32
  let c186_i32 : BitVec 32 := 186#32
  let v1675 : BitVec 32 := Scalar.addi v0 c186_i32
  let v1676 : Index := Scalar.indexCast v1675
  ![v1676.toNat]
def k0_off374 (v1677 : BitVec 32) : Fin 2 → Nat :=
  let c0_i32_747 : BitVec 32 := 0#32
  ![v1677.toNat, 0]

def k0_chk187 (v1677 : BitVec 32) : Prop :=
  (∀ a, (k0_off374 v1677) a + S1x1024.size a ≤ S128000x1024.size a)
instance k0_chk187.dec : ∀ (v1677 : BitVec 32), Decidable (k0_chk187 v1677) := fun v1677 => decidable_of_iff' _ (Iff.of_eq (k0_chk187.eq_1 v1677))
theorem k0_off374_inb : ∀ (v1677 : BitVec 32) (k0_hw187 : k0_chk187 v1677), ∀ a, (k0_off374 v1677) a + S1x1024.size a ≤ S128000x1024.size a := fun v1677 k0_hw187 => k0_hw187

def k0_off375 (i : grid0.Coords) : Fin 1 → Nat :=
  let arg0 : BitVec 32 := BitVec.ofNat 32 (i 0).val
  let c256_i32 : BitVec 32 := 256#32
  let v0 : BitVec 32 := Scalar.muli arg0 c256_i32
  let c187_i32 : BitVec 32 := 187#32
  let v1684 : BitVec 32 := Scalar.addi v0 c187_i32
  let v1685 : Index := Scalar.indexCast v1684
  ![v1685.toNat]
def k0_off376 (v1686 : BitVec 32) : Fin 2 → Nat :=
  let c0_i32_751 : BitVec 32 := 0#32
  ![v1686.toNat, 0]

def k0_chk188 (v1686 : BitVec 32) : Prop :=
  (∀ a, (k0_off376 v1686) a + S1x1024.size a ≤ S128000x1024.size a)
instance k0_chk188.dec : ∀ (v1686 : BitVec 32), Decidable (k0_chk188 v1686) := fun v1686 => decidable_of_iff' _ (Iff.of_eq (k0_chk188.eq_1 v1686))
theorem k0_off376_inb : ∀ (v1686 : BitVec 32) (k0_hw188 : k0_chk188 v1686), ∀ a, (k0_off376 v1686) a + S1x1024.size a ≤ S128000x1024.size a := fun v1686 k0_hw188 => k0_hw188

def k0_off377 (i : grid0.Coords) : Fin 1 → Nat :=
  let arg0 : BitVec 32 := BitVec.ofNat 32 (i 0).val
  let c256_i32 : BitVec 32 := 256#32
  let v0 : BitVec 32 := Scalar.muli arg0 c256_i32
  let c188_i32 : BitVec 32 := 188#32
  let v1693 : BitVec 32 := Scalar.addi v0 c188_i32
  let v1694 : Index := Scalar.indexCast v1693
  ![v1694.toNat]
def k0_off378 (v1695 : BitVec 32) : Fin 2 → Nat :=
  let c0_i32_755 : BitVec 32 := 0#32
  ![v1695.toNat, 0]

def k0_chk189 (v1695 : BitVec 32) : Prop :=
  (∀ a, (k0_off378 v1695) a + S1x1024.size a ≤ S128000x1024.size a)
instance k0_chk189.dec : ∀ (v1695 : BitVec 32), Decidable (k0_chk189 v1695) := fun v1695 => decidable_of_iff' _ (Iff.of_eq (k0_chk189.eq_1 v1695))
theorem k0_off378_inb : ∀ (v1695 : BitVec 32) (k0_hw189 : k0_chk189 v1695), ∀ a, (k0_off378 v1695) a + S1x1024.size a ≤ S128000x1024.size a := fun v1695 k0_hw189 => k0_hw189

def k0_off379 (i : grid0.Coords) : Fin 1 → Nat :=
  let arg0 : BitVec 32 := BitVec.ofNat 32 (i 0).val
  let c256_i32 : BitVec 32 := 256#32
  let v0 : BitVec 32 := Scalar.muli arg0 c256_i32
  let c189_i32 : BitVec 32 := 189#32
  let v1702 : BitVec 32 := Scalar.addi v0 c189_i32
  let v1703 : Index := Scalar.indexCast v1702
  ![v1703.toNat]
def k0_off380 (v1704 : BitVec 32) : Fin 2 → Nat :=
  let c0_i32_759 : BitVec 32 := 0#32
  ![v1704.toNat, 0]

def k0_chk190 (v1704 : BitVec 32) : Prop :=
  (∀ a, (k0_off380 v1704) a + S1x1024.size a ≤ S128000x1024.size a)
instance k0_chk190.dec : ∀ (v1704 : BitVec 32), Decidable (k0_chk190 v1704) := fun v1704 => decidable_of_iff' _ (Iff.of_eq (k0_chk190.eq_1 v1704))
theorem k0_off380_inb : ∀ (v1704 : BitVec 32) (k0_hw190 : k0_chk190 v1704), ∀ a, (k0_off380 v1704) a + S1x1024.size a ≤ S128000x1024.size a := fun v1704 k0_hw190 => k0_hw190

def k0_off381 (i : grid0.Coords) : Fin 1 → Nat :=
  let arg0 : BitVec 32 := BitVec.ofNat 32 (i 0).val
  let c256_i32 : BitVec 32 := 256#32
  let v0 : BitVec 32 := Scalar.muli arg0 c256_i32
  let c190_i32 : BitVec 32 := 190#32
  let v1711 : BitVec 32 := Scalar.addi v0 c190_i32
  let v1712 : Index := Scalar.indexCast v1711
  ![v1712.toNat]
def k0_off382 (v1713 : BitVec 32) : Fin 2 → Nat :=
  let c0_i32_763 : BitVec 32 := 0#32
  ![v1713.toNat, 0]

def k0_chk191 (v1713 : BitVec 32) : Prop :=
  (∀ a, (k0_off382 v1713) a + S1x1024.size a ≤ S128000x1024.size a)
instance k0_chk191.dec : ∀ (v1713 : BitVec 32), Decidable (k0_chk191 v1713) := fun v1713 => decidable_of_iff' _ (Iff.of_eq (k0_chk191.eq_1 v1713))
theorem k0_off382_inb : ∀ (v1713 : BitVec 32) (k0_hw191 : k0_chk191 v1713), ∀ a, (k0_off382 v1713) a + S1x1024.size a ≤ S128000x1024.size a := fun v1713 k0_hw191 => k0_hw191

def k0_off383 (i : grid0.Coords) : Fin 1 → Nat :=
  let arg0 : BitVec 32 := BitVec.ofNat 32 (i 0).val
  let c256_i32 : BitVec 32 := 256#32
  let v0 : BitVec 32 := Scalar.muli arg0 c256_i32
  let c191_i32 : BitVec 32 := 191#32
  let v1720 : BitVec 32 := Scalar.addi v0 c191_i32
  let v1721 : Index := Scalar.indexCast v1720
  ![v1721.toNat]
def k0_off384 (v1722 : BitVec 32) : Fin 2 → Nat :=
  let c0_i32_767 : BitVec 32 := 0#32
  ![v1722.toNat, 0]

def k0_chk192 (v1722 : BitVec 32) : Prop :=
  (∀ a, (k0_off384 v1722) a + S1x1024.size a ≤ S128000x1024.size a)
instance k0_chk192.dec : ∀ (v1722 : BitVec 32), Decidable (k0_chk192 v1722) := fun v1722 => decidable_of_iff' _ (Iff.of_eq (k0_chk192.eq_1 v1722))
theorem k0_off384_inb : ∀ (v1722 : BitVec 32) (k0_hw192 : k0_chk192 v1722), ∀ a, (k0_off384 v1722) a + S1x1024.size a ≤ S128000x1024.size a := fun v1722 k0_hw192 => k0_hw192

def k0_off385 (i : grid0.Coords) : Fin 1 → Nat :=
  let arg0 : BitVec 32 := BitVec.ofNat 32 (i 0).val
  let c256_i32 : BitVec 32 := 256#32
  let v0 : BitVec 32 := Scalar.muli arg0 c256_i32
  let c192_i32 : BitVec 32 := 192#32
  let v1729 : BitVec 32 := Scalar.addi v0 c192_i32
  let v1730 : Index := Scalar.indexCast v1729
  ![v1730.toNat]
def k0_off386 (v1731 : BitVec 32) : Fin 2 → Nat :=
  let c0_i32_771 : BitVec 32 := 0#32
  ![v1731.toNat, 0]

def k0_chk193 (v1731 : BitVec 32) : Prop :=
  (∀ a, (k0_off386 v1731) a + S1x1024.size a ≤ S128000x1024.size a)
instance k0_chk193.dec : ∀ (v1731 : BitVec 32), Decidable (k0_chk193 v1731) := fun v1731 => decidable_of_iff' _ (Iff.of_eq (k0_chk193.eq_1 v1731))
theorem k0_off386_inb : ∀ (v1731 : BitVec 32) (k0_hw193 : k0_chk193 v1731), ∀ a, (k0_off386 v1731) a + S1x1024.size a ≤ S128000x1024.size a := fun v1731 k0_hw193 => k0_hw193

def k0_off387 (i : grid0.Coords) : Fin 1 → Nat :=
  let arg0 : BitVec 32 := BitVec.ofNat 32 (i 0).val
  let c256_i32 : BitVec 32 := 256#32
  let v0 : BitVec 32 := Scalar.muli arg0 c256_i32
  let c193_i32 : BitVec 32 := 193#32
  let v1738 : BitVec 32 := Scalar.addi v0 c193_i32
  let v1739 : Index := Scalar.indexCast v1738
  ![v1739.toNat]
def k0_off388 (v1740 : BitVec 32) : Fin 2 → Nat :=
  let c0_i32_775 : BitVec 32 := 0#32
  ![v1740.toNat, 0]

def k0_chk194 (v1740 : BitVec 32) : Prop :=
  (∀ a, (k0_off388 v1740) a + S1x1024.size a ≤ S128000x1024.size a)
instance k0_chk194.dec : ∀ (v1740 : BitVec 32), Decidable (k0_chk194 v1740) := fun v1740 => decidable_of_iff' _ (Iff.of_eq (k0_chk194.eq_1 v1740))
theorem k0_off388_inb : ∀ (v1740 : BitVec 32) (k0_hw194 : k0_chk194 v1740), ∀ a, (k0_off388 v1740) a + S1x1024.size a ≤ S128000x1024.size a := fun v1740 k0_hw194 => k0_hw194

def k0_off389 (i : grid0.Coords) : Fin 1 → Nat :=
  let arg0 : BitVec 32 := BitVec.ofNat 32 (i 0).val
  let c256_i32 : BitVec 32 := 256#32
  let v0 : BitVec 32 := Scalar.muli arg0 c256_i32
  let c194_i32 : BitVec 32 := 194#32
  let v1747 : BitVec 32 := Scalar.addi v0 c194_i32
  let v1748 : Index := Scalar.indexCast v1747
  ![v1748.toNat]
def k0_off390 (v1749 : BitVec 32) : Fin 2 → Nat :=
  let c0_i32_779 : BitVec 32 := 0#32
  ![v1749.toNat, 0]

def k0_chk195 (v1749 : BitVec 32) : Prop :=
  (∀ a, (k0_off390 v1749) a + S1x1024.size a ≤ S128000x1024.size a)
instance k0_chk195.dec : ∀ (v1749 : BitVec 32), Decidable (k0_chk195 v1749) := fun v1749 => decidable_of_iff' _ (Iff.of_eq (k0_chk195.eq_1 v1749))
theorem k0_off390_inb : ∀ (v1749 : BitVec 32) (k0_hw195 : k0_chk195 v1749), ∀ a, (k0_off390 v1749) a + S1x1024.size a ≤ S128000x1024.size a := fun v1749 k0_hw195 => k0_hw195

def k0_off391 (i : grid0.Coords) : Fin 1 → Nat :=
  let arg0 : BitVec 32 := BitVec.ofNat 32 (i 0).val
  let c256_i32 : BitVec 32 := 256#32
  let v0 : BitVec 32 := Scalar.muli arg0 c256_i32
  let c195_i32 : BitVec 32 := 195#32
  let v1756 : BitVec 32 := Scalar.addi v0 c195_i32
  let v1757 : Index := Scalar.indexCast v1756
  ![v1757.toNat]
def k0_off392 (v1758 : BitVec 32) : Fin 2 → Nat :=
  let c0_i32_783 : BitVec 32 := 0#32
  ![v1758.toNat, 0]

def k0_chk196 (v1758 : BitVec 32) : Prop :=
  (∀ a, (k0_off392 v1758) a + S1x1024.size a ≤ S128000x1024.size a)
instance k0_chk196.dec : ∀ (v1758 : BitVec 32), Decidable (k0_chk196 v1758) := fun v1758 => decidable_of_iff' _ (Iff.of_eq (k0_chk196.eq_1 v1758))
theorem k0_off392_inb : ∀ (v1758 : BitVec 32) (k0_hw196 : k0_chk196 v1758), ∀ a, (k0_off392 v1758) a + S1x1024.size a ≤ S128000x1024.size a := fun v1758 k0_hw196 => k0_hw196

def k0_off393 (i : grid0.Coords) : Fin 1 → Nat :=
  let arg0 : BitVec 32 := BitVec.ofNat 32 (i 0).val
  let c256_i32 : BitVec 32 := 256#32
  let v0 : BitVec 32 := Scalar.muli arg0 c256_i32
  let c196_i32 : BitVec 32 := 196#32
  let v1765 : BitVec 32 := Scalar.addi v0 c196_i32
  let v1766 : Index := Scalar.indexCast v1765
  ![v1766.toNat]
def k0_off394 (v1767 : BitVec 32) : Fin 2 → Nat :=
  let c0_i32_787 : BitVec 32 := 0#32
  ![v1767.toNat, 0]

def k0_chk197 (v1767 : BitVec 32) : Prop :=
  (∀ a, (k0_off394 v1767) a + S1x1024.size a ≤ S128000x1024.size a)
instance k0_chk197.dec : ∀ (v1767 : BitVec 32), Decidable (k0_chk197 v1767) := fun v1767 => decidable_of_iff' _ (Iff.of_eq (k0_chk197.eq_1 v1767))
theorem k0_off394_inb : ∀ (v1767 : BitVec 32) (k0_hw197 : k0_chk197 v1767), ∀ a, (k0_off394 v1767) a + S1x1024.size a ≤ S128000x1024.size a := fun v1767 k0_hw197 => k0_hw197

def k0_off395 (i : grid0.Coords) : Fin 1 → Nat :=
  let arg0 : BitVec 32 := BitVec.ofNat 32 (i 0).val
  let c256_i32 : BitVec 32 := 256#32
  let v0 : BitVec 32 := Scalar.muli arg0 c256_i32
  let c197_i32 : BitVec 32 := 197#32
  let v1774 : BitVec 32 := Scalar.addi v0 c197_i32
  let v1775 : Index := Scalar.indexCast v1774
  ![v1775.toNat]
def k0_off396 (v1776 : BitVec 32) : Fin 2 → Nat :=
  let c0_i32_791 : BitVec 32 := 0#32
  ![v1776.toNat, 0]

def k0_chk198 (v1776 : BitVec 32) : Prop :=
  (∀ a, (k0_off396 v1776) a + S1x1024.size a ≤ S128000x1024.size a)
instance k0_chk198.dec : ∀ (v1776 : BitVec 32), Decidable (k0_chk198 v1776) := fun v1776 => decidable_of_iff' _ (Iff.of_eq (k0_chk198.eq_1 v1776))
theorem k0_off396_inb : ∀ (v1776 : BitVec 32) (k0_hw198 : k0_chk198 v1776), ∀ a, (k0_off396 v1776) a + S1x1024.size a ≤ S128000x1024.size a := fun v1776 k0_hw198 => k0_hw198

def k0_off397 (i : grid0.Coords) : Fin 1 → Nat :=
  let arg0 : BitVec 32 := BitVec.ofNat 32 (i 0).val
  let c256_i32 : BitVec 32 := 256#32
  let v0 : BitVec 32 := Scalar.muli arg0 c256_i32
  let c198_i32 : BitVec 32 := 198#32
  let v1783 : BitVec 32 := Scalar.addi v0 c198_i32
  let v1784 : Index := Scalar.indexCast v1783
  ![v1784.toNat]
def k0_off398 (v1785 : BitVec 32) : Fin 2 → Nat :=
  let c0_i32_795 : BitVec 32 := 0#32
  ![v1785.toNat, 0]

def k0_chk199 (v1785 : BitVec 32) : Prop :=
  (∀ a, (k0_off398 v1785) a + S1x1024.size a ≤ S128000x1024.size a)
instance k0_chk199.dec : ∀ (v1785 : BitVec 32), Decidable (k0_chk199 v1785) := fun v1785 => decidable_of_iff' _ (Iff.of_eq (k0_chk199.eq_1 v1785))
theorem k0_off398_inb : ∀ (v1785 : BitVec 32) (k0_hw199 : k0_chk199 v1785), ∀ a, (k0_off398 v1785) a + S1x1024.size a ≤ S128000x1024.size a := fun v1785 k0_hw199 => k0_hw199

def k0_off399 (i : grid0.Coords) : Fin 1 → Nat :=
  let arg0 : BitVec 32 := BitVec.ofNat 32 (i 0).val
  let c256_i32 : BitVec 32 := 256#32
  let v0 : BitVec 32 := Scalar.muli arg0 c256_i32
  let c199_i32 : BitVec 32 := 199#32
  let v1792 : BitVec 32 := Scalar.addi v0 c199_i32
  let v1793 : Index := Scalar.indexCast v1792
  ![v1793.toNat]
def k0_off400 (v1794 : BitVec 32) : Fin 2 → Nat :=
  let c0_i32_799 : BitVec 32 := 0#32
  ![v1794.toNat, 0]

def k0_chk200 (v1794 : BitVec 32) : Prop :=
  (∀ a, (k0_off400 v1794) a + S1x1024.size a ≤ S128000x1024.size a)
instance k0_chk200.dec : ∀ (v1794 : BitVec 32), Decidable (k0_chk200 v1794) := fun v1794 => decidable_of_iff' _ (Iff.of_eq (k0_chk200.eq_1 v1794))
theorem k0_off400_inb : ∀ (v1794 : BitVec 32) (k0_hw200 : k0_chk200 v1794), ∀ a, (k0_off400 v1794) a + S1x1024.size a ≤ S128000x1024.size a := fun v1794 k0_hw200 => k0_hw200

def k0_off401 (i : grid0.Coords) : Fin 1 → Nat :=
  let arg0 : BitVec 32 := BitVec.ofNat 32 (i 0).val
  let c256_i32 : BitVec 32 := 256#32
  let v0 : BitVec 32 := Scalar.muli arg0 c256_i32
  let c200_i32 : BitVec 32 := 200#32
  let v1801 : BitVec 32 := Scalar.addi v0 c200_i32
  let v1802 : Index := Scalar.indexCast v1801
  ![v1802.toNat]
def k0_off402 (v1803 : BitVec 32) : Fin 2 → Nat :=
  let c0_i32_803 : BitVec 32 := 0#32
  ![v1803.toNat, 0]

def k0_chk201 (v1803 : BitVec 32) : Prop :=
  (∀ a, (k0_off402 v1803) a + S1x1024.size a ≤ S128000x1024.size a)
instance k0_chk201.dec : ∀ (v1803 : BitVec 32), Decidable (k0_chk201 v1803) := fun v1803 => decidable_of_iff' _ (Iff.of_eq (k0_chk201.eq_1 v1803))
theorem k0_off402_inb : ∀ (v1803 : BitVec 32) (k0_hw201 : k0_chk201 v1803), ∀ a, (k0_off402 v1803) a + S1x1024.size a ≤ S128000x1024.size a := fun v1803 k0_hw201 => k0_hw201

def k0_off403 (i : grid0.Coords) : Fin 1 → Nat :=
  let arg0 : BitVec 32 := BitVec.ofNat 32 (i 0).val
  let c256_i32 : BitVec 32 := 256#32
  let v0 : BitVec 32 := Scalar.muli arg0 c256_i32
  let c201_i32 : BitVec 32 := 201#32
  let v1810 : BitVec 32 := Scalar.addi v0 c201_i32
  let v1811 : Index := Scalar.indexCast v1810
  ![v1811.toNat]
def k0_off404 (v1812 : BitVec 32) : Fin 2 → Nat :=
  let c0_i32_807 : BitVec 32 := 0#32
  ![v1812.toNat, 0]

def k0_chk202 (v1812 : BitVec 32) : Prop :=
  (∀ a, (k0_off404 v1812) a + S1x1024.size a ≤ S128000x1024.size a)
instance k0_chk202.dec : ∀ (v1812 : BitVec 32), Decidable (k0_chk202 v1812) := fun v1812 => decidable_of_iff' _ (Iff.of_eq (k0_chk202.eq_1 v1812))
theorem k0_off404_inb : ∀ (v1812 : BitVec 32) (k0_hw202 : k0_chk202 v1812), ∀ a, (k0_off404 v1812) a + S1x1024.size a ≤ S128000x1024.size a := fun v1812 k0_hw202 => k0_hw202

def k0_off405 (i : grid0.Coords) : Fin 1 → Nat :=
  let arg0 : BitVec 32 := BitVec.ofNat 32 (i 0).val
  let c256_i32 : BitVec 32 := 256#32
  let v0 : BitVec 32 := Scalar.muli arg0 c256_i32
  let c202_i32 : BitVec 32 := 202#32
  let v1819 : BitVec 32 := Scalar.addi v0 c202_i32
  let v1820 : Index := Scalar.indexCast v1819
  ![v1820.toNat]
def k0_off406 (v1821 : BitVec 32) : Fin 2 → Nat :=
  let c0_i32_811 : BitVec 32 := 0#32
  ![v1821.toNat, 0]

def k0_chk203 (v1821 : BitVec 32) : Prop :=
  (∀ a, (k0_off406 v1821) a + S1x1024.size a ≤ S128000x1024.size a)
instance k0_chk203.dec : ∀ (v1821 : BitVec 32), Decidable (k0_chk203 v1821) := fun v1821 => decidable_of_iff' _ (Iff.of_eq (k0_chk203.eq_1 v1821))
theorem k0_off406_inb : ∀ (v1821 : BitVec 32) (k0_hw203 : k0_chk203 v1821), ∀ a, (k0_off406 v1821) a + S1x1024.size a ≤ S128000x1024.size a := fun v1821 k0_hw203 => k0_hw203

def k0_off407 (i : grid0.Coords) : Fin 1 → Nat :=
  let arg0 : BitVec 32 := BitVec.ofNat 32 (i 0).val
  let c256_i32 : BitVec 32 := 256#32
  let v0 : BitVec 32 := Scalar.muli arg0 c256_i32
  let c203_i32 : BitVec 32 := 203#32
  let v1828 : BitVec 32 := Scalar.addi v0 c203_i32
  let v1829 : Index := Scalar.indexCast v1828
  ![v1829.toNat]
def k0_off408 (v1830 : BitVec 32) : Fin 2 → Nat :=
  let c0_i32_815 : BitVec 32 := 0#32
  ![v1830.toNat, 0]

def k0_chk204 (v1830 : BitVec 32) : Prop :=
  (∀ a, (k0_off408 v1830) a + S1x1024.size a ≤ S128000x1024.size a)
instance k0_chk204.dec : ∀ (v1830 : BitVec 32), Decidable (k0_chk204 v1830) := fun v1830 => decidable_of_iff' _ (Iff.of_eq (k0_chk204.eq_1 v1830))
theorem k0_off408_inb : ∀ (v1830 : BitVec 32) (k0_hw204 : k0_chk204 v1830), ∀ a, (k0_off408 v1830) a + S1x1024.size a ≤ S128000x1024.size a := fun v1830 k0_hw204 => k0_hw204

def k0_off409 (i : grid0.Coords) : Fin 1 → Nat :=
  let arg0 : BitVec 32 := BitVec.ofNat 32 (i 0).val
  let c256_i32 : BitVec 32 := 256#32
  let v0 : BitVec 32 := Scalar.muli arg0 c256_i32
  let c204_i32 : BitVec 32 := 204#32
  let v1837 : BitVec 32 := Scalar.addi v0 c204_i32
  let v1838 : Index := Scalar.indexCast v1837
  ![v1838.toNat]
def k0_off410 (v1839 : BitVec 32) : Fin 2 → Nat :=
  let c0_i32_819 : BitVec 32 := 0#32
  ![v1839.toNat, 0]

def k0_chk205 (v1839 : BitVec 32) : Prop :=
  (∀ a, (k0_off410 v1839) a + S1x1024.size a ≤ S128000x1024.size a)
instance k0_chk205.dec : ∀ (v1839 : BitVec 32), Decidable (k0_chk205 v1839) := fun v1839 => decidable_of_iff' _ (Iff.of_eq (k0_chk205.eq_1 v1839))
theorem k0_off410_inb : ∀ (v1839 : BitVec 32) (k0_hw205 : k0_chk205 v1839), ∀ a, (k0_off410 v1839) a + S1x1024.size a ≤ S128000x1024.size a := fun v1839 k0_hw205 => k0_hw205

def k0_off411 (i : grid0.Coords) : Fin 1 → Nat :=
  let arg0 : BitVec 32 := BitVec.ofNat 32 (i 0).val
  let c256_i32 : BitVec 32 := 256#32
  let v0 : BitVec 32 := Scalar.muli arg0 c256_i32
  let c205_i32 : BitVec 32 := 205#32
  let v1846 : BitVec 32 := Scalar.addi v0 c205_i32
  let v1847 : Index := Scalar.indexCast v1846
  ![v1847.toNat]
def k0_off412 (v1848 : BitVec 32) : Fin 2 → Nat :=
  let c0_i32_823 : BitVec 32 := 0#32
  ![v1848.toNat, 0]

def k0_chk206 (v1848 : BitVec 32) : Prop :=
  (∀ a, (k0_off412 v1848) a + S1x1024.size a ≤ S128000x1024.size a)
instance k0_chk206.dec : ∀ (v1848 : BitVec 32), Decidable (k0_chk206 v1848) := fun v1848 => decidable_of_iff' _ (Iff.of_eq (k0_chk206.eq_1 v1848))
theorem k0_off412_inb : ∀ (v1848 : BitVec 32) (k0_hw206 : k0_chk206 v1848), ∀ a, (k0_off412 v1848) a + S1x1024.size a ≤ S128000x1024.size a := fun v1848 k0_hw206 => k0_hw206

def k0_off413 (i : grid0.Coords) : Fin 1 → Nat :=
  let arg0 : BitVec 32 := BitVec.ofNat 32 (i 0).val
  let c256_i32 : BitVec 32 := 256#32
  let v0 : BitVec 32 := Scalar.muli arg0 c256_i32
  let c206_i32 : BitVec 32 := 206#32
  let v1855 : BitVec 32 := Scalar.addi v0 c206_i32
  let v1856 : Index := Scalar.indexCast v1855
  ![v1856.toNat]
def k0_off414 (v1857 : BitVec 32) : Fin 2 → Nat :=
  let c0_i32_827 : BitVec 32 := 0#32
  ![v1857.toNat, 0]

def k0_chk207 (v1857 : BitVec 32) : Prop :=
  (∀ a, (k0_off414 v1857) a + S1x1024.size a ≤ S128000x1024.size a)
instance k0_chk207.dec : ∀ (v1857 : BitVec 32), Decidable (k0_chk207 v1857) := fun v1857 => decidable_of_iff' _ (Iff.of_eq (k0_chk207.eq_1 v1857))
theorem k0_off414_inb : ∀ (v1857 : BitVec 32) (k0_hw207 : k0_chk207 v1857), ∀ a, (k0_off414 v1857) a + S1x1024.size a ≤ S128000x1024.size a := fun v1857 k0_hw207 => k0_hw207

def k0_off415 (i : grid0.Coords) : Fin 1 → Nat :=
  let arg0 : BitVec 32 := BitVec.ofNat 32 (i 0).val
  let c256_i32 : BitVec 32 := 256#32
  let v0 : BitVec 32 := Scalar.muli arg0 c256_i32
  let c207_i32 : BitVec 32 := 207#32
  let v1864 : BitVec 32 := Scalar.addi v0 c207_i32
  let v1865 : Index := Scalar.indexCast v1864
  ![v1865.toNat]
def k0_off416 (v1866 : BitVec 32) : Fin 2 → Nat :=
  let c0_i32_831 : BitVec 32 := 0#32
  ![v1866.toNat, 0]

def k0_chk208 (v1866 : BitVec 32) : Prop :=
  (∀ a, (k0_off416 v1866) a + S1x1024.size a ≤ S128000x1024.size a)
instance k0_chk208.dec : ∀ (v1866 : BitVec 32), Decidable (k0_chk208 v1866) := fun v1866 => decidable_of_iff' _ (Iff.of_eq (k0_chk208.eq_1 v1866))
theorem k0_off416_inb : ∀ (v1866 : BitVec 32) (k0_hw208 : k0_chk208 v1866), ∀ a, (k0_off416 v1866) a + S1x1024.size a ≤ S128000x1024.size a := fun v1866 k0_hw208 => k0_hw208

def k0_off417 (i : grid0.Coords) : Fin 1 → Nat :=
  let arg0 : BitVec 32 := BitVec.ofNat 32 (i 0).val
  let c256_i32 : BitVec 32 := 256#32
  let v0 : BitVec 32 := Scalar.muli arg0 c256_i32
  let c208_i32 : BitVec 32 := 208#32
  let v1873 : BitVec 32 := Scalar.addi v0 c208_i32
  let v1874 : Index := Scalar.indexCast v1873
  ![v1874.toNat]
def k0_off418 (v1875 : BitVec 32) : Fin 2 → Nat :=
  let c0_i32_835 : BitVec 32 := 0#32
  ![v1875.toNat, 0]

def k0_chk209 (v1875 : BitVec 32) : Prop :=
  (∀ a, (k0_off418 v1875) a + S1x1024.size a ≤ S128000x1024.size a)
instance k0_chk209.dec : ∀ (v1875 : BitVec 32), Decidable (k0_chk209 v1875) := fun v1875 => decidable_of_iff' _ (Iff.of_eq (k0_chk209.eq_1 v1875))
theorem k0_off418_inb : ∀ (v1875 : BitVec 32) (k0_hw209 : k0_chk209 v1875), ∀ a, (k0_off418 v1875) a + S1x1024.size a ≤ S128000x1024.size a := fun v1875 k0_hw209 => k0_hw209

def k0_off419 (i : grid0.Coords) : Fin 1 → Nat :=
  let arg0 : BitVec 32 := BitVec.ofNat 32 (i 0).val
  let c256_i32 : BitVec 32 := 256#32
  let v0 : BitVec 32 := Scalar.muli arg0 c256_i32
  let c209_i32 : BitVec 32 := 209#32
  let v1882 : BitVec 32 := Scalar.addi v0 c209_i32
  let v1883 : Index := Scalar.indexCast v1882
  ![v1883.toNat]
def k0_off420 (v1884 : BitVec 32) : Fin 2 → Nat :=
  let c0_i32_839 : BitVec 32 := 0#32
  ![v1884.toNat, 0]

def k0_chk210 (v1884 : BitVec 32) : Prop :=
  (∀ a, (k0_off420 v1884) a + S1x1024.size a ≤ S128000x1024.size a)
instance k0_chk210.dec : ∀ (v1884 : BitVec 32), Decidable (k0_chk210 v1884) := fun v1884 => decidable_of_iff' _ (Iff.of_eq (k0_chk210.eq_1 v1884))
theorem k0_off420_inb : ∀ (v1884 : BitVec 32) (k0_hw210 : k0_chk210 v1884), ∀ a, (k0_off420 v1884) a + S1x1024.size a ≤ S128000x1024.size a := fun v1884 k0_hw210 => k0_hw210

def k0_off421 (i : grid0.Coords) : Fin 1 → Nat :=
  let arg0 : BitVec 32 := BitVec.ofNat 32 (i 0).val
  let c256_i32 : BitVec 32 := 256#32
  let v0 : BitVec 32 := Scalar.muli arg0 c256_i32
  let c210_i32 : BitVec 32 := 210#32
  let v1891 : BitVec 32 := Scalar.addi v0 c210_i32
  let v1892 : Index := Scalar.indexCast v1891
  ![v1892.toNat]
def k0_off422 (v1893 : BitVec 32) : Fin 2 → Nat :=
  let c0_i32_843 : BitVec 32 := 0#32
  ![v1893.toNat, 0]

def k0_chk211 (v1893 : BitVec 32) : Prop :=
  (∀ a, (k0_off422 v1893) a + S1x1024.size a ≤ S128000x1024.size a)
instance k0_chk211.dec : ∀ (v1893 : BitVec 32), Decidable (k0_chk211 v1893) := fun v1893 => decidable_of_iff' _ (Iff.of_eq (k0_chk211.eq_1 v1893))
theorem k0_off422_inb : ∀ (v1893 : BitVec 32) (k0_hw211 : k0_chk211 v1893), ∀ a, (k0_off422 v1893) a + S1x1024.size a ≤ S128000x1024.size a := fun v1893 k0_hw211 => k0_hw211

def k0_off423 (i : grid0.Coords) : Fin 1 → Nat :=
  let arg0 : BitVec 32 := BitVec.ofNat 32 (i 0).val
  let c256_i32 : BitVec 32 := 256#32
  let v0 : BitVec 32 := Scalar.muli arg0 c256_i32
  let c211_i32 : BitVec 32 := 211#32
  let v1900 : BitVec 32 := Scalar.addi v0 c211_i32
  let v1901 : Index := Scalar.indexCast v1900
  ![v1901.toNat]
def k0_off424 (v1902 : BitVec 32) : Fin 2 → Nat :=
  let c0_i32_847 : BitVec 32 := 0#32
  ![v1902.toNat, 0]

def k0_chk212 (v1902 : BitVec 32) : Prop :=
  (∀ a, (k0_off424 v1902) a + S1x1024.size a ≤ S128000x1024.size a)
instance k0_chk212.dec : ∀ (v1902 : BitVec 32), Decidable (k0_chk212 v1902) := fun v1902 => decidable_of_iff' _ (Iff.of_eq (k0_chk212.eq_1 v1902))
theorem k0_off424_inb : ∀ (v1902 : BitVec 32) (k0_hw212 : k0_chk212 v1902), ∀ a, (k0_off424 v1902) a + S1x1024.size a ≤ S128000x1024.size a := fun v1902 k0_hw212 => k0_hw212

def k0_off425 (i : grid0.Coords) : Fin 1 → Nat :=
  let arg0 : BitVec 32 := BitVec.ofNat 32 (i 0).val
  let c256_i32 : BitVec 32 := 256#32
  let v0 : BitVec 32 := Scalar.muli arg0 c256_i32
  let c212_i32 : BitVec 32 := 212#32
  let v1909 : BitVec 32 := Scalar.addi v0 c212_i32
  let v1910 : Index := Scalar.indexCast v1909
  ![v1910.toNat]
def k0_off426 (v1911 : BitVec 32) : Fin 2 → Nat :=
  let c0_i32_851 : BitVec 32 := 0#32
  ![v1911.toNat, 0]

def k0_chk213 (v1911 : BitVec 32) : Prop :=
  (∀ a, (k0_off426 v1911) a + S1x1024.size a ≤ S128000x1024.size a)
instance k0_chk213.dec : ∀ (v1911 : BitVec 32), Decidable (k0_chk213 v1911) := fun v1911 => decidable_of_iff' _ (Iff.of_eq (k0_chk213.eq_1 v1911))
theorem k0_off426_inb : ∀ (v1911 : BitVec 32) (k0_hw213 : k0_chk213 v1911), ∀ a, (k0_off426 v1911) a + S1x1024.size a ≤ S128000x1024.size a := fun v1911 k0_hw213 => k0_hw213

def k0_off427 (i : grid0.Coords) : Fin 1 → Nat :=
  let arg0 : BitVec 32 := BitVec.ofNat 32 (i 0).val
  let c256_i32 : BitVec 32 := 256#32
  let v0 : BitVec 32 := Scalar.muli arg0 c256_i32
  let c213_i32 : BitVec 32 := 213#32
  let v1918 : BitVec 32 := Scalar.addi v0 c213_i32
  let v1919 : Index := Scalar.indexCast v1918
  ![v1919.toNat]
def k0_off428 (v1920 : BitVec 32) : Fin 2 → Nat :=
  let c0_i32_855 : BitVec 32 := 0#32
  ![v1920.toNat, 0]

def k0_chk214 (v1920 : BitVec 32) : Prop :=
  (∀ a, (k0_off428 v1920) a + S1x1024.size a ≤ S128000x1024.size a)
instance k0_chk214.dec : ∀ (v1920 : BitVec 32), Decidable (k0_chk214 v1920) := fun v1920 => decidable_of_iff' _ (Iff.of_eq (k0_chk214.eq_1 v1920))
theorem k0_off428_inb : ∀ (v1920 : BitVec 32) (k0_hw214 : k0_chk214 v1920), ∀ a, (k0_off428 v1920) a + S1x1024.size a ≤ S128000x1024.size a := fun v1920 k0_hw214 => k0_hw214

def k0_off429 (i : grid0.Coords) : Fin 1 → Nat :=
  let arg0 : BitVec 32 := BitVec.ofNat 32 (i 0).val
  let c256_i32 : BitVec 32 := 256#32
  let v0 : BitVec 32 := Scalar.muli arg0 c256_i32
  let c214_i32 : BitVec 32 := 214#32
  let v1927 : BitVec 32 := Scalar.addi v0 c214_i32
  let v1928 : Index := Scalar.indexCast v1927
  ![v1928.toNat]
def k0_off430 (v1929 : BitVec 32) : Fin 2 → Nat :=
  let c0_i32_859 : BitVec 32 := 0#32
  ![v1929.toNat, 0]

def k0_chk215 (v1929 : BitVec 32) : Prop :=
  (∀ a, (k0_off430 v1929) a + S1x1024.size a ≤ S128000x1024.size a)
instance k0_chk215.dec : ∀ (v1929 : BitVec 32), Decidable (k0_chk215 v1929) := fun v1929 => decidable_of_iff' _ (Iff.of_eq (k0_chk215.eq_1 v1929))
theorem k0_off430_inb : ∀ (v1929 : BitVec 32) (k0_hw215 : k0_chk215 v1929), ∀ a, (k0_off430 v1929) a + S1x1024.size a ≤ S128000x1024.size a := fun v1929 k0_hw215 => k0_hw215

def k0_off431 (i : grid0.Coords) : Fin 1 → Nat :=
  let arg0 : BitVec 32 := BitVec.ofNat 32 (i 0).val
  let c256_i32 : BitVec 32 := 256#32
  let v0 : BitVec 32 := Scalar.muli arg0 c256_i32
  let c215_i32 : BitVec 32 := 215#32
  let v1936 : BitVec 32 := Scalar.addi v0 c215_i32
  let v1937 : Index := Scalar.indexCast v1936
  ![v1937.toNat]
def k0_off432 (v1938 : BitVec 32) : Fin 2 → Nat :=
  let c0_i32_863 : BitVec 32 := 0#32
  ![v1938.toNat, 0]

def k0_chk216 (v1938 : BitVec 32) : Prop :=
  (∀ a, (k0_off432 v1938) a + S1x1024.size a ≤ S128000x1024.size a)
instance k0_chk216.dec : ∀ (v1938 : BitVec 32), Decidable (k0_chk216 v1938) := fun v1938 => decidable_of_iff' _ (Iff.of_eq (k0_chk216.eq_1 v1938))
theorem k0_off432_inb : ∀ (v1938 : BitVec 32) (k0_hw216 : k0_chk216 v1938), ∀ a, (k0_off432 v1938) a + S1x1024.size a ≤ S128000x1024.size a := fun v1938 k0_hw216 => k0_hw216

def k0_off433 (i : grid0.Coords) : Fin 1 → Nat :=
  let arg0 : BitVec 32 := BitVec.ofNat 32 (i 0).val
  let c256_i32 : BitVec 32 := 256#32
  let v0 : BitVec 32 := Scalar.muli arg0 c256_i32
  let c216_i32 : BitVec 32 := 216#32
  let v1945 : BitVec 32 := Scalar.addi v0 c216_i32
  let v1946 : Index := Scalar.indexCast v1945
  ![v1946.toNat]
def k0_off434 (v1947 : BitVec 32) : Fin 2 → Nat :=
  let c0_i32_867 : BitVec 32 := 0#32
  ![v1947.toNat, 0]

def k0_chk217 (v1947 : BitVec 32) : Prop :=
  (∀ a, (k0_off434 v1947) a + S1x1024.size a ≤ S128000x1024.size a)
instance k0_chk217.dec : ∀ (v1947 : BitVec 32), Decidable (k0_chk217 v1947) := fun v1947 => decidable_of_iff' _ (Iff.of_eq (k0_chk217.eq_1 v1947))
theorem k0_off434_inb : ∀ (v1947 : BitVec 32) (k0_hw217 : k0_chk217 v1947), ∀ a, (k0_off434 v1947) a + S1x1024.size a ≤ S128000x1024.size a := fun v1947 k0_hw217 => k0_hw217

def k0_off435 (i : grid0.Coords) : Fin 1 → Nat :=
  let arg0 : BitVec 32 := BitVec.ofNat 32 (i 0).val
  let c256_i32 : BitVec 32 := 256#32
  let v0 : BitVec 32 := Scalar.muli arg0 c256_i32
  let c217_i32 : BitVec 32 := 217#32
  let v1954 : BitVec 32 := Scalar.addi v0 c217_i32
  let v1955 : Index := Scalar.indexCast v1954
  ![v1955.toNat]
def k0_off436 (v1956 : BitVec 32) : Fin 2 → Nat :=
  let c0_i32_871 : BitVec 32 := 0#32
  ![v1956.toNat, 0]

def k0_chk218 (v1956 : BitVec 32) : Prop :=
  (∀ a, (k0_off436 v1956) a + S1x1024.size a ≤ S128000x1024.size a)
instance k0_chk218.dec : ∀ (v1956 : BitVec 32), Decidable (k0_chk218 v1956) := fun v1956 => decidable_of_iff' _ (Iff.of_eq (k0_chk218.eq_1 v1956))
theorem k0_off436_inb : ∀ (v1956 : BitVec 32) (k0_hw218 : k0_chk218 v1956), ∀ a, (k0_off436 v1956) a + S1x1024.size a ≤ S128000x1024.size a := fun v1956 k0_hw218 => k0_hw218

def k0_off437 (i : grid0.Coords) : Fin 1 → Nat :=
  let arg0 : BitVec 32 := BitVec.ofNat 32 (i 0).val
  let c256_i32 : BitVec 32 := 256#32
  let v0 : BitVec 32 := Scalar.muli arg0 c256_i32
  let c218_i32 : BitVec 32 := 218#32
  let v1963 : BitVec 32 := Scalar.addi v0 c218_i32
  let v1964 : Index := Scalar.indexCast v1963
  ![v1964.toNat]
def k0_off438 (v1965 : BitVec 32) : Fin 2 → Nat :=
  let c0_i32_875 : BitVec 32 := 0#32
  ![v1965.toNat, 0]

def k0_chk219 (v1965 : BitVec 32) : Prop :=
  (∀ a, (k0_off438 v1965) a + S1x1024.size a ≤ S128000x1024.size a)
instance k0_chk219.dec : ∀ (v1965 : BitVec 32), Decidable (k0_chk219 v1965) := fun v1965 => decidable_of_iff' _ (Iff.of_eq (k0_chk219.eq_1 v1965))
theorem k0_off438_inb : ∀ (v1965 : BitVec 32) (k0_hw219 : k0_chk219 v1965), ∀ a, (k0_off438 v1965) a + S1x1024.size a ≤ S128000x1024.size a := fun v1965 k0_hw219 => k0_hw219

def k0_off439 (i : grid0.Coords) : Fin 1 → Nat :=
  let arg0 : BitVec 32 := BitVec.ofNat 32 (i 0).val
  let c256_i32 : BitVec 32 := 256#32
  let v0 : BitVec 32 := Scalar.muli arg0 c256_i32
  let c219_i32 : BitVec 32 := 219#32
  let v1972 : BitVec 32 := Scalar.addi v0 c219_i32
  let v1973 : Index := Scalar.indexCast v1972
  ![v1973.toNat]
def k0_off440 (v1974 : BitVec 32) : Fin 2 → Nat :=
  let c0_i32_879 : BitVec 32 := 0#32
  ![v1974.toNat, 0]

def k0_chk220 (v1974 : BitVec 32) : Prop :=
  (∀ a, (k0_off440 v1974) a + S1x1024.size a ≤ S128000x1024.size a)
instance k0_chk220.dec : ∀ (v1974 : BitVec 32), Decidable (k0_chk220 v1974) := fun v1974 => decidable_of_iff' _ (Iff.of_eq (k0_chk220.eq_1 v1974))
theorem k0_off440_inb : ∀ (v1974 : BitVec 32) (k0_hw220 : k0_chk220 v1974), ∀ a, (k0_off440 v1974) a + S1x1024.size a ≤ S128000x1024.size a := fun v1974 k0_hw220 => k0_hw220

def k0_off441 (i : grid0.Coords) : Fin 1 → Nat :=
  let arg0 : BitVec 32 := BitVec.ofNat 32 (i 0).val
  let c256_i32 : BitVec 32 := 256#32
  let v0 : BitVec 32 := Scalar.muli arg0 c256_i32
  let c220_i32 : BitVec 32 := 220#32
  let v1981 : BitVec 32 := Scalar.addi v0 c220_i32
  let v1982 : Index := Scalar.indexCast v1981
  ![v1982.toNat]
def k0_off442 (v1983 : BitVec 32) : Fin 2 → Nat :=
  let c0_i32_883 : BitVec 32 := 0#32
  ![v1983.toNat, 0]

def k0_chk221 (v1983 : BitVec 32) : Prop :=
  (∀ a, (k0_off442 v1983) a + S1x1024.size a ≤ S128000x1024.size a)
instance k0_chk221.dec : ∀ (v1983 : BitVec 32), Decidable (k0_chk221 v1983) := fun v1983 => decidable_of_iff' _ (Iff.of_eq (k0_chk221.eq_1 v1983))
theorem k0_off442_inb : ∀ (v1983 : BitVec 32) (k0_hw221 : k0_chk221 v1983), ∀ a, (k0_off442 v1983) a + S1x1024.size a ≤ S128000x1024.size a := fun v1983 k0_hw221 => k0_hw221

def k0_off443 (i : grid0.Coords) : Fin 1 → Nat :=
  let arg0 : BitVec 32 := BitVec.ofNat 32 (i 0).val
  let c256_i32 : BitVec 32 := 256#32
  let v0 : BitVec 32 := Scalar.muli arg0 c256_i32
  let c221_i32 : BitVec 32 := 221#32
  let v1990 : BitVec 32 := Scalar.addi v0 c221_i32
  let v1991 : Index := Scalar.indexCast v1990
  ![v1991.toNat]
def k0_off444 (v1992 : BitVec 32) : Fin 2 → Nat :=
  let c0_i32_887 : BitVec 32 := 0#32
  ![v1992.toNat, 0]

def k0_chk222 (v1992 : BitVec 32) : Prop :=
  (∀ a, (k0_off444 v1992) a + S1x1024.size a ≤ S128000x1024.size a)
instance k0_chk222.dec : ∀ (v1992 : BitVec 32), Decidable (k0_chk222 v1992) := fun v1992 => decidable_of_iff' _ (Iff.of_eq (k0_chk222.eq_1 v1992))
theorem k0_off444_inb : ∀ (v1992 : BitVec 32) (k0_hw222 : k0_chk222 v1992), ∀ a, (k0_off444 v1992) a + S1x1024.size a ≤ S128000x1024.size a := fun v1992 k0_hw222 => k0_hw222

def k0_off445 (i : grid0.Coords) : Fin 1 → Nat :=
  let arg0 : BitVec 32 := BitVec.ofNat 32 (i 0).val
  let c256_i32 : BitVec 32 := 256#32
  let v0 : BitVec 32 := Scalar.muli arg0 c256_i32
  let c222_i32 : BitVec 32 := 222#32
  let v1999 : BitVec 32 := Scalar.addi v0 c222_i32
  let v2000 : Index := Scalar.indexCast v1999
  ![v2000.toNat]
def k0_off446 (v2001 : BitVec 32) : Fin 2 → Nat :=
  let c0_i32_891 : BitVec 32 := 0#32
  ![v2001.toNat, 0]

def k0_chk223 (v2001 : BitVec 32) : Prop :=
  (∀ a, (k0_off446 v2001) a + S1x1024.size a ≤ S128000x1024.size a)
instance k0_chk223.dec : ∀ (v2001 : BitVec 32), Decidable (k0_chk223 v2001) := fun v2001 => decidable_of_iff' _ (Iff.of_eq (k0_chk223.eq_1 v2001))
theorem k0_off446_inb : ∀ (v2001 : BitVec 32) (k0_hw223 : k0_chk223 v2001), ∀ a, (k0_off446 v2001) a + S1x1024.size a ≤ S128000x1024.size a := fun v2001 k0_hw223 => k0_hw223

def k0_off447 (i : grid0.Coords) : Fin 1 → Nat :=
  let arg0 : BitVec 32 := BitVec.ofNat 32 (i 0).val
  let c256_i32 : BitVec 32 := 256#32
  let v0 : BitVec 32 := Scalar.muli arg0 c256_i32
  let c223_i32 : BitVec 32 := 223#32
  let v2008 : BitVec 32 := Scalar.addi v0 c223_i32
  let v2009 : Index := Scalar.indexCast v2008
  ![v2009.toNat]
def k0_off448 (v2010 : BitVec 32) : Fin 2 → Nat :=
  let c0_i32_895 : BitVec 32 := 0#32
  ![v2010.toNat, 0]

def k0_chk224 (v2010 : BitVec 32) : Prop :=
  (∀ a, (k0_off448 v2010) a + S1x1024.size a ≤ S128000x1024.size a)
instance k0_chk224.dec : ∀ (v2010 : BitVec 32), Decidable (k0_chk224 v2010) := fun v2010 => decidable_of_iff' _ (Iff.of_eq (k0_chk224.eq_1 v2010))
theorem k0_off448_inb : ∀ (v2010 : BitVec 32) (k0_hw224 : k0_chk224 v2010), ∀ a, (k0_off448 v2010) a + S1x1024.size a ≤ S128000x1024.size a := fun v2010 k0_hw224 => k0_hw224

def k0_off449 (i : grid0.Coords) : Fin 1 → Nat :=
  let arg0 : BitVec 32 := BitVec.ofNat 32 (i 0).val
  let c256_i32 : BitVec 32 := 256#32
  let v0 : BitVec 32 := Scalar.muli arg0 c256_i32
  let c224_i32 : BitVec 32 := 224#32
  let v2017 : BitVec 32 := Scalar.addi v0 c224_i32
  let v2018 : Index := Scalar.indexCast v2017
  ![v2018.toNat]
def k0_off450 (v2019 : BitVec 32) : Fin 2 → Nat :=
  let c0_i32_899 : BitVec 32 := 0#32
  ![v2019.toNat, 0]

def k0_chk225 (v2019 : BitVec 32) : Prop :=
  (∀ a, (k0_off450 v2019) a + S1x1024.size a ≤ S128000x1024.size a)
instance k0_chk225.dec : ∀ (v2019 : BitVec 32), Decidable (k0_chk225 v2019) := fun v2019 => decidable_of_iff' _ (Iff.of_eq (k0_chk225.eq_1 v2019))
theorem k0_off450_inb : ∀ (v2019 : BitVec 32) (k0_hw225 : k0_chk225 v2019), ∀ a, (k0_off450 v2019) a + S1x1024.size a ≤ S128000x1024.size a := fun v2019 k0_hw225 => k0_hw225

def k0_off451 (i : grid0.Coords) : Fin 1 → Nat :=
  let arg0 : BitVec 32 := BitVec.ofNat 32 (i 0).val
  let c256_i32 : BitVec 32 := 256#32
  let v0 : BitVec 32 := Scalar.muli arg0 c256_i32
  let c225_i32 : BitVec 32 := 225#32
  let v2026 : BitVec 32 := Scalar.addi v0 c225_i32
  let v2027 : Index := Scalar.indexCast v2026
  ![v2027.toNat]
def k0_off452 (v2028 : BitVec 32) : Fin 2 → Nat :=
  let c0_i32_903 : BitVec 32 := 0#32
  ![v2028.toNat, 0]

def k0_chk226 (v2028 : BitVec 32) : Prop :=
  (∀ a, (k0_off452 v2028) a + S1x1024.size a ≤ S128000x1024.size a)
instance k0_chk226.dec : ∀ (v2028 : BitVec 32), Decidable (k0_chk226 v2028) := fun v2028 => decidable_of_iff' _ (Iff.of_eq (k0_chk226.eq_1 v2028))
theorem k0_off452_inb : ∀ (v2028 : BitVec 32) (k0_hw226 : k0_chk226 v2028), ∀ a, (k0_off452 v2028) a + S1x1024.size a ≤ S128000x1024.size a := fun v2028 k0_hw226 => k0_hw226

def k0_off453 (i : grid0.Coords) : Fin 1 → Nat :=
  let arg0 : BitVec 32 := BitVec.ofNat 32 (i 0).val
  let c256_i32 : BitVec 32 := 256#32
  let v0 : BitVec 32 := Scalar.muli arg0 c256_i32
  let c226_i32 : BitVec 32 := 226#32
  let v2035 : BitVec 32 := Scalar.addi v0 c226_i32
  let v2036 : Index := Scalar.indexCast v2035
  ![v2036.toNat]
def k0_off454 (v2037 : BitVec 32) : Fin 2 → Nat :=
  let c0_i32_907 : BitVec 32 := 0#32
  ![v2037.toNat, 0]

def k0_chk227 (v2037 : BitVec 32) : Prop :=
  (∀ a, (k0_off454 v2037) a + S1x1024.size a ≤ S128000x1024.size a)
instance k0_chk227.dec : ∀ (v2037 : BitVec 32), Decidable (k0_chk227 v2037) := fun v2037 => decidable_of_iff' _ (Iff.of_eq (k0_chk227.eq_1 v2037))
theorem k0_off454_inb : ∀ (v2037 : BitVec 32) (k0_hw227 : k0_chk227 v2037), ∀ a, (k0_off454 v2037) a + S1x1024.size a ≤ S128000x1024.size a := fun v2037 k0_hw227 => k0_hw227

def k0_off455 (i : grid0.Coords) : Fin 1 → Nat :=
  let arg0 : BitVec 32 := BitVec.ofNat 32 (i 0).val
  let c256_i32 : BitVec 32 := 256#32
  let v0 : BitVec 32 := Scalar.muli arg0 c256_i32
  let c227_i32 : BitVec 32 := 227#32
  let v2044 : BitVec 32 := Scalar.addi v0 c227_i32
  let v2045 : Index := Scalar.indexCast v2044
  ![v2045.toNat]
def k0_off456 (v2046 : BitVec 32) : Fin 2 → Nat :=
  let c0_i32_911 : BitVec 32 := 0#32
  ![v2046.toNat, 0]

def k0_chk228 (v2046 : BitVec 32) : Prop :=
  (∀ a, (k0_off456 v2046) a + S1x1024.size a ≤ S128000x1024.size a)
instance k0_chk228.dec : ∀ (v2046 : BitVec 32), Decidable (k0_chk228 v2046) := fun v2046 => decidable_of_iff' _ (Iff.of_eq (k0_chk228.eq_1 v2046))
theorem k0_off456_inb : ∀ (v2046 : BitVec 32) (k0_hw228 : k0_chk228 v2046), ∀ a, (k0_off456 v2046) a + S1x1024.size a ≤ S128000x1024.size a := fun v2046 k0_hw228 => k0_hw228

def k0_off457 (i : grid0.Coords) : Fin 1 → Nat :=
  let arg0 : BitVec 32 := BitVec.ofNat 32 (i 0).val
  let c256_i32 : BitVec 32 := 256#32
  let v0 : BitVec 32 := Scalar.muli arg0 c256_i32
  let c228_i32 : BitVec 32 := 228#32
  let v2053 : BitVec 32 := Scalar.addi v0 c228_i32
  let v2054 : Index := Scalar.indexCast v2053
  ![v2054.toNat]
def k0_off458 (v2055 : BitVec 32) : Fin 2 → Nat :=
  let c0_i32_915 : BitVec 32 := 0#32
  ![v2055.toNat, 0]

def k0_chk229 (v2055 : BitVec 32) : Prop :=
  (∀ a, (k0_off458 v2055) a + S1x1024.size a ≤ S128000x1024.size a)
instance k0_chk229.dec : ∀ (v2055 : BitVec 32), Decidable (k0_chk229 v2055) := fun v2055 => decidable_of_iff' _ (Iff.of_eq (k0_chk229.eq_1 v2055))
theorem k0_off458_inb : ∀ (v2055 : BitVec 32) (k0_hw229 : k0_chk229 v2055), ∀ a, (k0_off458 v2055) a + S1x1024.size a ≤ S128000x1024.size a := fun v2055 k0_hw229 => k0_hw229

def k0_off459 (i : grid0.Coords) : Fin 1 → Nat :=
  let arg0 : BitVec 32 := BitVec.ofNat 32 (i 0).val
  let c256_i32 : BitVec 32 := 256#32
  let v0 : BitVec 32 := Scalar.muli arg0 c256_i32
  let c229_i32 : BitVec 32 := 229#32
  let v2062 : BitVec 32 := Scalar.addi v0 c229_i32
  let v2063 : Index := Scalar.indexCast v2062
  ![v2063.toNat]
def k0_off460 (v2064 : BitVec 32) : Fin 2 → Nat :=
  let c0_i32_919 : BitVec 32 := 0#32
  ![v2064.toNat, 0]

def k0_chk230 (v2064 : BitVec 32) : Prop :=
  (∀ a, (k0_off460 v2064) a + S1x1024.size a ≤ S128000x1024.size a)
instance k0_chk230.dec : ∀ (v2064 : BitVec 32), Decidable (k0_chk230 v2064) := fun v2064 => decidable_of_iff' _ (Iff.of_eq (k0_chk230.eq_1 v2064))
theorem k0_off460_inb : ∀ (v2064 : BitVec 32) (k0_hw230 : k0_chk230 v2064), ∀ a, (k0_off460 v2064) a + S1x1024.size a ≤ S128000x1024.size a := fun v2064 k0_hw230 => k0_hw230

def k0_off461 (i : grid0.Coords) : Fin 1 → Nat :=
  let arg0 : BitVec 32 := BitVec.ofNat 32 (i 0).val
  let c256_i32 : BitVec 32 := 256#32
  let v0 : BitVec 32 := Scalar.muli arg0 c256_i32
  let c230_i32 : BitVec 32 := 230#32
  let v2071 : BitVec 32 := Scalar.addi v0 c230_i32
  let v2072 : Index := Scalar.indexCast v2071
  ![v2072.toNat]
def k0_off462 (v2073 : BitVec 32) : Fin 2 → Nat :=
  let c0_i32_923 : BitVec 32 := 0#32
  ![v2073.toNat, 0]

def k0_chk231 (v2073 : BitVec 32) : Prop :=
  (∀ a, (k0_off462 v2073) a + S1x1024.size a ≤ S128000x1024.size a)
instance k0_chk231.dec : ∀ (v2073 : BitVec 32), Decidable (k0_chk231 v2073) := fun v2073 => decidable_of_iff' _ (Iff.of_eq (k0_chk231.eq_1 v2073))
theorem k0_off462_inb : ∀ (v2073 : BitVec 32) (k0_hw231 : k0_chk231 v2073), ∀ a, (k0_off462 v2073) a + S1x1024.size a ≤ S128000x1024.size a := fun v2073 k0_hw231 => k0_hw231

def k0_off463 (i : grid0.Coords) : Fin 1 → Nat :=
  let arg0 : BitVec 32 := BitVec.ofNat 32 (i 0).val
  let c256_i32 : BitVec 32 := 256#32
  let v0 : BitVec 32 := Scalar.muli arg0 c256_i32
  let c231_i32 : BitVec 32 := 231#32
  let v2080 : BitVec 32 := Scalar.addi v0 c231_i32
  let v2081 : Index := Scalar.indexCast v2080
  ![v2081.toNat]
def k0_off464 (v2082 : BitVec 32) : Fin 2 → Nat :=
  let c0_i32_927 : BitVec 32 := 0#32
  ![v2082.toNat, 0]

def k0_chk232 (v2082 : BitVec 32) : Prop :=
  (∀ a, (k0_off464 v2082) a + S1x1024.size a ≤ S128000x1024.size a)
instance k0_chk232.dec : ∀ (v2082 : BitVec 32), Decidable (k0_chk232 v2082) := fun v2082 => decidable_of_iff' _ (Iff.of_eq (k0_chk232.eq_1 v2082))
theorem k0_off464_inb : ∀ (v2082 : BitVec 32) (k0_hw232 : k0_chk232 v2082), ∀ a, (k0_off464 v2082) a + S1x1024.size a ≤ S128000x1024.size a := fun v2082 k0_hw232 => k0_hw232

def k0_off465 (i : grid0.Coords) : Fin 1 → Nat :=
  let arg0 : BitVec 32 := BitVec.ofNat 32 (i 0).val
  let c256_i32 : BitVec 32 := 256#32
  let v0 : BitVec 32 := Scalar.muli arg0 c256_i32
  let c232_i32 : BitVec 32 := 232#32
  let v2089 : BitVec 32 := Scalar.addi v0 c232_i32
  let v2090 : Index := Scalar.indexCast v2089
  ![v2090.toNat]
def k0_off466 (v2091 : BitVec 32) : Fin 2 → Nat :=
  let c0_i32_931 : BitVec 32 := 0#32
  ![v2091.toNat, 0]

def k0_chk233 (v2091 : BitVec 32) : Prop :=
  (∀ a, (k0_off466 v2091) a + S1x1024.size a ≤ S128000x1024.size a)
instance k0_chk233.dec : ∀ (v2091 : BitVec 32), Decidable (k0_chk233 v2091) := fun v2091 => decidable_of_iff' _ (Iff.of_eq (k0_chk233.eq_1 v2091))
theorem k0_off466_inb : ∀ (v2091 : BitVec 32) (k0_hw233 : k0_chk233 v2091), ∀ a, (k0_off466 v2091) a + S1x1024.size a ≤ S128000x1024.size a := fun v2091 k0_hw233 => k0_hw233

def k0_off467 (i : grid0.Coords) : Fin 1 → Nat :=
  let arg0 : BitVec 32 := BitVec.ofNat 32 (i 0).val
  let c256_i32 : BitVec 32 := 256#32
  let v0 : BitVec 32 := Scalar.muli arg0 c256_i32
  let c233_i32 : BitVec 32 := 233#32
  let v2098 : BitVec 32 := Scalar.addi v0 c233_i32
  let v2099 : Index := Scalar.indexCast v2098
  ![v2099.toNat]
def k0_off468 (v2100 : BitVec 32) : Fin 2 → Nat :=
  let c0_i32_935 : BitVec 32 := 0#32
  ![v2100.toNat, 0]

def k0_chk234 (v2100 : BitVec 32) : Prop :=
  (∀ a, (k0_off468 v2100) a + S1x1024.size a ≤ S128000x1024.size a)
instance k0_chk234.dec : ∀ (v2100 : BitVec 32), Decidable (k0_chk234 v2100) := fun v2100 => decidable_of_iff' _ (Iff.of_eq (k0_chk234.eq_1 v2100))
theorem k0_off468_inb : ∀ (v2100 : BitVec 32) (k0_hw234 : k0_chk234 v2100), ∀ a, (k0_off468 v2100) a + S1x1024.size a ≤ S128000x1024.size a := fun v2100 k0_hw234 => k0_hw234

def k0_off469 (i : grid0.Coords) : Fin 1 → Nat :=
  let arg0 : BitVec 32 := BitVec.ofNat 32 (i 0).val
  let c256_i32 : BitVec 32 := 256#32
  let v0 : BitVec 32 := Scalar.muli arg0 c256_i32
  let c234_i32 : BitVec 32 := 234#32
  let v2107 : BitVec 32 := Scalar.addi v0 c234_i32
  let v2108 : Index := Scalar.indexCast v2107
  ![v2108.toNat]
def k0_off470 (v2109 : BitVec 32) : Fin 2 → Nat :=
  let c0_i32_939 : BitVec 32 := 0#32
  ![v2109.toNat, 0]

def k0_chk235 (v2109 : BitVec 32) : Prop :=
  (∀ a, (k0_off470 v2109) a + S1x1024.size a ≤ S128000x1024.size a)
instance k0_chk235.dec : ∀ (v2109 : BitVec 32), Decidable (k0_chk235 v2109) := fun v2109 => decidable_of_iff' _ (Iff.of_eq (k0_chk235.eq_1 v2109))
theorem k0_off470_inb : ∀ (v2109 : BitVec 32) (k0_hw235 : k0_chk235 v2109), ∀ a, (k0_off470 v2109) a + S1x1024.size a ≤ S128000x1024.size a := fun v2109 k0_hw235 => k0_hw235

def k0_off471 (i : grid0.Coords) : Fin 1 → Nat :=
  let arg0 : BitVec 32 := BitVec.ofNat 32 (i 0).val
  let c256_i32 : BitVec 32 := 256#32
  let v0 : BitVec 32 := Scalar.muli arg0 c256_i32
  let c235_i32 : BitVec 32 := 235#32
  let v2116 : BitVec 32 := Scalar.addi v0 c235_i32
  let v2117 : Index := Scalar.indexCast v2116
  ![v2117.toNat]
def k0_off472 (v2118 : BitVec 32) : Fin 2 → Nat :=
  let c0_i32_943 : BitVec 32 := 0#32
  ![v2118.toNat, 0]

def k0_chk236 (v2118 : BitVec 32) : Prop :=
  (∀ a, (k0_off472 v2118) a + S1x1024.size a ≤ S128000x1024.size a)
instance k0_chk236.dec : ∀ (v2118 : BitVec 32), Decidable (k0_chk236 v2118) := fun v2118 => decidable_of_iff' _ (Iff.of_eq (k0_chk236.eq_1 v2118))
theorem k0_off472_inb : ∀ (v2118 : BitVec 32) (k0_hw236 : k0_chk236 v2118), ∀ a, (k0_off472 v2118) a + S1x1024.size a ≤ S128000x1024.size a := fun v2118 k0_hw236 => k0_hw236

def k0_off473 (i : grid0.Coords) : Fin 1 → Nat :=
  let arg0 : BitVec 32 := BitVec.ofNat 32 (i 0).val
  let c256_i32 : BitVec 32 := 256#32
  let v0 : BitVec 32 := Scalar.muli arg0 c256_i32
  let c236_i32 : BitVec 32 := 236#32
  let v2125 : BitVec 32 := Scalar.addi v0 c236_i32
  let v2126 : Index := Scalar.indexCast v2125
  ![v2126.toNat]
def k0_off474 (v2127 : BitVec 32) : Fin 2 → Nat :=
  let c0_i32_947 : BitVec 32 := 0#32
  ![v2127.toNat, 0]

def k0_chk237 (v2127 : BitVec 32) : Prop :=
  (∀ a, (k0_off474 v2127) a + S1x1024.size a ≤ S128000x1024.size a)
instance k0_chk237.dec : ∀ (v2127 : BitVec 32), Decidable (k0_chk237 v2127) := fun v2127 => decidable_of_iff' _ (Iff.of_eq (k0_chk237.eq_1 v2127))
theorem k0_off474_inb : ∀ (v2127 : BitVec 32) (k0_hw237 : k0_chk237 v2127), ∀ a, (k0_off474 v2127) a + S1x1024.size a ≤ S128000x1024.size a := fun v2127 k0_hw237 => k0_hw237

def k0_off475 (i : grid0.Coords) : Fin 1 → Nat :=
  let arg0 : BitVec 32 := BitVec.ofNat 32 (i 0).val
  let c256_i32 : BitVec 32 := 256#32
  let v0 : BitVec 32 := Scalar.muli arg0 c256_i32
  let c237_i32 : BitVec 32 := 237#32
  let v2134 : BitVec 32 := Scalar.addi v0 c237_i32
  let v2135 : Index := Scalar.indexCast v2134
  ![v2135.toNat]
def k0_off476 (v2136 : BitVec 32) : Fin 2 → Nat :=
  let c0_i32_951 : BitVec 32 := 0#32
  ![v2136.toNat, 0]

def k0_chk238 (v2136 : BitVec 32) : Prop :=
  (∀ a, (k0_off476 v2136) a + S1x1024.size a ≤ S128000x1024.size a)
instance k0_chk238.dec : ∀ (v2136 : BitVec 32), Decidable (k0_chk238 v2136) := fun v2136 => decidable_of_iff' _ (Iff.of_eq (k0_chk238.eq_1 v2136))
theorem k0_off476_inb : ∀ (v2136 : BitVec 32) (k0_hw238 : k0_chk238 v2136), ∀ a, (k0_off476 v2136) a + S1x1024.size a ≤ S128000x1024.size a := fun v2136 k0_hw238 => k0_hw238

def k0_off477 (i : grid0.Coords) : Fin 1 → Nat :=
  let arg0 : BitVec 32 := BitVec.ofNat 32 (i 0).val
  let c256_i32 : BitVec 32 := 256#32
  let v0 : BitVec 32 := Scalar.muli arg0 c256_i32
  let c238_i32 : BitVec 32 := 238#32
  let v2143 : BitVec 32 := Scalar.addi v0 c238_i32
  let v2144 : Index := Scalar.indexCast v2143
  ![v2144.toNat]
def k0_off478 (v2145 : BitVec 32) : Fin 2 → Nat :=
  let c0_i32_955 : BitVec 32 := 0#32
  ![v2145.toNat, 0]

def k0_chk239 (v2145 : BitVec 32) : Prop :=
  (∀ a, (k0_off478 v2145) a + S1x1024.size a ≤ S128000x1024.size a)
instance k0_chk239.dec : ∀ (v2145 : BitVec 32), Decidable (k0_chk239 v2145) := fun v2145 => decidable_of_iff' _ (Iff.of_eq (k0_chk239.eq_1 v2145))
theorem k0_off478_inb : ∀ (v2145 : BitVec 32) (k0_hw239 : k0_chk239 v2145), ∀ a, (k0_off478 v2145) a + S1x1024.size a ≤ S128000x1024.size a := fun v2145 k0_hw239 => k0_hw239

def k0_off479 (i : grid0.Coords) : Fin 1 → Nat :=
  let arg0 : BitVec 32 := BitVec.ofNat 32 (i 0).val
  let c256_i32 : BitVec 32 := 256#32
  let v0 : BitVec 32 := Scalar.muli arg0 c256_i32
  let c239_i32 : BitVec 32 := 239#32
  let v2152 : BitVec 32 := Scalar.addi v0 c239_i32
  let v2153 : Index := Scalar.indexCast v2152
  ![v2153.toNat]
def k0_off480 (v2154 : BitVec 32) : Fin 2 → Nat :=
  let c0_i32_959 : BitVec 32 := 0#32
  ![v2154.toNat, 0]

def k0_chk240 (v2154 : BitVec 32) : Prop :=
  (∀ a, (k0_off480 v2154) a + S1x1024.size a ≤ S128000x1024.size a)
instance k0_chk240.dec : ∀ (v2154 : BitVec 32), Decidable (k0_chk240 v2154) := fun v2154 => decidable_of_iff' _ (Iff.of_eq (k0_chk240.eq_1 v2154))
theorem k0_off480_inb : ∀ (v2154 : BitVec 32) (k0_hw240 : k0_chk240 v2154), ∀ a, (k0_off480 v2154) a + S1x1024.size a ≤ S128000x1024.size a := fun v2154 k0_hw240 => k0_hw240

def k0_off481 (i : grid0.Coords) : Fin 1 → Nat :=
  let arg0 : BitVec 32 := BitVec.ofNat 32 (i 0).val
  let c256_i32 : BitVec 32 := 256#32
  let v0 : BitVec 32 := Scalar.muli arg0 c256_i32
  let c240_i32 : BitVec 32 := 240#32
  let v2161 : BitVec 32 := Scalar.addi v0 c240_i32
  let v2162 : Index := Scalar.indexCast v2161
  ![v2162.toNat]
def k0_off482 (v2163 : BitVec 32) : Fin 2 → Nat :=
  let c0_i32_963 : BitVec 32 := 0#32
  ![v2163.toNat, 0]

def k0_chk241 (v2163 : BitVec 32) : Prop :=
  (∀ a, (k0_off482 v2163) a + S1x1024.size a ≤ S128000x1024.size a)
instance k0_chk241.dec : ∀ (v2163 : BitVec 32), Decidable (k0_chk241 v2163) := fun v2163 => decidable_of_iff' _ (Iff.of_eq (k0_chk241.eq_1 v2163))
theorem k0_off482_inb : ∀ (v2163 : BitVec 32) (k0_hw241 : k0_chk241 v2163), ∀ a, (k0_off482 v2163) a + S1x1024.size a ≤ S128000x1024.size a := fun v2163 k0_hw241 => k0_hw241

def k0_off483 (i : grid0.Coords) : Fin 1 → Nat :=
  let arg0 : BitVec 32 := BitVec.ofNat 32 (i 0).val
  let c256_i32 : BitVec 32 := 256#32
  let v0 : BitVec 32 := Scalar.muli arg0 c256_i32
  let c241_i32 : BitVec 32 := 241#32
  let v2170 : BitVec 32 := Scalar.addi v0 c241_i32
  let v2171 : Index := Scalar.indexCast v2170
  ![v2171.toNat]
def k0_off484 (v2172 : BitVec 32) : Fin 2 → Nat :=
  let c0_i32_967 : BitVec 32 := 0#32
  ![v2172.toNat, 0]

def k0_chk242 (v2172 : BitVec 32) : Prop :=
  (∀ a, (k0_off484 v2172) a + S1x1024.size a ≤ S128000x1024.size a)
instance k0_chk242.dec : ∀ (v2172 : BitVec 32), Decidable (k0_chk242 v2172) := fun v2172 => decidable_of_iff' _ (Iff.of_eq (k0_chk242.eq_1 v2172))
theorem k0_off484_inb : ∀ (v2172 : BitVec 32) (k0_hw242 : k0_chk242 v2172), ∀ a, (k0_off484 v2172) a + S1x1024.size a ≤ S128000x1024.size a := fun v2172 k0_hw242 => k0_hw242

def k0_off485 (i : grid0.Coords) : Fin 1 → Nat :=
  let arg0 : BitVec 32 := BitVec.ofNat 32 (i 0).val
  let c256_i32 : BitVec 32 := 256#32
  let v0 : BitVec 32 := Scalar.muli arg0 c256_i32
  let c242_i32 : BitVec 32 := 242#32
  let v2179 : BitVec 32 := Scalar.addi v0 c242_i32
  let v2180 : Index := Scalar.indexCast v2179
  ![v2180.toNat]
def k0_off486 (v2181 : BitVec 32) : Fin 2 → Nat :=
  let c0_i32_971 : BitVec 32 := 0#32
  ![v2181.toNat, 0]

def k0_chk243 (v2181 : BitVec 32) : Prop :=
  (∀ a, (k0_off486 v2181) a + S1x1024.size a ≤ S128000x1024.size a)
instance k0_chk243.dec : ∀ (v2181 : BitVec 32), Decidable (k0_chk243 v2181) := fun v2181 => decidable_of_iff' _ (Iff.of_eq (k0_chk243.eq_1 v2181))
theorem k0_off486_inb : ∀ (v2181 : BitVec 32) (k0_hw243 : k0_chk243 v2181), ∀ a, (k0_off486 v2181) a + S1x1024.size a ≤ S128000x1024.size a := fun v2181 k0_hw243 => k0_hw243

def k0_off487 (i : grid0.Coords) : Fin 1 → Nat :=
  let arg0 : BitVec 32 := BitVec.ofNat 32 (i 0).val
  let c256_i32 : BitVec 32 := 256#32
  let v0 : BitVec 32 := Scalar.muli arg0 c256_i32
  let c243_i32 : BitVec 32 := 243#32
  let v2188 : BitVec 32 := Scalar.addi v0 c243_i32
  let v2189 : Index := Scalar.indexCast v2188
  ![v2189.toNat]
def k0_off488 (v2190 : BitVec 32) : Fin 2 → Nat :=
  let c0_i32_975 : BitVec 32 := 0#32
  ![v2190.toNat, 0]

def k0_chk244 (v2190 : BitVec 32) : Prop :=
  (∀ a, (k0_off488 v2190) a + S1x1024.size a ≤ S128000x1024.size a)
instance k0_chk244.dec : ∀ (v2190 : BitVec 32), Decidable (k0_chk244 v2190) := fun v2190 => decidable_of_iff' _ (Iff.of_eq (k0_chk244.eq_1 v2190))
theorem k0_off488_inb : ∀ (v2190 : BitVec 32) (k0_hw244 : k0_chk244 v2190), ∀ a, (k0_off488 v2190) a + S1x1024.size a ≤ S128000x1024.size a := fun v2190 k0_hw244 => k0_hw244

def k0_off489 (i : grid0.Coords) : Fin 1 → Nat :=
  let arg0 : BitVec 32 := BitVec.ofNat 32 (i 0).val
  let c256_i32 : BitVec 32 := 256#32
  let v0 : BitVec 32 := Scalar.muli arg0 c256_i32
  let c244_i32 : BitVec 32 := 244#32
  let v2197 : BitVec 32 := Scalar.addi v0 c244_i32
  let v2198 : Index := Scalar.indexCast v2197
  ![v2198.toNat]
def k0_off490 (v2199 : BitVec 32) : Fin 2 → Nat :=
  let c0_i32_979 : BitVec 32 := 0#32
  ![v2199.toNat, 0]

def k0_chk245 (v2199 : BitVec 32) : Prop :=
  (∀ a, (k0_off490 v2199) a + S1x1024.size a ≤ S128000x1024.size a)
instance k0_chk245.dec : ∀ (v2199 : BitVec 32), Decidable (k0_chk245 v2199) := fun v2199 => decidable_of_iff' _ (Iff.of_eq (k0_chk245.eq_1 v2199))
theorem k0_off490_inb : ∀ (v2199 : BitVec 32) (k0_hw245 : k0_chk245 v2199), ∀ a, (k0_off490 v2199) a + S1x1024.size a ≤ S128000x1024.size a := fun v2199 k0_hw245 => k0_hw245

def k0_off491 (i : grid0.Coords) : Fin 1 → Nat :=
  let arg0 : BitVec 32 := BitVec.ofNat 32 (i 0).val
  let c256_i32 : BitVec 32 := 256#32
  let v0 : BitVec 32 := Scalar.muli arg0 c256_i32
  let c245_i32 : BitVec 32 := 245#32
  let v2206 : BitVec 32 := Scalar.addi v0 c245_i32
  let v2207 : Index := Scalar.indexCast v2206
  ![v2207.toNat]
def k0_off492 (v2208 : BitVec 32) : Fin 2 → Nat :=
  let c0_i32_983 : BitVec 32 := 0#32
  ![v2208.toNat, 0]

def k0_chk246 (v2208 : BitVec 32) : Prop :=
  (∀ a, (k0_off492 v2208) a + S1x1024.size a ≤ S128000x1024.size a)
instance k0_chk246.dec : ∀ (v2208 : BitVec 32), Decidable (k0_chk246 v2208) := fun v2208 => decidable_of_iff' _ (Iff.of_eq (k0_chk246.eq_1 v2208))
theorem k0_off492_inb : ∀ (v2208 : BitVec 32) (k0_hw246 : k0_chk246 v2208), ∀ a, (k0_off492 v2208) a + S1x1024.size a ≤ S128000x1024.size a := fun v2208 k0_hw246 => k0_hw246

def k0_off493 (i : grid0.Coords) : Fin 1 → Nat :=
  let arg0 : BitVec 32 := BitVec.ofNat 32 (i 0).val
  let c256_i32 : BitVec 32 := 256#32
  let v0 : BitVec 32 := Scalar.muli arg0 c256_i32
  let c246_i32 : BitVec 32 := 246#32
  let v2215 : BitVec 32 := Scalar.addi v0 c246_i32
  let v2216 : Index := Scalar.indexCast v2215
  ![v2216.toNat]
def k0_off494 (v2217 : BitVec 32) : Fin 2 → Nat :=
  let c0_i32_987 : BitVec 32 := 0#32
  ![v2217.toNat, 0]

def k0_chk247 (v2217 : BitVec 32) : Prop :=
  (∀ a, (k0_off494 v2217) a + S1x1024.size a ≤ S128000x1024.size a)
instance k0_chk247.dec : ∀ (v2217 : BitVec 32), Decidable (k0_chk247 v2217) := fun v2217 => decidable_of_iff' _ (Iff.of_eq (k0_chk247.eq_1 v2217))
theorem k0_off494_inb : ∀ (v2217 : BitVec 32) (k0_hw247 : k0_chk247 v2217), ∀ a, (k0_off494 v2217) a + S1x1024.size a ≤ S128000x1024.size a := fun v2217 k0_hw247 => k0_hw247

def k0_off495 (i : grid0.Coords) : Fin 1 → Nat :=
  let arg0 : BitVec 32 := BitVec.ofNat 32 (i 0).val
  let c256_i32 : BitVec 32 := 256#32
  let v0 : BitVec 32 := Scalar.muli arg0 c256_i32
  let c247_i32 : BitVec 32 := 247#32
  let v2224 : BitVec 32 := Scalar.addi v0 c247_i32
  let v2225 : Index := Scalar.indexCast v2224
  ![v2225.toNat]
def k0_off496 (v2226 : BitVec 32) : Fin 2 → Nat :=
  let c0_i32_991 : BitVec 32 := 0#32
  ![v2226.toNat, 0]

def k0_chk248 (v2226 : BitVec 32) : Prop :=
  (∀ a, (k0_off496 v2226) a + S1x1024.size a ≤ S128000x1024.size a)
instance k0_chk248.dec : ∀ (v2226 : BitVec 32), Decidable (k0_chk248 v2226) := fun v2226 => decidable_of_iff' _ (Iff.of_eq (k0_chk248.eq_1 v2226))
theorem k0_off496_inb : ∀ (v2226 : BitVec 32) (k0_hw248 : k0_chk248 v2226), ∀ a, (k0_off496 v2226) a + S1x1024.size a ≤ S128000x1024.size a := fun v2226 k0_hw248 => k0_hw248

def k0_off497 (i : grid0.Coords) : Fin 1 → Nat :=
  let arg0 : BitVec 32 := BitVec.ofNat 32 (i 0).val
  let c256_i32 : BitVec 32 := 256#32
  let v0 : BitVec 32 := Scalar.muli arg0 c256_i32
  let c248_i32 : BitVec 32 := 248#32
  let v2233 : BitVec 32 := Scalar.addi v0 c248_i32
  let v2234 : Index := Scalar.indexCast v2233
  ![v2234.toNat]
def k0_off498 (v2235 : BitVec 32) : Fin 2 → Nat :=
  let c0_i32_995 : BitVec 32 := 0#32
  ![v2235.toNat, 0]

def k0_chk249 (v2235 : BitVec 32) : Prop :=
  (∀ a, (k0_off498 v2235) a + S1x1024.size a ≤ S128000x1024.size a)
instance k0_chk249.dec : ∀ (v2235 : BitVec 32), Decidable (k0_chk249 v2235) := fun v2235 => decidable_of_iff' _ (Iff.of_eq (k0_chk249.eq_1 v2235))
theorem k0_off498_inb : ∀ (v2235 : BitVec 32) (k0_hw249 : k0_chk249 v2235), ∀ a, (k0_off498 v2235) a + S1x1024.size a ≤ S128000x1024.size a := fun v2235 k0_hw249 => k0_hw249

def k0_off499 (i : grid0.Coords) : Fin 1 → Nat :=
  let arg0 : BitVec 32 := BitVec.ofNat 32 (i 0).val
  let c256_i32 : BitVec 32 := 256#32
  let v0 : BitVec 32 := Scalar.muli arg0 c256_i32
  let c249_i32 : BitVec 32 := 249#32
  let v2242 : BitVec 32 := Scalar.addi v0 c249_i32
  let v2243 : Index := Scalar.indexCast v2242
  ![v2243.toNat]
def k0_off500 (v2244 : BitVec 32) : Fin 2 → Nat :=
  let c0_i32_999 : BitVec 32 := 0#32
  ![v2244.toNat, 0]

def k0_chk250 (v2244 : BitVec 32) : Prop :=
  (∀ a, (k0_off500 v2244) a + S1x1024.size a ≤ S128000x1024.size a)
instance k0_chk250.dec : ∀ (v2244 : BitVec 32), Decidable (k0_chk250 v2244) := fun v2244 => decidable_of_iff' _ (Iff.of_eq (k0_chk250.eq_1 v2244))
theorem k0_off500_inb : ∀ (v2244 : BitVec 32) (k0_hw250 : k0_chk250 v2244), ∀ a, (k0_off500 v2244) a + S1x1024.size a ≤ S128000x1024.size a := fun v2244 k0_hw250 => k0_hw250

def k0_off501 (i : grid0.Coords) : Fin 1 → Nat :=
  let arg0 : BitVec 32 := BitVec.ofNat 32 (i 0).val
  let c256_i32 : BitVec 32 := 256#32
  let v0 : BitVec 32 := Scalar.muli arg0 c256_i32
  let c250_i32 : BitVec 32 := 250#32
  let v2251 : BitVec 32 := Scalar.addi v0 c250_i32
  let v2252 : Index := Scalar.indexCast v2251
  ![v2252.toNat]
def k0_off502 (v2253 : BitVec 32) : Fin 2 → Nat :=
  let c0_i32_1003 : BitVec 32 := 0#32
  ![v2253.toNat, 0]

def k0_chk251 (v2253 : BitVec 32) : Prop :=
  (∀ a, (k0_off502 v2253) a + S1x1024.size a ≤ S128000x1024.size a)
instance k0_chk251.dec : ∀ (v2253 : BitVec 32), Decidable (k0_chk251 v2253) := fun v2253 => decidable_of_iff' _ (Iff.of_eq (k0_chk251.eq_1 v2253))
theorem k0_off502_inb : ∀ (v2253 : BitVec 32) (k0_hw251 : k0_chk251 v2253), ∀ a, (k0_off502 v2253) a + S1x1024.size a ≤ S128000x1024.size a := fun v2253 k0_hw251 => k0_hw251

def k0_off503 (i : grid0.Coords) : Fin 1 → Nat :=
  let arg0 : BitVec 32 := BitVec.ofNat 32 (i 0).val
  let c256_i32 : BitVec 32 := 256#32
  let v0 : BitVec 32 := Scalar.muli arg0 c256_i32
  let c251_i32 : BitVec 32 := 251#32
  let v2260 : BitVec 32 := Scalar.addi v0 c251_i32
  let v2261 : Index := Scalar.indexCast v2260
  ![v2261.toNat]
def k0_off504 (v2262 : BitVec 32) : Fin 2 → Nat :=
  let c0_i32_1007 : BitVec 32 := 0#32
  ![v2262.toNat, 0]

def k0_chk252 (v2262 : BitVec 32) : Prop :=
  (∀ a, (k0_off504 v2262) a + S1x1024.size a ≤ S128000x1024.size a)
instance k0_chk252.dec : ∀ (v2262 : BitVec 32), Decidable (k0_chk252 v2262) := fun v2262 => decidable_of_iff' _ (Iff.of_eq (k0_chk252.eq_1 v2262))
theorem k0_off504_inb : ∀ (v2262 : BitVec 32) (k0_hw252 : k0_chk252 v2262), ∀ a, (k0_off504 v2262) a + S1x1024.size a ≤ S128000x1024.size a := fun v2262 k0_hw252 => k0_hw252

def k0_off505 (i : grid0.Coords) : Fin 1 → Nat :=
  let arg0 : BitVec 32 := BitVec.ofNat 32 (i 0).val
  let c256_i32 : BitVec 32 := 256#32
  let v0 : BitVec 32 := Scalar.muli arg0 c256_i32
  let c252_i32 : BitVec 32 := 252#32
  let v2269 : BitVec 32 := Scalar.addi v0 c252_i32
  let v2270 : Index := Scalar.indexCast v2269
  ![v2270.toNat]
def k0_off506 (v2271 : BitVec 32) : Fin 2 → Nat :=
  let c0_i32_1011 : BitVec 32 := 0#32
  ![v2271.toNat, 0]

def k0_chk253 (v2271 : BitVec 32) : Prop :=
  (∀ a, (k0_off506 v2271) a + S1x1024.size a ≤ S128000x1024.size a)
instance k0_chk253.dec : ∀ (v2271 : BitVec 32), Decidable (k0_chk253 v2271) := fun v2271 => decidable_of_iff' _ (Iff.of_eq (k0_chk253.eq_1 v2271))
theorem k0_off506_inb : ∀ (v2271 : BitVec 32) (k0_hw253 : k0_chk253 v2271), ∀ a, (k0_off506 v2271) a + S1x1024.size a ≤ S128000x1024.size a := fun v2271 k0_hw253 => k0_hw253

def k0_off507 (i : grid0.Coords) : Fin 1 → Nat :=
  let arg0 : BitVec 32 := BitVec.ofNat 32 (i 0).val
  let c256_i32 : BitVec 32 := 256#32
  let v0 : BitVec 32 := Scalar.muli arg0 c256_i32
  let c253_i32 : BitVec 32 := 253#32
  let v2278 : BitVec 32 := Scalar.addi v0 c253_i32
  let v2279 : Index := Scalar.indexCast v2278
  ![v2279.toNat]
def k0_off508 (v2280 : BitVec 32) : Fin 2 → Nat :=
  let c0_i32_1015 : BitVec 32 := 0#32
  ![v2280.toNat, 0]

def k0_chk254 (v2280 : BitVec 32) : Prop :=
  (∀ a, (k0_off508 v2280) a + S1x1024.size a ≤ S128000x1024.size a)
instance k0_chk254.dec : ∀ (v2280 : BitVec 32), Decidable (k0_chk254 v2280) := fun v2280 => decidable_of_iff' _ (Iff.of_eq (k0_chk254.eq_1 v2280))
theorem k0_off508_inb : ∀ (v2280 : BitVec 32) (k0_hw254 : k0_chk254 v2280), ∀ a, (k0_off508 v2280) a + S1x1024.size a ≤ S128000x1024.size a := fun v2280 k0_hw254 => k0_hw254

def k0_off509 (i : grid0.Coords) : Fin 1 → Nat :=
  let arg0 : BitVec 32 := BitVec.ofNat 32 (i 0).val
  let c256_i32 : BitVec 32 := 256#32
  let v0 : BitVec 32 := Scalar.muli arg0 c256_i32
  let c254_i32 : BitVec 32 := 254#32
  let v2287 : BitVec 32 := Scalar.addi v0 c254_i32
  let v2288 : Index := Scalar.indexCast v2287
  ![v2288.toNat]
def k0_off510 (v2289 : BitVec 32) : Fin 2 → Nat :=
  let c0_i32_1019 : BitVec 32 := 0#32
  ![v2289.toNat, 0]

def k0_chk255 (v2289 : BitVec 32) : Prop :=
  (∀ a, (k0_off510 v2289) a + S1x1024.size a ≤ S128000x1024.size a)
instance k0_chk255.dec : ∀ (v2289 : BitVec 32), Decidable (k0_chk255 v2289) := fun v2289 => decidable_of_iff' _ (Iff.of_eq (k0_chk255.eq_1 v2289))
theorem k0_off510_inb : ∀ (v2289 : BitVec 32) (k0_hw255 : k0_chk255 v2289), ∀ a, (k0_off510 v2289) a + S1x1024.size a ≤ S128000x1024.size a := fun v2289 k0_hw255 => k0_hw255

def k0_off511 (i : grid0.Coords) : Fin 1 → Nat :=
  let arg0 : BitVec 32 := BitVec.ofNat 32 (i 0).val
  let c256_i32 : BitVec 32 := 256#32
  let v0 : BitVec 32 := Scalar.muli arg0 c256_i32
  let c255_i32 : BitVec 32 := 255#32
  let v2296 : BitVec 32 := Scalar.addi v0 c255_i32
  let v2297 : Index := Scalar.indexCast v2296
  ![v2297.toNat]
def k0_off512 (v2298 : BitVec 32) : Fin 2 → Nat :=
  let c0_i32_1023 : BitVec 32 := 0#32
  ![v2298.toNat, 0]

def k0_chk256 (v2298 : BitVec 32) : Prop :=
  (∀ a, (k0_off512 v2298) a + S1x1024.size a ≤ S128000x1024.size a)
instance k0_chk256.dec : ∀ (v2298 : BitVec 32), Decidable (k0_chk256 v2298) := fun v2298 => decidable_of_iff' _ (Iff.of_eq (k0_chk256.eq_1 v2298))
theorem k0_off512_inb : ∀ (v2298 : BitVec 32) (k0_hw256 : k0_chk256 v2298), ∀ a, (k0_off512 v2298) a + S1x1024.size a ≤ S128000x1024.size a := fun v2298 k0_hw256 => k0_hw256

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  shapeCasts_S4x4096_S16384 : S4x4096.ShapeCasts S16384
  numel1_S1 : S1.numel = 1
  inb_S256_S1_0 : ∀ a, (![0] : Fin 1 → Nat) a + S1.size a ≤ S256.size a
  squeezes_S1_S_ : S1.Squeezes S_
  inb_S256x1024_S1x1024_0_0 : ∀ a, (![0, 0] : Fin 2 → Nat) a + S1x1024.size a ≤ S256x1024.size a
  squeezes_S1x1024_S1024 : S1x1024.Squeezes S1024
  inb_S256_S1_1 : ∀ a, (![1] : Fin 1 → Nat) a + S1.size a ≤ S256.size a
  inb_S256x1024_S1x1024_1_0 : ∀ a, (![1, 0] : Fin 2 → Nat) a + S1x1024.size a ≤ S256x1024.size a
  inb_S256_S1_2 : ∀ a, (![2] : Fin 1 → Nat) a + S1.size a ≤ S256.size a
  inb_S256x1024_S1x1024_2_0 : ∀ a, (![2, 0] : Fin 2 → Nat) a + S1x1024.size a ≤ S256x1024.size a
  inb_S256_S1_3 : ∀ a, (![3] : Fin 1 → Nat) a + S1.size a ≤ S256.size a
  inb_S256x1024_S1x1024_3_0 : ∀ a, (![3, 0] : Fin 2 → Nat) a + S1x1024.size a ≤ S256x1024.size a
  inb_S256_S1_4 : ∀ a, (![4] : Fin 1 → Nat) a + S1.size a ≤ S256.size a
  inb_S256x1024_S1x1024_4_0 : ∀ a, (![4, 0] : Fin 2 → Nat) a + S1x1024.size a ≤ S256x1024.size a
  inb_S256_S1_5 : ∀ a, (![5] : Fin 1 → Nat) a + S1.size a ≤ S256.size a
  inb_S256x1024_S1x1024_5_0 : ∀ a, (![5, 0] : Fin 2 → Nat) a + S1x1024.size a ≤ S256x1024.size a
  inb_S256_S1_6 : ∀ a, (![6] : Fin 1 → Nat) a + S1.size a ≤ S256.size a
  inb_S256x1024_S1x1024_6_0 : ∀ a, (![6, 0] : Fin 2 → Nat) a + S1x1024.size a ≤ S256x1024.size a
  inb_S256_S1_7 : ∀ a, (![7] : Fin 1 → Nat) a + S1.size a ≤ S256.size a
  inb_S256x1024_S1x1024_7_0 : ∀ a, (![7, 0] : Fin 2 → Nat) a + S1x1024.size a ≤ S256x1024.size a
  inb_S256_S1_8 : ∀ a, (![8] : Fin 1 → Nat) a + S1.size a ≤ S256.size a
  inb_S256x1024_S1x1024_8_0 : ∀ a, (![8, 0] : Fin 2 → Nat) a + S1x1024.size a ≤ S256x1024.size a
  inb_S256_S1_9 : ∀ a, (![9] : Fin 1 → Nat) a + S1.size a ≤ S256.size a
  inb_S256x1024_S1x1024_9_0 : ∀ a, (![9, 0] : Fin 2 → Nat) a + S1x1024.size a ≤ S256x1024.size a
  inb_S256_S1_10 : ∀ a, (![10] : Fin 1 → Nat) a + S1.size a ≤ S256.size a
  inb_S256x1024_S1x1024_10_0 : ∀ a, (![10, 0] : Fin 2 → Nat) a + S1x1024.size a ≤ S256x1024.size a
  inb_S256_S1_11 : ∀ a, (![11] : Fin 1 → Nat) a + S1.size a ≤ S256.size a
  inb_S256x1024_S1x1024_11_0 : ∀ a, (![11, 0] : Fin 2 → Nat) a + S1x1024.size a ≤ S256x1024.size a
  inb_S256_S1_12 : ∀ a, (![12] : Fin 1 → Nat) a + S1.size a ≤ S256.size a
  inb_S256x1024_S1x1024_12_0 : ∀ a, (![12, 0] : Fin 2 → Nat) a + S1x1024.size a ≤ S256x1024.size a
  inb_S256_S1_13 : ∀ a, (![13] : Fin 1 → Nat) a + S1.size a ≤ S256.size a
  inb_S256x1024_S1x1024_13_0 : ∀ a, (![13, 0] : Fin 2 → Nat) a + S1x1024.size a ≤ S256x1024.size a
  inb_S256_S1_14 : ∀ a, (![14] : Fin 1 → Nat) a + S1.size a ≤ S256.size a
  inb_S256x1024_S1x1024_14_0 : ∀ a, (![14, 0] : Fin 2 → Nat) a + S1x1024.size a ≤ S256x1024.size a
  inb_S256_S1_15 : ∀ a, (![15] : Fin 1 → Nat) a + S1.size a ≤ S256.size a
  inb_S256x1024_S1x1024_15_0 : ∀ a, (![15, 0] : Fin 2 → Nat) a + S1x1024.size a ≤ S256x1024.size a
  inb_S256_S1_16 : ∀ a, (![16] : Fin 1 → Nat) a + S1.size a ≤ S256.size a
  inb_S256x1024_S1x1024_16_0 : ∀ a, (![16, 0] : Fin 2 → Nat) a + S1x1024.size a ≤ S256x1024.size a
  inb_S256_S1_17 : ∀ a, (![17] : Fin 1 → Nat) a + S1.size a ≤ S256.size a
  inb_S256x1024_S1x1024_17_0 : ∀ a, (![17, 0] : Fin 2 → Nat) a + S1x1024.size a ≤ S256x1024.size a
  inb_S256_S1_18 : ∀ a, (![18] : Fin 1 → Nat) a + S1.size a ≤ S256.size a
  inb_S256x1024_S1x1024_18_0 : ∀ a, (![18, 0] : Fin 2 → Nat) a + S1x1024.size a ≤ S256x1024.size a
  inb_S256_S1_19 : ∀ a, (![19] : Fin 1 → Nat) a + S1.size a ≤ S256.size a
  inb_S256x1024_S1x1024_19_0 : ∀ a, (![19, 0] : Fin 2 → Nat) a + S1x1024.size a ≤ S256x1024.size a
  inb_S256_S1_20 : ∀ a, (![20] : Fin 1 → Nat) a + S1.size a ≤ S256.size a
  inb_S256x1024_S1x1024_20_0 : ∀ a, (![20, 0] : Fin 2 → Nat) a + S1x1024.size a ≤ S256x1024.size a
  inb_S256_S1_21 : ∀ a, (![21] : Fin 1 → Nat) a + S1.size a ≤ S256.size a
  inb_S256x1024_S1x1024_21_0 : ∀ a, (![21, 0] : Fin 2 → Nat) a + S1x1024.size a ≤ S256x1024.size a
  inb_S256_S1_22 : ∀ a, (![22] : Fin 1 → Nat) a + S1.size a ≤ S256.size a
  inb_S256x1024_S1x1024_22_0 : ∀ a, (![22, 0] : Fin 2 → Nat) a + S1x1024.size a ≤ S256x1024.size a
  inb_S256_S1_23 : ∀ a, (![23] : Fin 1 → Nat) a + S1.size a ≤ S256.size a
  inb_S256x1024_S1x1024_23_0 : ∀ a, (![23, 0] : Fin 2 → Nat) a + S1x1024.size a ≤ S256x1024.size a
  inb_S256_S1_24 : ∀ a, (![24] : Fin 1 → Nat) a + S1.size a ≤ S256.size a
  inb_S256x1024_S1x1024_24_0 : ∀ a, (![24, 0] : Fin 2 → Nat) a + S1x1024.size a ≤ S256x1024.size a
  inb_S256_S1_25 : ∀ a, (![25] : Fin 1 → Nat) a + S1.size a ≤ S256.size a
  inb_S256x1024_S1x1024_25_0 : ∀ a, (![25, 0] : Fin 2 → Nat) a + S1x1024.size a ≤ S256x1024.size a
  inb_S256_S1_26 : ∀ a, (![26] : Fin 1 → Nat) a + S1.size a ≤ S256.size a
  inb_S256x1024_S1x1024_26_0 : ∀ a, (![26, 0] : Fin 2 → Nat) a + S1x1024.size a ≤ S256x1024.size a
  inb_S256_S1_27 : ∀ a, (![27] : Fin 1 → Nat) a + S1.size a ≤ S256.size a
  inb_S256x1024_S1x1024_27_0 : ∀ a, (![27, 0] : Fin 2 → Nat) a + S1x1024.size a ≤ S256x1024.size a
  inb_S256_S1_28 : ∀ a, (![28] : Fin 1 → Nat) a + S1.size a ≤ S256.size a
  inb_S256x1024_S1x1024_28_0 : ∀ a, (![28, 0] : Fin 2 → Nat) a + S1x1024.size a ≤ S256x1024.size a
  inb_S256_S1_29 : ∀ a, (![29] : Fin 1 → Nat) a + S1.size a ≤ S256.size a
  inb_S256x1024_S1x1024_29_0 : ∀ a, (![29, 0] : Fin 2 → Nat) a + S1x1024.size a ≤ S256x1024.size a
  inb_S256_S1_30 : ∀ a, (![30] : Fin 1 → Nat) a + S1.size a ≤ S256.size a
  inb_S256x1024_S1x1024_30_0 : ∀ a, (![30, 0] : Fin 2 → Nat) a + S1x1024.size a ≤ S256x1024.size a
  inb_S256_S1_31 : ∀ a, (![31] : Fin 1 → Nat) a + S1.size a ≤ S256.size a
  inb_S256x1024_S1x1024_31_0 : ∀ a, (![31, 0] : Fin 2 → Nat) a + S1x1024.size a ≤ S256x1024.size a
  inb_S256_S1_32 : ∀ a, (![32] : Fin 1 → Nat) a + S1.size a ≤ S256.size a
  inb_S256x1024_S1x1024_32_0 : ∀ a, (![32, 0] : Fin 2 → Nat) a + S1x1024.size a ≤ S256x1024.size a
  inb_S256_S1_33 : ∀ a, (![33] : Fin 1 → Nat) a + S1.size a ≤ S256.size a
  inb_S256x1024_S1x1024_33_0 : ∀ a, (![33, 0] : Fin 2 → Nat) a + S1x1024.size a ≤ S256x1024.size a
  inb_S256_S1_34 : ∀ a, (![34] : Fin 1 → Nat) a + S1.size a ≤ S256.size a
  inb_S256x1024_S1x1024_34_0 : ∀ a, (![34, 0] : Fin 2 → Nat) a + S1x1024.size a ≤ S256x1024.size a
  inb_S256_S1_35 : ∀ a, (![35] : Fin 1 → Nat) a + S1.size a ≤ S256.size a
  inb_S256x1024_S1x1024_35_0 : ∀ a, (![35, 0] : Fin 2 → Nat) a + S1x1024.size a ≤ S256x1024.size a
  inb_S256_S1_36 : ∀ a, (![36] : Fin 1 → Nat) a + S1.size a ≤ S256.size a
  inb_S256x1024_S1x1024_36_0 : ∀ a, (![36, 0] : Fin 2 → Nat) a + S1x1024.size a ≤ S256x1024.size a
  inb_S256_S1_37 : ∀ a, (![37] : Fin 1 → Nat) a + S1.size a ≤ S256.size a
  inb_S256x1024_S1x1024_37_0 : ∀ a, (![37, 0] : Fin 2 → Nat) a + S1x1024.size a ≤ S256x1024.size a
  inb_S256_S1_38 : ∀ a, (![38] : Fin 1 → Nat) a + S1.size a ≤ S256.size a
  inb_S256x1024_S1x1024_38_0 : ∀ a, (![38, 0] : Fin 2 → Nat) a + S1x1024.size a ≤ S256x1024.size a
  inb_S256_S1_39 : ∀ a, (![39] : Fin 1 → Nat) a + S1.size a ≤ S256.size a
  inb_S256x1024_S1x1024_39_0 : ∀ a, (![39, 0] : Fin 2 → Nat) a + S1x1024.size a ≤ S256x1024.size a
  inb_S256_S1_40 : ∀ a, (![40] : Fin 1 → Nat) a + S1.size a ≤ S256.size a
  inb_S256x1024_S1x1024_40_0 : ∀ a, (![40, 0] : Fin 2 → Nat) a + S1x1024.size a ≤ S256x1024.size a
  inb_S256_S1_41 : ∀ a, (![41] : Fin 1 → Nat) a + S1.size a ≤ S256.size a
  inb_S256x1024_S1x1024_41_0 : ∀ a, (![41, 0] : Fin 2 → Nat) a + S1x1024.size a ≤ S256x1024.size a
  inb_S256_S1_42 : ∀ a, (![42] : Fin 1 → Nat) a + S1.size a ≤ S256.size a
  inb_S256x1024_S1x1024_42_0 : ∀ a, (![42, 0] : Fin 2 → Nat) a + S1x1024.size a ≤ S256x1024.size a
  inb_S256_S1_43 : ∀ a, (![43] : Fin 1 → Nat) a + S1.size a ≤ S256.size a
  inb_S256x1024_S1x1024_43_0 : ∀ a, (![43, 0] : Fin 2 → Nat) a + S1x1024.size a ≤ S256x1024.size a
  inb_S256_S1_44 : ∀ a, (![44] : Fin 1 → Nat) a + S1.size a ≤ S256.size a
  inb_S256x1024_S1x1024_44_0 : ∀ a, (![44, 0] : Fin 2 → Nat) a + S1x1024.size a ≤ S256x1024.size a
  inb_S256_S1_45 : ∀ a, (![45] : Fin 1 → Nat) a + S1.size a ≤ S256.size a
  inb_S256x1024_S1x1024_45_0 : ∀ a, (![45, 0] : Fin 2 → Nat) a + S1x1024.size a ≤ S256x1024.size a
  inb_S256_S1_46 : ∀ a, (![46] : Fin 1 → Nat) a + S1.size a ≤ S256.size a
  inb_S256x1024_S1x1024_46_0 : ∀ a, (![46, 0] : Fin 2 → Nat) a + S1x1024.size a ≤ S256x1024.size a
  inb_S256_S1_47 : ∀ a, (![47] : Fin 1 → Nat) a + S1.size a ≤ S256.size a
  inb_S256x1024_S1x1024_47_0 : ∀ a, (![47, 0] : Fin 2 → Nat) a + S1x1024.size a ≤ S256x1024.size a
  inb_S256_S1_48 : ∀ a, (![48] : Fin 1 → Nat) a + S1.size a ≤ S256.size a
  inb_S256x1024_S1x1024_48_0 : ∀ a, (![48, 0] : Fin 2 → Nat) a + S1x1024.size a ≤ S256x1024.size a
  inb_S256_S1_49 : ∀ a, (![49] : Fin 1 → Nat) a + S1.size a ≤ S256.size a
  inb_S256x1024_S1x1024_49_0 : ∀ a, (![49, 0] : Fin 2 → Nat) a + S1x1024.size a ≤ S256x1024.size a
  inb_S256_S1_50 : ∀ a, (![50] : Fin 1 → Nat) a + S1.size a ≤ S256.size a
  inb_S256x1024_S1x1024_50_0 : ∀ a, (![50, 0] : Fin 2 → Nat) a + S1x1024.size a ≤ S256x1024.size a
  inb_S256_S1_51 : ∀ a, (![51] : Fin 1 → Nat) a + S1.size a ≤ S256.size a
  inb_S256x1024_S1x1024_51_0 : ∀ a, (![51, 0] : Fin 2 → Nat) a + S1x1024.size a ≤ S256x1024.size a
  inb_S256_S1_52 : ∀ a, (![52] : Fin 1 → Nat) a + S1.size a ≤ S256.size a
  inb_S256x1024_S1x1024_52_0 : ∀ a, (![52, 0] : Fin 2 → Nat) a + S1x1024.size a ≤ S256x1024.size a
  inb_S256_S1_53 : ∀ a, (![53] : Fin 1 → Nat) a + S1.size a ≤ S256.size a
  inb_S256x1024_S1x1024_53_0 : ∀ a, (![53, 0] : Fin 2 → Nat) a + S1x1024.size a ≤ S256x1024.size a
  inb_S256_S1_54 : ∀ a, (![54] : Fin 1 → Nat) a + S1.size a ≤ S256.size a
  inb_S256x1024_S1x1024_54_0 : ∀ a, (![54, 0] : Fin 2 → Nat) a + S1x1024.size a ≤ S256x1024.size a
  inb_S256_S1_55 : ∀ a, (![55] : Fin 1 → Nat) a + S1.size a ≤ S256.size a
  inb_S256x1024_S1x1024_55_0 : ∀ a, (![55, 0] : Fin 2 → Nat) a + S1x1024.size a ≤ S256x1024.size a
  inb_S256_S1_56 : ∀ a, (![56] : Fin 1 → Nat) a + S1.size a ≤ S256.size a
  inb_S256x1024_S1x1024_56_0 : ∀ a, (![56, 0] : Fin 2 → Nat) a + S1x1024.size a ≤ S256x1024.size a
  inb_S256_S1_57 : ∀ a, (![57] : Fin 1 → Nat) a + S1.size a ≤ S256.size a
  inb_S256x1024_S1x1024_57_0 : ∀ a, (![57, 0] : Fin 2 → Nat) a + S1x1024.size a ≤ S256x1024.size a
  inb_S256_S1_58 : ∀ a, (![58] : Fin 1 → Nat) a + S1.size a ≤ S256.size a
  inb_S256x1024_S1x1024_58_0 : ∀ a, (![58, 0] : Fin 2 → Nat) a + S1x1024.size a ≤ S256x1024.size a
  inb_S256_S1_59 : ∀ a, (![59] : Fin 1 → Nat) a + S1.size a ≤ S256.size a
  inb_S256x1024_S1x1024_59_0 : ∀ a, (![59, 0] : Fin 2 → Nat) a + S1x1024.size a ≤ S256x1024.size a
  inb_S256_S1_60 : ∀ a, (![60] : Fin 1 → Nat) a + S1.size a ≤ S256.size a
  inb_S256x1024_S1x1024_60_0 : ∀ a, (![60, 0] : Fin 2 → Nat) a + S1x1024.size a ≤ S256x1024.size a
  inb_S256_S1_61 : ∀ a, (![61] : Fin 1 → Nat) a + S1.size a ≤ S256.size a
  inb_S256x1024_S1x1024_61_0 : ∀ a, (![61, 0] : Fin 2 → Nat) a + S1x1024.size a ≤ S256x1024.size a
  inb_S256_S1_62 : ∀ a, (![62] : Fin 1 → Nat) a + S1.size a ≤ S256.size a
  inb_S256x1024_S1x1024_62_0 : ∀ a, (![62, 0] : Fin 2 → Nat) a + S1x1024.size a ≤ S256x1024.size a
  inb_S256_S1_63 : ∀ a, (![63] : Fin 1 → Nat) a + S1.size a ≤ S256.size a
  inb_S256x1024_S1x1024_63_0 : ∀ a, (![63, 0] : Fin 2 → Nat) a + S1x1024.size a ≤ S256x1024.size a
  inb_S256_S1_64 : ∀ a, (![64] : Fin 1 → Nat) a + S1.size a ≤ S256.size a
  inb_S256x1024_S1x1024_64_0 : ∀ a, (![64, 0] : Fin 2 → Nat) a + S1x1024.size a ≤ S256x1024.size a
  inb_S256_S1_65 : ∀ a, (![65] : Fin 1 → Nat) a + S1.size a ≤ S256.size a
  inb_S256x1024_S1x1024_65_0 : ∀ a, (![65, 0] : Fin 2 → Nat) a + S1x1024.size a ≤ S256x1024.size a
  inb_S256_S1_66 : ∀ a, (![66] : Fin 1 → Nat) a + S1.size a ≤ S256.size a
  inb_S256x1024_S1x1024_66_0 : ∀ a, (![66, 0] : Fin 2 → Nat) a + S1x1024.size a ≤ S256x1024.size a
  inb_S256_S1_67 : ∀ a, (![67] : Fin 1 → Nat) a + S1.size a ≤ S256.size a
  inb_S256x1024_S1x1024_67_0 : ∀ a, (![67, 0] : Fin 2 → Nat) a + S1x1024.size a ≤ S256x1024.size a
  inb_S256_S1_68 : ∀ a, (![68] : Fin 1 → Nat) a + S1.size a ≤ S256.size a
  inb_S256x1024_S1x1024_68_0 : ∀ a, (![68, 0] : Fin 2 → Nat) a + S1x1024.size a ≤ S256x1024.size a
  inb_S256_S1_69 : ∀ a, (![69] : Fin 1 → Nat) a + S1.size a ≤ S256.size a
  inb_S256x1024_S1x1024_69_0 : ∀ a, (![69, 0] : Fin 2 → Nat) a + S1x1024.size a ≤ S256x1024.size a
  inb_S256_S1_70 : ∀ a, (![70] : Fin 1 → Nat) a + S1.size a ≤ S256.size a
  inb_S256x1024_S1x1024_70_0 : ∀ a, (![70, 0] : Fin 2 → Nat) a + S1x1024.size a ≤ S256x1024.size a
  inb_S256_S1_71 : ∀ a, (![71] : Fin 1 → Nat) a + S1.size a ≤ S256.size a
  inb_S256x1024_S1x1024_71_0 : ∀ a, (![71, 0] : Fin 2 → Nat) a + S1x1024.size a ≤ S256x1024.size a
  inb_S256_S1_72 : ∀ a, (![72] : Fin 1 → Nat) a + S1.size a ≤ S256.size a
  inb_S256x1024_S1x1024_72_0 : ∀ a, (![72, 0] : Fin 2 → Nat) a + S1x1024.size a ≤ S256x1024.size a
  inb_S256_S1_73 : ∀ a, (![73] : Fin 1 → Nat) a + S1.size a ≤ S256.size a
  inb_S256x1024_S1x1024_73_0 : ∀ a, (![73, 0] : Fin 2 → Nat) a + S1x1024.size a ≤ S256x1024.size a
  inb_S256_S1_74 : ∀ a, (![74] : Fin 1 → Nat) a + S1.size a ≤ S256.size a
  inb_S256x1024_S1x1024_74_0 : ∀ a, (![74, 0] : Fin 2 → Nat) a + S1x1024.size a ≤ S256x1024.size a
  inb_S256_S1_75 : ∀ a, (![75] : Fin 1 → Nat) a + S1.size a ≤ S256.size a
  inb_S256x1024_S1x1024_75_0 : ∀ a, (![75, 0] : Fin 2 → Nat) a + S1x1024.size a ≤ S256x1024.size a
  inb_S256_S1_76 : ∀ a, (![76] : Fin 1 → Nat) a + S1.size a ≤ S256.size a
  inb_S256x1024_S1x1024_76_0 : ∀ a, (![76, 0] : Fin 2 → Nat) a + S1x1024.size a ≤ S256x1024.size a
  inb_S256_S1_77 : ∀ a, (![77] : Fin 1 → Nat) a + S1.size a ≤ S256.size a
  inb_S256x1024_S1x1024_77_0 : ∀ a, (![77, 0] : Fin 2 → Nat) a + S1x1024.size a ≤ S256x1024.size a
  inb_S256_S1_78 : ∀ a, (![78] : Fin 1 → Nat) a + S1.size a ≤ S256.size a
  inb_S256x1024_S1x1024_78_0 : ∀ a, (![78, 0] : Fin 2 → Nat) a + S1x1024.size a ≤ S256x1024.size a
  inb_S256_S1_79 : ∀ a, (![79] : Fin 1 → Nat) a + S1.size a ≤ S256.size a
  inb_S256x1024_S1x1024_79_0 : ∀ a, (![79, 0] : Fin 2 → Nat) a + S1x1024.size a ≤ S256x1024.size a
  inb_S256_S1_80 : ∀ a, (![80] : Fin 1 → Nat) a + S1.size a ≤ S256.size a
  inb_S256x1024_S1x1024_80_0 : ∀ a, (![80, 0] : Fin 2 → Nat) a + S1x1024.size a ≤ S256x1024.size a
  inb_S256_S1_81 : ∀ a, (![81] : Fin 1 → Nat) a + S1.size a ≤ S256.size a
  inb_S256x1024_S1x1024_81_0 : ∀ a, (![81, 0] : Fin 2 → Nat) a + S1x1024.size a ≤ S256x1024.size a
  inb_S256_S1_82 : ∀ a, (![82] : Fin 1 → Nat) a + S1.size a ≤ S256.size a
  inb_S256x1024_S1x1024_82_0 : ∀ a, (![82, 0] : Fin 2 → Nat) a + S1x1024.size a ≤ S256x1024.size a
  inb_S256_S1_83 : ∀ a, (![83] : Fin 1 → Nat) a + S1.size a ≤ S256.size a
  inb_S256x1024_S1x1024_83_0 : ∀ a, (![83, 0] : Fin 2 → Nat) a + S1x1024.size a ≤ S256x1024.size a
  inb_S256_S1_84 : ∀ a, (![84] : Fin 1 → Nat) a + S1.size a ≤ S256.size a
  inb_S256x1024_S1x1024_84_0 : ∀ a, (![84, 0] : Fin 2 → Nat) a + S1x1024.size a ≤ S256x1024.size a
  inb_S256_S1_85 : ∀ a, (![85] : Fin 1 → Nat) a + S1.size a ≤ S256.size a
  inb_S256x1024_S1x1024_85_0 : ∀ a, (![85, 0] : Fin 2 → Nat) a + S1x1024.size a ≤ S256x1024.size a
  inb_S256_S1_86 : ∀ a, (![86] : Fin 1 → Nat) a + S1.size a ≤ S256.size a
  inb_S256x1024_S1x1024_86_0 : ∀ a, (![86, 0] : Fin 2 → Nat) a + S1x1024.size a ≤ S256x1024.size a
  inb_S256_S1_87 : ∀ a, (![87] : Fin 1 → Nat) a + S1.size a ≤ S256.size a
  inb_S256x1024_S1x1024_87_0 : ∀ a, (![87, 0] : Fin 2 → Nat) a + S1x1024.size a ≤ S256x1024.size a
  inb_S256_S1_88 : ∀ a, (![88] : Fin 1 → Nat) a + S1.size a ≤ S256.size a
  inb_S256x1024_S1x1024_88_0 : ∀ a, (![88, 0] : Fin 2 → Nat) a + S1x1024.size a ≤ S256x1024.size a
  inb_S256_S1_89 : ∀ a, (![89] : Fin 1 → Nat) a + S1.size a ≤ S256.size a
  inb_S256x1024_S1x1024_89_0 : ∀ a, (![89, 0] : Fin 2 → Nat) a + S1x1024.size a ≤ S256x1024.size a
  inb_S256_S1_90 : ∀ a, (![90] : Fin 1 → Nat) a + S1.size a ≤ S256.size a
  inb_S256x1024_S1x1024_90_0 : ∀ a, (![90, 0] : Fin 2 → Nat) a + S1x1024.size a ≤ S256x1024.size a
  inb_S256_S1_91 : ∀ a, (![91] : Fin 1 → Nat) a + S1.size a ≤ S256.size a
  inb_S256x1024_S1x1024_91_0 : ∀ a, (![91, 0] : Fin 2 → Nat) a + S1x1024.size a ≤ S256x1024.size a
  inb_S256_S1_92 : ∀ a, (![92] : Fin 1 → Nat) a + S1.size a ≤ S256.size a
  inb_S256x1024_S1x1024_92_0 : ∀ a, (![92, 0] : Fin 2 → Nat) a + S1x1024.size a ≤ S256x1024.size a
  inb_S256_S1_93 : ∀ a, (![93] : Fin 1 → Nat) a + S1.size a ≤ S256.size a
  inb_S256x1024_S1x1024_93_0 : ∀ a, (![93, 0] : Fin 2 → Nat) a + S1x1024.size a ≤ S256x1024.size a
  inb_S256_S1_94 : ∀ a, (![94] : Fin 1 → Nat) a + S1.size a ≤ S256.size a
  inb_S256x1024_S1x1024_94_0 : ∀ a, (![94, 0] : Fin 2 → Nat) a + S1x1024.size a ≤ S256x1024.size a
  inb_S256_S1_95 : ∀ a, (![95] : Fin 1 → Nat) a + S1.size a ≤ S256.size a
  inb_S256x1024_S1x1024_95_0 : ∀ a, (![95, 0] : Fin 2 → Nat) a + S1x1024.size a ≤ S256x1024.size a
  inb_S256_S1_96 : ∀ a, (![96] : Fin 1 → Nat) a + S1.size a ≤ S256.size a
  inb_S256x1024_S1x1024_96_0 : ∀ a, (![96, 0] : Fin 2 → Nat) a + S1x1024.size a ≤ S256x1024.size a
  inb_S256_S1_97 : ∀ a, (![97] : Fin 1 → Nat) a + S1.size a ≤ S256.size a
  inb_S256x1024_S1x1024_97_0 : ∀ a, (![97, 0] : Fin 2 → Nat) a + S1x1024.size a ≤ S256x1024.size a
  inb_S256_S1_98 : ∀ a, (![98] : Fin 1 → Nat) a + S1.size a ≤ S256.size a
  inb_S256x1024_S1x1024_98_0 : ∀ a, (![98, 0] : Fin 2 → Nat) a + S1x1024.size a ≤ S256x1024.size a
  inb_S256_S1_99 : ∀ a, (![99] : Fin 1 → Nat) a + S1.size a ≤ S256.size a
  inb_S256x1024_S1x1024_99_0 : ∀ a, (![99, 0] : Fin 2 → Nat) a + S1x1024.size a ≤ S256x1024.size a
  inb_S256_S1_100 : ∀ a, (![100] : Fin 1 → Nat) a + S1.size a ≤ S256.size a
  inb_S256x1024_S1x1024_100_0 : ∀ a, (![100, 0] : Fin 2 → Nat) a + S1x1024.size a ≤ S256x1024.size a
  inb_S256_S1_101 : ∀ a, (![101] : Fin 1 → Nat) a + S1.size a ≤ S256.size a
  inb_S256x1024_S1x1024_101_0 : ∀ a, (![101, 0] : Fin 2 → Nat) a + S1x1024.size a ≤ S256x1024.size a
  inb_S256_S1_102 : ∀ a, (![102] : Fin 1 → Nat) a + S1.size a ≤ S256.size a
  inb_S256x1024_S1x1024_102_0 : ∀ a, (![102, 0] : Fin 2 → Nat) a + S1x1024.size a ≤ S256x1024.size a
  inb_S256_S1_103 : ∀ a, (![103] : Fin 1 → Nat) a + S1.size a ≤ S256.size a
  inb_S256x1024_S1x1024_103_0 : ∀ a, (![103, 0] : Fin 2 → Nat) a + S1x1024.size a ≤ S256x1024.size a
  inb_S256_S1_104 : ∀ a, (![104] : Fin 1 → Nat) a + S1.size a ≤ S256.size a
  inb_S256x1024_S1x1024_104_0 : ∀ a, (![104, 0] : Fin 2 → Nat) a + S1x1024.size a ≤ S256x1024.size a
  inb_S256_S1_105 : ∀ a, (![105] : Fin 1 → Nat) a + S1.size a ≤ S256.size a
  inb_S256x1024_S1x1024_105_0 : ∀ a, (![105, 0] : Fin 2 → Nat) a + S1x1024.size a ≤ S256x1024.size a
  inb_S256_S1_106 : ∀ a, (![106] : Fin 1 → Nat) a + S1.size a ≤ S256.size a
  inb_S256x1024_S1x1024_106_0 : ∀ a, (![106, 0] : Fin 2 → Nat) a + S1x1024.size a ≤ S256x1024.size a
  inb_S256_S1_107 : ∀ a, (![107] : Fin 1 → Nat) a + S1.size a ≤ S256.size a
  inb_S256x1024_S1x1024_107_0 : ∀ a, (![107, 0] : Fin 2 → Nat) a + S1x1024.size a ≤ S256x1024.size a
  inb_S256_S1_108 : ∀ a, (![108] : Fin 1 → Nat) a + S1.size a ≤ S256.size a
  inb_S256x1024_S1x1024_108_0 : ∀ a, (![108, 0] : Fin 2 → Nat) a + S1x1024.size a ≤ S256x1024.size a
  inb_S256_S1_109 : ∀ a, (![109] : Fin 1 → Nat) a + S1.size a ≤ S256.size a
  inb_S256x1024_S1x1024_109_0 : ∀ a, (![109, 0] : Fin 2 → Nat) a + S1x1024.size a ≤ S256x1024.size a
  inb_S256_S1_110 : ∀ a, (![110] : Fin 1 → Nat) a + S1.size a ≤ S256.size a
  inb_S256x1024_S1x1024_110_0 : ∀ a, (![110, 0] : Fin 2 → Nat) a + S1x1024.size a ≤ S256x1024.size a
  inb_S256_S1_111 : ∀ a, (![111] : Fin 1 → Nat) a + S1.size a ≤ S256.size a
  inb_S256x1024_S1x1024_111_0 : ∀ a, (![111, 0] : Fin 2 → Nat) a + S1x1024.size a ≤ S256x1024.size a
  inb_S256_S1_112 : ∀ a, (![112] : Fin 1 → Nat) a + S1.size a ≤ S256.size a
  inb_S256x1024_S1x1024_112_0 : ∀ a, (![112, 0] : Fin 2 → Nat) a + S1x1024.size a ≤ S256x1024.size a
  inb_S256_S1_113 : ∀ a, (![113] : Fin 1 → Nat) a + S1.size a ≤ S256.size a
  inb_S256x1024_S1x1024_113_0 : ∀ a, (![113, 0] : Fin 2 → Nat) a + S1x1024.size a ≤ S256x1024.size a
  inb_S256_S1_114 : ∀ a, (![114] : Fin 1 → Nat) a + S1.size a ≤ S256.size a
  inb_S256x1024_S1x1024_114_0 : ∀ a, (![114, 0] : Fin 2 → Nat) a + S1x1024.size a ≤ S256x1024.size a
  inb_S256_S1_115 : ∀ a, (![115] : Fin 1 → Nat) a + S1.size a ≤ S256.size a
  inb_S256x1024_S1x1024_115_0 : ∀ a, (![115, 0] : Fin 2 → Nat) a + S1x1024.size a ≤ S256x1024.size a
  inb_S256_S1_116 : ∀ a, (![116] : Fin 1 → Nat) a + S1.size a ≤ S256.size a
  inb_S256x1024_S1x1024_116_0 : ∀ a, (![116, 0] : Fin 2 → Nat) a + S1x1024.size a ≤ S256x1024.size a
  inb_S256_S1_117 : ∀ a, (![117] : Fin 1 → Nat) a + S1.size a ≤ S256.size a
  inb_S256x1024_S1x1024_117_0 : ∀ a, (![117, 0] : Fin 2 → Nat) a + S1x1024.size a ≤ S256x1024.size a
  inb_S256_S1_118 : ∀ a, (![118] : Fin 1 → Nat) a + S1.size a ≤ S256.size a
  inb_S256x1024_S1x1024_118_0 : ∀ a, (![118, 0] : Fin 2 → Nat) a + S1x1024.size a ≤ S256x1024.size a
  inb_S256_S1_119 : ∀ a, (![119] : Fin 1 → Nat) a + S1.size a ≤ S256.size a
  inb_S256x1024_S1x1024_119_0 : ∀ a, (![119, 0] : Fin 2 → Nat) a + S1x1024.size a ≤ S256x1024.size a
  inb_S256_S1_120 : ∀ a, (![120] : Fin 1 → Nat) a + S1.size a ≤ S256.size a
  inb_S256x1024_S1x1024_120_0 : ∀ a, (![120, 0] : Fin 2 → Nat) a + S1x1024.size a ≤ S256x1024.size a
  inb_S256_S1_121 : ∀ a, (![121] : Fin 1 → Nat) a + S1.size a ≤ S256.size a
  inb_S256x1024_S1x1024_121_0 : ∀ a, (![121, 0] : Fin 2 → Nat) a + S1x1024.size a ≤ S256x1024.size a
  inb_S256_S1_122 : ∀ a, (![122] : Fin 1 → Nat) a + S1.size a ≤ S256.size a
  inb_S256x1024_S1x1024_122_0 : ∀ a, (![122, 0] : Fin 2 → Nat) a + S1x1024.size a ≤ S256x1024.size a
  inb_S256_S1_123 : ∀ a, (![123] : Fin 1 → Nat) a + S1.size a ≤ S256.size a
  inb_S256x1024_S1x1024_123_0 : ∀ a, (![123, 0] : Fin 2 → Nat) a + S1x1024.size a ≤ S256x1024.size a
  inb_S256_S1_124 : ∀ a, (![124] : Fin 1 → Nat) a + S1.size a ≤ S256.size a
  inb_S256x1024_S1x1024_124_0 : ∀ a, (![124, 0] : Fin 2 → Nat) a + S1x1024.size a ≤ S256x1024.size a
  inb_S256_S1_125 : ∀ a, (![125] : Fin 1 → Nat) a + S1.size a ≤ S256.size a
  inb_S256x1024_S1x1024_125_0 : ∀ a, (![125, 0] : Fin 2 → Nat) a + S1x1024.size a ≤ S256x1024.size a
  inb_S256_S1_126 : ∀ a, (![126] : Fin 1 → Nat) a + S1.size a ≤ S256.size a
  inb_S256x1024_S1x1024_126_0 : ∀ a, (![126, 0] : Fin 2 → Nat) a + S1x1024.size a ≤ S256x1024.size a
  inb_S256_S1_127 : ∀ a, (![127] : Fin 1 → Nat) a + S1.size a ≤ S256.size a
  inb_S256x1024_S1x1024_127_0 : ∀ a, (![127, 0] : Fin 2 → Nat) a + S1x1024.size a ≤ S256x1024.size a
  inb_S256_S1_128 : ∀ a, (![128] : Fin 1 → Nat) a + S1.size a ≤ S256.size a
  inb_S256x1024_S1x1024_128_0 : ∀ a, (![128, 0] : Fin 2 → Nat) a + S1x1024.size a ≤ S256x1024.size a
  inb_S256_S1_129 : ∀ a, (![129] : Fin 1 → Nat) a + S1.size a ≤ S256.size a
  inb_S256x1024_S1x1024_129_0 : ∀ a, (![129, 0] : Fin 2 → Nat) a + S1x1024.size a ≤ S256x1024.size a
  inb_S256_S1_130 : ∀ a, (![130] : Fin 1 → Nat) a + S1.size a ≤ S256.size a
  inb_S256x1024_S1x1024_130_0 : ∀ a, (![130, 0] : Fin 2 → Nat) a + S1x1024.size a ≤ S256x1024.size a
  inb_S256_S1_131 : ∀ a, (![131] : Fin 1 → Nat) a + S1.size a ≤ S256.size a
  inb_S256x1024_S1x1024_131_0 : ∀ a, (![131, 0] : Fin 2 → Nat) a + S1x1024.size a ≤ S256x1024.size a
  inb_S256_S1_132 : ∀ a, (![132] : Fin 1 → Nat) a + S1.size a ≤ S256.size a
  inb_S256x1024_S1x1024_132_0 : ∀ a, (![132, 0] : Fin 2 → Nat) a + S1x1024.size a ≤ S256x1024.size a
  inb_S256_S1_133 : ∀ a, (![133] : Fin 1 → Nat) a + S1.size a ≤ S256.size a
  inb_S256x1024_S1x1024_133_0 : ∀ a, (![133, 0] : Fin 2 → Nat) a + S1x1024.size a ≤ S256x1024.size a
  inb_S256_S1_134 : ∀ a, (![134] : Fin 1 → Nat) a + S1.size a ≤ S256.size a
  inb_S256x1024_S1x1024_134_0 : ∀ a, (![134, 0] : Fin 2 → Nat) a + S1x1024.size a ≤ S256x1024.size a
  inb_S256_S1_135 : ∀ a, (![135] : Fin 1 → Nat) a + S1.size a ≤ S256.size a
  inb_S256x1024_S1x1024_135_0 : ∀ a, (![135, 0] : Fin 2 → Nat) a + S1x1024.size a ≤ S256x1024.size a
  inb_S256_S1_136 : ∀ a, (![136] : Fin 1 → Nat) a + S1.size a ≤ S256.size a
  inb_S256x1024_S1x1024_136_0 : ∀ a, (![136, 0] : Fin 2 → Nat) a + S1x1024.size a ≤ S256x1024.size a
  inb_S256_S1_137 : ∀ a, (![137] : Fin 1 → Nat) a + S1.size a ≤ S256.size a
  inb_S256x1024_S1x1024_137_0 : ∀ a, (![137, 0] : Fin 2 → Nat) a + S1x1024.size a ≤ S256x1024.size a
  inb_S256_S1_138 : ∀ a, (![138] : Fin 1 → Nat) a + S1.size a ≤ S256.size a
  inb_S256x1024_S1x1024_138_0 : ∀ a, (![138, 0] : Fin 2 → Nat) a + S1x1024.size a ≤ S256x1024.size a
  inb_S256_S1_139 : ∀ a, (![139] : Fin 1 → Nat) a + S1.size a ≤ S256.size a
  inb_S256x1024_S1x1024_139_0 : ∀ a, (![139, 0] : Fin 2 → Nat) a + S1x1024.size a ≤ S256x1024.size a
  inb_S256_S1_140 : ∀ a, (![140] : Fin 1 → Nat) a + S1.size a ≤ S256.size a
  inb_S256x1024_S1x1024_140_0 : ∀ a, (![140, 0] : Fin 2 → Nat) a + S1x1024.size a ≤ S256x1024.size a
  inb_S256_S1_141 : ∀ a, (![141] : Fin 1 → Nat) a + S1.size a ≤ S256.size a
  inb_S256x1024_S1x1024_141_0 : ∀ a, (![141, 0] : Fin 2 → Nat) a + S1x1024.size a ≤ S256x1024.size a
  inb_S256_S1_142 : ∀ a, (![142] : Fin 1 → Nat) a + S1.size a ≤ S256.size a
  inb_S256x1024_S1x1024_142_0 : ∀ a, (![142, 0] : Fin 2 → Nat) a + S1x1024.size a ≤ S256x1024.size a
  inb_S256_S1_143 : ∀ a, (![143] : Fin 1 → Nat) a + S1.size a ≤ S256.size a
  inb_S256x1024_S1x1024_143_0 : ∀ a, (![143, 0] : Fin 2 → Nat) a + S1x1024.size a ≤ S256x1024.size a
  inb_S256_S1_144 : ∀ a, (![144] : Fin 1 → Nat) a + S1.size a ≤ S256.size a
  inb_S256x1024_S1x1024_144_0 : ∀ a, (![144, 0] : Fin 2 → Nat) a + S1x1024.size a ≤ S256x1024.size a
  inb_S256_S1_145 : ∀ a, (![145] : Fin 1 → Nat) a + S1.size a ≤ S256.size a
  inb_S256x1024_S1x1024_145_0 : ∀ a, (![145, 0] : Fin 2 → Nat) a + S1x1024.size a ≤ S256x1024.size a
  inb_S256_S1_146 : ∀ a, (![146] : Fin 1 → Nat) a + S1.size a ≤ S256.size a
  inb_S256x1024_S1x1024_146_0 : ∀ a, (![146, 0] : Fin 2 → Nat) a + S1x1024.size a ≤ S256x1024.size a
  inb_S256_S1_147 : ∀ a, (![147] : Fin 1 → Nat) a + S1.size a ≤ S256.size a
  inb_S256x1024_S1x1024_147_0 : ∀ a, (![147, 0] : Fin 2 → Nat) a + S1x1024.size a ≤ S256x1024.size a
  inb_S256_S1_148 : ∀ a, (![148] : Fin 1 → Nat) a + S1.size a ≤ S256.size a
  inb_S256x1024_S1x1024_148_0 : ∀ a, (![148, 0] : Fin 2 → Nat) a + S1x1024.size a ≤ S256x1024.size a
  inb_S256_S1_149 : ∀ a, (![149] : Fin 1 → Nat) a + S1.size a ≤ S256.size a
  inb_S256x1024_S1x1024_149_0 : ∀ a, (![149, 0] : Fin 2 → Nat) a + S1x1024.size a ≤ S256x1024.size a
  inb_S256_S1_150 : ∀ a, (![150] : Fin 1 → Nat) a + S1.size a ≤ S256.size a
  inb_S256x1024_S1x1024_150_0 : ∀ a, (![150, 0] : Fin 2 → Nat) a + S1x1024.size a ≤ S256x1024.size a
  inb_S256_S1_151 : ∀ a, (![151] : Fin 1 → Nat) a + S1.size a ≤ S256.size a
  inb_S256x1024_S1x1024_151_0 : ∀ a, (![151, 0] : Fin 2 → Nat) a + S1x1024.size a ≤ S256x1024.size a
  inb_S256_S1_152 : ∀ a, (![152] : Fin 1 → Nat) a + S1.size a ≤ S256.size a
  inb_S256x1024_S1x1024_152_0 : ∀ a, (![152, 0] : Fin 2 → Nat) a + S1x1024.size a ≤ S256x1024.size a
  inb_S256_S1_153 : ∀ a, (![153] : Fin 1 → Nat) a + S1.size a ≤ S256.size a
  inb_S256x1024_S1x1024_153_0 : ∀ a, (![153, 0] : Fin 2 → Nat) a + S1x1024.size a ≤ S256x1024.size a
  inb_S256_S1_154 : ∀ a, (![154] : Fin 1 → Nat) a + S1.size a ≤ S256.size a
  inb_S256x1024_S1x1024_154_0 : ∀ a, (![154, 0] : Fin 2 → Nat) a + S1x1024.size a ≤ S256x1024.size a
  inb_S256_S1_155 : ∀ a, (![155] : Fin 1 → Nat) a + S1.size a ≤ S256.size a
  inb_S256x1024_S1x1024_155_0 : ∀ a, (![155, 0] : Fin 2 → Nat) a + S1x1024.size a ≤ S256x1024.size a
  inb_S256_S1_156 : ∀ a, (![156] : Fin 1 → Nat) a + S1.size a ≤ S256.size a
  inb_S256x1024_S1x1024_156_0 : ∀ a, (![156, 0] : Fin 2 → Nat) a + S1x1024.size a ≤ S256x1024.size a
  inb_S256_S1_157 : ∀ a, (![157] : Fin 1 → Nat) a + S1.size a ≤ S256.size a
  inb_S256x1024_S1x1024_157_0 : ∀ a, (![157, 0] : Fin 2 → Nat) a + S1x1024.size a ≤ S256x1024.size a
  inb_S256_S1_158 : ∀ a, (![158] : Fin 1 → Nat) a + S1.size a ≤ S256.size a
  inb_S256x1024_S1x1024_158_0 : ∀ a, (![158, 0] : Fin 2 → Nat) a + S1x1024.size a ≤ S256x1024.size a
  inb_S256_S1_159 : ∀ a, (![159] : Fin 1 → Nat) a + S1.size a ≤ S256.size a
  inb_S256x1024_S1x1024_159_0 : ∀ a, (![159, 0] : Fin 2 → Nat) a + S1x1024.size a ≤ S256x1024.size a
  inb_S256_S1_160 : ∀ a, (![160] : Fin 1 → Nat) a + S1.size a ≤ S256.size a
  inb_S256x1024_S1x1024_160_0 : ∀ a, (![160, 0] : Fin 2 → Nat) a + S1x1024.size a ≤ S256x1024.size a
  inb_S256_S1_161 : ∀ a, (![161] : Fin 1 → Nat) a + S1.size a ≤ S256.size a
  inb_S256x1024_S1x1024_161_0 : ∀ a, (![161, 0] : Fin 2 → Nat) a + S1x1024.size a ≤ S256x1024.size a
  inb_S256_S1_162 : ∀ a, (![162] : Fin 1 → Nat) a + S1.size a ≤ S256.size a
  inb_S256x1024_S1x1024_162_0 : ∀ a, (![162, 0] : Fin 2 → Nat) a + S1x1024.size a ≤ S256x1024.size a
  inb_S256_S1_163 : ∀ a, (![163] : Fin 1 → Nat) a + S1.size a ≤ S256.size a
  inb_S256x1024_S1x1024_163_0 : ∀ a, (![163, 0] : Fin 2 → Nat) a + S1x1024.size a ≤ S256x1024.size a
  inb_S256_S1_164 : ∀ a, (![164] : Fin 1 → Nat) a + S1.size a ≤ S256.size a
  inb_S256x1024_S1x1024_164_0 : ∀ a, (![164, 0] : Fin 2 → Nat) a + S1x1024.size a ≤ S256x1024.size a
  inb_S256_S1_165 : ∀ a, (![165] : Fin 1 → Nat) a + S1.size a ≤ S256.size a
  inb_S256x1024_S1x1024_165_0 : ∀ a, (![165, 0] : Fin 2 → Nat) a + S1x1024.size a ≤ S256x1024.size a
  inb_S256_S1_166 : ∀ a, (![166] : Fin 1 → Nat) a + S1.size a ≤ S256.size a
  inb_S256x1024_S1x1024_166_0 : ∀ a, (![166, 0] : Fin 2 → Nat) a + S1x1024.size a ≤ S256x1024.size a
  inb_S256_S1_167 : ∀ a, (![167] : Fin 1 → Nat) a + S1.size a ≤ S256.size a
  inb_S256x1024_S1x1024_167_0 : ∀ a, (![167, 0] : Fin 2 → Nat) a + S1x1024.size a ≤ S256x1024.size a
  inb_S256_S1_168 : ∀ a, (![168] : Fin 1 → Nat) a + S1.size a ≤ S256.size a
  inb_S256x1024_S1x1024_168_0 : ∀ a, (![168, 0] : Fin 2 → Nat) a + S1x1024.size a ≤ S256x1024.size a
  inb_S256_S1_169 : ∀ a, (![169] : Fin 1 → Nat) a + S1.size a ≤ S256.size a
  inb_S256x1024_S1x1024_169_0 : ∀ a, (![169, 0] : Fin 2 → Nat) a + S1x1024.size a ≤ S256x1024.size a
  inb_S256_S1_170 : ∀ a, (![170] : Fin 1 → Nat) a + S1.size a ≤ S256.size a
  inb_S256x1024_S1x1024_170_0 : ∀ a, (![170, 0] : Fin 2 → Nat) a + S1x1024.size a ≤ S256x1024.size a
  inb_S256_S1_171 : ∀ a, (![171] : Fin 1 → Nat) a + S1.size a ≤ S256.size a
  inb_S256x1024_S1x1024_171_0 : ∀ a, (![171, 0] : Fin 2 → Nat) a + S1x1024.size a ≤ S256x1024.size a
  inb_S256_S1_172 : ∀ a, (![172] : Fin 1 → Nat) a + S1.size a ≤ S256.size a
  inb_S256x1024_S1x1024_172_0 : ∀ a, (![172, 0] : Fin 2 → Nat) a + S1x1024.size a ≤ S256x1024.size a
  inb_S256_S1_173 : ∀ a, (![173] : Fin 1 → Nat) a + S1.size a ≤ S256.size a
  inb_S256x1024_S1x1024_173_0 : ∀ a, (![173, 0] : Fin 2 → Nat) a + S1x1024.size a ≤ S256x1024.size a
  inb_S256_S1_174 : ∀ a, (![174] : Fin 1 → Nat) a + S1.size a ≤ S256.size a
  inb_S256x1024_S1x1024_174_0 : ∀ a, (![174, 0] : Fin 2 → Nat) a + S1x1024.size a ≤ S256x1024.size a
  inb_S256_S1_175 : ∀ a, (![175] : Fin 1 → Nat) a + S1.size a ≤ S256.size a
  inb_S256x1024_S1x1024_175_0 : ∀ a, (![175, 0] : Fin 2 → Nat) a + S1x1024.size a ≤ S256x1024.size a
  inb_S256_S1_176 : ∀ a, (![176] : Fin 1 → Nat) a + S1.size a ≤ S256.size a
  inb_S256x1024_S1x1024_176_0 : ∀ a, (![176, 0] : Fin 2 → Nat) a + S1x1024.size a ≤ S256x1024.size a
  inb_S256_S1_177 : ∀ a, (![177] : Fin 1 → Nat) a + S1.size a ≤ S256.size a
  inb_S256x1024_S1x1024_177_0 : ∀ a, (![177, 0] : Fin 2 → Nat) a + S1x1024.size a ≤ S256x1024.size a
  inb_S256_S1_178 : ∀ a, (![178] : Fin 1 → Nat) a + S1.size a ≤ S256.size a
  inb_S256x1024_S1x1024_178_0 : ∀ a, (![178, 0] : Fin 2 → Nat) a + S1x1024.size a ≤ S256x1024.size a
  inb_S256_S1_179 : ∀ a, (![179] : Fin 1 → Nat) a + S1.size a ≤ S256.size a
  inb_S256x1024_S1x1024_179_0 : ∀ a, (![179, 0] : Fin 2 → Nat) a + S1x1024.size a ≤ S256x1024.size a
  inb_S256_S1_180 : ∀ a, (![180] : Fin 1 → Nat) a + S1.size a ≤ S256.size a
  inb_S256x1024_S1x1024_180_0 : ∀ a, (![180, 0] : Fin 2 → Nat) a + S1x1024.size a ≤ S256x1024.size a
  inb_S256_S1_181 : ∀ a, (![181] : Fin 1 → Nat) a + S1.size a ≤ S256.size a
  inb_S256x1024_S1x1024_181_0 : ∀ a, (![181, 0] : Fin 2 → Nat) a + S1x1024.size a ≤ S256x1024.size a
  inb_S256_S1_182 : ∀ a, (![182] : Fin 1 → Nat) a + S1.size a ≤ S256.size a
  inb_S256x1024_S1x1024_182_0 : ∀ a, (![182, 0] : Fin 2 → Nat) a + S1x1024.size a ≤ S256x1024.size a
  inb_S256_S1_183 : ∀ a, (![183] : Fin 1 → Nat) a + S1.size a ≤ S256.size a
  inb_S256x1024_S1x1024_183_0 : ∀ a, (![183, 0] : Fin 2 → Nat) a + S1x1024.size a ≤ S256x1024.size a
  inb_S256_S1_184 : ∀ a, (![184] : Fin 1 → Nat) a + S1.size a ≤ S256.size a
  inb_S256x1024_S1x1024_184_0 : ∀ a, (![184, 0] : Fin 2 → Nat) a + S1x1024.size a ≤ S256x1024.size a
  inb_S256_S1_185 : ∀ a, (![185] : Fin 1 → Nat) a + S1.size a ≤ S256.size a
  inb_S256x1024_S1x1024_185_0 : ∀ a, (![185, 0] : Fin 2 → Nat) a + S1x1024.size a ≤ S256x1024.size a
  inb_S256_S1_186 : ∀ a, (![186] : Fin 1 → Nat) a + S1.size a ≤ S256.size a
  inb_S256x1024_S1x1024_186_0 : ∀ a, (![186, 0] : Fin 2 → Nat) a + S1x1024.size a ≤ S256x1024.size a
  inb_S256_S1_187 : ∀ a, (![187] : Fin 1 → Nat) a + S1.size a ≤ S256.size a
  inb_S256x1024_S1x1024_187_0 : ∀ a, (![187, 0] : Fin 2 → Nat) a + S1x1024.size a ≤ S256x1024.size a
  inb_S256_S1_188 : ∀ a, (![188] : Fin 1 → Nat) a + S1.size a ≤ S256.size a
  inb_S256x1024_S1x1024_188_0 : ∀ a, (![188, 0] : Fin 2 → Nat) a + S1x1024.size a ≤ S256x1024.size a
  inb_S256_S1_189 : ∀ a, (![189] : Fin 1 → Nat) a + S1.size a ≤ S256.size a
  inb_S256x1024_S1x1024_189_0 : ∀ a, (![189, 0] : Fin 2 → Nat) a + S1x1024.size a ≤ S256x1024.size a
  inb_S256_S1_190 : ∀ a, (![190] : Fin 1 → Nat) a + S1.size a ≤ S256.size a
  inb_S256x1024_S1x1024_190_0 : ∀ a, (![190, 0] : Fin 2 → Nat) a + S1x1024.size a ≤ S256x1024.size a
  inb_S256_S1_191 : ∀ a, (![191] : Fin 1 → Nat) a + S1.size a ≤ S256.size a
  inb_S256x1024_S1x1024_191_0 : ∀ a, (![191, 0] : Fin 2 → Nat) a + S1x1024.size a ≤ S256x1024.size a
  inb_S256_S1_192 : ∀ a, (![192] : Fin 1 → Nat) a + S1.size a ≤ S256.size a
  inb_S256x1024_S1x1024_192_0 : ∀ a, (![192, 0] : Fin 2 → Nat) a + S1x1024.size a ≤ S256x1024.size a
  inb_S256_S1_193 : ∀ a, (![193] : Fin 1 → Nat) a + S1.size a ≤ S256.size a
  inb_S256x1024_S1x1024_193_0 : ∀ a, (![193, 0] : Fin 2 → Nat) a + S1x1024.size a ≤ S256x1024.size a
  inb_S256_S1_194 : ∀ a, (![194] : Fin 1 → Nat) a + S1.size a ≤ S256.size a
  inb_S256x1024_S1x1024_194_0 : ∀ a, (![194, 0] : Fin 2 → Nat) a + S1x1024.size a ≤ S256x1024.size a
  inb_S256_S1_195 : ∀ a, (![195] : Fin 1 → Nat) a + S1.size a ≤ S256.size a
  inb_S256x1024_S1x1024_195_0 : ∀ a, (![195, 0] : Fin 2 → Nat) a + S1x1024.size a ≤ S256x1024.size a
  inb_S256_S1_196 : ∀ a, (![196] : Fin 1 → Nat) a + S1.size a ≤ S256.size a
  inb_S256x1024_S1x1024_196_0 : ∀ a, (![196, 0] : Fin 2 → Nat) a + S1x1024.size a ≤ S256x1024.size a
  inb_S256_S1_197 : ∀ a, (![197] : Fin 1 → Nat) a + S1.size a ≤ S256.size a
  inb_S256x1024_S1x1024_197_0 : ∀ a, (![197, 0] : Fin 2 → Nat) a + S1x1024.size a ≤ S256x1024.size a
  inb_S256_S1_198 : ∀ a, (![198] : Fin 1 → Nat) a + S1.size a ≤ S256.size a
  inb_S256x1024_S1x1024_198_0 : ∀ a, (![198, 0] : Fin 2 → Nat) a + S1x1024.size a ≤ S256x1024.size a
  inb_S256_S1_199 : ∀ a, (![199] : Fin 1 → Nat) a + S1.size a ≤ S256.size a
  inb_S256x1024_S1x1024_199_0 : ∀ a, (![199, 0] : Fin 2 → Nat) a + S1x1024.size a ≤ S256x1024.size a
  inb_S256_S1_200 : ∀ a, (![200] : Fin 1 → Nat) a + S1.size a ≤ S256.size a
  inb_S256x1024_S1x1024_200_0 : ∀ a, (![200, 0] : Fin 2 → Nat) a + S1x1024.size a ≤ S256x1024.size a
  inb_S256_S1_201 : ∀ a, (![201] : Fin 1 → Nat) a + S1.size a ≤ S256.size a
  inb_S256x1024_S1x1024_201_0 : ∀ a, (![201, 0] : Fin 2 → Nat) a + S1x1024.size a ≤ S256x1024.size a
  inb_S256_S1_202 : ∀ a, (![202] : Fin 1 → Nat) a + S1.size a ≤ S256.size a
  inb_S256x1024_S1x1024_202_0 : ∀ a, (![202, 0] : Fin 2 → Nat) a + S1x1024.size a ≤ S256x1024.size a
  inb_S256_S1_203 : ∀ a, (![203] : Fin 1 → Nat) a + S1.size a ≤ S256.size a
  inb_S256x1024_S1x1024_203_0 : ∀ a, (![203, 0] : Fin 2 → Nat) a + S1x1024.size a ≤ S256x1024.size a
  inb_S256_S1_204 : ∀ a, (![204] : Fin 1 → Nat) a + S1.size a ≤ S256.size a
  inb_S256x1024_S1x1024_204_0 : ∀ a, (![204, 0] : Fin 2 → Nat) a + S1x1024.size a ≤ S256x1024.size a
  inb_S256_S1_205 : ∀ a, (![205] : Fin 1 → Nat) a + S1.size a ≤ S256.size a
  inb_S256x1024_S1x1024_205_0 : ∀ a, (![205, 0] : Fin 2 → Nat) a + S1x1024.size a ≤ S256x1024.size a
  inb_S256_S1_206 : ∀ a, (![206] : Fin 1 → Nat) a + S1.size a ≤ S256.size a
  inb_S256x1024_S1x1024_206_0 : ∀ a, (![206, 0] : Fin 2 → Nat) a + S1x1024.size a ≤ S256x1024.size a
  inb_S256_S1_207 : ∀ a, (![207] : Fin 1 → Nat) a + S1.size a ≤ S256.size a
  inb_S256x1024_S1x1024_207_0 : ∀ a, (![207, 0] : Fin 2 → Nat) a + S1x1024.size a ≤ S256x1024.size a
  inb_S256_S1_208 : ∀ a, (![208] : Fin 1 → Nat) a + S1.size a ≤ S256.size a
  inb_S256x1024_S1x1024_208_0 : ∀ a, (![208, 0] : Fin 2 → Nat) a + S1x1024.size a ≤ S256x1024.size a
  inb_S256_S1_209 : ∀ a, (![209] : Fin 1 → Nat) a + S1.size a ≤ S256.size a
  inb_S256x1024_S1x1024_209_0 : ∀ a, (![209, 0] : Fin 2 → Nat) a + S1x1024.size a ≤ S256x1024.size a
  inb_S256_S1_210 : ∀ a, (![210] : Fin 1 → Nat) a + S1.size a ≤ S256.size a
  inb_S256x1024_S1x1024_210_0 : ∀ a, (![210, 0] : Fin 2 → Nat) a + S1x1024.size a ≤ S256x1024.size a
  inb_S256_S1_211 : ∀ a, (![211] : Fin 1 → Nat) a + S1.size a ≤ S256.size a
  inb_S256x1024_S1x1024_211_0 : ∀ a, (![211, 0] : Fin 2 → Nat) a + S1x1024.size a ≤ S256x1024.size a
  inb_S256_S1_212 : ∀ a, (![212] : Fin 1 → Nat) a + S1.size a ≤ S256.size a
  inb_S256x1024_S1x1024_212_0 : ∀ a, (![212, 0] : Fin 2 → Nat) a + S1x1024.size a ≤ S256x1024.size a
  inb_S256_S1_213 : ∀ a, (![213] : Fin 1 → Nat) a + S1.size a ≤ S256.size a
  inb_S256x1024_S1x1024_213_0 : ∀ a, (![213, 0] : Fin 2 → Nat) a + S1x1024.size a ≤ S256x1024.size a
  inb_S256_S1_214 : ∀ a, (![214] : Fin 1 → Nat) a + S1.size a ≤ S256.size a
  inb_S256x1024_S1x1024_214_0 : ∀ a, (![214, 0] : Fin 2 → Nat) a + S1x1024.size a ≤ S256x1024.size a
  inb_S256_S1_215 : ∀ a, (![215] : Fin 1 → Nat) a + S1.size a ≤ S256.size a
  inb_S256x1024_S1x1024_215_0 : ∀ a, (![215, 0] : Fin 2 → Nat) a + S1x1024.size a ≤ S256x1024.size a
  inb_S256_S1_216 : ∀ a, (![216] : Fin 1 → Nat) a + S1.size a ≤ S256.size a
  inb_S256x1024_S1x1024_216_0 : ∀ a, (![216, 0] : Fin 2 → Nat) a + S1x1024.size a ≤ S256x1024.size a
  inb_S256_S1_217 : ∀ a, (![217] : Fin 1 → Nat) a + S1.size a ≤ S256.size a
  inb_S256x1024_S1x1024_217_0 : ∀ a, (![217, 0] : Fin 2 → Nat) a + S1x1024.size a ≤ S256x1024.size a
  inb_S256_S1_218 : ∀ a, (![218] : Fin 1 → Nat) a + S1.size a ≤ S256.size a
  inb_S256x1024_S1x1024_218_0 : ∀ a, (![218, 0] : Fin 2 → Nat) a + S1x1024.size a ≤ S256x1024.size a
  inb_S256_S1_219 : ∀ a, (![219] : Fin 1 → Nat) a + S1.size a ≤ S256.size a
  inb_S256x1024_S1x1024_219_0 : ∀ a, (![219, 0] : Fin 2 → Nat) a + S1x1024.size a ≤ S256x1024.size a
  inb_S256_S1_220 : ∀ a, (![220] : Fin 1 → Nat) a + S1.size a ≤ S256.size a
  inb_S256x1024_S1x1024_220_0 : ∀ a, (![220, 0] : Fin 2 → Nat) a + S1x1024.size a ≤ S256x1024.size a
  inb_S256_S1_221 : ∀ a, (![221] : Fin 1 → Nat) a + S1.size a ≤ S256.size a
  inb_S256x1024_S1x1024_221_0 : ∀ a, (![221, 0] : Fin 2 → Nat) a + S1x1024.size a ≤ S256x1024.size a
  inb_S256_S1_222 : ∀ a, (![222] : Fin 1 → Nat) a + S1.size a ≤ S256.size a
  inb_S256x1024_S1x1024_222_0 : ∀ a, (![222, 0] : Fin 2 → Nat) a + S1x1024.size a ≤ S256x1024.size a
  inb_S256_S1_223 : ∀ a, (![223] : Fin 1 → Nat) a + S1.size a ≤ S256.size a
  inb_S256x1024_S1x1024_223_0 : ∀ a, (![223, 0] : Fin 2 → Nat) a + S1x1024.size a ≤ S256x1024.size a
  inb_S256_S1_224 : ∀ a, (![224] : Fin 1 → Nat) a + S1.size a ≤ S256.size a
  inb_S256x1024_S1x1024_224_0 : ∀ a, (![224, 0] : Fin 2 → Nat) a + S1x1024.size a ≤ S256x1024.size a
  inb_S256_S1_225 : ∀ a, (![225] : Fin 1 → Nat) a + S1.size a ≤ S256.size a
  inb_S256x1024_S1x1024_225_0 : ∀ a, (![225, 0] : Fin 2 → Nat) a + S1x1024.size a ≤ S256x1024.size a
  inb_S256_S1_226 : ∀ a, (![226] : Fin 1 → Nat) a + S1.size a ≤ S256.size a
  inb_S256x1024_S1x1024_226_0 : ∀ a, (![226, 0] : Fin 2 → Nat) a + S1x1024.size a ≤ S256x1024.size a
  inb_S256_S1_227 : ∀ a, (![227] : Fin 1 → Nat) a + S1.size a ≤ S256.size a
  inb_S256x1024_S1x1024_227_0 : ∀ a, (![227, 0] : Fin 2 → Nat) a + S1x1024.size a ≤ S256x1024.size a
  inb_S256_S1_228 : ∀ a, (![228] : Fin 1 → Nat) a + S1.size a ≤ S256.size a
  inb_S256x1024_S1x1024_228_0 : ∀ a, (![228, 0] : Fin 2 → Nat) a + S1x1024.size a ≤ S256x1024.size a
  inb_S256_S1_229 : ∀ a, (![229] : Fin 1 → Nat) a + S1.size a ≤ S256.size a
  inb_S256x1024_S1x1024_229_0 : ∀ a, (![229, 0] : Fin 2 → Nat) a + S1x1024.size a ≤ S256x1024.size a
  inb_S256_S1_230 : ∀ a, (![230] : Fin 1 → Nat) a + S1.size a ≤ S256.size a
  inb_S256x1024_S1x1024_230_0 : ∀ a, (![230, 0] : Fin 2 → Nat) a + S1x1024.size a ≤ S256x1024.size a
  inb_S256_S1_231 : ∀ a, (![231] : Fin 1 → Nat) a + S1.size a ≤ S256.size a
  inb_S256x1024_S1x1024_231_0 : ∀ a, (![231, 0] : Fin 2 → Nat) a + S1x1024.size a ≤ S256x1024.size a
  inb_S256_S1_232 : ∀ a, (![232] : Fin 1 → Nat) a + S1.size a ≤ S256.size a
  inb_S256x1024_S1x1024_232_0 : ∀ a, (![232, 0] : Fin 2 → Nat) a + S1x1024.size a ≤ S256x1024.size a
  inb_S256_S1_233 : ∀ a, (![233] : Fin 1 → Nat) a + S1.size a ≤ S256.size a
  inb_S256x1024_S1x1024_233_0 : ∀ a, (![233, 0] : Fin 2 → Nat) a + S1x1024.size a ≤ S256x1024.size a
  inb_S256_S1_234 : ∀ a, (![234] : Fin 1 → Nat) a + S1.size a ≤ S256.size a
  inb_S256x1024_S1x1024_234_0 : ∀ a, (![234, 0] : Fin 2 → Nat) a + S1x1024.size a ≤ S256x1024.size a
  inb_S256_S1_235 : ∀ a, (![235] : Fin 1 → Nat) a + S1.size a ≤ S256.size a
  inb_S256x1024_S1x1024_235_0 : ∀ a, (![235, 0] : Fin 2 → Nat) a + S1x1024.size a ≤ S256x1024.size a
  inb_S256_S1_236 : ∀ a, (![236] : Fin 1 → Nat) a + S1.size a ≤ S256.size a
  inb_S256x1024_S1x1024_236_0 : ∀ a, (![236, 0] : Fin 2 → Nat) a + S1x1024.size a ≤ S256x1024.size a
  inb_S256_S1_237 : ∀ a, (![237] : Fin 1 → Nat) a + S1.size a ≤ S256.size a
  inb_S256x1024_S1x1024_237_0 : ∀ a, (![237, 0] : Fin 2 → Nat) a + S1x1024.size a ≤ S256x1024.size a
  inb_S256_S1_238 : ∀ a, (![238] : Fin 1 → Nat) a + S1.size a ≤ S256.size a
  inb_S256x1024_S1x1024_238_0 : ∀ a, (![238, 0] : Fin 2 → Nat) a + S1x1024.size a ≤ S256x1024.size a
  inb_S256_S1_239 : ∀ a, (![239] : Fin 1 → Nat) a + S1.size a ≤ S256.size a
  inb_S256x1024_S1x1024_239_0 : ∀ a, (![239, 0] : Fin 2 → Nat) a + S1x1024.size a ≤ S256x1024.size a
  inb_S256_S1_240 : ∀ a, (![240] : Fin 1 → Nat) a + S1.size a ≤ S256.size a
  inb_S256x1024_S1x1024_240_0 : ∀ a, (![240, 0] : Fin 2 → Nat) a + S1x1024.size a ≤ S256x1024.size a
  inb_S256_S1_241 : ∀ a, (![241] : Fin 1 → Nat) a + S1.size a ≤ S256.size a
  inb_S256x1024_S1x1024_241_0 : ∀ a, (![241, 0] : Fin 2 → Nat) a + S1x1024.size a ≤ S256x1024.size a
  inb_S256_S1_242 : ∀ a, (![242] : Fin 1 → Nat) a + S1.size a ≤ S256.size a
  inb_S256x1024_S1x1024_242_0 : ∀ a, (![242, 0] : Fin 2 → Nat) a + S1x1024.size a ≤ S256x1024.size a
  inb_S256_S1_243 : ∀ a, (![243] : Fin 1 → Nat) a + S1.size a ≤ S256.size a
  inb_S256x1024_S1x1024_243_0 : ∀ a, (![243, 0] : Fin 2 → Nat) a + S1x1024.size a ≤ S256x1024.size a
  inb_S256_S1_244 : ∀ a, (![244] : Fin 1 → Nat) a + S1.size a ≤ S256.size a
  inb_S256x1024_S1x1024_244_0 : ∀ a, (![244, 0] : Fin 2 → Nat) a + S1x1024.size a ≤ S256x1024.size a
  inb_S256_S1_245 : ∀ a, (![245] : Fin 1 → Nat) a + S1.size a ≤ S256.size a
  inb_S256x1024_S1x1024_245_0 : ∀ a, (![245, 0] : Fin 2 → Nat) a + S1x1024.size a ≤ S256x1024.size a
  inb_S256_S1_246 : ∀ a, (![246] : Fin 1 → Nat) a + S1.size a ≤ S256.size a
  inb_S256x1024_S1x1024_246_0 : ∀ a, (![246, 0] : Fin 2 → Nat) a + S1x1024.size a ≤ S256x1024.size a
  inb_S256_S1_247 : ∀ a, (![247] : Fin 1 → Nat) a + S1.size a ≤ S256.size a
  inb_S256x1024_S1x1024_247_0 : ∀ a, (![247, 0] : Fin 2 → Nat) a + S1x1024.size a ≤ S256x1024.size a
  inb_S256_S1_248 : ∀ a, (![248] : Fin 1 → Nat) a + S1.size a ≤ S256.size a
  inb_S256x1024_S1x1024_248_0 : ∀ a, (![248, 0] : Fin 2 → Nat) a + S1x1024.size a ≤ S256x1024.size a
  inb_S256_S1_249 : ∀ a, (![249] : Fin 1 → Nat) a + S1.size a ≤ S256.size a
  inb_S256x1024_S1x1024_249_0 : ∀ a, (![249, 0] : Fin 2 → Nat) a + S1x1024.size a ≤ S256x1024.size a
  inb_S256_S1_250 : ∀ a, (![250] : Fin 1 → Nat) a + S1.size a ≤ S256.size a
  inb_S256x1024_S1x1024_250_0 : ∀ a, (![250, 0] : Fin 2 → Nat) a + S1x1024.size a ≤ S256x1024.size a
  inb_S256_S1_251 : ∀ a, (![251] : Fin 1 → Nat) a + S1.size a ≤ S256.size a
  inb_S256x1024_S1x1024_251_0 : ∀ a, (![251, 0] : Fin 2 → Nat) a + S1x1024.size a ≤ S256x1024.size a
  inb_S256_S1_252 : ∀ a, (![252] : Fin 1 → Nat) a + S1.size a ≤ S256.size a
  inb_S256x1024_S1x1024_252_0 : ∀ a, (![252, 0] : Fin 2 → Nat) a + S1x1024.size a ≤ S256x1024.size a
  inb_S256_S1_253 : ∀ a, (![253] : Fin 1 → Nat) a + S1.size a ≤ S256.size a
  inb_S256x1024_S1x1024_253_0 : ∀ a, (![253, 0] : Fin 2 → Nat) a + S1x1024.size a ≤ S256x1024.size a
  inb_S256_S1_254 : ∀ a, (![254] : Fin 1 → Nat) a + S1.size a ≤ S256.size a
  inb_S256x1024_S1x1024_254_0 : ∀ a, (![254, 0] : Fin 2 → Nat) a + S1x1024.size a ≤ S256x1024.size a
  inb_S256_S1_255 : ∀ a, (![255] : Fin 1 → Nat) a + S1.size a ≤ S256.size a
  inb_S256x1024_S1x1024_255_0 : ∀ a, (![255, 0] : Fin 2 → Nat) a + S1x1024.size a ≤ S256x1024.size a
  inb_S128000x1024_S1x1024_0_0 : ∀ a, (![0, 0] : Fin 2 → Nat) a + S1x1024.size a ≤ S128000x1024.size a
  inb_S256x1024_S256x1024_0_0 : ∀ a, (![0, 0] : Fin 2 → Nat) a + S256x1024.size a ≤ S256x1024.size a
  h_S256x1024 : 0 < S256x1024.numel
  bcast_S_S16384 : S_.BroadcastsInDim S16384 (![] : Fin 0 → Fin S16384.rank)
  bcast_S16384_S16384x1_0 : S16384.BroadcastsInDim S16384x1 (![0] : Fin 1 → Fin S16384x1.rank)
  shapeCasts_S16384_S16384x1 : S16384.ShapeCasts S16384x1
  bcast_S_S16384x1024 : S_.BroadcastsInDim S16384x1024 (![] : Fin 0 → Fin S16384x1024.rank)
  bcast_S16384x1024_S16384x1024x1_0_1 : S16384x1024.BroadcastsInDim S16384x1024x1 (![0, 1] : Fin 2 → Fin S16384x1024x1.rank)
  bcast_S16384x1_S16384x1024_0_1 : S16384x1.BroadcastsInDim S16384x1024 (![0, 1] : Fin 2 → Fin S16384x1024.rank)
  shapeCasts_S16384x1024_S4x4096x1024 : S16384x1024.ShapeCasts S4x4096x1024
  gather_S32000_S16384x1_S16384_n_0_n_n_0_1_1_wf : GatherDims.WF S32000 S16384x1 S16384 [] [0] [] [0] [] 1 ![1]
  gather_S256_S16384x1024x1_S16384x1024_n_0_n_n_0_2_1_wf : GatherDims.WF S256 S16384x1024x1 S16384x1024 [] [0] [] [0] [] 2 ![1]
  hcc0_scratch1 : 2 + S256.numel ≤ 258
  hrank0 : 0 < grid0.rank
  k0_off1_inb : ∀ i : grid0.Coords, ∀ a, (k0_off1 i) a + S1.size a ≤ S16384.size a
  k0_off3_inb : ∀ i : grid0.Coords, ∀ a, (k0_off3 i) a + S1.size a ≤ S16384.size a
  k0_off5_inb : ∀ i : grid0.Coords, ∀ a, (k0_off5 i) a + S1.size a ≤ S16384.size a
  k0_off7_inb : ∀ i : grid0.Coords, ∀ a, (k0_off7 i) a + S1.size a ≤ S16384.size a
  k0_off9_inb : ∀ i : grid0.Coords, ∀ a, (k0_off9 i) a + S1.size a ≤ S16384.size a
  k0_off11_inb : ∀ i : grid0.Coords, ∀ a, (k0_off11 i) a + S1.size a ≤ S16384.size a
  k0_off13_inb : ∀ i : grid0.Coords, ∀ a, (k0_off13 i) a + S1.size a ≤ S16384.size a
  k0_off15_inb : ∀ i : grid0.Coords, ∀ a, (k0_off15 i) a + S1.size a ≤ S16384.size a
  k0_off17_inb : ∀ i : grid0.Coords, ∀ a, (k0_off17 i) a + S1.size a ≤ S16384.size a
  k0_off19_inb : ∀ i : grid0.Coords, ∀ a, (k0_off19 i) a + S1.size a ≤ S16384.size a
  k0_off21_inb : ∀ i : grid0.Coords, ∀ a, (k0_off21 i) a + S1.size a ≤ S16384.size a
  k0_off23_inb : ∀ i : grid0.Coords, ∀ a, (k0_off23 i) a + S1.size a ≤ S16384.size a
  k0_off25_inb : ∀ i : grid0.Coords, ∀ a, (k0_off25 i) a + S1.size a ≤ S16384.size a
  k0_off27_inb : ∀ i : grid0.Coords, ∀ a, (k0_off27 i) a + S1.size a ≤ S16384.size a
  k0_off29_inb : ∀ i : grid0.Coords, ∀ a, (k0_off29 i) a + S1.size a ≤ S16384.size a
  k0_off31_inb : ∀ i : grid0.Coords, ∀ a, (k0_off31 i) a + S1.size a ≤ S16384.size a
  k0_off33_inb : ∀ i : grid0.Coords, ∀ a, (k0_off33 i) a + S1.size a ≤ S16384.size a
  k0_off35_inb : ∀ i : grid0.Coords, ∀ a, (k0_off35 i) a + S1.size a ≤ S16384.size a
  k0_off37_inb : ∀ i : grid0.Coords, ∀ a, (k0_off37 i) a + S1.size a ≤ S16384.size a
  k0_off39_inb : ∀ i : grid0.Coords, ∀ a, (k0_off39 i) a + S1.size a ≤ S16384.size a
  k0_off41_inb : ∀ i : grid0.Coords, ∀ a, (k0_off41 i) a + S1.size a ≤ S16384.size a
  k0_off43_inb : ∀ i : grid0.Coords, ∀ a, (k0_off43 i) a + S1.size a ≤ S16384.size a
  k0_off45_inb : ∀ i : grid0.Coords, ∀ a, (k0_off45 i) a + S1.size a ≤ S16384.size a
  k0_off47_inb : ∀ i : grid0.Coords, ∀ a, (k0_off47 i) a + S1.size a ≤ S16384.size a
  k0_off49_inb : ∀ i : grid0.Coords, ∀ a, (k0_off49 i) a + S1.size a ≤ S16384.size a
  k0_off51_inb : ∀ i : grid0.Coords, ∀ a, (k0_off51 i) a + S1.size a ≤ S16384.size a
  k0_off53_inb : ∀ i : grid0.Coords, ∀ a, (k0_off53 i) a + S1.size a ≤ S16384.size a
  k0_off55_inb : ∀ i : grid0.Coords, ∀ a, (k0_off55 i) a + S1.size a ≤ S16384.size a
  k0_off57_inb : ∀ i : grid0.Coords, ∀ a, (k0_off57 i) a + S1.size a ≤ S16384.size a
  k0_off59_inb : ∀ i : grid0.Coords, ∀ a, (k0_off59 i) a + S1.size a ≤ S16384.size a
  k0_off61_inb : ∀ i : grid0.Coords, ∀ a, (k0_off61 i) a + S1.size a ≤ S16384.size a
  k0_off63_inb : ∀ i : grid0.Coords, ∀ a, (k0_off63 i) a + S1.size a ≤ S16384.size a
  k0_off65_inb : ∀ i : grid0.Coords, ∀ a, (k0_off65 i) a + S1.size a ≤ S16384.size a
  k0_off67_inb : ∀ i : grid0.Coords, ∀ a, (k0_off67 i) a + S1.size a ≤ S16384.size a
  k0_off69_inb : ∀ i : grid0.Coords, ∀ a, (k0_off69 i) a + S1.size a ≤ S16384.size a
  k0_off71_inb : ∀ i : grid0.Coords, ∀ a, (k0_off71 i) a + S1.size a ≤ S16384.size a
  k0_off73_inb : ∀ i : grid0.Coords, ∀ a, (k0_off73 i) a + S1.size a ≤ S16384.size a
  k0_off75_inb : ∀ i : grid0.Coords, ∀ a, (k0_off75 i) a + S1.size a ≤ S16384.size a
  k0_off77_inb : ∀ i : grid0.Coords, ∀ a, (k0_off77 i) a + S1.size a ≤ S16384.size a
  k0_off79_inb : ∀ i : grid0.Coords, ∀ a, (k0_off79 i) a + S1.size a ≤ S16384.size a
  k0_off81_inb : ∀ i : grid0.Coords, ∀ a, (k0_off81 i) a + S1.size a ≤ S16384.size a
  k0_off83_inb : ∀ i : grid0.Coords, ∀ a, (k0_off83 i) a + S1.size a ≤ S16384.size a
  k0_off85_inb : ∀ i : grid0.Coords, ∀ a, (k0_off85 i) a + S1.size a ≤ S16384.size a
  k0_off87_inb : ∀ i : grid0.Coords, ∀ a, (k0_off87 i) a + S1.size a ≤ S16384.size a
  k0_off89_inb : ∀ i : grid0.Coords, ∀ a, (k0_off89 i) a + S1.size a ≤ S16384.size a
  k0_off91_inb : ∀ i : grid0.Coords, ∀ a, (k0_off91 i) a + S1.size a ≤ S16384.size a
  k0_off93_inb : ∀ i : grid0.Coords, ∀ a, (k0_off93 i) a + S1.size a ≤ S16384.size a
  k0_off95_inb : ∀ i : grid0.Coords, ∀ a, (k0_off95 i) a + S1.size a ≤ S16384.size a
  k0_off97_inb : ∀ i : grid0.Coords, ∀ a, (k0_off97 i) a + S1.size a ≤ S16384.size a
  k0_off99_inb : ∀ i : grid0.Coords, ∀ a, (k0_off99 i) a + S1.size a ≤ S16384.size a
  k0_off101_inb : ∀ i : grid0.Coords, ∀ a, (k0_off101 i) a + S1.size a ≤ S16384.size a
  k0_off103_inb : ∀ i : grid0.Coords, ∀ a, (k0_off103 i) a + S1.size a ≤ S16384.size a
  k0_off105_inb : ∀ i : grid0.Coords, ∀ a, (k0_off105 i) a + S1.size a ≤ S16384.size a
  k0_off107_inb : ∀ i : grid0.Coords, ∀ a, (k0_off107 i) a + S1.size a ≤ S16384.size a
  k0_off109_inb : ∀ i : grid0.Coords, ∀ a, (k0_off109 i) a + S1.size a ≤ S16384.size a
  k0_off111_inb : ∀ i : grid0.Coords, ∀ a, (k0_off111 i) a + S1.size a ≤ S16384.size a
  k0_off113_inb : ∀ i : grid0.Coords, ∀ a, (k0_off113 i) a + S1.size a ≤ S16384.size a
  k0_off115_inb : ∀ i : grid0.Coords, ∀ a, (k0_off115 i) a + S1.size a ≤ S16384.size a
  k0_off117_inb : ∀ i : grid0.Coords, ∀ a, (k0_off117 i) a + S1.size a ≤ S16384.size a
  k0_off119_inb : ∀ i : grid0.Coords, ∀ a, (k0_off119 i) a + S1.size a ≤ S16384.size a
  k0_off121_inb : ∀ i : grid0.Coords, ∀ a, (k0_off121 i) a + S1.size a ≤ S16384.size a
  k0_off123_inb : ∀ i : grid0.Coords, ∀ a, (k0_off123 i) a + S1.size a ≤ S16384.size a
  k0_off125_inb : ∀ i : grid0.Coords, ∀ a, (k0_off125 i) a + S1.size a ≤ S16384.size a
  k0_off127_inb : ∀ i : grid0.Coords, ∀ a, (k0_off127 i) a + S1.size a ≤ S16384.size a
  k0_off129_inb : ∀ i : grid0.Coords, ∀ a, (k0_off129 i) a + S1.size a ≤ S16384.size a
  k0_off131_inb : ∀ i : grid0.Coords, ∀ a, (k0_off131 i) a + S1.size a ≤ S16384.size a
  k0_off133_inb : ∀ i : grid0.Coords, ∀ a, (k0_off133 i) a + S1.size a ≤ S16384.size a
  k0_off135_inb : ∀ i : grid0.Coords, ∀ a, (k0_off135 i) a + S1.size a ≤ S16384.size a
  k0_off137_inb : ∀ i : grid0.Coords, ∀ a, (k0_off137 i) a + S1.size a ≤ S16384.size a
  k0_off139_inb : ∀ i : grid0.Coords, ∀ a, (k0_off139 i) a + S1.size a ≤ S16384.size a
  k0_off141_inb : ∀ i : grid0.Coords, ∀ a, (k0_off141 i) a + S1.size a ≤ S16384.size a
  k0_off143_inb : ∀ i : grid0.Coords, ∀ a, (k0_off143 i) a + S1.size a ≤ S16384.size a
  k0_off145_inb : ∀ i : grid0.Coords, ∀ a, (k0_off145 i) a + S1.size a ≤ S16384.size a
  k0_off147_inb : ∀ i : grid0.Coords, ∀ a, (k0_off147 i) a + S1.size a ≤ S16384.size a
  k0_off149_inb : ∀ i : grid0.Coords, ∀ a, (k0_off149 i) a + S1.size a ≤ S16384.size a
  k0_off151_inb : ∀ i : grid0.Coords, ∀ a, (k0_off151 i) a + S1.size a ≤ S16384.size a
  k0_off153_inb : ∀ i : grid0.Coords, ∀ a, (k0_off153 i) a + S1.size a ≤ S16384.size a
  k0_off155_inb : ∀ i : grid0.Coords, ∀ a, (k0_off155 i) a + S1.size a ≤ S16384.size a
  k0_off157_inb : ∀ i : grid0.Coords, ∀ a, (k0_off157 i) a + S1.size a ≤ S16384.size a
  k0_off159_inb : ∀ i : grid0.Coords, ∀ a, (k0_off159 i) a + S1.size a ≤ S16384.size a
  k0_off161_inb : ∀ i : grid0.Coords, ∀ a, (k0_off161 i) a + S1.size a ≤ S16384.size a
  k0_off163_inb : ∀ i : grid0.Coords, ∀ a, (k0_off163 i) a + S1.size a ≤ S16384.size a
  k0_off165_inb : ∀ i : grid0.Coords, ∀ a, (k0_off165 i) a + S1.size a ≤ S16384.size a
  k0_off167_inb : ∀ i : grid0.Coords, ∀ a, (k0_off167 i) a + S1.size a ≤ S16384.size a
  k0_off169_inb : ∀ i : grid0.Coords, ∀ a, (k0_off169 i) a + S1.size a ≤ S16384.size a
  k0_off171_inb : ∀ i : grid0.Coords, ∀ a, (k0_off171 i) a + S1.size a ≤ S16384.size a
  k0_off173_inb : ∀ i : grid0.Coords, ∀ a, (k0_off173 i) a + S1.size a ≤ S16384.size a
  k0_off175_inb : ∀ i : grid0.Coords, ∀ a, (k0_off175 i) a + S1.size a ≤ S16384.size a
  k0_off177_inb : ∀ i : grid0.Coords, ∀ a, (k0_off177 i) a + S1.size a ≤ S16384.size a
  k0_off179_inb : ∀ i : grid0.Coords, ∀ a, (k0_off179 i) a + S1.size a ≤ S16384.size a
  k0_off181_inb : ∀ i : grid0.Coords, ∀ a, (k0_off181 i) a + S1.size a ≤ S16384.size a
  k0_off183_inb : ∀ i : grid0.Coords, ∀ a, (k0_off183 i) a + S1.size a ≤ S16384.size a
  k0_off185_inb : ∀ i : grid0.Coords, ∀ a, (k0_off185 i) a + S1.size a ≤ S16384.size a
  k0_off187_inb : ∀ i : grid0.Coords, ∀ a, (k0_off187 i) a + S1.size a ≤ S16384.size a
  k0_off189_inb : ∀ i : grid0.Coords, ∀ a, (k0_off189 i) a + S1.size a ≤ S16384.size a
  k0_off191_inb : ∀ i : grid0.Coords, ∀ a, (k0_off191 i) a + S1.size a ≤ S16384.size a
  k0_off193_inb : ∀ i : grid0.Coords, ∀ a, (k0_off193 i) a + S1.size a ≤ S16384.size a
  k0_off195_inb : ∀ i : grid0.Coords, ∀ a, (k0_off195 i) a + S1.size a ≤ S16384.size a
  k0_off197_inb : ∀ i : grid0.Coords, ∀ a, (k0_off197 i) a + S1.size a ≤ S16384.size a
  k0_off199_inb : ∀ i : grid0.Coords, ∀ a, (k0_off199 i) a + S1.size a ≤ S16384.size a
  k0_off201_inb : ∀ i : grid0.Coords, ∀ a, (k0_off201 i) a + S1.size a ≤ S16384.size a
  k0_off203_inb : ∀ i : grid0.Coords, ∀ a, (k0_off203 i) a + S1.size a ≤ S16384.size a
  k0_off205_inb : ∀ i : grid0.Coords, ∀ a, (k0_off205 i) a + S1.size a ≤ S16384.size a
  k0_off207_inb : ∀ i : grid0.Coords, ∀ a, (k0_off207 i) a + S1.size a ≤ S16384.size a
  k0_off209_inb : ∀ i : grid0.Coords, ∀ a, (k0_off209 i) a + S1.size a ≤ S16384.size a
  k0_off211_inb : ∀ i : grid0.Coords, ∀ a, (k0_off211 i) a + S1.size a ≤ S16384.size a
  k0_off213_inb : ∀ i : grid0.Coords, ∀ a, (k0_off213 i) a + S1.size a ≤ S16384.size a
  k0_off215_inb : ∀ i : grid0.Coords, ∀ a, (k0_off215 i) a + S1.size a ≤ S16384.size a
  k0_off217_inb : ∀ i : grid0.Coords, ∀ a, (k0_off217 i) a + S1.size a ≤ S16384.size a
  k0_off219_inb : ∀ i : grid0.Coords, ∀ a, (k0_off219 i) a + S1.size a ≤ S16384.size a
  k0_off221_inb : ∀ i : grid0.Coords, ∀ a, (k0_off221 i) a + S1.size a ≤ S16384.size a
  k0_off223_inb : ∀ i : grid0.Coords, ∀ a, (k0_off223 i) a + S1.size a ≤ S16384.size a
  k0_off225_inb : ∀ i : grid0.Coords, ∀ a, (k0_off225 i) a + S1.size a ≤ S16384.size a
  k0_off227_inb : ∀ i : grid0.Coords, ∀ a, (k0_off227 i) a + S1.size a ≤ S16384.size a
  k0_off229_inb : ∀ i : grid0.Coords, ∀ a, (k0_off229 i) a + S1.size a ≤ S16384.size a
  k0_off231_inb : ∀ i : grid0.Coords, ∀ a, (k0_off231 i) a + S1.size a ≤ S16384.size a
  k0_off233_inb : ∀ i : grid0.Coords, ∀ a, (k0_off233 i) a + S1.size a ≤ S16384.size a
  k0_off235_inb : ∀ i : grid0.Coords, ∀ a, (k0_off235 i) a + S1.size a ≤ S16384.size a
  k0_off237_inb : ∀ i : grid0.Coords, ∀ a, (k0_off237 i) a + S1.size a ≤ S16384.size a
  k0_off239_inb : ∀ i : grid0.Coords, ∀ a, (k0_off239 i) a + S1.size a ≤ S16384.size a
  k0_off241_inb : ∀ i : grid0.Coords, ∀ a, (k0_off241 i) a + S1.size a ≤ S16384.size a
  k0_off243_inb : ∀ i : grid0.Coords, ∀ a, (k0_off243 i) a + S1.size a ≤ S16384.size a
  k0_off245_inb : ∀ i : grid0.Coords, ∀ a, (k0_off245 i) a + S1.size a ≤ S16384.size a
  k0_off247_inb : ∀ i : grid0.Coords, ∀ a, (k0_off247 i) a + S1.size a ≤ S16384.size a
  k0_off249_inb : ∀ i : grid0.Coords, ∀ a, (k0_off249 i) a + S1.size a ≤ S16384.size a
  k0_off251_inb : ∀ i : grid0.Coords, ∀ a, (k0_off251 i) a + S1.size a ≤ S16384.size a
  k0_off253_inb : ∀ i : grid0.Coords, ∀ a, (k0_off253 i) a + S1.size a ≤ S16384.size a
  k0_off255_inb : ∀ i : grid0.Coords, ∀ a, (k0_off255 i) a + S1.size a ≤ S16384.size a
  k0_off257_inb : ∀ i : grid0.Coords, ∀ a, (k0_off257 i) a + S1.size a ≤ S16384.size a
  k0_off259_inb : ∀ i : grid0.Coords, ∀ a, (k0_off259 i) a + S1.size a ≤ S16384.size a
  k0_off261_inb : ∀ i : grid0.Coords, ∀ a, (k0_off261 i) a + S1.size a ≤ S16384.size a
  k0_off263_inb : ∀ i : grid0.Coords, ∀ a, (k0_off263 i) a + S1.size a ≤ S16384.size a
  k0_off265_inb : ∀ i : grid0.Coords, ∀ a, (k0_off265 i) a + S1.size a ≤ S16384.size a
  k0_off267_inb : ∀ i : grid0.Coords, ∀ a, (k0_off267 i) a + S1.size a ≤ S16384.size a
  k0_off269_inb : ∀ i : grid0.Coords, ∀ a, (k0_off269 i) a + S1.size a ≤ S16384.size a
  k0_off271_inb : ∀ i : grid0.Coords, ∀ a, (k0_off271 i) a + S1.size a ≤ S16384.size a
  k0_off273_inb : ∀ i : grid0.Coords, ∀ a, (k0_off273 i) a + S1.size a ≤ S16384.size a
  k0_off275_inb : ∀ i : grid0.Coords, ∀ a, (k0_off275 i) a + S1.size a ≤ S16384.size a
  k0_off277_inb : ∀ i : grid0.Coords, ∀ a, (k0_off277 i) a + S1.size a ≤ S16384.size a
  k0_off279_inb : ∀ i : grid0.Coords, ∀ a, (k0_off279 i) a + S1.size a ≤ S16384.size a
  k0_off281_inb : ∀ i : grid0.Coords, ∀ a, (k0_off281 i) a + S1.size a ≤ S16384.size a
  k0_off283_inb : ∀ i : grid0.Coords, ∀ a, (k0_off283 i) a + S1.size a ≤ S16384.size a
  k0_off285_inb : ∀ i : grid0.Coords, ∀ a, (k0_off285 i) a + S1.size a ≤ S16384.size a
  k0_off287_inb : ∀ i : grid0.Coords, ∀ a, (k0_off287 i) a + S1.size a ≤ S16384.size a
  k0_off289_inb : ∀ i : grid0.Coords, ∀ a, (k0_off289 i) a + S1.size a ≤ S16384.size a
  k0_off291_inb : ∀ i : grid0.Coords, ∀ a, (k0_off291 i) a + S1.size a ≤ S16384.size a
  k0_off293_inb : ∀ i : grid0.Coords, ∀ a, (k0_off293 i) a + S1.size a ≤ S16384.size a
  k0_off295_inb : ∀ i : grid0.Coords, ∀ a, (k0_off295 i) a + S1.size a ≤ S16384.size a
  k0_off297_inb : ∀ i : grid0.Coords, ∀ a, (k0_off297 i) a + S1.size a ≤ S16384.size a
  k0_off299_inb : ∀ i : grid0.Coords, ∀ a, (k0_off299 i) a + S1.size a ≤ S16384.size a
  k0_off301_inb : ∀ i : grid0.Coords, ∀ a, (k0_off301 i) a + S1.size a ≤ S16384.size a
  k0_off303_inb : ∀ i : grid0.Coords, ∀ a, (k0_off303 i) a + S1.size a ≤ S16384.size a
  k0_off305_inb : ∀ i : grid0.Coords, ∀ a, (k0_off305 i) a + S1.size a ≤ S16384.size a
  k0_off307_inb : ∀ i : grid0.Coords, ∀ a, (k0_off307 i) a + S1.size a ≤ S16384.size a
  k0_off309_inb : ∀ i : grid0.Coords, ∀ a, (k0_off309 i) a + S1.size a ≤ S16384.size a
  k0_off311_inb : ∀ i : grid0.Coords, ∀ a, (k0_off311 i) a + S1.size a ≤ S16384.size a
  k0_off313_inb : ∀ i : grid0.Coords, ∀ a, (k0_off313 i) a + S1.size a ≤ S16384.size a
  k0_off315_inb : ∀ i : grid0.Coords, ∀ a, (k0_off315 i) a + S1.size a ≤ S16384.size a
  k0_off317_inb : ∀ i : grid0.Coords, ∀ a, (k0_off317 i) a + S1.size a ≤ S16384.size a
  k0_off319_inb : ∀ i : grid0.Coords, ∀ a, (k0_off319 i) a + S1.size a ≤ S16384.size a
  k0_off321_inb : ∀ i : grid0.Coords, ∀ a, (k0_off321 i) a + S1.size a ≤ S16384.size a
  k0_off323_inb : ∀ i : grid0.Coords, ∀ a, (k0_off323 i) a + S1.size a ≤ S16384.size a
  k0_off325_inb : ∀ i : grid0.Coords, ∀ a, (k0_off325 i) a + S1.size a ≤ S16384.size a
  k0_off327_inb : ∀ i : grid0.Coords, ∀ a, (k0_off327 i) a + S1.size a ≤ S16384.size a
  k0_off329_inb : ∀ i : grid0.Coords, ∀ a, (k0_off329 i) a + S1.size a ≤ S16384.size a
  k0_off331_inb : ∀ i : grid0.Coords, ∀ a, (k0_off331 i) a + S1.size a ≤ S16384.size a
  k0_off333_inb : ∀ i : grid0.Coords, ∀ a, (k0_off333 i) a + S1.size a ≤ S16384.size a
  k0_off335_inb : ∀ i : grid0.Coords, ∀ a, (k0_off335 i) a + S1.size a ≤ S16384.size a
  k0_off337_inb : ∀ i : grid0.Coords, ∀ a, (k0_off337 i) a + S1.size a ≤ S16384.size a
  k0_off339_inb : ∀ i : grid0.Coords, ∀ a, (k0_off339 i) a + S1.size a ≤ S16384.size a
  k0_off341_inb : ∀ i : grid0.Coords, ∀ a, (k0_off341 i) a + S1.size a ≤ S16384.size a
  k0_off343_inb : ∀ i : grid0.Coords, ∀ a, (k0_off343 i) a + S1.size a ≤ S16384.size a
  k0_off345_inb : ∀ i : grid0.Coords, ∀ a, (k0_off345 i) a + S1.size a ≤ S16384.size a
  k0_off347_inb : ∀ i : grid0.Coords, ∀ a, (k0_off347 i) a + S1.size a ≤ S16384.size a
  k0_off349_inb : ∀ i : grid0.Coords, ∀ a, (k0_off349 i) a + S1.size a ≤ S16384.size a
  k0_off351_inb : ∀ i : grid0.Coords, ∀ a, (k0_off351 i) a + S1.size a ≤ S16384.size a
  k0_off353_inb : ∀ i : grid0.Coords, ∀ a, (k0_off353 i) a + S1.size a ≤ S16384.size a
  k0_off355_inb : ∀ i : grid0.Coords, ∀ a, (k0_off355 i) a + S1.size a ≤ S16384.size a
  k0_off357_inb : ∀ i : grid0.Coords, ∀ a, (k0_off357 i) a + S1.size a ≤ S16384.size a
  k0_off359_inb : ∀ i : grid0.Coords, ∀ a, (k0_off359 i) a + S1.size a ≤ S16384.size a
  k0_off361_inb : ∀ i : grid0.Coords, ∀ a, (k0_off361 i) a + S1.size a ≤ S16384.size a
  k0_off363_inb : ∀ i : grid0.Coords, ∀ a, (k0_off363 i) a + S1.size a ≤ S16384.size a
  k0_off365_inb : ∀ i : grid0.Coords, ∀ a, (k0_off365 i) a + S1.size a ≤ S16384.size a
  k0_off367_inb : ∀ i : grid0.Coords, ∀ a, (k0_off367 i) a + S1.size a ≤ S16384.size a
  k0_off369_inb : ∀ i : grid0.Coords, ∀ a, (k0_off369 i) a + S1.size a ≤ S16384.size a
  k0_off371_inb : ∀ i : grid0.Coords, ∀ a, (k0_off371 i) a + S1.size a ≤ S16384.size a
  k0_off373_inb : ∀ i : grid0.Coords, ∀ a, (k0_off373 i) a + S1.size a ≤ S16384.size a
  k0_off375_inb : ∀ i : grid0.Coords, ∀ a, (k0_off375 i) a + S1.size a ≤ S16384.size a
  k0_off377_inb : ∀ i : grid0.Coords, ∀ a, (k0_off377 i) a + S1.size a ≤ S16384.size a
  k0_off379_inb : ∀ i : grid0.Coords, ∀ a, (k0_off379 i) a + S1.size a ≤ S16384.size a
  k0_off381_inb : ∀ i : grid0.Coords, ∀ a, (k0_off381 i) a + S1.size a ≤ S16384.size a
  k0_off383_inb : ∀ i : grid0.Coords, ∀ a, (k0_off383 i) a + S1.size a ≤ S16384.size a
  k0_off385_inb : ∀ i : grid0.Coords, ∀ a, (k0_off385 i) a + S1.size a ≤ S16384.size a
  k0_off387_inb : ∀ i : grid0.Coords, ∀ a, (k0_off387 i) a + S1.size a ≤ S16384.size a
  k0_off389_inb : ∀ i : grid0.Coords, ∀ a, (k0_off389 i) a + S1.size a ≤ S16384.size a
  k0_off391_inb : ∀ i : grid0.Coords, ∀ a, (k0_off391 i) a + S1.size a ≤ S16384.size a
  k0_off393_inb : ∀ i : grid0.Coords, ∀ a, (k0_off393 i) a + S1.size a ≤ S16384.size a
  k0_off395_inb : ∀ i : grid0.Coords, ∀ a, (k0_off395 i) a + S1.size a ≤ S16384.size a
  k0_off397_inb : ∀ i : grid0.Coords, ∀ a, (k0_off397 i) a + S1.size a ≤ S16384.size a
  k0_off399_inb : ∀ i : grid0.Coords, ∀ a, (k0_off399 i) a + S1.size a ≤ S16384.size a
  k0_off401_inb : ∀ i : grid0.Coords, ∀ a, (k0_off401 i) a + S1.size a ≤ S16384.size a
  k0_off403_inb : ∀ i : grid0.Coords, ∀ a, (k0_off403 i) a + S1.size a ≤ S16384.size a
  k0_off405_inb : ∀ i : grid0.Coords, ∀ a, (k0_off405 i) a + S1.size a ≤ S16384.size a
  k0_off407_inb : ∀ i : grid0.Coords, ∀ a, (k0_off407 i) a + S1.size a ≤ S16384.size a
  k0_off409_inb : ∀ i : grid0.Coords, ∀ a, (k0_off409 i) a + S1.size a ≤ S16384.size a
  k0_off411_inb : ∀ i : grid0.Coords, ∀ a, (k0_off411 i) a + S1.size a ≤ S16384.size a
  k0_off413_inb : ∀ i : grid0.Coords, ∀ a, (k0_off413 i) a + S1.size a ≤ S16384.size a
  k0_off415_inb : ∀ i : grid0.Coords, ∀ a, (k0_off415 i) a + S1.size a ≤ S16384.size a
  k0_off417_inb : ∀ i : grid0.Coords, ∀ a, (k0_off417 i) a + S1.size a ≤ S16384.size a
  k0_off419_inb : ∀ i : grid0.Coords, ∀ a, (k0_off419 i) a + S1.size a ≤ S16384.size a
  k0_off421_inb : ∀ i : grid0.Coords, ∀ a, (k0_off421 i) a + S1.size a ≤ S16384.size a
  k0_off423_inb : ∀ i : grid0.Coords, ∀ a, (k0_off423 i) a + S1.size a ≤ S16384.size a
  k0_off425_inb : ∀ i : grid0.Coords, ∀ a, (k0_off425 i) a + S1.size a ≤ S16384.size a
  k0_off427_inb : ∀ i : grid0.Coords, ∀ a, (k0_off427 i) a + S1.size a ≤ S16384.size a
  k0_off429_inb : ∀ i : grid0.Coords, ∀ a, (k0_off429 i) a + S1.size a ≤ S16384.size a
  k0_off431_inb : ∀ i : grid0.Coords, ∀ a, (k0_off431 i) a + S1.size a ≤ S16384.size a
  k0_off433_inb : ∀ i : grid0.Coords, ∀ a, (k0_off433 i) a + S1.size a ≤ S16384.size a
  k0_off435_inb : ∀ i : grid0.Coords, ∀ a, (k0_off435 i) a + S1.size a ≤ S16384.size a
  k0_off437_inb : ∀ i : grid0.Coords, ∀ a, (k0_off437 i) a + S1.size a ≤ S16384.size a
  k0_off439_inb : ∀ i : grid0.Coords, ∀ a, (k0_off439 i) a + S1.size a ≤ S16384.size a
  k0_off441_inb : ∀ i : grid0.Coords, ∀ a, (k0_off441 i) a + S1.size a ≤ S16384.size a
  k0_off443_inb : ∀ i : grid0.Coords, ∀ a, (k0_off443 i) a + S1.size a ≤ S16384.size a
  k0_off445_inb : ∀ i : grid0.Coords, ∀ a, (k0_off445 i) a + S1.size a ≤ S16384.size a
  k0_off447_inb : ∀ i : grid0.Coords, ∀ a, (k0_off447 i) a + S1.size a ≤ S16384.size a
  k0_off449_inb : ∀ i : grid0.Coords, ∀ a, (k0_off449 i) a + S1.size a ≤ S16384.size a
  k0_off451_inb : ∀ i : grid0.Coords, ∀ a, (k0_off451 i) a + S1.size a ≤ S16384.size a
  k0_off453_inb : ∀ i : grid0.Coords, ∀ a, (k0_off453 i) a + S1.size a ≤ S16384.size a
  k0_off455_inb : ∀ i : grid0.Coords, ∀ a, (k0_off455 i) a + S1.size a ≤ S16384.size a
  k0_off457_inb : ∀ i : grid0.Coords, ∀ a, (k0_off457 i) a + S1.size a ≤ S16384.size a
  k0_off459_inb : ∀ i : grid0.Coords, ∀ a, (k0_off459 i) a + S1.size a ≤ S16384.size a
  k0_off461_inb : ∀ i : grid0.Coords, ∀ a, (k0_off461 i) a + S1.size a ≤ S16384.size a
  k0_off463_inb : ∀ i : grid0.Coords, ∀ a, (k0_off463 i) a + S1.size a ≤ S16384.size a
  k0_off465_inb : ∀ i : grid0.Coords, ∀ a, (k0_off465 i) a + S1.size a ≤ S16384.size a
  k0_off467_inb : ∀ i : grid0.Coords, ∀ a, (k0_off467 i) a + S1.size a ≤ S16384.size a
  k0_off469_inb : ∀ i : grid0.Coords, ∀ a, (k0_off469 i) a + S1.size a ≤ S16384.size a
  k0_off471_inb : ∀ i : grid0.Coords, ∀ a, (k0_off471 i) a + S1.size a ≤ S16384.size a
  k0_off473_inb : ∀ i : grid0.Coords, ∀ a, (k0_off473 i) a + S1.size a ≤ S16384.size a
  k0_off475_inb : ∀ i : grid0.Coords, ∀ a, (k0_off475 i) a + S1.size a ≤ S16384.size a
  k0_off477_inb : ∀ i : grid0.Coords, ∀ a, (k0_off477 i) a + S1.size a ≤ S16384.size a
  k0_off479_inb : ∀ i : grid0.Coords, ∀ a, (k0_off479 i) a + S1.size a ≤ S16384.size a
  k0_off481_inb : ∀ i : grid0.Coords, ∀ a, (k0_off481 i) a + S1.size a ≤ S16384.size a
  k0_off483_inb : ∀ i : grid0.Coords, ∀ a, (k0_off483 i) a + S1.size a ≤ S16384.size a
  k0_off485_inb : ∀ i : grid0.Coords, ∀ a, (k0_off485 i) a + S1.size a ≤ S16384.size a
  k0_off487_inb : ∀ i : grid0.Coords, ∀ a, (k0_off487 i) a + S1.size a ≤ S16384.size a
  k0_off489_inb : ∀ i : grid0.Coords, ∀ a, (k0_off489 i) a + S1.size a ≤ S16384.size a
  k0_off491_inb : ∀ i : grid0.Coords, ∀ a, (k0_off491 i) a + S1.size a ≤ S16384.size a
  k0_off493_inb : ∀ i : grid0.Coords, ∀ a, (k0_off493 i) a + S1.size a ≤ S16384.size a
  k0_off495_inb : ∀ i : grid0.Coords, ∀ a, (k0_off495 i) a + S1.size a ≤ S16384.size a
  k0_off497_inb : ∀ i : grid0.Coords, ∀ a, (k0_off497 i) a + S1.size a ≤ S16384.size a
  k0_off499_inb : ∀ i : grid0.Coords, ∀ a, (k0_off499 i) a + S1.size a ≤ S16384.size a
  k0_off501_inb : ∀ i : grid0.Coords, ∀ a, (k0_off501 i) a + S1.size a ≤ S16384.size a
  k0_off503_inb : ∀ i : grid0.Coords, ∀ a, (k0_off503 i) a + S1.size a ≤ S16384.size a
  k0_off505_inb : ∀ i : grid0.Coords, ∀ a, (k0_off505 i) a + S1.size a ≤ S16384.size a
  k0_off507_inb : ∀ i : grid0.Coords, ∀ a, (k0_off507 i) a + S1.size a ≤ S16384.size a
  k0_off509_inb : ∀ i : grid0.Coords, ∀ a, (k0_off509 i) a + S1.size a ≤ S16384.size a
  k0_off511_inb : ∀ i : grid0.Coords, ∀ a, (k0_off511 i) a + S1.size a ≤ S16384.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S256x1024.size a ≤ S16384x1024.size a
  hwx0_0 : ∀ i : grid0.Coords, EltTy.bits .i32 = 32 ∨ (Rect.block (s := S16384x1024) S256x1024.size (cc0_transform_1 i) (hinb0_0 i)).WholeWords (EltTy.packing .i32)

variable [Facts₀]

abbrev cc0_scratch1 : DmaSems sig S256 := SemArray.consecutive 2 S256 hcc0_scratch1
def gather_S32000_S16384x1_S16384_n_0_n_n_0_1_1 : GatherDims S32000 S16384x1 S16384 where
  offsetDims := []
  collapsedSliceDims := [0]
  operandBatchingDims := []
  startIndicesBatchingDims := []
  startIndexMap := [0]
  indexVectorDim := 1
  sliceSizes := ![1]
  wf := gather_S32000_S16384x1_S16384_n_0_n_n_0_1_1_wf
def gather_S256_S16384x1024x1_S16384x1024_n_0_n_n_0_2_1 : GatherDims S256 S16384x1024x1 S16384x1024 where
  offsetDims := []
  collapsedSliceDims := [0]
  operandBatchingDims := []
  startIndicesBatchingDims := []
  startIndexMap := [0]
  indexVectorDim := 2
  sliceSizes := ![1]
  wf := gather_S256_S16384x1024x1_S16384x1024_n_0_n_n_0_2_1_wf

abbrev spec0_0 : Pipeline.WinSpec sig grid0.rank :=
  Pipeline.WinSpec.ofSpec (Memref.whole main_v1) S256x1024.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S4x4096 : Shape := ⟨2, ![4, 4096]⟩
abbrev S128000x1024 : Shape := ⟨2, ![128000, 1024]⟩
abbrev S32000 : Shape := ⟨1, ![32000]⟩
abbrev S256 : Shape := ⟨1, ![256]⟩
abbrev S131072000 : Shape := ⟨1, ![131072000]⟩
abbrev S_ : Shape := ⟨0, ![]⟩
abbrev S131072000x1 : Shape := ⟨2, ![131072000, 1]⟩
abbrev S32000x4096 : Shape := ⟨2, ![32000, 4096]⟩
abbrev S32000x1 : Shape := ⟨2, ![32000, 1]⟩
abbrev S4x4096x1 : Shape := ⟨3, ![4, 4096, 1]⟩
abbrev S4x4096x1024 : Shape := ⟨3, ![4, 4096, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S128000x1024, .i32⟩
  | .hbm, ⟨2, _⟩ => ⟨S32000, .f32⟩
  | .hbm, ⟨3, _⟩ => ⟨S256, .f32⟩
  | .hbm, ⟨4, _⟩ => ⟨S131072000, .i32⟩
  | .hbm, ⟨5, _⟩ => ⟨S_, .i32⟩
  | .hbm, ⟨6, _⟩ => ⟨S131072000, .i32⟩
  | .hbm, ⟨7, _⟩ => ⟨S131072000, .i1⟩
  | .hbm, ⟨8, _⟩ => ⟨S_, .i32⟩
  | .hbm, ⟨9, _⟩ => ⟨S131072000, .i32⟩
  | .hbm, ⟨10, _⟩ => ⟨S131072000, .i32⟩
  | .hbm, ⟨11, _⟩ => ⟨S131072000, .i32⟩
  | .hbm, ⟨12, _⟩ => ⟨S131072000x1, .i32⟩
  | .hbm, ⟨13, _⟩ => ⟨S131072000, .f32⟩
  | .hbm, ⟨14, _⟩ => ⟨S32000x4096, .f32⟩
  | .hbm, ⟨15, _⟩ => ⟨S32000x1, .f32⟩
  | .hbm, ⟨16, _⟩ => ⟨S32000x4096, .f32⟩
  | .hbm, ⟨17, _⟩ => ⟨S32000x4096, .f32⟩
  | .hbm, ⟨18, _⟩ => ⟨S128000x1024, .f32⟩
  | .hbm, ⟨19, _⟩ => ⟨S_, .i32⟩
  | .hbm, ⟨20, _⟩ => ⟨S4x4096, .i32⟩
  | .hbm, ⟨21, _⟩ => ⟨S4x4096, .i1⟩
  | .hbm, ⟨22, _⟩ => ⟨S_, .i32⟩
  | .hbm, ⟨23, _⟩ => ⟨S4x4096, .i32⟩
  | .hbm, ⟨24, _⟩ => ⟨S4x4096, .i32⟩
  | .hbm, ⟨25, _⟩ => ⟨S4x4096, .i32⟩
  | .hbm, ⟨26, _⟩ => ⟨S4x4096x1, .i32⟩
  | .hbm, ⟨27, _⟩ => ⟨S4x4096x1024, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  shapeCasts_S128000x1024_S131072000 : S128000x1024.ShapeCasts S131072000
  bcast_S_S131072000 : S_.BroadcastsInDim S131072000 (![] : Fin 0 → Fin S131072000.rank)
  bcast_S131072000_S131072000x1_0 : S131072000.BroadcastsInDim S131072000x1 (![0] : Fin 1 → Fin S131072000x1.rank)
  shapeCasts_S131072000_S32000x4096 : S131072000.ShapeCasts S32000x4096
  bcast_S32000_S32000x1_0 : S32000.BroadcastsInDim S32000x1 (![0] : Fin 1 → Fin S32000x1.rank)
  bcast_S32000x1_S32000x4096_0_1 : S32000x1.BroadcastsInDim S32000x4096 (![0, 1] : Fin 2 → Fin S32000x4096.rank)
  shapeCasts_S32000x4096_S128000x1024 : S32000x4096.ShapeCasts S128000x1024
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  gather_S256_S131072000x1_S131072000_n_0_n_n_0_1_1_wf : GatherDims.WF S256 S131072000x1 S131072000 [] [0] [] [0] [] 1 ![1]
  gather_S128000x1024_S4x4096x1_S4x4096x1024_2_0_n_n_0_2_11024_wf : GatherDims.WF S128000x1024 S4x4096x1 S4x4096x1024 [2] [0] [] [0] [] 2 ![1, 1024]

variable [Facts₀]

def gather_S256_S131072000x1_S131072000_n_0_n_n_0_1_1 : GatherDims S256 S131072000x1 S131072000 where
  offsetDims := []
  collapsedSliceDims := [0]
  operandBatchingDims := []
  startIndicesBatchingDims := []
  startIndexMap := [0]
  indexVectorDim := 1
  sliceSizes := ![1]
  wf := gather_S256_S131072000x1_S131072000_n_0_n_n_0_1_1_wf
def gather_S128000x1024_S4x4096x1_S4x4096x1024_2_0_n_n_0_2_11024 : GatherDims S128000x1024 S4x4096x1 S4x4096x1024 where
  offsetDims := [2]
  collapsedSliceDims := [0]
  operandBatchingDims := []
  startIndicesBatchingDims := []
  startIndexMap := [0]
  indexVectorDim := 2
  sliceSizes := ![1, 1024]
  wf := gather_S128000x1024_S4x4096x1_S4x4096x1024_2_0_n_n_0_2_11024_wf

class Facts : Prop extends Facts₀ where

variable [Facts]
-- ==== Proof.PreRange.lean ====
import proofs.«401193_j13460427506049_2_alg».proof.Pre_finite_inputs
import Idealize.ShloMosaic.Lib.ReduceAll
import Idealize.ShloMosaic.Lib.ValueIdx
import Idealize.ShloMosaic.Lib.StableHlo.Predicate

namespace Cert.PreRange

open Idealize.ShloMosaic
open Cert.Pre_finite_inputs

instance : Subsingleton S_.Idx := ⟨fun a b => funext fun d => d.elim0⟩

theorem toNat_lt_of_signed (v : BitVec 32) (n : Nat) (hn : n < 2 ^ 31) (h0 : (0#32).toInt ≤ v.toInt)
    (h1 : v.toInt < (BitVec.ofNat 32 n).toInt) : v.toNat < n := by
  rw [StableHlo.Predicate.toInt_ofNat_small n hn] at h1
  have z : (0#32).toInt = 0 := by decide
  rw [z] at h0
  have hv := v.isLt
  rw [BitVec.toInt_eq_toNat_cond] at h0 h1
  split at h0 <;> omega

theorem x_lt_of_pre {F : FTy → Type} [FloatOps F] [Cert.Pre_finite_inputs.Facts]
    (x : IVec Cert.Pre_finite_inputs.S4x4096 32) (w : IVec Cert.Pre_finite_inputs.S128000x1024 32)
    (am : FVec F Cert.Pre_finite_inputs.S32000 .f32) (cd : FVec F Cert.Pre_finite_inputs.S256 .f32)
    (h : Cert.Pre_finite_inputs.fn (F := F) x w am cd = fun _ => 1#1) :
    ∀ j : Cert.Pre_finite_inputs.S4x4096.Idx, (x j).toNat < 128000 := by
  intro j
  have e := congrFun h ValueIdx.ix0
  dsimp only [Cert.Pre_finite_inputs.fn] at e

  obtain ⟨-, eall⟩ := IntOp.andi_eq_one.1 e

  have ej := Host.reduce_andi_all _ _ _ _ _ eall j

  obtain ⟨hge, hlt⟩ := IntOp.andi_eq_one.1 ej
  have hge' := IntOp.cmpi_sge.1 hge
  have hlt' := IntOp.cmpi_slt.1 hlt
  rw [StableHlo.Predicate.bcast_scalar _ Facts.h_S_] at hge' hlt'
  exact toNat_lt_of_signed (x j) 128000 (by decide) hge' hlt'

end Cert.PreRange
-- ==== Proof.Spec.lean ====
import Idealize.ShloMosaic.PureOps.Ideal
import Idealize.ShloMosaic.Lib.ValueIdx
import Idealize.ShloMosaic.Lib.Affine

noncomputable section

namespace Cert.Spec

open Idealize.ShloMosaic Idealize.ShloMosaic.ValueIdx

abbrev SX : Shape := ⟨2, ![4, 4096]⟩
abbrev SW : Shape := ⟨2, ![128000, 1024]⟩
abbrev SA : Shape := ⟨1, ![32000]⟩
abbrev SC : Shape := ⟨1, ![256]⟩
abbrev SO : Shape := ⟨3, ![4, 4096, 1024]⟩

/-- The position a take reads on an axis of extent `N`: the start word read signed, moved up by `N` when negative, clamped into [0, N − 1]. -/
def takeAt (N : Nat) (v : BitVec 32) : Nat :=
  min (if v.toInt < 0 then v + BitVec.ofNat 32 N else v).toInt.toNat (N - 1)

/-- A take's "add the extent when negative", spelt as a signed comparison with zero, an addition and a select. -/
theorem wrap_eq (v : BitVec 32) (N : Nat) :
    Scalar.select (IntOp.cmpi .slt v 0#32) (IntOp.addi v (BitVec.ofNat 32 N)) v
      = if v.toInt < 0 then v + BitVec.ofNat 32 N else v := by
  have z : (0#32).toInt = 0 := by decide
  by_cases h : v.toInt < 0
  · have hc : IntOp.cmpi .slt v 0#32 = 1#1 := IntOp.cmpi_slt.2 (by rw [z]; exact h)
    rw [hc, select_one, if_pos h]; rfl
  · have hc : IntOp.cmpi .slt v 0#32 = 0#1 :=
      eq_zero_of_ne_one (fun hc => h (by have h' := IntOp.cmpi_slt.1 hc; rwa [z] at h'))
    rw [hc, select_zero, if_neg h]

theorem takeAt_lt {N : Nat} (hN : 0 < N) (v : BitVec 32) : takeAt N v < N := by
  unfold takeAt; omega

/-- The table row a row-index word names, clamped so that the term is total. -/
def rowOf (v : BitVec 32) : Fin 128000 := ⟨min v.toNat 127999, by omega⟩

/-- The scale block of that row: four rows of 1024 entries make one block of 4096. -/
def blockOf (v : BitVec 32) : Fin 32000 := ⟨min (v.toNat / 4) 31999, by omega⟩

/-- The dequantised row lookup: at (b, s, d) the value code[w (x b s) d] · absmax[x b s / 4]. -/
def G (x : IVec SX 32) (w : IVec SW 32) (am : FVec Ideal SA .f32) (cd : FVec Ideal SC .f32) : SO.Idx → EReal := fun i =>
  let v : BitVec 32 := x (ix2 (i 0) (i 1))
  (cd (ix1 ⟨takeAt 256 (w (ix2 (rowOf v) (i 2))), takeAt_lt (by decide) _⟩) : EReal) * (am (ix1 (blockOf v)) : EReal)

end Cert.Spec

end
-- ==== Proof.LibVecGather.lean ====
import Idealize.ShloMosaic.PureOps.Ideal
import Idealize.ShloMosaic.Lib.ValueIdx

noncomputable section

namespace Cert.LibVecGather

open Idealize.ShloMosaic Idealize.ShloMosaic.ValueIdx

variable {α : Type}

abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (k : Fin R) :
    Host.gather (vecGatherDims N R wf) x idx (ix1 k)
      = x (ix1 ⟨min (idx (ix2 k (0 : Fin 1))).toInt.toNat (N - 1), by omega⟩) := by
  unfold Host.gather
  congr 1
  funext a
  obtain rfl : a = 0 := Subsingleton.elim _ _
  refine Fin.ext ?_
  show (vecGatherDims N R wf).start (ix1 k) idx 0 + (vecGatherDims N R wf).batchCoord (ix1 k) 0
    + (vecGatherDims N R wf).offCoord (ix1 k) 0 = _

  rw [GatherDims.batchCoord_eq_zero _ _ _ List.not_mem_nil,
    GatherDims.offCoord_eq_zero _ _ _ (fun h => ((GatherDims.mem_sKept _ _).mp h).1 (List.mem_singleton.mpr rfl))]
  simp only [Nat.add_zero]

  unfold GatherDims.start
  rw [dif_pos (show (0 : Fin 1) ∈ (vecGatherDims N R wf).startIndexMap from List.mem_singleton.mpr rfl)]
  have hsi : (vecGatherDims N R wf).siIdx (ix1 k) ⟨List.idxOf (0 : Fin 1) (vecGatherDims N R wf).startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

theorem gather_vec_apply_of {N R w : Nat} (hN : 0 < N) (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![R, 1]⟩ w) (k : Fin R) :
    Host.gather d x idx (ix1 k) = x (ix1 ⟨min (idx (ix2 k (0 : Fin 1))).toInt.toNat (N - 1), by omega⟩) := by
  obtain ⟨od, cd, ob, sb, sm, iv, ss, wf⟩ := d
  dsimp only at h1 h2 h3 h4 h5 h6 h7
  subst h1 h2 h3 h4 h5 h6 h7
  exact gather_vec_apply hN wf x idx k

end Cert.LibVecGather

end
-- ==== Proof.LibGather3.lean ====
import Idealize.ShloMosaic.PureOps.Ideal
import Idealize.ShloMosaic.Lib.ValueIdx

noncomputable section

namespace Cert.LibGather3

open Idealize.ShloMosaic Idealize.ShloMosaic.ValueIdx

abbrev rows3GatherDims (N C K M : Nat)
    (wf : GatherDims.WF ⟨2, ![N, C]⟩ ⟨3, ![K, M, 1]⟩ ⟨3, ![K, M, C]⟩ [2] [0] [] [0] [] 2 ![1, C]) :
    GatherDims ⟨2, ![N, C]⟩ ⟨3, ![K, M, 1]⟩ ⟨3, ![K, M, C]⟩ where
  offsetDims := [2]
  collapsedSliceDims := [0]
  operandBatchingDims := []
  startIndicesBatchingDims := []
  startIndexMap := [0]
  indexVectorDim := 2
  sliceSizes := ![1, C]
  wf := wf

theorem gather_rows3_apply {α : Type} {N C K M w : Nat} (hN : 0 < N)
    (wf : GatherDims.WF ⟨2, ![N, C]⟩ ⟨3, ![K, M, 1]⟩ ⟨3, ![K, M, C]⟩ [2] [0] [] [0] [] 2 ![1, C])
    (x : (⟨2, ![N, C]⟩ : Shape).Idx → α) (idx : IVec ⟨3, ![K, M, 1]⟩ w) (k : Fin K) (r : Fin M) (c : Fin C) :
    Host.gather (rows3GatherDims N C K M wf) x idx (ix3 k r c)
      = x (ix2 ⟨min (idx (ix3 k r (0 : Fin 1))).toInt.toNat (N - 1), by omega⟩ c) := by

  have hst0 : (rows3GatherDims N C K M wf).start (ix3 k r c) idx (0 : Fin 2)
      = min (idx (ix3 k r (0 : Fin 1))).toInt.toNat (N - 1) := by
    unfold GatherDims.start
    rw [dif_pos (show (0 : Fin 2) ∈ (rows3GatherDims N C K M wf).startIndexMap from List.mem_singleton.mpr rfl)]
    have hsi : (rows3GatherDims N C K M wf).siIdx (ix3 k r c)
        ⟨List.idxOf (0 : Fin 2) (rows3GatherDims N C K M wf).startIndexMap,
          List.idxOf_lt_length_iff.2 (List.mem_singleton.mpr rfl)⟩ = ix3 k r (0 : Fin 1) := by
      funext b; refine Fin.ext ?_
      match b with
      | ⟨0, _⟩ => rfl
      | ⟨1, _⟩ => rfl
      | ⟨2, _⟩ => rfl
    rw [hsi]
    rfl
  have hst1 : (rows3GatherDims N C K M wf).start (ix3 k r c) idx (1 : Fin 2) = 0 := by
    unfold GatherDims.start
    exact dif_neg (show (1 : Fin 2) ∉ ([0] : List (Fin 2)) from by decide)

  have hoff0 : (rows3GatherDims N C K M wf).offCoord (ix3 k r c) (0 : Fin 2) = 0 :=
    GatherDims.offCoord_eq_zero _ _ _ (fun h => ((GatherDims.mem_sKept _ _).mp h).1 (List.mem_singleton.mpr rfl))
  have hoff1 : (rows3GatherDims N C K M wf).offCoord (ix3 k r c) (1 : Fin 2) = c.val := by
    unfold GatherDims.offCoord
    rw [dif_pos ((GatherDims.mem_sKept (rows3GatherDims N C K M wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rows3GatherDims N C K M wf).start (ix3 k r c) idx (0 : Fin 2)
      + (rows3GatherDims N C K M wf).batchCoord (ix3 k r c) (0 : Fin 2)
      + (rows3GatherDims N C K M wf).offCoord (ix3 k r c) (0 : Fin 2) = min (idx (ix3 k r (0 : Fin 1))).toInt.toNat (N - 1)
    rw [GatherDims.batchCoord_eq_zero _ _ _ List.not_mem_nil, hst0, hoff0]
    rfl
  | ⟨1, _⟩ =>
    show (rows3GatherDims N C K M wf).start (ix3 k r c) idx (1 : Fin 2)
      + (rows3GatherDims N C K M wf).batchCoord (ix3 k r c) (1 : Fin 2)
      + (rows3GatherDims N C K M wf).offCoord (ix3 k r c) (1 : Fin 2) = c.val
    rw [GatherDims.batchCoord_eq_zero _ _ _ List.not_mem_nil, hst1, hoff1]
    omega

theorem gather_rows3_apply_of {α : Type} {N C K M w : Nat} (hN : 0 < N)
    (d : GatherDims ⟨2, ![N, C]⟩ ⟨3, ![K, M, 1]⟩ ⟨3, ![K, M, C]⟩)
    (h1 : d.offsetDims = [2]) (h2 : d.collapsedSliceDims = [0]) (h3 : d.operandBatchingDims = [])
    (h4 : d.startIndicesBatchingDims = []) (h5 : d.startIndexMap = [0]) (h6 : d.indexVectorDim = 2)
    (h7 : d.sliceSizes = ![1, C])
    (x : (⟨2, ![N, C]⟩ : Shape).Idx → α) (idx : IVec ⟨3, ![K, M, 1]⟩ w) (k : Fin K) (r : Fin M) (c : Fin C) :
    Host.gather d x idx (ix3 k r c)
      = x (ix2 ⟨min (idx (ix3 k r (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_rows3_apply hN wf x idx k r c

end Cert.LibGather3

end
-- ==== Proof.RefValue.lean ====
import proofs.«401193_j13460427506049_2_alg».proof.Proof.Spec
import proofs.«401193_j13460427506049_2_alg».proof.Proof.Gen.ReferenceIdeal.Read
import proofs.«401193_j13460427506049_2_alg».proof.Proof.LibVecGather
import proofs.«401193_j13460427506049_2_alg».proof.Proof.LibGather3

noncomputable section

namespace Cert.ReferenceIdeal.RefValue

open Cert.ReferenceIdeal Cert.ReferenceIdeal.Gen Idealize.ShloMosaic Idealize.ShloMosaic.ValueIdx

theorem toInt_small (v : BitVec 32) (hv : v.toNat < 2 ^ 31) : v.toInt = (v.toNat : Int) :=
  BitVec.toInt_eq_toNat_of_lt (by omega)

theorem codes_at (w : IVec S128000x1024 32) (cd : FVec Ideal S256 .f32) (j : S131072000.Idx)
    (r : Fin 128000) (d : Fin 1024) (hj : (j 0).val = r.val * 1024 + d.val) :
    Read.val_main_v7 (F := Ideal) w cd j
      = cd (ix1 ⟨Spec.takeAt 256 (w (ix2 r d)), Spec.takeAt_lt (by decide) _⟩) := by
  obtain ⟨k, rfl⟩ : ∃ k : Fin 131072000, j = ix1 k := ⟨j 0, eq_ix1 j⟩
  have hk : k.val = r.val * 1024 + d.val := hj

  have e6 : Read.val_main_v6 (F := Ideal) w (ix2 k (0 : Fin 1))
      = if (w (ix2 r d)).toInt < 0 then w (ix2 r d) + BitVec.ofNat 32 256 else w (ix2 r d) := by
    have hi : Read.idx_main_v0 (Read.idx_main_v6 (ix2 k (0 : Fin 1))) = ix2 r d := by
      funext a; refine Fin.ext ?_
      match a with
      | ⟨0, _⟩ => show k.val / 1024 = r.val; have := d.isLt; omega
      | ⟨1, _⟩ => show k.val % 1024 = d.val; have := d.isLt; omega
    rw [Read.val_main_v6_apply, Read.val_main_v5_apply, Read.val_main_v2_apply, Read.val_main_v4_apply,
      Read.val_main_v0_apply, Read.val_main_v1_apply, Read.val_main_v3_apply, Read.val_main_c_apply,
      Read.val_main_c_0_apply, hi]
    exact Spec.wrap_eq _ 256
  unfold Read.val_main_v7
  refine (Cert.LibVecGather.gather_vec_apply_of (by decide) _ rfl rfl rfl rfl rfl rfl rfl cd
    (Read.val_main_v6 (F := Ideal) w) k).trans ?_
  refine congrArg cd (congrArg ix1 (Fin.ext ?_))
  show min (Read.val_main_v6 (F := Ideal) w (ix2 k (0 : Fin 1))).toInt.toNat (256 - 1) = Spec.takeAt 256 (w (ix2 r d))
  rw [e6]
  rfl

theorem table_at (w : IVec S128000x1024 32) (am : FVec Ideal S32000 .f32) (cd : FVec Ideal S256 .f32)
    (r : Fin 128000) (d : Fin 1024) (q : Fin 32000) (hq : q.val = r.val / 4) :
    Read.val_main_v12 (F := Ideal) w am cd (ix2 r d)
      = (cd (ix1 ⟨Spec.takeAt 256 (w (ix2 r d)), Spec.takeAt_lt (by decide) _⟩) : EReal) * (am (ix1 q) : EReal) := by
  rw [Read.val_main_v12_apply, Read.val_main_v11_apply, Read.val_main_v8_apply, Read.val_main_v10_apply,
    Read.val_main_v9_apply]

  have e7 := codes_at w cd (Read.idx_main_v8 (Read.idx_main_v12 (ix2 r d))) r d (by
    show (r.val * 1024 + d.val) / 4096 * 4096 + (r.val * 1024 + d.val) % 4096 = r.val * 1024 + d.val
    omega)
  have eb : Read.idx_main_v9 (Read.idx_main_v10 (Read.idx_main_v12 (ix2 r d))) = ix1 q := by
    funext a; refine Fin.ext ?_
    match a with
    | ⟨0, _⟩ => show (r.val * 1024 + d.val) / 4096 = q.val; have := d.isLt; omega
  rw [e7, eb]
  rfl

theorem rows_at (x : IVec S4x4096 32) (T : FVec Ideal S128000x1024 .f32)
    (b : Fin 4) (s : Fin 4096) (d : Fin 1024) (hv : (x (ix2 b s)).toNat < 128000) :
    Host.gather gather_S128000x1024_S4x4096x1_S4x4096x1024_2_0_n_n_0_2_11024 T (Read.val_main_v18 (F := Ideal) x)
        (ix3 b s d)
      = T (ix2 (Spec.rowOf (x (ix2 b s))) d) := by
  have hi : (x (ix2 b s)).toInt = ((x (ix2 b s)).toNat : Int) := toInt_small _ (by omega)

  have e18 : Read.val_main_v18 (F := Ideal) x (ix3 b s (0 : Fin 1)) = x (ix2 b s) := by
    have hidx : Read.idx_main_v18 (ix3 b s (0 : Fin 1)) = ix2 b s := by
      funext a; refine Fin.ext ?_
      match a with
      | ⟨0, _⟩ => rfl
      | ⟨1, _⟩ => rfl
    rw [Read.val_main_v18_apply, Read.val_main_v17_apply, Read.val_main_v14_apply, Read.val_main_v16_apply,
      Read.val_main_v13_apply, Read.val_main_v15_apply, Read.val_main_c_1_apply, Read.val_main_c_2_apply, hidx]
    refine (Spec.wrap_eq _ 128000).trans (if_neg ?_)
    omega
  refine (Cert.LibGather3.gather_rows3_apply_of (by decide) _ rfl rfl rfl rfl rfl rfl rfl T
    (Read.val_main_v18 (F := Ideal) x) b s d).trans ?_
  refine congrArg (fun t => T (ix2 t d)) (Fin.ext ?_)
  show min (Read.val_main_v18 (F := Ideal) x (ix3 b s (0 : Fin 1))).toInt.toNat (128000 - 1)
    = min (x (ix2 b s)).toNat 127999
  rw [e18, hi]
  rfl

theorem ref_is_G (x : IVec S4x4096 32) (w : IVec S128000x1024 32) (am : FVec Ideal S32000 .f32)
    (cd : FVec Ideal S256 .f32) (hx : ∀ j, (x j).toNat < 128000) :
    Read.val_main_v19 (F := Ideal) x w am cd = Cert.Spec.G x w am cd := by
  funext i
  obtain ⟨b, s, d, rfl⟩ : ∃ (b : Fin 4) (s : Fin 4096) (d : Fin 1024), i = ix3 b s d := ⟨i 0, i 1, i 2, eq_ix3 i⟩
  unfold Read.val_main_v19
  refine (rows_at x (Read.val_main_v12 (F := Ideal) w am cd) b s d (hx _)).trans ?_
  refine (table_at w am cd (Spec.rowOf (x (ix2 b s))) d (Spec.blockOf (x (ix2 b s))) ?_).trans rfl
  show min ((x (ix2 b s)).toNat / 4) 31999 = min (x (ix2 b s)).toNat 127999 / 4
  omega

end Cert.ReferenceIdeal.RefValue

end
-- ==== Proof.K.Base.lean ====
import proofs.«401193_j13460427506049_2_alg».proof.Proof.Gen.Kernel.Skeleton
import proofs.«401193_j13460427506049_2_alg».proof.Proof.Gen.Kernel.Launch
import Idealize.ShloMosaic.Lib.Tactic
import Idealize.ShloMosaic.Lib.Pipeline.Kit
import Idealize.ShloMosaic.Lib.Pipeline.Frame
import Idealize.ShloMosaic.Lib.ValueIdx

noncomputable section

namespace Cert.Kernel.Hand

open Cert.Kernel Cert.Kernel.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := Pipeline.UD sig nD τ

local notation "𝕄" => MT nD τ sig Unit (Elt F) ℕ UU ℕ

/-- Memref `M`'s buffer contents on core `c`; below, the buffer held whole, whole at a share, and by the memref's own elements. -/
abbrev Bf (c : Dev nD) {sp : Space} {S : Shape} {e : EltTy} (M : Memref sig .tc sp S e) : Type := Buf (Elt F) (M.view.loc (c : Thread nD τ))

abbrev pt (c : Dev nD) {sp : Space} {S : Shape} {e : EltTy} (M : Memref sig .tc sp S e) (f : Bf (F := F) c M) : sProp 𝕄 :=
  M.view.loc (c : Thread nD τ) ↦{fullShare} f

abbrev ptq (c : Dev nD) (q : PosShare TreeShare) {sp : Space} {S : Shape} {e : EltTy} (M : Memref sig .tc sp S e) (f : Bf (F := F) c M) : sProp 𝕄 :=
  M.view.loc (c : Thread nD τ) ↦{q} f

abbrev own (c : Dev nD) {sp : Space} {S : Shape} {e : EltTy} (M : Memref sig .tc sp S e) (f : Bf (F := F) c M) : sProp 𝕄 :=
  M.view.loc (c : Thread nD τ) ↦[M.view.set]{fullShare} f

/-- A row copy's source lies inside the code table when its word is below the table's 128000 rows. -/
theorem chk_of_lt (v : BitVec 32) (h : v.toNat < 128000) :
    ∀ a : Fin 2, (![v.toNat, 0] : Fin 2 → Nat) a + S1x1024.size a ≤ S128000x1024.size a := by
  intro a
  match a with
  | ⟨0, _⟩ => show v.toNat + 1 ≤ 128000; omega
  | ⟨1, _⟩ => show 0 + 1024 ≤ 1024; omega

/-- The kernel's 256 semaphores, one per row copy. -/
abbrev osem : Fin 256 → SemLoc sig := fun k => .dma ⟨k.val + 2, by have := k.isLt; show k.val + 2 < 258; omega⟩

abbrev sems0 (c : Dev nD) : sProp 𝕄 :=
  Pipeline.ownSems0 (Ix := Unit) (Name := ℕ) (U := UU) (Lvl := ℕ) (Val := Elt F) (τ := τ) osem c

/-- Grid point `i` finds the word of its row `r` at position 256·i + r of the flattened index table. -/
def tblIdx (i : grid0.Coords) (r : Fin 256) : S16384.Idx :=
  ix1 ⟨(i 0).val * 256 + r.val, by have h0 : (i 0).val < 64 := (i 0).isLt; have := r.isLt; show _ < 16384; omega⟩

/-- What grid point `i` gathers: at (r, d) the code table's entry (tb[256·i + r], d), the row clamped so that the term is total. -/
def gathered (i : grid0.Coords) (tb : S16384.Idx → BitVec 32) (fw : S128000x1024.Idx → BitVec 32) : S256x1024.Idx → BitVec 32 :=
  fun y => fw (ix2 (⟨min (tb (tblIdx i (y 0))).toNat 127999, by omega⟩ : Fin 128000) (y 1))

end Cert.Kernel.Hand

end
-- ==== Proof.LibChain.lean ====
import Idealize.ShloMosaic.Lib.Ring

namespace Cert.Chain

open Idealize.SL Idealize.SL.BI Idealize.SL.RA Idealize.ShloMosaic.Ring
open scoped Idealize.SL.BI
open Idealize.SL.BI.BIBase Idealize.SL.BI.Laws Idealize.SL.ProofMode

variable {M : Type} [URA M] {N : ℕ}

/-- `Φ k ∗ Φ (k + 1) ∗ … ∗ Φ (k + n)`, nested to the right, with no closing `emp`. -/
def chain (Φ : Fin N → sProp M) : (k n : ℕ) → k + n < N → sProp M
  | k, 0, h => Φ ⟨k, h⟩
  | k, n + 1, h => iprop(Φ ⟨k, by omega⟩ ∗ chain Φ (k + 1) n (by omega))

theorem bigSep_rangeSet_chain [NeZero N] (Φ : Fin N → sProp M) (k n : ℕ) (h : k + n < N) :
    bigSep (rangeSet N k (k + n + 1)) Φ = chain Φ k n h := by
  induction n generalizing k with
  | zero =>
    rw [bigSep_rangeSet_head (lo := k) (by omega) (by omega), bigSep_rangeSet_empty (by omega)]
    exact equiv_iff.mp sep_emp
  | succ n ih =>
    rw [bigSep_rangeSet_head (lo := k) (by omega) (by omega), show k + (n + 1) + 1 = k + 1 + n + 1 by omega, ih (k + 1) (by omega)]
    rfl

/-- A conjunction over all of `Fin (N + 1)` is the chain from 0. -/
theorem bigSep_chain (Φ : Fin (N + 1) → sProp M) : bigSep Finset.univ Φ = chain Φ 0 N (by omega) := by
  rw [← rangeSet_univ, ← bigSep_rangeSet_chain, Nat.zero_add]

open Lean Elab Tactic

/-- The hypothesis `H`, a chain of `n + 1` conjuncts, becomes the hypotheses `p0 … pn`. -/
elab "icases_chain " H:ident " as " p:ident " to " n:num : tactic => do
  let nm (k : ℕ) := mkIdent (p.getId.appendAfter (toString k))
  for k in [0:n.getNat] do
    evalTactic (← `(tactic| icases $H:ident with ⟨$(nm k):ident, $H:ident⟩))
  evalTactic (← `(tactic| irename $H:ident => $(nm n.getNat):ident))

/-- Splits the goal `A ∗ B`, giving `A` the hypotheses listed and `p0 … pn`. -/
elab "isplitl_chain " p:ident " to " n:num " [" xs:ident* "]" : tactic => do
  let ids := (Array.range (n.getNat + 1)).map fun k => mkIdent (p.getId.appendAfter (toString k))
  evalTactic (← `(tactic| isplitl [$(xs ++ ids)*]))

/-- Closes a goal that is the chain of the hypotheses `p0 … pn` as they stand. -/
elab "iexact_chain " p:ident " to " n:num : tactic => do
  let nm (k : ℕ) := mkIdent (p.getId.appendAfter (toString k))
  for k in [0:n.getNat] do
    evalTactic (← `(tactic| (isplitl [$(nm k):ident]; · iexact $(nm k):ident)))
  evalTactic (← `(tactic| iexact $(nm n.getNat):ident))

end Cert.Chain
-- ==== Proof.K.Rows.lean ====
import proofs.«401193_j13460427506049_2_alg».proof.Proof.K.Base
import proofs.«401193_j13460427506049_2_alg».proof.Proof.LibChain
import Idealize.ShloMosaic.Lib.SparseCore.Stream
import Idealize.ShloMosaic.Lib.Writes

noncomputable section

namespace Cert.Kernel.Hand

open Cert.Kernel Cert.Kernel.Gen Cert.Chain
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Where the body looks up row `k`'s index word at grid point `i`: the 32-bit sum 256·i + k. -/
def offG (k : ℕ) (i : grid0.Coords) : Fin 1 → ℕ :=
  ![(Scalar.indexCast (Scalar.addi (Scalar.muli (BitVec.ofNat 32 (i 0).val) 256#32) (BitVec.ofNat 32 k))).toNat]

/-- With i < 64 and k < 256 neither the product nor the sum wraps. -/
theorem offG_val (k : Fin 256) (i : grid0.Coords) : offG k.val i = ![(i 0).val * 256 + k.val] := by
  have hi : (i 0).val < 64 := (i 0).isLt
  have hk := k.isLt
  unfold offG Scalar.indexCast Scalar.addi Scalar.muli IntOp.addi IntOp.muli
  simp only [BitVec.toNat_add, BitVec.toNat_mul, BitVec.toNat_ofNat, Nat.reducePow]
  congr 1
  omega

theorem offG_inb (k : Fin 256) (i : grid0.Coords) : ∀ a, offG k.val i a + S1.size a ≤ S16384.size a := by
  intro a
  rw [offG_val]
  have h0 : (i 0).val < 64 := (i 0).isLt
  have hk := k.isLt
  match a with
  | ⟨0, _⟩ => show (i 0).val * 256 + k.val + 1 ≤ 16384; omega

theorem word_read (c : Dev nD) (tb : Bf (F := F) c (Memref.whole main_v0)) (o : Fin 1 → Nat)
    (hb : ∀ a, o a + S1.size a ≤ S16384.size a) (hf : 0 < S1.numel) :
    View.readAt (Elt F) (Memref.whole main_v0).view (Rect.unit (s := S16384) o S1.size hb).toLoadRect tb (Shape.Idx.first hf)
      = tb (ix1 ⟨o 0, by have := hb 0; show o 0 < 16384; change o 0 + 1 ≤ 16384 at this; omega⟩) := by
  rw [View.readAt_apply, View.read_apply]
  refine (cast_eq _ _).trans (congrArg tb ?_)
  funext a
  match a with
  | ⟨0, _⟩ => exact Fin.ext (show o 0 + 1 * 0 = o 0 by omega)

theorem squeeze_idx (h : S1024.numel = S1x1024.numel) (d : Fin 1024) :
    Shape.reshapeEquiv h (ix1 d) = (ix2 (0 : Fin 1) d : S1x1024.Idx) := by
  refine (Shape.reshapeEquiv_cons_one (n := 1) (d := ![1024]) h (ix1 d)).trans ?_
  funext a
  match a with
  | ⟨0, _⟩ => rfl
  | ⟨1, _⟩ => rfl

/-- Entry `d` of the 1 × 1024 block at row `r` of a two-axis array, its unit axis dropped, is the array's entry (r, d). -/
theorem row_emb {ds : Fin 2 → ℕ} (r : ℕ) (hb : ∀ a, (![r, 0] : Fin 2 → Nat) a + S1x1024.size a ≤ (⟨2, ds⟩ : Shape).size a)
    (d : Fin 1024) (a : Fin 2) :
    ((Rect.unit (s := ⟨2, ds⟩) ![r, 0] S1x1024.size hb).emb (Shape.reshapeEquiv squeezes_S1x1024_S1024.numel_eq (ix1 d)) a).val
      = (![r, d.val] : Fin 2 → ℕ) a := by
  rw [squeeze_idx]
  match a with
  | ⟨0, _⟩ => show r + 1 * 0 = r; omega
  | ⟨1, _⟩ => show 0 + 1 * d.val = d.val; omega

/-- A row copy carries the code table's row `v`. -/
theorem row_read (c : Dev nD) (fw : Bf (F := F) c (Memref.whole main_arg1)) (v : BitVec 32) (hv : v.toNat < 128000)
    (hb : ∀ a, (![v.toNat, 0] : Fin 2 → Nat) a + S1x1024.size a ≤ S128000x1024.size a) (d : Fin 1024) :
    ReadAs.same.apply (View.read (Elt F) (((Memref.whole main_arg1).slice (Rect.unit (s := S128000x1024) ![v.toNat, 0] S1x1024.size hb) (fun _ => rfl)).squeeze S1024 squeezes_S1x1024_S1024).view fw) (ix1 d)
      = fw (ix2 (⟨v.toNat, hv⟩ : Fin 128000) d) := by
  rw [ReadAs.apply_same, View.read_apply]
  refine (cast_eq _ _).trans (congrArg fw (funext fun a => Fin.ext ((row_emb v.toNat hb d a).trans ?_)))
  match a with
  | ⟨0, _⟩ => rfl
  | ⟨1, _⟩ => rfl

theorem rowG_inb (k : Fin 256) : ∀ a, (![k.val, 0] : Fin 2 → Nat) a + S1x1024.size a ≤ S256x1024.size a := by
  intro a
  match a with
  | ⟨0, _⟩ => show k.val + 1 ≤ 256; omega
  | ⟨1, _⟩ => show 0 + 1024 ≤ 1024; omega

/-- Row `k` of the scratch: the 1 × 1024 block at (k, 0), its unit axis dropped. -/
abbrev rowG (k : Fin 256) : Memref sig .tc .vmem S1024 .i32 :=
  ((Memref.whole cc0_scratch0).slice (Rect.unit (s := S256x1024) ![k.val, 0] S1x1024.size (rowG_inb k)) (fun _ => rfl)).squeeze S1024 squeezes_S1x1024_S1024

theorem rowG_emb (k : Fin 256) (d : Fin 1024) : (rowG k).view.emb (ix1 d) = (ix2 k d : S256x1024.Idx) := by
  refine funext fun a => Fin.ext ((row_emb k.val (rowG_inb k) d a).trans ?_)
  match a with
  | ⟨0, _⟩ => rfl
  | ⟨1, _⟩ => rfl

theorem mem_rowG_set (k : Fin 256) (d : Fin 1024) : (ix2 k d : S256x1024.Idx) ∈ (rowG k).view.set :=
  rowG_emb k d ▸ View.emb_mem_set (rowG k).view (ix1 d)

theorem rowG_set_row {k : Fin 256} {i : S256x1024.Idx} (h : i ∈ (rowG k).view.set) : i 0 = k := by
  obtain ⟨x, -, rfl⟩ := Finset.mem_map.mp h
  exact congrFun ((congrArg _ (eq_ix1 x)).trans (rowG_emb k (x 0))) 0

theorem rowG_disjoint {k k' : Fin 256} (h : k ≠ k') : Disjoint (rowG k).view.set (rowG k').view.set :=
  Finset.disjoint_left.mpr fun _ hi hi' => h ((rowG_set_row hi).symm.trans (rowG_set_row hi'))

theorem rowG_cover : (Finset.univ.biUnion fun k : Fin 256 => (rowG k).view.set) = (Finset.univ : Finset S256x1024.Idx) :=
  Finset.eq_univ_iff_forall.mpr fun i => Finset.mem_biUnion.mpr ⟨i 0, Finset.mem_univ _, by
    exact (congrArg (fun y : S256x1024.Idx => y ∈ (rowG (i 0)).view.set) (eq_ix2 i)).mpr (mem_rowG_set (i 0) (i 1))⟩

/-- The rows are disjoint and cover the scratch, so holding it whole is holding every row. -/
theorem rows_split (c : Dev nD) (fs : Bf (F := F) c (Memref.whole cc0_scratch0)) :
    pt c (Memref.whole cc0_scratch0) fs ⊢ (chain (fun k : Fin 256 => own c (rowG k) fs) 0 255 (by decide) : sProp 𝕄) := by
  have h := pointsTo_biUnion (Ix := Unit) (Name := ℕ) (U := UU) (Lvl := ℕ) (Val := Elt F)
    (ℓ := (Memref.whole cc0_scratch0).view.loc (c : Thread nD τ)) (q := fullShare) (f := fs)
    Finset.univ (fun k : Fin 256 => (rowG k).view.set) (fun k _ k' _ hk => rowG_disjoint hk)
  rw [rowG_cover, bigSep_chain] at h
  exact Entails.of_eq h

theorem rowG_written (c : Dev nD) (k : Fin 256) (fs : Bf (F := F) c (Memref.whole cc0_scratch0)) (p : S1024.Idx → Elt F .i32) (d : Fin 1024) :
    (rowG k).view.writes (Elt F) fs [⟨Rect.whole S1024, p⟩] (ix2 k d) = p (ix1 d) := by
  rw [View.writes_singleton]
  have h := View.write_emb_of_mem (Val := Elt F) (v := (rowG k).view.slice (Rect.whole S1024)) fs p (M := Finset.univ)
    (x := ix1 d) (Finset.mem_univ _)
  have he : ((rowG k).view.slice (Rect.whole S1024)).emb (ix1 d) = (ix2 k d : S256x1024.Idx) := by
    show (rowG k).view.emb ((Rect.whole S1024).emb (ix1 d)) = _
    rw [Rect.emb_whole_apply]; exact rowG_emb k d
  rw [he] at h
  exact h.trans (cast_eq _ _)

/-- Every row overwritten whole by its payload: the scratch whole, row `r` at payload `r`. -/
theorem rows_join (c : Dev nD) (fs : Bf (F := F) c (Memref.whole cc0_scratch0)) (p : Fin 256 → S1024.Idx → Elt F .i32) :
    (chain (fun k : Fin 256 => own c (rowG k) ((rowG k).view.writes (Elt F) fs [⟨Rect.whole S1024, p k⟩])) 0 255 (by decide) : sProp 𝕄)
      ⊢ iprop(∃ G : Bf (F := F) c (Memref.whole cc0_scratch0),
          ⌜∀ (r : Fin 256) (d : Fin 1024), G (ix2 r d) = p r (ix1 d)⌝ ∗ pt c (Memref.whole cc0_scratch0) G) := by
  have hj := pointsTo_biUnion_join (Ix := Unit) (Name := ℕ) (U := UU) (Lvl := ℕ) (Val := Elt F)
    (ℓ := (Memref.whole cc0_scratch0).view.loc (c : Thread nD τ)) (q := fullShare)
    Finset.univ (fun k : Fin 256 => (rowG k).view.set)
    (fun k => (rowG k).view.writes (Elt F) fs [⟨Rect.whole S1024, p k⟩]) fs (fun k _ k' _ hk => rowG_disjoint hk)
  rw [rowG_cover, bigSep_chain] at hj
  refine hj.trans ?_
  iintro ⟨%g, %hg, H⟩
  iexists g
  isplitr
  · ipureintro
    intro r d
    rw [hg r (Finset.mem_univ r) (ix2 r d) (mem_rowG_set r d)]
    exact rowG_written c r fs (p r) d
  · iexact H

end Cert.Kernel.Hand

end
-- ==== Proof.K.Finish.lean ====
import proofs.«401193_j13460427506049_2_alg».proof.Proof.K.Rows
import Idealize.ShloMosaic.Lib.Pipeline.FrameBody
import Idealize.ShloMosaic.Lib.Pipeline.Value

noncomputable section

namespace Cert.Kernel.Hand

open Cert.Kernel Cert.Kernel.Gen Cert.Chain
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The body after its last wait: the scratch loaded whole and stored over the output block. -/
def tailProg (arg3 : Memref sig .tc .vmem S256x1024 .i32) (harg3 : arg3.IsWhole) : Prog (TpuEff nD τ sig (Elt F) Λ₀ .tc) PUnit := do
  let v3841 : Vec F S256x1024 .i32 ← Prog.lift (.load (Memref.whole cc0_scratch0) (Rect.unit (s := S256x1024) ![0, 0] S256x1024.size inb_S256x1024_S256x1024_0_0).toLoadRect (View.loadsAt_vmem h_S256x1024))
  let v3842 : Vec F S256x1024 .i32 ← Prog.lift (.load arg3 (Rect.unit (s := S256x1024) ![0, 0] S256x1024.size inb_S256x1024_S256x1024_0_0).toLoadRect (View.loadsAt_vmem h_S256x1024))
  Prog.lift (.store arg3 (Rect.unit (s := S256x1024) ![0, 0] S256x1024.size inb_S256x1024_S256x1024_0_0) v3841 Finset.univ (View.stores_vmem_bits_univ h_S256x1024 rfl) (.inl rfl))
  pure ⟨⟩

/-- Row k's index word as the body reads it, -/
def wordT (c : Dev nD) (i : grid0.Coords) (tb : Bf (F := F) c (Memref.whole main_v0)) (k : Fin 256) : BitVec 32 :=
  View.readAt (Elt F) (Memref.whole main_v0).view (Rect.unit (s := S16384) (offG k.val i) S1.size (offG_inb k i)).toLoadRect tb
    (Shape.Idx.first (show 0 < S1.numel from by decide))

/-- the table's word at position 256·i + k. -/
theorem wordT_eq (c : Dev nD) (i : grid0.Coords) (tb : Bf (F := F) c (Memref.whole main_v0)) (k : Fin 256) :
    wordT c i tb k = tb (tblIdx i k) := by
  unfold wordT
  rw [word_read]
  refine congrArg tb (congrArg ix1 (Fin.ext ?_))
  show offG k.val i 0 = (i 0).val * 256 + k.val
  rw [offG_val]; rfl

theorem wordT_lt (c : Dev nD) (i : grid0.Coords) (tb : Bf (F := F) c (Memref.whole main_v0))
    (hx : ∀ j, ((tb j : BitVec 32)).toNat < 128000) (k : Fin 256) : (wordT c i tb k).toNat < 128000 := by
  rw [wordT_eq]; exact hx _

/-- The payload of row k's copy: the code table read through the source row its word names. -/
def payT (c : Dev nD) (i : grid0.Coords) (tb : Bf (F := F) c (Memref.whole main_v0)) (fw : Bf (F := F) c (Memref.whole main_arg1))
    (hx : ∀ j, ((tb j : BitVec 32)).toNat < 128000) (k : Fin 256) : S1024.Idx → Elt F .i32 :=
  ReadAs.same.apply (View.read (Elt F)
    (((Memref.whole main_arg1).slice (Rect.unit (s := S128000x1024) ![(wordT c i tb k).toNat, 0] S1x1024.size
        (chk_of_lt _ (wordT_lt c i tb hx k))) (fun _ => rfl)).squeeze S1024 squeezes_S1x1024_S1024).view fw)

theorem payT_val (c : Dev nD) (i : grid0.Coords) (tb : Bf (F := F) c (Memref.whole main_v0)) (fw : Bf (F := F) c (Memref.whole main_arg1))
    (hx : ∀ j, ((tb j : BitVec 32)).toNat < 128000) (k : Fin 256) (d : Fin 1024) :
    payT c i tb fw hx k (ix1 d) = gathered i tb fw (ix2 k d) := by
  refine (row_read c fw (wordT c i tb k) (wordT_lt c i tb hx k) _ d).trans (congrArg fw (congrArg (ix2 · d) (Fin.ext ?_)))
  show (wordT c i tb k).toNat = min (tb (tblIdx i k)).toNat 127999
  rw [wordT_eq]
  have := hx (tblIdx i k)
  omega

theorem zero2 : (![0, 0] : Fin 2 → Nat) = fun _ => 0 := by
  funext a; match a with | ⟨0, _⟩ => rfl | ⟨1, _⟩ => rfl

set_option maxHeartbeats 2000000 in
/-- From the scratch held row by row, row k at the copied table row of its word, the tail leaves the gathered block in
    the output block's buffer and the scratch whole again. -/
theorem finish [∀ e, Nonempty (Elt F e)] (c : Dev nD) (i : grid0.Coords) (M0 : Memref sig .tc .vmem S256x1024 .i32) (h0 : M0.IsWhole)
    (tb : Bf (F := F) c (Memref.whole main_v0)) (fw : Bf (F := F) c (Memref.whole main_arg1))
    (f0 : Bf (F := F) c M0) (fs : Bf (F := F) c (Memref.whole cc0_scratch0))
    (hx : ∀ j, ((tb j : BitVec 32)).toNat < 128000) (Q : PUnit → sProp 𝕄) :
    iprop(pt c M0 f0
        ∗ chain (fun k : Fin 256 => own c (rowG k) ((rowG k).view.writes (Elt F) fs [⟨Rect.whole S1024, payT c i tb fw hx k⟩]))
            0 255 (by decide)
        ∗ (iprop((∃ f : Bf (F := F) c M0, ⌜M0.view.read (Elt F) f = gathered i tb fw⌝ ∗ pt c M0 f)
              ∗ (∃ f, pt c (Memref.whole cc0_scratch0) f)) -∗ Q ⟨⟩))
      ⊢ wp frame (wpE (defs₀ (F := F)) Variants.none c none) Set.univ (tailProg M0 h0) Q := by
  iintro ⟨H0, Hs, Hk⟩
  ihave HS := (rows_join c fs (payT c i tb fw hx)) $$ Hs
  icases HS with ⟨%G, %hG, HS⟩
  unfold tailProg
  sl_exec!
  sl_step
  iapply Hk
  isplitl [H0]
  · iexists _; isplitr; swap; (· iexact H0)
    ipureintro
    rw [View.read_writes_junk_eq_canon]
    sl_unfold_words
    rw [View.canon_unit_zero zero2]
    funext y
    obtain ⟨r, d, rfl⟩ : ∃ (r : Fin 256) (d : Fin 1024), y = ix2 r d := ⟨y 0, y 1, eq_ix2 y⟩
    simp only [View.readAt_eq_ld, (Memref.isWhole_whole cc0_scratch0).read_unread, View.ld_unit_zero (S := S256x1024) zero2]
    exact (hG r d).trans (payT_val c i tb fw hx r d)
  iexists _; iexact HS

end Cert.Kernel.Hand

end
-- ==== Proof.K.Toks.lean ====
import proofs.«401193_j13460427506049_2_alg».proof.Proof.K.Base
import proofs.«401193_j13460427506049_2_alg».proof.Proof.LibChain
import Idealize.ShloMosaic.Lib.Transfers

noncomputable section

namespace Cert.Kernel.Hand

open Cert.Kernel Cert.Kernel.Gen Cert.Chain
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Row k's copy reads the code table through read share k + 2. -/
def tokCell : Fin 256 ↪ ℕ := ⟨fun k => k.val + 2, fun a b h => Fin.ext (by have h' : a.val + 2 = b.val + 2 := h; omega)⟩

theorem tok_range258 : Finset.range 258 = insert 0 (insert 1 (Finset.univ.map tokCell)) := by
  ext n
  simp only [Finset.mem_range, Finset.mem_insert, Finset.mem_map, Finset.mem_univ, true_and]
  constructor
  · intro h
    by_cases h0 : n = 0
    · exact Or.inl h0
    by_cases h1 : n = 1
    · exact Or.inr (Or.inl h1)
    exact Or.inr (Or.inr ⟨⟨n - 2, by omega⟩, by show n - 2 + 2 = n; omega⟩)
  · rintro (rfl | rfl | ⟨k, rfl⟩)
    · omega
    · omega
    · have := k.isLt
      show k.val + 2 < 258
      omega

theorem tok_one_not_mem : (1 : ℕ) ∉ Finset.univ.map tokCell := by
  intro h
  obtain ⟨k, -, hk⟩ := Finset.mem_map.1 h
  have : k.val + 2 = 1 := hk
  omega

theorem tok_zero_not_mem : (0 : ℕ) ∉ insert 1 (Finset.univ.map tokCell) := by
  intro h
  rcases Finset.mem_insert.1 h with h | h
  · exact absurd h (by decide)
  · obtain ⟨k, -, hk⟩ := Finset.mem_map.1 h
    have : k.val + 2 = 0 := hk
    omega

/-- The code table held whole is a remainder, read shares 0 and 1 (never lent), and read shares k + 2, k below 256, one
    per row copy: 258 is 0, 1 and k + 2 for k below 256. -/
theorem toks_range (c : Dev nD) (fw : Bf (F := F) c (Memref.whole main_arg1)) :
    (pt c (Memref.whole main_arg1) fw : sProp 𝕄) ⊣⊢
      iprop(ptq c (Transfers.shareDrop fullShare 258) (Memref.whole main_arg1) fw
        ∗ (ptq c (Transfers.shareTokN fullShare 0) (Memref.whole main_arg1) fw
          ∗ (ptq c (Transfers.shareTokN fullShare 1) (Memref.whole main_arg1) fw
            ∗ chain (fun k : Fin 256 => ptq c (Transfers.shareTokN fullShare (k.val + 2)) (Memref.whole main_arg1) fw)
                0 255 (by decide)))) := by
  have h := Transfers.pointsTo_toks_range (Ix := Unit) (Name := ℕ) (U := UU) (Lvl := ℕ) (Val := Elt F)
    (ℓ := (Memref.whole main_arg1).view.loc (c : Thread nD τ)) (S := Finset.univ) (f := fw) fullShare 258
  rw [tok_range258, BI.bigSep_insert tok_zero_not_mem, BI.bigSep_insert tok_one_not_mem, BI.bigSep_map, bigSep_chain] at h
  exact h

theorem sems_chain (c : Dev nD) :
    (sems0 c : sProp 𝕄) = chain (fun k : Fin 256 => semVal ((c : Thread nD τ), osem k) 0) 0 255 (by decide) :=
  bigSep_chain _

end Cert.Kernel.Hand

end
-- ==== Proof.K.Body.lean ====
import proofs.«401193_j13460427506049_2_alg».proof.Proof.K.Finish
import proofs.«401193_j13460427506049_2_alg».proof.Proof.K.Toks

noncomputable section

namespace Cert.Kernel.Hand

open Cert.Kernel Cert.Kernel.Gen Cert.Chain
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxHeartbeats 40000000 in
/-- One grid point. Every table word names a row, so each copy's source lies inside the code table; copy k lends the
    read share of its counter and takes row k of the scratch, and its wait gives both back; then the tail. -/
theorem kernelRun [∀ e, Nonempty (Elt F e)] (c : Dev nD) (i : grid0.Coords) (M0 : Memref sig .tc .vmem S256x1024 .i32) (h0 : M0.IsWhole)
    (tb : Bf (F := F) c (Memref.whole main_v0)) (fw : Bf (F := F) c (Memref.whole main_arg1))
    (f0 : Bf (F := F) c M0) (fs : Bf (F := F) c (Memref.whole cc0_scratch0))
    (hx : ∀ j, ((tb j : BitVec 32)).toNat < 128000) (W : Waits sig Unit) (Q : PUnit → sProp 𝕄) :
    iprop(pt c M0 f0 ∗ pt c (Memref.whole main_v0) tb ∗ pt c (Memref.whole main_arg1) fw ∗ pt c (Memref.whole cc0_scratch0) fs
        ∗ sems0 c ∗ owes (c : Thread nD τ) 0 W
        ∗ (iprop((∃ f : Bf (F := F) c M0, ⌜M0.view.read (Elt F) f = gathered i tb fw⌝ ∗ pt c M0 f)
              ∗ pt c (Memref.whole main_v0) tb ∗ pt c (Memref.whole main_arg1) fw
              ∗ (∃ f, pt c (Memref.whole cc0_scratch0) f) ∗ sems0 c ∗ ∃ W, owes (c : Thread nD τ) 0 W) -∗ Q ⟨⟩))
      ⊢ wp frame (wpE (defs₀ (F := F)) Variants.none c none) Set.univ
          (cc0__gather_kernel i (Memref.whole main_v0) (Memref.isWhole_whole _) (Memref.whole main_arg1) (Memref.isWhole_whole _) M0 h0
            (Memref.whole cc0_scratch0) (Memref.isWhole_whole _) cc0_scratch1) Q := by
  have htoks := toks_range c fw
  have hrows := rows_split c fs
  have hsems := sems_chain (F := F) c
  have hfin := finish c i M0 h0 tb fw f0 fs hx Q
  simp only [chain, rowG, osem, Nat.reduceAdd] at htoks hrows hsems hfin
  rw [hsems]
  iintro ⟨H0, Ht, Hw, Hs, Hd, HO, Hk⟩
  ihave Hw' := htoks.1 $$ Hw
  icases Hw' with ⟨Hr, Hr0, Hr1, Hw⟩
  ihave Hs' := hrows $$ Hs
  icases_chain Hw as Hw to 255
  icases_chain Hs' as Hs to 255
  icases_chain Hd as Hd to 255
  sl_exec_parts (disch := exact chk_of_lt _ (hx _))
  iapply hfin
  isplitl [H0]; · iexact H0
  isplitl_chain Hs to 255 []
  · iexact_chain Hs to 255
  iintro ⟨HM, HS⟩
  iapply Hk
  isplitl [HM]; · iexact HM
  isplitl [Ht]; · iexact Ht
  isplitl_chain Hw to 255 [Hr Hr0 Hr1]
  · iapply htoks.2
    isplitl [Hr]; · iexact Hr
    isplitl [Hr0]; · iexact Hr0
    isplitl [Hr1]; · iexact Hr1
    iexact_chain Hw to 255
  isplitl [HS]; · iexact HS
  isplitl_chain Hd to 255 []
  · iexact_chain Hd to 255
  iexists _; iexact HO

end Cert.Kernel.Hand

end
-- ==== Proof.K.Launch.lean ====
import proofs.«401193_j13460427506049_2_alg».proof.Proof.K.Body
import Idealize.ShloMosaic.Lib.Pipeline.Regions
import Idealize.ShloMosaic.Lib.Pipeline.RegionsLoop
import Idealize.ShloMosaic.Lib.Pipeline.FrameSuffix

noncomputable section

namespace Cert.Kernel.Hand

open Cert.Kernel Cert.Kernel.Gen

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-- Core `c`'s buffers at launch, then after each of @main's five stretches: the flattening, the region, three host stretches. -/
abbrev W0 (c : Dev nD) : Valuation τ sig (Elt F) := fun b => m ((c : Dev nD), b)

abbrev W1 (c : Dev nD) : Valuation τ sig (Elt F) := StableHlo.after hostOps0 (W0 m c)

abbrev admc : (pcfg0 (F := F)).Adm :=
  ⟨fun k => W1 m (0 : Dev nD) (Proc.devRef .tc (pre0.ref k)), trivial⟩

abbrev adm : (p : Fin 1) → (pcfgs (F := F) p).Adm := fun _ => admc m

/-- What the region holds beside the output array: the code table, the index table, the 256 semaphores at zero, the scratch. -/
def Φc (c : Dev nD) : sProp 𝕄 :=
  iprop(pt c (Memref.whole main_arg1) (W1 m c (Proc.devRef .tc main_arg1))
    ∗ Pipeline.prefHeld (Ix := Unit) (Name := ℕ) (U := UU) (Lvl := ℕ) (Val := Elt F) pre0 c (fun _ => fullShare) (admc m).1
    ∗ sems0 c
    ∗ Pipeline.scopedRest (Ix := Unit) (Name := ℕ) (U := UU) (Lvl := ℕ) (Val := Elt F) spec0 c)

/-- After the body at point `t` the output block holds what the point gathers. -/
def dat0 (c : Dev nD) : Dat τ (Elt F) Unit ℕ UU ℕ (cfg0 (admc m)) c where
  A w := W1 m c (Proc.devRef .tc (Pipeline.arrRef spec0 w))
  after w t := match w with
    | ⟨0, _⟩ => gathered (grid0.coords t) (W1 m c (Proc.devRef .tc main_v0)) (W1 m c (Proc.devRef .tc main_arg1))
  Φ _ := Φc m c
  q _ := fullShare
  owed _ := 0

abbrev pdats : (p : Fin 1) → (c : Dev nD) → Dat τ (Elt F) Unit ℕ UU ℕ (Pipeline.pin (pcfgs (F := F)) (adm m) p) c :=
  fun _ c => dat0 m c

theorem dat0_A (c : Dev nD) (w : Fin (cfg0 (admc m)).W) : (dat0 m c).A w = W1 m c (Proc.devRef .tc (Pipeline.arrRef spec0 w)) := by
  dsimp only [dat0]
theorem dat0_after (c : Dev nD) (t : Fin (cfg0 (admc m)).N) :
    (dat0 m c).after 0 t = gathered (grid0.coords t) (W1 m c (Proc.devRef .tc main_v0)) (W1 m c (Proc.devRef .tc main_arg1)) := by
  dsimp only [dat0]
  rfl

def W2 (c : Dev nD) : Valuation τ sig (Elt F) :=
  Pipeline.withArrays spec0 c (W1 m c) fun w => (dat0 m c).arrAt w (cfg0 (admc m)).N

abbrev W3 (c : Dev nD) : Valuation τ sig (Elt F) := StableHlo.after hostOps1 (W2 m c)

abbrev W4 (c : Dev nD) : Valuation τ sig (Elt F) := StableHlo.after hostOps1_1 (W3 m c)

abbrev W5 (c : Dev nD) : Valuation τ sig (Elt F) := StableHlo.after hostOps1_2 (W4 m c)

theorem owns_of_whole (c : Dev nD) (M0 : Memref sig .tc .vmem S256x1024 .i32) (h0 : M0.IsWhole) (X : S256x1024.Idx → Elt F .i32) :
    (owns (c : Thread nD τ) M0 fullShare X : sProp 𝕄) = iprop(∃ f : Bf (F := F) c M0, ⌜M0.view.read (Elt F) f = X⌝ ∗ pt c M0 f) := by
  unfold owns; rw [h0.set_eq_univ]

/-- One grid point, whichever whole buffer holds the output block: the body keeps the invariant and leaves the gathered block. -/
theorem sound_at (hx : ∀ c j, ((W1 m c (Proc.devRef .tc main_v0) j : BitVec 32)).toNat < 128000)
    (c : Dev nD) (i : grid0.Coords) (M0 : Memref sig .tc .vmem S256x1024 .i32) (h0 : M0.IsWhole)
    (B B' : Set (SemLoc sig × Unit)) (hB' : Set.univ ⊆ B')
    (prog : Prog (TpuEff nD τ sig (Elt F) Λ₀ .tc) PUnit)
    (hprog : prog = cc0__gather_kernel i (Memref.whole main_v0) (Memref.isWhole_whole _) (Memref.whole main_arg1) (Memref.isWhole_whole _) M0 h0
            (Memref.whole cc0_scratch0) (Memref.isWhole_whole _) cc0_scratch1) :
    iprop(Φc m c ∗ Pipeline.owesWithin (Name := ℕ) (U := UU) (Lvl := ℕ) (Val := Elt F) c (0 : CellTallies nD τ sig Unit) B
        ∗ (∃ X, owns (c : Thread nD τ) M0 fullShare X))
      ⊢ wp frame (wpE (defs₀ (F := F)) Variants.none c none) Set.univ prog
          (fun _ => iprop(Φc m c ∗ Pipeline.owesWithin (Name := ℕ) (U := UU) (Lvl := ℕ) (Val := Elt F) c (0 : CellTallies nD τ sig Unit) B'
            ∗ owns (c : Thread nD τ) M0 fullShare
                (gathered i (W1 m c (Proc.devRef .tc main_v0)) (W1 m c (Proc.devRef .tc main_arg1))))) := by
  subst hprog
  obtain rfl : c = 0 := Subsingleton.elim _ _
  unfold Φc Pipeline.owesWithin Pipeline.prefHeld
  rw [scopedRest0_eq, bigSep_W0]
  simp only [owns_of_whole _ M0 h0]
  iintro ⟨⟨Hfw, Htb, Hsems, ⟨%fs, Hs⟩⟩, ⟨%W, %hW, HO⟩, ⟨%X, %f0, -, H0⟩⟩
  iapply (kernelRun (0 : Dev nD) i M0 h0 (W1 m 0 (Proc.devRef .tc main_v0)) (W1 m 0 (Proc.devRef .tc main_arg1)) f0 fs (hx 0) W _)
  isplitl [H0]; · iexact H0
  isplitl [Htb]; · iexact Htb
  isplitl [Hfw]; · iexact Hfw
  isplitl [Hs]; · iexact Hs
  isplitl [Hsems]; · iexact Hsems
  isplitl [HO]; · iexact HO
  iintro ⟨⟨%f, %hf, H0⟩, Htb, Hfw, Hs, Hsems, ⟨%W', HO⟩⟩
  isplitl [Hfw Htb Hsems Hs]
  · isplitl [Hfw]; · iexact Hfw
    isplitl [Htb]; · iexact Htb
    isplitl [Hsems]; · iexact Hsems
    iexact Hs
  isplitl [HO]
  · iexists W'; isplitr; · ipureintro; exact fun _ _ => hB' trivial
    iexact HO
  iexists f; isplitr; · ipureintro; exact hf
  iexact H0

theorem body_obligation (hx : ∀ c j, ((W1 m c (Proc.devRef .tc main_v0) j : BitVec 32)).toNat < 128000) (c : Dev nD) :
    BodyObligation (dat0 m c) (defs₀ (F := F)) Variants.none () Set.univ := fun t => by
  rw [bigSep_W0, bigSep_W0]
  dsimp only
  rw [show (dat0 m c).Φ t.castSucc = Φc m c from rfl, show (dat0 m c).Φ t.succ = Φc m c from rfl, dat0_after]
  unfold Dat.owesAt
  rw [show (dat0 m c).owed t.castSucc = 0 from rfl, show (dat0 m c).owed t.succ = 0 from rfl]
  have hp : (defs₀ (F := F)) Proc.tc 0 (t, (cfg0 (admc m)).slots t)
      = cc0__gather_kernel (grid0.coords t) (Memref.whole main_v0) (Memref.isWhole_whole _) (Memref.whole main_arg1) (Memref.isWhole_whole _)
          (stage0_0 ((cfg0 (admc m)).slots t 0)) (hstage0_0 (((cfg0 (admc m)).slots t 0).cast nbuf0_0))
          (Memref.whole cc0_scratch0) (Memref.isWhole_whole _) cc0_scratch1 := rfl
  have h := sound_at m hx c (grid0.coords t) (stage0_0 ((cfg0 (admc m)).slots t 0))
    (hstage0_0 (((cfg0 (admc m)).slots t 0).cast nbuf0_0))
    ((dat0 m c).bound () t.castSucc) ((dat0 m c).bound () t.succ) (fun _ h => Or.inl h) _ hp
  generalize (defs₀ (F := F)) Proc.tc 0 (t, (cfg0 (admc m)).slots t) = prog at h ⊢
  refine BIBase.Entails.trans ?_ h
  iintro ⟨HΦ, HO, ⟨%d, H0⟩⟩
  isplitl [HΦ]; · iexact HΦ
  isplitl [HO]; · iexact HO
  iexists _; iexact H0

abbrev V1 : (c : Dev nD) → (b : Ref sig .tc) → Buf (Elt F) ((c : Thread nD τ).loc b) := fun c b => W1 m c b
abbrev V2 : (c : Dev nD) → (b : Ref sig .tc) → Buf (Elt F) ((c : Thread nD τ).loc b) := fun c b => W2 m c b

theorem W2_v1 (c : Dev nD) : W2 m c (Proc.devRef .tc main_v1) = (dat0 m c).arrAt 0 (cfg0 (admc m)).N := by
  unfold W2; exact Pipeline.withArrays_arr spec0 winFacts0.arr_inj c _ _ 0
theorem W2_arr (c : Dev nD) (w : Fin (cfg0 (admc m)).W) :
    W2 m c (Proc.devRef .tc (Pipeline.arrRef spec0 w)) = (dat0 m c).arrAt w (cfg0 (admc m)).N := by
  unfold W2; exact Pipeline.withArrays_arr spec0 winFacts0.arr_inj c _ _ w

theorem W2_of_ne (c : Dev nD) (b : Ref sig .tc) (hb : b ≠ main_v1) :
    W2 m c (Proc.devRef .tc b) = W1 m c (Proc.devRef .tc b) := by
  unfold W2
  exact Pipeline.withArrays_of_ne spec0 c _ _ b fun w e => hb (by
    obtain rfl : w = 0 := Subsingleton.elim _ _
    exact e.symm)

theorem hF0 (c : Dev nD) (w : Fin (cfg0 (admc m)).W) : (dat0 m c).arrAt w (cfg0 (admc m)).N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun e => hb (Finset.mem_image.mpr ⟨0, Finset.mem_univ _, e.symm⟩)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

theorem ownSemFacts : Pipeline.OwnSemFacts spec0 osem := by decide

def restZ (c : Dev nD) : sProp 𝕄 :=
  bigSep (Pipeline.restRefsP sig pre0 spec0 \ {main_arg1}) fun b => ((c : Thread nD τ).loc b) ↦{fullShare} V1 m c b

theorem rest_eq (c : Dev nD) :
    (Pipeline.unscopedRest (Ix := Unit) (Name := ℕ) (U := UU) (Lvl := ℕ) spec0 c (V1 m c) : sProp 𝕄)
      = iprop(Pipeline.prefHeld (Ix := Unit) (Name := ℕ) (U := UU) (Lvl := ℕ) (Val := Elt F) pre0 c (fun _ => fullShare) (fun k => V1 m c (pre0.ref k))
          ∗ (((c : Thread nD τ).loc main_arg1) ↦{fullShare} V1 m c main_arg1) ∗ restZ m c) := by
  rw [Pipeline.unscopedRest_split preFacts0 c (V1 m c),
    Pipeline.unscopedRestP_sdiff pre0 spec0 {main_arg1}
      (Finset.singleton_subset_iff.mpr (Finset.mem_sdiff.mpr ⟨Pipeline.mem_restRefs_of main_arg1 (by decide) (by decide), by decide⟩))
      c (V1 m c),
    BI.bigSep_singleton]
  rfl

set_option backward.isDefEq.respectTransparency.types false in

/-- The kernel region: the output array, the two tables and the semaphores go in, every other buffer passes by, and all of
    it is put back at the exit with the output array at the gathered blocks. -/
def reg0 (hx : ∀ c j, ((W1 m c (Proc.devRef .tc main_v0) j : BitVec 32)).toNat < 128000) :
    Pipeline.RegionSeg (pcfgs (F := F)) (adm m) (pdats m) () defs₀ 𝒱₀ L lv 0 where
  win := winFacts0.to₀
  block_pos := block_pos0
  stage_whole := stage_whole0
  K := Fin 256
  osem := osem
  ho := ownSemFacts
  hbody c := (body_obligation m hx c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(pt c (Memref.whole main_arg1) (W1 m c (Proc.devRef .tc main_arg1)) ∗ sems0 c)
  Y c := iprop(pt c (Memref.whole main_arg1) (W1 m c (Proc.devRef .tc main_arg1))
    ∗ Pipeline.prefHeld (Ix := Unit) (Name := ℕ) (U := UU) (Lvl := ℕ) (Val := Elt F) pre0 c (fun _ => fullShare) (admc m).1)
  Z c := iprop((∃ r, prngReg c r) ∗ restZ m c)
  hentry c := by
    obtain rfl : c = 0 := Subsingleton.elim _ _
    have hsplit := Pipeline.arrays_of_unscopedBufs (p := 0) (pcfgs (F := F)) (adm m) (pdats m) winFacts0 arr_whole0 0
      ((pdats m 0 0).share_full fun _ => rfl) (V1 m 0) fun _ => rfl
    rw [Pipeline.unscopedBufs_held, rest_eq m 0] at hsplit
    iintro ⟨⟨Hub, Hp, HO⟩, Hos, -⟩
    ihave H := hsplit $$ Hub
    icases H with ⟨Ha, Htb, Hfw, Hrest⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hfw Hos]
    · isplitl [Hfw]; · iexact Hfw
      iexact Hos
    isplitl [Hp]; · iexact Hp
    iexact Hrest
  hin c := by
    rw [show (pdats m 0 c).Φ 0 = Φc m c from rfl]; unfold Φc
    iintro ⟨⟨Hfw, Hos⟩, Htb, Hr⟩
    isplitl [Hfw]; · iexact Hfw
    isplitl [Htb]; · iexact Htb
    isplitl [Hos]; · iexact Hos
    iexact Hr
  hout c := by
    rw [show (pdats m 0 c).Φ (Fin.last _) = Φc m c from rfl]; unfold Φc
    iintro ⟨Hfw, Htb, Hos, Hr⟩
    isplitl [Hfw Htb]
    · isplitl [Hfw]; · iexact Hfw
      iexact Htb
    isplitl [Hos]; · iexact Hos
    iexact Hr
  hexit c := by
    obtain rfl : c = 0 := Subsingleton.elim _ _
    have hjoin := Pipeline.unscopedBufs_of_arrays (p := 0) (pcfgs (F := F)) (adm m) (Ix := Unit) (Name := ℕ) (U := UU) (Lvl := ℕ)
      winFacts0 arr_whole0 0 (pdats m) ((pdats m 0 0).share_full fun _ => rfl)
      (V1 m 0) (V2 m 0) ((pdats m 0 0).arrAt · (cfg0 (admc m)).N) (hF0 m 0) (hrest0 m 0)
    rw [Pipeline.unscopedBufs_held, rest_eq m 0] at hjoin
    iintro ⟨Ha, HO, ⟨Hfw, Htb⟩, ⟨Hp, Hrest⟩⟩
    imodintro
    isplitl [Ha Hfw Htb Hrest]
    · iapply hjoin
      isplitl [Ha]; · iexact Ha
      isplitl [Htb]; · iexact Htb
      isplitl [Hfw]; · iexact Hfw
      iexact Hrest
    isplitl [Hp]; · iexact Hp
    unfold Pipeline.Dat.owesAt Pipeline.owesWithin
    icases HO with ⟨%W, -, HO⟩; iexists W; iexact HO

abbrev segs (hx : ∀ c j, ((W1 m c (Proc.devRef .tc main_v0) j : BitVec 32)).toNat < 128000) :
    List (Pipeline.Seg (pcfgs (F := F)) (adm m) (pdats m) () defs₀ 𝒱₀ L lv) :=
  [ .host (hseg hostOps0 hostOps0_sub hostOps0_fresh (W0 m)),
    .region (reg0 m hx),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)) ]

theorem main_run (hx : ∀ c j, ((W1 m c (Proc.devRef .tc main_v0) j : BitVec 32)).toNat < 128000) (c : Dev nD) :
    main (F := F) c = Pipeline.Seg.run (segs m hx) := (main_chain c).trans (by chain_rfl)

abbrev EP : Emb (UR sig nD τ) (MT nD τ sig Unit (Elt F) ℕ UU ℕ) := embL

def u₀ : UU :=
  (initOf (Pipeline.cells (Pipeline.pin (pcfgs (F := F)) (adm m)) (cellOf_inj (adm m)))
    (Pipeline.launchToks (Pipeline.pin (pcfgs (F := F)) (adm m)) (cellOf_inj (adm m))), 1)

abbrev Tₙ (c : Dev nD) : sProp 𝕄 := iprop(StableHlo.held (c : Thread nD τ) (Pipeline.ucRefs τ sig) (W5 m c) ∗ ∃ r, prngReg c r)

set_option backward.isDefEq.respectTransparency.types false in

/-- Every weakly fair execution of @main terminates with every unscoped buffer at what the five stretches leave in it. -/
theorem run_main (hx : ∀ c j, ((W1 m c (Proc.devRef .tc main_v0) j : BitVec 32)).toNat < 128000) :
    θ_run defs (onTc (τ := τ) (main (F := F))) ⟨m, fun _ => 0, ρ⟩
      (fun r => ∀ c : Dev nD, ∀ b ∈ Pipeline.ucRefs τ sig, r.2.mem ((c : Thread nD τ).1, b) = W5 m c b) :=
  Pipeline.θ_run_regions_kit (pcfgs (F := F)) (adm m) (pdats m) () (cellOf_inj (adm m)) EP defs₀ 𝒱₀ L lv m ρ main (segs m hx)
    (fun c Q => by rw [main_run m hx c])
    (by simp only [segs, Pipeline.Seg.pipes_host, Pipeline.Seg.pipes_region, Pipeline.Seg.pipes_nil]; decide)
    (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- No operation of a stretch writes the reference: each operation writes its one result, another reference. -/
local macro "arg_not_written" : tactic => `(tactic| (
  refine List.forall_iff_forall_mem.mp ?_
  simp only [hostOps0, hostOps1, hostOps1_1, hostOps1_2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-- No host operation and no region writes an argument, so the fold at an argument's buffer walks back to the launch memory. -/
theorem W5_arg (c : Dev nD) (b : Ref sig .tc) (hb : b = main_arg0 ∨ b = main_arg1 ∨ b = main_arg2 ∨ b = main_arg3) :
    W5 m c (Proc.devRef .tc b) = m ((c : Thread nD τ).loc b) := by
  rcases hb with rfl | rfl | rfl | rfl <;>
  exact (StableHlo.after_of_forall_not_mem _ _ (by arg_not_written)).trans
    ((StableHlo.after_of_forall_not_mem _ _ (by arg_not_written)).trans
      ((StableHlo.after_of_forall_not_mem _ _ (by arg_not_written)).trans
        ((W2_of_ne m c _ (by decide)).trans (StableHlo.after_of_forall_not_mem _ _ (by arg_not_written)))))

end Cert.Kernel.Hand

end
-- ==== Proof.K.Table.lean ====
import proofs.«401193_j13460427506049_2_alg».proof.Proof.K.Launch
import Idealize.ShloMosaic.Lib.Pipeline.Value

noncomputable section

namespace Cert.Kernel.Hand

open Cert.Kernel Cert.Kernel.Gen

open Idealize.ShloMosaic
open Idealize.ShloMosaic.TcCoe Idealize.ShloMosaic.ValueIdx
open Idealize.SL.Sem

variable {F : FTy → Type} [FloatOps F] [∀ e, Nonempty (Elt F e)]

variable (m : (ℓ : Loc nD τ sig) → Buf (Elt F) ℓ)

/-- A reshape keeps row-major positions: table position b·4096 + s holds x[b, s]. -/
theorem W1_v0_at (c : Dev nD) (b : Fin 4) (s : Fin 4096) (n : Fin 16384) (hn : n.val = b.val * 4096 + s.val) :
    (W1 m c (Proc.devRef .tc main_v0) : IVec S16384 32) (ix1 n)
      = (m ((c : Thread nD τ).loc main_arg0) : IVec S4x4096 32) (ix2 b s) := by
  show StableHlo.after hostOps0 (W0 m c) (Proc.devRef .tc main_v0) (ix1 n) = _
  after_results_simp
  refine (shapeCast_apply _ shapeCasts_S4x4096_S16384 (ix1 n) (ix2 b s) ?_).trans ?_
  · rw [Shape.rowMajor_val_two, Shape.rowMajor_val_one]
    show b.val * 4096 + s.val = n.val
    omega
  · rfl

theorem W1_v0 (c : Dev nD) (b : Fin 4) (s : Fin 4096) :
    (W1 m c (Proc.devRef .tc main_v0) : IVec S16384 32)
        (ix1 (⟨b.val * 4096 + s.val, by have := b.isLt; have := s.isLt; omega⟩ : Fin 16384))
      = (m ((c : Thread nD τ).loc main_arg0) : IVec S4x4096 32) (ix2 b s) :=
  W1_v0_at m c b s _ rfl

theorem W1_arg1 (c : Dev nD) : W1 m c (Proc.devRef .tc main_arg1) = m ((c : Thread nD τ).loc main_arg1) := by
  show StableHlo.after hostOps0 (W0 m c) (Proc.devRef .tc main_arg1) = _
  after_results <;> rfl

theorem W1_arg2 (c : Dev nD) : W1 m c (Proc.devRef .tc main_arg2) = m ((c : Thread nD τ).loc main_arg2) := by
  show StableHlo.after hostOps0 (W0 m c) (Proc.devRef .tc main_arg2) = _
  after_results <;> rfl

theorem W1_arg3 (c : Dev nD) : W1 m c (Proc.devRef .tc main_arg3) = m ((c : Thread nD τ).loc main_arg3) := by
  show StableHlo.after hostOps0 (W0 m c) (Proc.devRef .tc main_arg3) = _
  after_results <;> rfl

/-- Every table word is an entry of x, so a bound on x's entries bounds the table's words. -/
theorem table_lt
    (hx : ∀ (c : Dev nD) (j : S4x4096.Idx), ((m ((c : Thread nD τ).loc main_arg0) : IVec S4x4096 32) j).toNat < 128000) :
    ∀ c j, ((W1 m c (Proc.devRef .tc main_v0) j : BitVec 32)).toNat < 128000 := by
  intro c j
  obtain ⟨n, rfl⟩ : ∃ n : Fin 16384, j = ix1 n := ⟨j 0, eq_ix1 j⟩
  have hn := n.isLt
  have e := W1_v0_at m c ⟨n.val / 4096, by omega⟩ ⟨n.val % 4096, by omega⟩ n
    (by show n.val = n.val / 4096 * 4096 + n.val % 4096; omega)
  exact e ▸ hx c _

end Cert.Kernel.Hand

end
-- ==== Proof.KI.Base.lean ====
import proofs.«401193_j13460427506049_2_alg».proof.Proof.Gen.KernelIdeal.Skeleton
import proofs.«401193_j13460427506049_2_alg».proof.Proof.Gen.KernelIdeal.Launch
import Idealize.ShloMosaic.Lib.Tactic
import Idealize.ShloMosaic.Lib.Pipeline.Kit
import Idealize.ShloMosaic.Lib.Pipeline.Frame
import Idealize.ShloMosaic.Lib.ValueIdx

noncomputable section

namespace Cert.KernelIdeal.Hand

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := Pipeline.UD sig nD τ

local notation "𝕄" => MT nD τ sig Unit (Elt F) ℕ UU ℕ

/-- Memref `M`'s buffer contents on core `c`; below, the buffer held whole, whole at a share, and by the memref's own elements. -/
abbrev Bf (c : Dev nD) {sp : Space} {S : Shape} {e : EltTy} (M : Memref sig .tc sp S e) : Type := Buf (Elt F) (M.view.loc (c : Thread nD τ))

abbrev pt (c : Dev nD) {sp : Space} {S : Shape} {e : EltTy} (M : Memref sig .tc sp S e) (f : Bf (F := F) c M) : sProp 𝕄 :=
  M.view.loc (c : Thread nD τ) ↦{fullShare} f

abbrev ptq (c : Dev nD) (q : PosShare TreeShare) {sp : Space} {S : Shape} {e : EltTy} (M : Memref sig .tc sp S e) (f : Bf (F := F) c M) : sProp 𝕄 :=
  M.view.loc (c : Thread nD τ) ↦{q} f

abbrev own (c : Dev nD) {sp : Space} {S : Shape} {e : EltTy} (M : Memref sig .tc sp S e) (f : Bf (F := F) c M) : sProp 𝕄 :=
  M.view.loc (c : Thread nD τ) ↦[M.view.set]{fullShare} f

/-- A row copy's source lies inside the code table when its word is below the table's 128000 rows. -/
theorem chk_of_lt (v : BitVec 32) (h : v.toNat < 128000) :
    ∀ a : Fin 2, (![v.toNat, 0] : Fin 2 → Nat) a + S1x1024.size a ≤ S128000x1024.size a := by
  intro a
  match a with
  | ⟨0, _⟩ => show v.toNat + 1 ≤ 128000; omega
  | ⟨1, _⟩ => show 0 + 1024 ≤ 1024; omega

/-- The kernel's 256 semaphores, one per row copy. -/
abbrev osem : Fin 256 → SemLoc sig := fun k => .dma ⟨k.val + 2, by have := k.isLt; show k.val + 2 < 258; omega⟩

abbrev sems0 (c : Dev nD) : sProp 𝕄 :=
  Pipeline.ownSems0 (Ix := Unit) (Name := ℕ) (U := UU) (Lvl := ℕ) (Val := Elt F) (τ := τ) osem c

/-- Grid point `i` finds the word of its row `r` at position 256·i + r of the flattened index table. -/
def tblIdx (i : grid0.Coords) (r : Fin 256) : S16384.Idx :=
  ix1 ⟨(i 0).val * 256 + r.val, by have h0 : (i 0).val < 64 := (i 0).isLt; have := r.isLt; show _ < 16384; omega⟩

/-- What grid point `i` gathers: at (r, d) the code table's entry (tb[256·i + r], d), the row clamped so that the term is total. -/
def gathered (i : grid0.Coords) (tb : S16384.Idx → BitVec 32) (fw : S128000x1024.Idx → BitVec 32) : S256x1024.Idx → BitVec 32 :=
  fun y => fw (ix2 (⟨min (tb (tblIdx i (y 0))).toNat 127999, by omega⟩ : Fin 128000) (y 1))

end Cert.KernelIdeal.Hand

end
-- ==== Proof.KI.Rows.lean ====
import proofs.«401193_j13460427506049_2_alg».proof.Proof.KI.Base
import proofs.«401193_j13460427506049_2_alg».proof.Proof.LibChain
import Idealize.ShloMosaic.Lib.SparseCore.Stream
import Idealize.ShloMosaic.Lib.Writes

noncomputable section

namespace Cert.KernelIdeal.Hand

open Cert.KernelIdeal Cert.KernelIdeal.Gen Cert.Chain
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Where the body looks up row `k`'s index word at grid point `i`: the 32-bit sum 256·i + k. -/
def offG (k : ℕ) (i : grid0.Coords) : Fin 1 → ℕ :=
  ![(Scalar.indexCast (Scalar.addi (Scalar.muli (BitVec.ofNat 32 (i 0).val) 256#32) (BitVec.ofNat 32 k))).toNat]

/-- With i < 64 and k < 256 neither the product nor the sum wraps. -/
theorem offG_val (k : Fin 256) (i : grid0.Coords) : offG k.val i = ![(i 0).val * 256 + k.val] := by
  have hi : (i 0).val < 64 := (i 0).isLt
  have hk := k.isLt
  unfold offG Scalar.indexCast Scalar.addi Scalar.muli IntOp.addi IntOp.muli
  simp only [BitVec.toNat_add, BitVec.toNat_mul, BitVec.toNat_ofNat, Nat.reducePow]
  congr 1
  omega

theorem offG_inb (k : Fin 256) (i : grid0.Coords) : ∀ a, offG k.val i a + S1.size a ≤ S16384.size a := by
  intro a
  rw [offG_val]
  have h0 : (i 0).val < 64 := (i 0).isLt
  have hk := k.isLt
  match a with
  | ⟨0, _⟩ => show (i 0).val * 256 + k.val + 1 ≤ 16384; omega

theorem word_read (c : Dev nD) (tb : Bf (F := F) c (Memref.whole main_v0)) (o : Fin 1 → Nat)
    (hb : ∀ a, o a + S1.size a ≤ S16384.size a) (hf : 0 < S1.numel) :
    View.readAt (Elt F) (Memref.whole main_v0).view (Rect.unit (s := S16384) o S1.size hb).toLoadRect tb (Shape.Idx.first hf)
      = tb (ix1 ⟨o 0, by have := hb 0; show o 0 < 16384; change o 0 + 1 ≤ 16384 at this; omega⟩) := by
  rw [View.readAt_apply, View.read_apply]
  refine (cast_eq _ _).trans (congrArg tb ?_)
  funext a
  match a with
  | ⟨0, _⟩ => exact Fin.ext (show o 0 + 1 * 0 = o 0 by omega)

theorem squeeze_idx (h : S1024.numel = S1x1024.numel) (d : Fin 1024) :
    Shape.reshapeEquiv h (ix1 d) = (ix2 (0 : Fin 1) d : S1x1024.Idx) := by
  refine (Shape.reshapeEquiv_cons_one (n := 1) (d := ![1024]) h (ix1 d)).trans ?_
  funext a
  match a with
  | ⟨0, _⟩ => rfl
  | ⟨1, _⟩ => rfl

/-- Entry `d` of the 1 × 1024 block at row `r` of a two-axis array, its unit axis dropped, is the array's entry (r, d). -/
theorem row_emb {ds : Fin 2 → ℕ} (r : ℕ) (hb : ∀ a, (![r, 0] : Fin 2 → Nat) a + S1x1024.size a ≤ (⟨2, ds⟩ : Shape).size a)
    (d : Fin 1024) (a : Fin 2) :
    ((Rect.unit (s := ⟨2, ds⟩) ![r, 0] S1x1024.size hb).emb (Shape.reshapeEquiv squeezes_S1x1024_S1024.numel_eq (ix1 d)) a).val
      = (![r, d.val] : Fin 2 → ℕ) a := by
  rw [squeeze_idx]
  match a with
  | ⟨0, _⟩ => show r + 1 * 0 = r; omega
  | ⟨1, _⟩ => show 0 + 1 * d.val = d.val; omega

/-- A row copy carries the code table's row `v`. -/
theorem row_read (c : Dev nD) (fw : Bf (F := F) c (Memref.whole main_arg1)) (v : BitVec 32) (hv : v.toNat < 128000)
    (hb : ∀ a, (![v.toNat, 0] : Fin 2 → Nat) a + S1x1024.size a ≤ S128000x1024.size a) (d : Fin 1024) :
    ReadAs.same.apply (View.read (Elt F) (((Memref.whole main_arg1).slice (Rect.unit (s := S128000x1024) ![v.toNat, 0] S1x1024.size hb) (fun _ => rfl)).squeeze S1024 squeezes_S1x1024_S1024).view fw) (ix1 d)
      = fw (ix2 (⟨v.toNat, hv⟩ : Fin 128000) d) := by
  rw [ReadAs.apply_same, View.read_apply]
  refine (cast_eq _ _).trans (congrArg fw (funext fun a => Fin.ext ((row_emb v.toNat hb d a).trans ?_)))
  match a with
  | ⟨0, _⟩ => rfl
  | ⟨1, _⟩ => rfl

theorem rowG_inb (k : Fin 256) : ∀ a, (![k.val, 0] : Fin 2 → Nat) a + S1x1024.size a ≤ S256x1024.size a := by
  intro a
  match a with
  | ⟨0, _⟩ => show k.val + 1 ≤ 256; omega
  | ⟨1, _⟩ => show 0 + 1024 ≤ 1024; omega

/-- Row `k` of the scratch: the 1 × 1024 block at (k, 0), its unit axis dropped. -/
abbrev rowG (k : Fin 256) : Memref sig .tc .vmem S1024 .i32 :=
  ((Memref.whole cc0_scratch0).slice (Rect.unit (s := S256x1024) ![k.val, 0] S1x1024.size (rowG_inb k)) (fun _ => rfl)).squeeze S1024 squeezes_S1x1024_S1024

theorem rowG_emb (k : Fin 256) (d : Fin 1024) : (rowG k).view.emb (ix1 d) = (ix2 k d : S256x1024.Idx) := by
  refine funext fun a => Fin.ext ((row_emb k.val (rowG_inb k) d a).trans ?_)
  match a with
  | ⟨0, _⟩ => rfl
  | ⟨1, _⟩ => rfl

theorem mem_rowG_set (k : Fin 256) (d : Fin 1024) : (ix2 k d : S256x1024.Idx) ∈ (rowG k).view.set :=
  rowG_emb k d ▸ View.emb_mem_set (rowG k).view (ix1 d)

theorem rowG_set_row {k : Fin 256} {i : S256x1024.Idx} (h : i ∈ (rowG k).view.set) : i 0 = k := by
  obtain ⟨x, -, rfl⟩ := Finset.mem_map.mp h
  exact congrFun ((congrArg _ (eq_ix1 x)).trans (rowG_emb k (x 0))) 0

theorem rowG_disjoint {k k' : Fin 256} (h : k ≠ k') : Disjoint (rowG k).view.set (rowG k').view.set :=
  Finset.disjoint_left.mpr fun _ hi hi' => h ((rowG_set_row hi).symm.trans (rowG_set_row hi'))

theorem rowG_cover : (Finset.univ.biUnion fun k : Fin 256 => (rowG k).view.set) = (Finset.univ : Finset S256x1024.Idx) :=
  Finset.eq_univ_iff_forall.mpr fun i => Finset.mem_biUnion.mpr ⟨i 0, Finset.mem_univ _, by
    exact (congrArg (fun y : S256x1024.Idx => y ∈ (rowG (i 0)).view.set) (eq_ix2 i)).mpr (mem_rowG_set (i 0) (i 1))⟩

/-- The rows are disjoint and cover the scratch, so holding it whole is holding every row. -/
theorem rows_split (c : Dev nD) (fs : Bf (F := F) c (Memref.whole cc0_scratch0)) :
    pt c (Memref.whole cc0_scratch0) fs ⊢ (chain (fun k : Fin 256 => own c (rowG k) fs) 0 255 (by decide) : sProp 𝕄) := by
  have h := pointsTo_biUnion (Ix := Unit) (Name := ℕ) (U := UU) (Lvl := ℕ) (Val := Elt F)
    (ℓ := (Memref.whole cc0_scratch0).view.loc (c : Thread nD τ)) (q := fullShare) (f := fs)
    Finset.univ (fun k : Fin 256 => (rowG k).view.set) (fun k _ k' _ hk => rowG_disjoint hk)
  rw [rowG_cover, bigSep_chain] at h
  exact Entails.of_eq h

theorem rowG_written (c : Dev nD) (k : Fin 256) (fs : Bf (F := F) c (Memref.whole cc0_scratch0)) (p : S1024.Idx → Elt F .i32) (d : Fin 1024) :
    (rowG k).view.writes (Elt F) fs [⟨Rect.whole S1024, p⟩] (ix2 k d) = p (ix1 d) := by
  rw [View.writes_singleton]
  have h := View.write_emb_of_mem (Val := Elt F) (v := (rowG k).view.slice (Rect.whole S1024)) fs p (M := Finset.univ)
    (x := ix1 d) (Finset.mem_univ _)
  have he : ((rowG k).view.slice (Rect.whole S1024)).emb (ix1 d) = (ix2 k d : S256x1024.Idx) := by
    show (rowG k).view.emb ((Rect.whole S1024).emb (ix1 d)) = _
    rw [Rect.emb_whole_apply]; exact rowG_emb k d
  rw [he] at h
  exact h.trans (cast_eq _ _)

/-- Every row overwritten whole by its payload: the scratch whole, row `r` at payload `r`. -/
theorem rows_join (c : Dev nD) (fs : Bf (F := F) c (Memref.whole cc0_scratch0)) (p : Fin 256 → S1024.Idx → Elt F .i32) :
    (chain (fun k : Fin 256 => own c (rowG k) ((rowG k).view.writes (Elt F) fs [⟨Rect.whole S1024, p k⟩])) 0 255 (by decide) : sProp 𝕄)
      ⊢ iprop(∃ G : Bf (F := F) c (Memref.whole cc0_scratch0),
          ⌜∀ (r : Fin 256) (d : Fin 1024), G (ix2 r d) = p r (ix1 d)⌝ ∗ pt c (Memref.whole cc0_scratch0) G) := by
  have hj := pointsTo_biUnion_join (Ix := Unit) (Name := ℕ) (U := UU) (Lvl := ℕ) (Val := Elt F)
    (ℓ := (Memref.whole cc0_scratch0).view.loc (c : Thread nD τ)) (q := fullShare)
    Finset.univ (fun k : Fin 256 => (rowG k).view.set)
    (fun k => (rowG k).view.writes (Elt F) fs [⟨Rect.whole S1024, p k⟩]) fs (fun k _ k' _ hk => rowG_disjoint hk)
  rw [rowG_cover, bigSep_chain] at hj
  refine hj.trans ?_
  iintro ⟨%g, %hg, H⟩
  iexists g
  isplitr
  · ipureintro
    intro r d
    rw [hg r (Finset.mem_univ r) (ix2 r d) (mem_rowG_set r d)]
    exact rowG_written c r fs (p r) d
  · iexact H

end Cert.KernelIdeal.Hand

end
-- ==== Proof.KI.Finish.lean ====
import proofs.«401193_j13460427506049_2_alg».proof.Proof.KI.Rows
import Idealize.ShloMosaic.Lib.Pipeline.FrameBody
import Idealize.ShloMosaic.Lib.Pipeline.Value

noncomputable section

namespace Cert.KernelIdeal.Hand

open Cert.KernelIdeal Cert.KernelIdeal.Gen Cert.Chain
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The body after its last wait: the scratch loaded whole and stored over the output block. -/
def tailProg (arg3 : Memref sig .tc .vmem S256x1024 .i32) (harg3 : arg3.IsWhole) : Prog (TpuEff nD τ sig (Elt F) Λ₀ .tc) PUnit := do
  let v3841 : Vec F S256x1024 .i32 ← Prog.lift (.load (Memref.whole cc0_scratch0) (Rect.unit (s := S256x1024) ![0, 0] S256x1024.size inb_S256x1024_S256x1024_0_0).toLoadRect (View.loadsAt_vmem h_S256x1024))
  let v3842 : Vec F S256x1024 .i32 ← Prog.lift (.load arg3 (Rect.unit (s := S256x1024) ![0, 0] S256x1024.size inb_S256x1024_S256x1024_0_0).toLoadRect (View.loadsAt_vmem h_S256x1024))
  Prog.lift (.store arg3 (Rect.unit (s := S256x1024) ![0, 0] S256x1024.size inb_S256x1024_S256x1024_0_0) v3841 Finset.univ (View.stores_vmem_bits_univ h_S256x1024 rfl) (.inl rfl))
  pure ⟨⟩

/-- Row k's index word as the body reads it, -/
def wordT (c : Dev nD) (i : grid0.Coords) (tb : Bf (F := F) c (Memref.whole main_v0)) (k : Fin 256) : BitVec 32 :=
  View.readAt (Elt F) (Memref.whole main_v0).view (Rect.unit (s := S16384) (offG k.val i) S1.size (offG_inb k i)).toLoadRect tb
    (Shape.Idx.first (show 0 < S1.numel from by decide))

/-- the table's word at position 256·i + k. -/
theorem wordT_eq (c : Dev nD) (i : grid0.Coords) (tb : Bf (F := F) c (Memref.whole main_v0)) (k : Fin 256) :
    wordT c i tb k = tb (tblIdx i k) := by
  unfold wordT
  rw [word_read]
  refine congrArg tb (congrArg ix1 (Fin.ext ?_))
  show offG k.val i 0 = (i 0).val * 256 + k.val
  rw [offG_val]; rfl

theorem wordT_lt (c : Dev nD) (i : grid0.Coords) (tb : Bf (F := F) c (Memref.whole main_v0))
    (hx : ∀ j, ((tb j : BitVec 32)).toNat < 128000) (k : Fin 256) : (wordT c i tb k).toNat < 128000 := by
  rw [wordT_eq]; exact hx _

/-- The payload of row k's copy: the code table read through the source row its word names. -/
def payT (c : Dev nD) (i : grid0.Coords) (tb : Bf (F := F) c (Memref.whole main_v0)) (fw : Bf (F := F) c (Memref.whole main_arg1))
    (hx : ∀ j, ((tb j : BitVec 32)).toNat < 128000) (k : Fin 256) : S1024.Idx → Elt F .i32 :=
  ReadAs.same.apply (View.read (Elt F)
    (((Memref.whole main_arg1).slice (Rect.unit (s := S128000x1024) ![(wordT c i tb k).toNat, 0] S1x1024.size
        (chk_of_lt _ (wordT_lt c i tb hx k))) (fun _ => rfl)).squeeze S1024 squeezes_S1x1024_S1024).view fw)

theorem payT_val (c : Dev nD) (i : grid0.Coords) (tb : Bf (F := F) c (Memref.whole main_v0)) (fw : Bf (F := F) c (Memref.whole main_arg1))
    (hx : ∀ j, ((tb j : BitVec 32)).toNat < 128000) (k : Fin 256) (d : Fin 1024) :
    payT c i tb fw hx k (ix1 d) = gathered i tb fw (ix2 k d) := by
  refine (row_read c fw (wordT c i tb k) (wordT_lt c i tb hx k) _ d).trans (congrArg fw (congrArg (ix2 · d) (Fin.ext ?_)))
  show (wordT c i tb k).toNat = min (tb (tblIdx i k)).toNat 127999
  rw [wordT_eq]
  have := hx (tblIdx i k)
  omega

theorem zero2 : (![0, 0] : Fin 2 → Nat) = fun _ => 0 := by
  funext a; match a with | ⟨0, _⟩ => rfl | ⟨1, _⟩ => rfl

set_option maxHeartbeats 2000000 in
/-- From the scratch held row by row, row k at the copied table row of its word, the tail leaves the gathered block in
    the output block's buffer and the scratch whole again. -/
theorem finish [∀ e, Nonempty (Elt F e)] (c : Dev nD) (i : grid0.Coords) (M0 : Memref sig .tc .vmem S256x1024 .i32) (h0 : M0.IsWhole)
    (tb : Bf (F := F) c (Memref.whole main_v0)) (fw : Bf (F := F) c (Memref.whole main_arg1))
    (f0 : Bf (F := F) c M0) (fs : Bf (F := F) c (Memref.whole cc0_scratch0))
    (hx : ∀ j, ((tb j : BitVec 32)).toNat < 128000) (Q : PUnit → sProp 𝕄) :
    iprop(pt c M0 f0
        ∗ chain (fun k : Fin 256 => own c (rowG k) ((rowG k).view.writes (Elt F) fs [⟨Rect.whole S1024, payT c i tb fw hx k⟩]))
            0 255 (by decide)
        ∗ (iprop((∃ f : Bf (F := F) c M0, ⌜M0.view.read (Elt F) f = gathered i tb fw⌝ ∗ pt c M0 f)
              ∗ (∃ f, pt c (Memref.whole cc0_scratch0) f)) -∗ Q ⟨⟩))
      ⊢ wp frame (wpE (defs₀ (F := F)) Variants.none c none) Set.univ (tailProg M0 h0) Q := by
  iintro ⟨H0, Hs, Hk⟩
  ihave HS := (rows_join c fs (payT c i tb fw hx)) $$ Hs
  icases HS with ⟨%G, %hG, HS⟩
  unfold tailProg
  sl_exec!
  sl_step
  iapply Hk
  isplitl [H0]
  · iexists _; isplitr; swap; (· iexact H0)
    ipureintro
    rw [View.read_writes_junk_eq_canon]
    sl_unfold_words
    rw [View.canon_unit_zero zero2]
    funext y
    obtain ⟨r, d, rfl⟩ : ∃ (r : Fin 256) (d : Fin 1024), y = ix2 r d := ⟨y 0, y 1, eq_ix2 y⟩
    simp only [View.readAt_eq_ld, (Memref.isWhole_whole cc0_scratch0).read_unread, View.ld_unit_zero (S := S256x1024) zero2]
    exact (hG r d).trans (payT_val c i tb fw hx r d)
  iexists _; iexact HS

end Cert.KernelIdeal.Hand

end
-- ==== Proof.KI.Toks.lean ====
import proofs.«401193_j13460427506049_2_alg».proof.Proof.KI.Base
import proofs.«401193_j13460427506049_2_alg».proof.Proof.LibChain
import Idealize.ShloMosaic.Lib.Transfers

noncomputable section

namespace Cert.KernelIdeal.Hand

open Cert.KernelIdeal Cert.KernelIdeal.Gen Cert.Chain
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Row k's copy reads the code table through read share k + 2. -/
def tokCell : Fin 256 ↪ ℕ := ⟨fun k => k.val + 2, fun a b h => Fin.ext (by have h' : a.val + 2 = b.val + 2 := h; omega)⟩

theorem tok_range258 : Finset.range 258 = insert 0 (insert 1 (Finset.univ.map tokCell)) := by
  ext n
  simp only [Finset.mem_range, Finset.mem_insert, Finset.mem_map, Finset.mem_univ, true_and]
  constructor
  · intro h
    by_cases h0 : n = 0
    · exact Or.inl h0
    by_cases h1 : n = 1
    · exact Or.inr (Or.inl h1)
    exact Or.inr (Or.inr ⟨⟨n - 2, by omega⟩, by show n - 2 + 2 = n; omega⟩)
  · rintro (rfl | rfl | ⟨k, rfl⟩)
    · omega
    · omega
    · have := k.isLt
      show k.val + 2 < 258
      omega

theorem tok_one_not_mem : (1 : ℕ) ∉ Finset.univ.map tokCell := by
  intro h
  obtain ⟨k, -, hk⟩ := Finset.mem_map.1 h
  have : k.val + 2 = 1 := hk
  omega

theorem tok_zero_not_mem : (0 : ℕ) ∉ insert 1 (Finset.univ.map tokCell) := by
  intro h
  rcases Finset.mem_insert.1 h with h | h
  · exact absurd h (by decide)
  · obtain ⟨k, -, hk⟩ := Finset.mem_map.1 h
    have : k.val + 2 = 0 := hk
    omega

/-- The code table held whole is a remainder, read shares 0 and 1 (never lent), and read shares k + 2, k below 256, one
    per row copy: 258 is 0, 1 and k + 2 for k below 256. -/
theorem toks_range (c : Dev nD) (fw : Bf (F := F) c (Memref.whole main_arg1)) :
    (pt c (Memref.whole main_arg1) fw : sProp 𝕄) ⊣⊢
      iprop(ptq c (Transfers.shareDrop fullShare 258) (Memref.whole main_arg1) fw
        ∗ (ptq c (Transfers.shareTokN fullShare 0) (Memref.whole main_arg1) fw
          ∗ (ptq c (Transfers.shareTokN fullShare 1) (Memref.whole main_arg1) fw
            ∗ chain (fun k : Fin 256 => ptq c (Transfers.shareTokN fullShare (k.val + 2)) (Memref.whole main_arg1) fw)
                0 255 (by decide)))) := by
  have h := Transfers.pointsTo_toks_range (Ix := Unit) (Name := ℕ) (U := UU) (Lvl := ℕ) (Val := Elt F)
    (ℓ := (Memref.whole main_arg1).view.loc (c : Thread nD τ)) (S := Finset.univ) (f := fw) fullShare 258
  rw [tok_range258, BI.bigSep_insert tok_zero_not_mem, BI.bigSep_insert tok_one_not_mem, BI.bigSep_map, bigSep_chain] at h
  exact h

theorem sems_chain (c : Dev nD) :
    (sems0 c : sProp 𝕄) = chain (fun k : Fin 256 => semVal ((c : Thread nD τ), osem k) 0) 0 255 (by decide) :=
  bigSep_chain _

end Cert.KernelIdeal.Hand

end
-- ==== Proof.KI.Body.lean ====
import proofs.«401193_j13460427506049_2_alg».proof.Proof.KI.Finish
import proofs.«401193_j13460427506049_2_alg».proof.Proof.KI.Toks

noncomputable section

namespace Cert.KernelIdeal.Hand

open Cert.KernelIdeal Cert.KernelIdeal.Gen Cert.Chain
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxHeartbeats 40000000 in
/-- One grid point. Every table word names a row, so each copy's source lies inside the code table; copy k lends the
    read share of its counter and takes row k of the scratch, and its wait gives both back; then the tail. -/
theorem kernelRun [∀ e, Nonempty (Elt F e)] (c : Dev nD) (i : grid0.Coords) (M0 : Memref sig .tc .vmem S256x1024 .i32) (h0 : M0.IsWhole)
    (tb : Bf (F := F) c (Memref.whole main_v0)) (fw : Bf (F := F) c (Memref.whole main_arg1))
    (f0 : Bf (F := F) c M0) (fs : Bf (F := F) c (Memref.whole cc0_scratch0))
    (hx : ∀ j, ((tb j : BitVec 32)).toNat < 128000) (W : Waits sig Unit) (Q : PUnit → sProp 𝕄) :
    iprop(pt c M0 f0 ∗ pt c (Memref.whole main_v0) tb ∗ pt c (Memref.whole main_arg1) fw ∗ pt c (Memref.whole cc0_scratch0) fs
        ∗ sems0 c ∗ owes (c : Thread nD τ) 0 W
        ∗ (iprop((∃ f : Bf (F := F) c M0, ⌜M0.view.read (Elt F) f = gathered i tb fw⌝ ∗ pt c M0 f)
              ∗ pt c (Memref.whole main_v0) tb ∗ pt c (Memref.whole main_arg1) fw
              ∗ (∃ f, pt c (Memref.whole cc0_scratch0) f) ∗ sems0 c ∗ ∃ W, owes (c : Thread nD τ) 0 W) -∗ Q ⟨⟩))
      ⊢ wp frame (wpE (defs₀ (F := F)) Variants.none c none) Set.univ
          (cc0__gather_kernel i (Memref.whole main_v0) (Memref.isWhole_whole _) (Memref.whole main_arg1) (Memref.isWhole_whole _) M0 h0
            (Memref.whole cc0_scratch0) (Memref.isWhole_whole _) cc0_scratch1) Q := by
  have htoks := toks_range c fw
  have hrows := rows_split c fs
  have hsems := sems_chain (F := F) c
  have hfin := finish c i M0 h0 tb fw f0 fs hx Q
  simp only [chain, rowG, osem, Nat.reduceAdd] at htoks hrows hsems hfin
  rw [hsems]
  iintro ⟨H0, Ht, Hw, Hs, Hd, HO, Hk⟩
  ihave Hw' := htoks.1 $$ Hw
  icases Hw' with ⟨Hr, Hr0, Hr1, Hw⟩
  ihave Hs' := hrows $$ Hs
  icases_chain Hw as Hw to 255
  icases_chain Hs' as Hs to 255
  icases_chain Hd as Hd to 255
  sl_exec_parts (disch := exact chk_of_lt _ (hx _))
  iapply hfin
  isplitl [H0]; · iexact H0
  isplitl_chain Hs to 255 []
  · iexact_chain Hs to 255
  iintro ⟨HM, HS⟩
  iapply Hk
  isplitl [HM]; · iexact HM
  isplitl [Ht]; · iexact Ht
  isplitl_chain Hw to 255 [Hr Hr0 Hr1]
  · iapply htoks.2
    isplitl [Hr]; · iexact Hr
    isplitl [Hr0]; · iexact Hr0
    isplitl [Hr1]; · iexact Hr1
    iexact_chain Hw to 255
  isplitl [HS]; · iexact HS
  isplitl_chain Hd to 255 []
  · iexact_chain Hd to 255
  iexists _; iexact HO

end Cert.KernelIdeal.Hand

end
-- ==== Proof.KI.Launch.lean ====
import proofs.«401193_j13460427506049_2_alg».proof.Proof.KI.Body
import Idealize.ShloMosaic.Lib.Pipeline.Regions
import Idealize.ShloMosaic.Lib.Pipeline.RegionsLoop
import Idealize.ShloMosaic.Lib.Pipeline.FrameSuffix

noncomputable section

namespace Cert.KernelIdeal.Hand

open Cert.KernelIdeal Cert.KernelIdeal.Gen

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-- Core `c`'s buffers at launch, then after each of @main's five stretches: the flattening, the region, three host stretches. -/
abbrev W0 (c : Dev nD) : Valuation τ sig (Elt F) := fun b => m ((c : Dev nD), b)

abbrev W1 (c : Dev nD) : Valuation τ sig (Elt F) := StableHlo.after hostOps0 (W0 m c)

abbrev admc : (pcfg0 (F := F)).Adm :=
  ⟨fun k => W1 m (0 : Dev nD) (Proc.devRef .tc (pre0.ref k)), trivial⟩

abbrev adm : (p : Fin 1) → (pcfgs (F := F) p).Adm := fun _ => admc m

/-- What the region holds beside the output array: the code table, the index table, the 256 semaphores at zero, the scratch. -/
def Φc (c : Dev nD) : sProp 𝕄 :=
  iprop(pt c (Memref.whole main_arg1) (W1 m c (Proc.devRef .tc main_arg1))
    ∗ Pipeline.prefHeld (Ix := Unit) (Name := ℕ) (U := UU) (Lvl := ℕ) (Val := Elt F) pre0 c (fun _ => fullShare) (admc m).1
    ∗ sems0 c
    ∗ Pipeline.scopedRest (Ix := Unit) (Name := ℕ) (U := UU) (Lvl := ℕ) (Val := Elt F) spec0 c)

/-- After the body at point `t` the output block holds what the point gathers. -/
def dat0 (c : Dev nD) : Dat τ (Elt F) Unit ℕ UU ℕ (cfg0 (admc m)) c where
  A w := W1 m c (Proc.devRef .tc (Pipeline.arrRef spec0 w))
  after w t := match w with
    | ⟨0, _⟩ => gathered (grid0.coords t) (W1 m c (Proc.devRef .tc main_v0)) (W1 m c (Proc.devRef .tc main_arg1))
  Φ _ := Φc m c
  q _ := fullShare
  owed _ := 0

abbrev pdats : (p : Fin 1) → (c : Dev nD) → Dat τ (Elt F) Unit ℕ UU ℕ (Pipeline.pin (pcfgs (F := F)) (adm m) p) c :=
  fun _ c => dat0 m c

theorem dat0_A (c : Dev nD) (w : Fin (cfg0 (admc m)).W) : (dat0 m c).A w = W1 m c (Proc.devRef .tc (Pipeline.arrRef spec0 w)) := by
  dsimp only [dat0]
theorem dat0_after (c : Dev nD) (t : Fin (cfg0 (admc m)).N) :
    (dat0 m c).after 0 t = gathered (grid0.coords t) (W1 m c (Proc.devRef .tc main_v0)) (W1 m c (Proc.devRef .tc main_arg1)) := by
  dsimp only [dat0]
  rfl

def W2 (c : Dev nD) : Valuation τ sig (Elt F) :=
  Pipeline.withArrays spec0 c (W1 m c) fun w => (dat0 m c).arrAt w (cfg0 (admc m)).N

abbrev W3 (c : Dev nD) : Valuation τ sig (Elt F) := StableHlo.after hostOps1 (W2 m c)

abbrev W4 (c : Dev nD) : Valuation τ sig (Elt F) := StableHlo.after hostOps1_1 (W3 m c)

abbrev W5 (c : Dev nD) : Valuation τ sig (Elt F) := StableHlo.after hostOps1_2 (W4 m c)

theorem owns_of_whole (c : Dev nD) (M0 : Memref sig .tc .vmem S256x1024 .i32) (h0 : M0.IsWhole) (X : S256x1024.Idx → Elt F .i32) :
    (owns (c : Thread nD τ) M0 fullShare X : sProp 𝕄) = iprop(∃ f : Bf (F := F) c M0, ⌜M0.view.read (Elt F) f = X⌝ ∗ pt c M0 f) := by
  unfold owns; rw [h0.set_eq_univ]

/-- One grid point, whichever whole buffer holds the output block: the body keeps the invariant and leaves the gathered block. -/
theorem sound_at (hx : ∀ c j, ((W1 m c (Proc.devRef .tc main_v0) j : BitVec 32)).toNat < 128000)
    (c : Dev nD) (i : grid0.Coords) (M0 : Memref sig .tc .vmem S256x1024 .i32) (h0 : M0.IsWhole)
    (B B' : Set (SemLoc sig × Unit)) (hB' : Set.univ ⊆ B')
    (prog : Prog (TpuEff nD τ sig (Elt F) Λ₀ .tc) PUnit)
    (hprog : prog = cc0__gather_kernel i (Memref.whole main_v0) (Memref.isWhole_whole _) (Memref.whole main_arg1) (Memref.isWhole_whole _) M0 h0
            (Memref.whole cc0_scratch0) (Memref.isWhole_whole _) cc0_scratch1) :
    iprop(Φc m c ∗ Pipeline.owesWithin (Name := ℕ) (U := UU) (Lvl := ℕ) (Val := Elt F) c (0 : CellTallies nD τ sig Unit) B
        ∗ (∃ X, owns (c : Thread nD τ) M0 fullShare X))
      ⊢ wp frame (wpE (defs₀ (F := F)) Variants.none c none) Set.univ prog
          (fun _ => iprop(Φc m c ∗ Pipeline.owesWithin (Name := ℕ) (U := UU) (Lvl := ℕ) (Val := Elt F) c (0 : CellTallies nD τ sig Unit) B'
            ∗ owns (c : Thread nD τ) M0 fullShare
                (gathered i (W1 m c (Proc.devRef .tc main_v0)) (W1 m c (Proc.devRef .tc main_arg1))))) := by
  subst hprog
  obtain rfl : c = 0 := Subsingleton.elim _ _
  unfold Φc Pipeline.owesWithin Pipeline.prefHeld
  rw [scopedRest0_eq, bigSep_W0]
  simp only [owns_of_whole _ M0 h0]
  iintro ⟨⟨Hfw, Htb, Hsems, ⟨%fs, Hs⟩⟩, ⟨%W, %hW, HO⟩, ⟨%X, %f0, -, H0⟩⟩
  iapply (kernelRun (0 : Dev nD) i M0 h0 (W1 m 0 (Proc.devRef .tc main_v0)) (W1 m 0 (Proc.devRef .tc main_arg1)) f0 fs (hx 0) W _)
  isplitl [H0]; · iexact H0
  isplitl [Htb]; · iexact Htb
  isplitl [Hfw]; · iexact Hfw
  isplitl [Hs]; · iexact Hs
  isplitl [Hsems]; · iexact Hsems
  isplitl [HO]; · iexact HO
  iintro ⟨⟨%f, %hf, H0⟩, Htb, Hfw, Hs, Hsems, ⟨%W', HO⟩⟩
  isplitl [Hfw Htb Hsems Hs]
  · isplitl [Hfw]; · iexact Hfw
    isplitl [Htb]; · iexact Htb
    isplitl [Hsems]; · iexact Hsems
    iexact Hs
  isplitl [HO]
  · iexists W'; isplitr; · ipureintro; exact fun _ _ => hB' trivial
    iexact HO
  iexists f; isplitr; · ipureintro; exact hf
  iexact H0

theorem body_obligation (hx : ∀ c j, ((W1 m c (Proc.devRef .tc main_v0) j : BitVec 32)).toNat < 128000) (c : Dev nD) :
    BodyObligation (dat0 m c) (defs₀ (F := F)) Variants.none () Set.univ := fun t => by
  rw [bigSep_W0, bigSep_W0]
  dsimp only
  rw [show (dat0 m c).Φ t.castSucc = Φc m c from rfl, show (dat0 m c).Φ t.succ = Φc m c from rfl, dat0_after]
  unfold Dat.owesAt
  rw [show (dat0 m c).owed t.castSucc = 0 from rfl, show (dat0 m c).owed t.succ = 0 from rfl]
  have hp : (defs₀ (F := F)) Proc.tc 0 (t, (cfg0 (admc m)).slots t)
      = cc0__gather_kernel (grid0.coords t) (Memref.whole main_v0) (Memref.isWhole_whole _) (Memref.whole main_arg1) (Memref.isWhole_whole _)
          (stage0_0 ((cfg0 (admc m)).slots t 0)) (hstage0_0 (((cfg0 (admc m)).slots t 0).cast nbuf0_0))
          (Memref.whole cc0_scratch0) (Memref.isWhole_whole _) cc0_scratch1 := rfl
  have h := sound_at m hx c (grid0.coords t) (stage0_0 ((cfg0 (admc m)).slots t 0))
    (hstage0_0 (((cfg0 (admc m)).slots t 0).cast nbuf0_0))
    ((dat0 m c).bound () t.castSucc) ((dat0 m c).bound () t.succ) (fun _ h => Or.inl h) _ hp
  generalize (defs₀ (F := F)) Proc.tc 0 (t, (cfg0 (admc m)).slots t) = prog at h ⊢
  refine BIBase.Entails.trans ?_ h
  iintro ⟨HΦ, HO, ⟨%d, H0⟩⟩
  isplitl [HΦ]; · iexact HΦ
  isplitl [HO]; · iexact HO
  iexists _; iexact H0

abbrev V1 : (c : Dev nD) → (b : Ref sig .tc) → Buf (Elt F) ((c : Thread nD τ).loc b) := fun c b => W1 m c b
abbrev V2 : (c : Dev nD) → (b : Ref sig .tc) → Buf (Elt F) ((c : Thread nD τ).loc b) := fun c b => W2 m c b

theorem W2_v1 (c : Dev nD) : W2 m c (Proc.devRef .tc main_v1) = (dat0 m c).arrAt 0 (cfg0 (admc m)).N := by
  unfold W2; exact Pipeline.withArrays_arr spec0 winFacts0.arr_inj c _ _ 0
theorem W2_arr (c : Dev nD) (w : Fin (cfg0 (admc m)).W) :
    W2 m c (Proc.devRef .tc (Pipeline.arrRef spec0 w)) = (dat0 m c).arrAt w (cfg0 (admc m)).N := by
  unfold W2; exact Pipeline.withArrays_arr spec0 winFacts0.arr_inj c _ _ w

theorem W2_of_ne (c : Dev nD) (b : Ref sig .tc) (hb : b ≠ main_v1) :
    W2 m c (Proc.devRef .tc b) = W1 m c (Proc.devRef .tc b) := by
  unfold W2
  exact Pipeline.withArrays_of_ne spec0 c _ _ b fun w e => hb (by
    obtain rfl : w = 0 := Subsingleton.elim _ _
    exact e.symm)

theorem hF0 (c : Dev nD) (w : Fin (cfg0 (admc m)).W) : (dat0 m c).arrAt w (cfg0 (admc m)).N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun e => hb (Finset.mem_image.mpr ⟨0, Finset.mem_univ _, e.symm⟩)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

theorem ownSemFacts : Pipeline.OwnSemFacts spec0 osem := by decide

def restZ (c : Dev nD) : sProp 𝕄 :=
  bigSep (Pipeline.restRefsP sig pre0 spec0 \ {main_arg1}) fun b => ((c : Thread nD τ).loc b) ↦{fullShare} V1 m c b

theorem rest_eq (c : Dev nD) :
    (Pipeline.unscopedRest (Ix := Unit) (Name := ℕ) (U := UU) (Lvl := ℕ) spec0 c (V1 m c) : sProp 𝕄)
      = iprop(Pipeline.prefHeld (Ix := Unit) (Name := ℕ) (U := UU) (Lvl := ℕ) (Val := Elt F) pre0 c (fun _ => fullShare) (fun k => V1 m c (pre0.ref k))
          ∗ (((c : Thread nD τ).loc main_arg1) ↦{fullShare} V1 m c main_arg1) ∗ restZ m c) := by
  rw [Pipeline.unscopedRest_split preFacts0 c (V1 m c),
    Pipeline.unscopedRestP_sdiff pre0 spec0 {main_arg1}
      (Finset.singleton_subset_iff.mpr (Finset.mem_sdiff.mpr ⟨Pipeline.mem_restRefs_of main_arg1 (by decide) (by decide), by decide⟩))
      c (V1 m c),
    BI.bigSep_singleton]
  rfl

set_option backward.isDefEq.respectTransparency.types false in

/-- The kernel region: the output array, the two tables and the semaphores go in, every other buffer passes by, and all of
    it is put back at the exit with the output array at the gathered blocks. -/
def reg0 (hx : ∀ c j, ((W1 m c (Proc.devRef .tc main_v0) j : BitVec 32)).toNat < 128000) :
    Pipeline.RegionSeg (pcfgs (F := F)) (adm m) (pdats m) () defs₀ 𝒱₀ L lv 0 where
  win := winFacts0.to₀
  block_pos := block_pos0
  stage_whole := stage_whole0
  K := Fin 256
  osem := osem
  ho := ownSemFacts
  hbody c := (body_obligation m hx c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(pt c (Memref.whole main_arg1) (W1 m c (Proc.devRef .tc main_arg1)) ∗ sems0 c)
  Y c := iprop(pt c (Memref.whole main_arg1) (W1 m c (Proc.devRef .tc main_arg1))
    ∗ Pipeline.prefHeld (Ix := Unit) (Name := ℕ) (U := UU) (Lvl := ℕ) (Val := Elt F) pre0 c (fun _ => fullShare) (admc m).1)
  Z c := iprop((∃ r, prngReg c r) ∗ restZ m c)
  hentry c := by
    obtain rfl : c = 0 := Subsingleton.elim _ _
    have hsplit := Pipeline.arrays_of_unscopedBufs (p := 0) (pcfgs (F := F)) (adm m) (pdats m) winFacts0 arr_whole0 0
      ((pdats m 0 0).share_full fun _ => rfl) (V1 m 0) fun _ => rfl
    rw [Pipeline.unscopedBufs_held, rest_eq m 0] at hsplit
    iintro ⟨⟨Hub, Hp, HO⟩, Hos, -⟩
    ihave H := hsplit $$ Hub
    icases H with ⟨Ha, Htb, Hfw, Hrest⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hfw Hos]
    · isplitl [Hfw]; · iexact Hfw
      iexact Hos
    isplitl [Hp]; · iexact Hp
    iexact Hrest
  hin c := by
    rw [show (pdats m 0 c).Φ 0 = Φc m c from rfl]; unfold Φc
    iintro ⟨⟨Hfw, Hos⟩, Htb, Hr⟩
    isplitl [Hfw]; · iexact Hfw
    isplitl [Htb]; · iexact Htb
    isplitl [Hos]; · iexact Hos
    iexact Hr
  hout c := by
    rw [show (pdats m 0 c).Φ (Fin.last _) = Φc m c from rfl]; unfold Φc
    iintro ⟨Hfw, Htb, Hos, Hr⟩
    isplitl [Hfw Htb]
    · isplitl [Hfw]; · iexact Hfw
      iexact Htb
    isplitl [Hos]; · iexact Hos
    iexact Hr
  hexit c := by
    obtain rfl : c = 0 := Subsingleton.elim _ _
    have hjoin := Pipeline.unscopedBufs_of_arrays (p := 0) (pcfgs (F := F)) (adm m) (Ix := Unit) (Name := ℕ) (U := UU) (Lvl := ℕ)
      winFacts0 arr_whole0 0 (pdats m) ((pdats m 0 0).share_full fun _ => rfl)
      (V1 m 0) (V2 m 0) ((pdats m 0 0).arrAt · (cfg0 (admc m)).N) (hF0 m 0) (hrest0 m 0)
    rw [Pipeline.unscopedBufs_held, rest_eq m 0] at hjoin
    iintro ⟨Ha, HO, ⟨Hfw, Htb⟩, ⟨Hp, Hrest⟩⟩
    imodintro
    isplitl [Ha Hfw Htb Hrest]
    · iapply hjoin
      isplitl [Ha]; · iexact Ha
      isplitl [Htb]; · iexact Htb
      isplitl [Hfw]; · iexact Hfw
      iexact Hrest
    isplitl [Hp]; · iexact Hp
    unfold Pipeline.Dat.owesAt Pipeline.owesWithin
    icases HO with ⟨%W, -, HO⟩; iexists W; iexact HO

abbrev segs (hx : ∀ c j, ((W1 m c (Proc.devRef .tc main_v0) j : BitVec 32)).toNat < 128000) :
    List (Pipeline.Seg (pcfgs (F := F)) (adm m) (pdats m) () defs₀ 𝒱₀ L lv) :=
  [ .host (hseg hostOps0 hostOps0_sub hostOps0_fresh (W0 m)),
    .region (reg0 m hx),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)) ]

theorem main_run (hx : ∀ c j, ((W1 m c (Proc.devRef .tc main_v0) j : BitVec 32)).toNat < 128000) (c : Dev nD) :
    main (F := F) c = Pipeline.Seg.run (segs m hx) := (main_chain c).trans (by chain_rfl)

abbrev EP : Emb (UR sig nD τ) (MT nD τ sig Unit (Elt F) ℕ UU ℕ) := embL

def u₀ : UU :=
  (initOf (Pipeline.cells (Pipeline.pin (pcfgs (F := F)) (adm m)) (cellOf_inj (adm m)))
    (Pipeline.launchToks (Pipeline.pin (pcfgs (F := F)) (adm m)) (cellOf_inj (adm m))), 1)

abbrev Tₙ (c : Dev nD) : sProp 𝕄 := iprop(StableHlo.held (c : Thread nD τ) (Pipeline.ucRefs τ sig) (W5 m c) ∗ ∃ r, prngReg c r)

set_option backward.isDefEq.respectTransparency.types false in

/-- Every weakly fair execution of @main terminates with every unscoped buffer at what the five stretches leave in it. -/
theorem run_main (hx : ∀ c j, ((W1 m c (Proc.devRef .tc main_v0) j : BitVec 32)).toNat < 128000) :
    θ_run defs (onTc (τ := τ) (main (F := F))) ⟨m, fun _ => 0, ρ⟩
      (fun r => ∀ c : Dev nD, ∀ b ∈ Pipeline.ucRefs τ sig, r.2.mem ((c : Thread nD τ).1, b) = W5 m c b) :=
  Pipeline.θ_run_regions_kit (pcfgs (F := F)) (adm m) (pdats m) () (cellOf_inj (adm m)) EP defs₀ 𝒱₀ L lv m ρ main (segs m hx)
    (fun c Q => by rw [main_run m hx c])
    (by simp only [segs, Pipeline.Seg.pipes_host, Pipeline.Seg.pipes_region, Pipeline.Seg.pipes_nil]; decide)
    (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- No operation of a stretch writes the reference: each operation writes its one result, another reference. -/
local macro "arg_not_written" : tactic => `(tactic| (
  refine List.forall_iff_forall_mem.mp ?_
  simp only [hostOps0, hostOps1, hostOps1_1, hostOps1_2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-- No host operation and no region writes an argument, so the fold at an argument's buffer walks back to the launch memory. -/
theorem W5_arg (c : Dev nD) (b : Ref sig .tc) (hb : b = main_arg0 ∨ b = main_arg1 ∨ b = main_arg2 ∨ b = main_arg3) :
    W5 m c (Proc.devRef .tc b) = m ((c : Thread nD τ).loc b) := by
  rcases hb with rfl | rfl | rfl | rfl <;>
  exact (StableHlo.after_of_forall_not_mem _ _ (by arg_not_written)).trans
    ((StableHlo.after_of_forall_not_mem _ _ (by arg_not_written)).trans
      ((StableHlo.after_of_forall_not_mem _ _ (by arg_not_written)).trans
        ((W2_of_ne m c _ (by decide)).trans (StableHlo.after_of_forall_not_mem _ _ (by arg_not_written)))))

end Cert.KernelIdeal.Hand

end
-- ==== Proof.KI.Table.lean ====
import proofs.«401193_j13460427506049_2_alg».proof.Proof.KI.Launch
import Idealize.ShloMosaic.Lib.Pipeline.Value

noncomputable section

namespace Cert.KernelIdeal.Hand

open Cert.KernelIdeal Cert.KernelIdeal.Gen

open Idealize.ShloMosaic
open Idealize.ShloMosaic.TcCoe Idealize.ShloMosaic.ValueIdx
open Idealize.SL.Sem

variable {F : FTy → Type} [FloatOps F] [∀ e, Nonempty (Elt F e)]

variable (m : (ℓ : Loc nD τ sig) → Buf (Elt F) ℓ)

/-- A reshape keeps row-major positions: table position b·4096 + s holds x[b, s]. -/
theorem W1_v0_at (c : Dev nD) (b : Fin 4) (s : Fin 4096) (n : Fin 16384) (hn : n.val = b.val * 4096 + s.val) :
    (W1 m c (Proc.devRef .tc main_v0) : IVec S16384 32) (ix1 n)
      = (m ((c : Thread nD τ).loc main_arg0) : IVec S4x4096 32) (ix2 b s) := by
  show StableHlo.after hostOps0 (W0 m c) (Proc.devRef .tc main_v0) (ix1 n) = _
  after_results_simp
  refine (shapeCast_apply _ shapeCasts_S4x4096_S16384 (ix1 n) (ix2 b s) ?_).trans ?_
  · rw [Shape.rowMajor_val_two, Shape.rowMajor_val_one]
    show b.val * 4096 + s.val = n.val
    omega
  · rfl

theorem W1_v0 (c : Dev nD) (b : Fin 4) (s : Fin 4096) :
    (W1 m c (Proc.devRef .tc main_v0) : IVec S16384 32)
        (ix1 (⟨b.val * 4096 + s.val, by have := b.isLt; have := s.isLt; omega⟩ : Fin 16384))
      = (m ((c : Thread nD τ).loc main_arg0) : IVec S4x4096 32) (ix2 b s) :=
  W1_v0_at m c b s _ rfl

theorem W1_arg1 (c : Dev nD) : W1 m c (Proc.devRef .tc main_arg1) = m ((c : Thread nD τ).loc main_arg1) := by
  show StableHlo.after hostOps0 (W0 m c) (Proc.devRef .tc main_arg1) = _
  after_results <;> rfl

theorem W1_arg2 (c : Dev nD) : W1 m c (Proc.devRef .tc main_arg2) = m ((c : Thread nD τ).loc main_arg2) := by
  show StableHlo.after hostOps0 (W0 m c) (Proc.devRef .tc main_arg2) = _
  after_results <;> rfl

theorem W1_arg3 (c : Dev nD) : W1 m c (Proc.devRef .tc main_arg3) = m ((c : Thread nD τ).loc main_arg3) := by
  show StableHlo.after hostOps0 (W0 m c) (Proc.devRef .tc main_arg3) = _
  after_results <;> rfl

/-- Every table word is an entry of x, so a bound on x's entries bounds the table's words. -/
theorem table_lt
    (hx : ∀ (c : Dev nD) (j : S4x4096.Idx), ((m ((c : Thread nD τ).loc main_arg0) : IVec S4x4096 32) j).toNat < 128000) :
    ∀ c j, ((W1 m c (Proc.devRef .tc main_v0) j : BitVec 32)).toNat < 128000 := by
  intro c j
  obtain ⟨n, rfl⟩ : ∃ n : Fin 16384, j = ix1 n := ⟨j 0, eq_ix1 j⟩
  have hn := n.isLt
  have e := W1_v0_at m c ⟨n.val / 4096, by omega⟩ ⟨n.val % 4096, by omega⟩ n
    (by show n.val = n.val / 4096 * 4096 + n.val % 4096; omega)
  exact e ▸ hx c _

end Cert.KernelIdeal.Hand

end
-- ==== Proof.KI.ArrValue.lean ====
import proofs.«401193_j13460427506049_2_alg».proof.Proof.KI.Launch
import Idealize.ShloMosaic.Lib.Pipeline.Value

noncomputable section

namespace Cert.KernelIdeal.Hand

open Cert.KernelIdeal Cert.KernelIdeal.Gen
open Idealize.ShloMosaic
open Idealize.ShloMosaic.TcCoe Idealize.ShloMosaic.ValueIdx
open Idealize.SL.Sem
open Idealize.ShloMosaic.Pipeline (Dat Cfg Window)

variable {F : FTy → Type} [FloatOps F] [∀ e, Nonempty (Elt F e)]

/-- The gathered array as one function of the two tables: entry (n, d) is the code table's entry (tb[n], d). -/
def gatheredArr (tb : S16384.Idx → BitVec 32) (fw : S128000x1024.Idx → BitVec 32) : S16384x1024.Idx → BitVec 32 :=
  fun idx => fw (ix2 (⟨min (tb (ix1 (⟨(idx 0).val, idx2_lt0 idx⟩ : Fin 16384))).toNat 127999, by omega⟩ : Fin 128000) (idx 1))

/-- Row `r` of what point `i` gathers is row 256·i + r of the whole gathered array. -/
theorem gathered_eq_arr (tb : S16384.Idx → BitVec 32) (fw : S128000x1024.Idx → BitVec 32) (i : grid0.Coords)
    (y : S256x1024.Idx) (k : S16384x1024.Idx)
    (h0 : (k 0).val = (i 0).val * 256 + (y 0).val) (h1 : (k 1).val = (y 1).val) :
    gathered i tb fw y = gatheredArr tb fw k := by
  unfold gathered gatheredArr
  have e0 : tblIdx i (y 0) = ix1 (⟨(k 0).val, idx2_lt0 k⟩ : Fin 16384) := by
    funext d
    match d with
    | ⟨0, _⟩ => exact Fin.ext h0.symm
  refine congrArg fw ?_
  funext d
  match d with
  | ⟨0, _⟩ => exact Fin.ext (by show min _ 127999 = min _ 127999; rw [e0])
  | ⟨1, _⟩ => exact Fin.ext h1.symm

theorem point_facts : ∀ t : Fin grid0.N, cc0_transform_1 (grid0.coords t) (0 : Fin 2) = t.val
    ∧ cc0_transform_1 (grid0.coords t) (1 : Fin 2) = 0
    ∧ (grid0.coords t 0).val = t.val := by
  decide +kernel

variable (a : (pcfg0 (F := F)).Adm)

theorem index_eq (t : Fin (cfg0 a).N) : ((cfg0 a).win 0).index t = cc0_transform_1 (grid0.coords t) := rfl

theorem flush_all (t : Fin (cfg0 a).N) : ((cfg0 a).win 0).flush t = true := by
  have hN : (cfg0 a).N = 64 := N_0
  unfold Window.flush
  rw [Bool.and_eq_true]
  refine ⟨rfl, ?_⟩
  rw [Bool.or_eq_true, decide_eq_true_eq, decide_eq_true_eq]
  by_cases h : t.val + 1 = (cfg0 a).grid.N
  · exact .inl h
  · have ht := t.isLt
    have h' : t.val + 1 < (cfg0 a).grid.N := by
      have : (cfg0 a).grid.N = 64 := N_0
      omega
    refine .inr ⟨h', fun e => ?_⟩
    have e0 := congrFun e (0 : Fin 2)
    rw [index_eq, index_eq, (point_facts _).1, (point_facts _).1] at e0
    exact absurd e0 (by show t.val + 1 ≠ t.val; omega)

theorem mem_blk (t : Fin (cfg0 a).N) (i : S16384x1024.Idx) :
    i ∈ (((cfg0 a).win 0).blk t).view.set ↔
      ∀ d : Fin 2, cc0_transform_1 (grid0.coords t) d * S256x1024.size d ≤ (i d).val
        ∧ (i d).val < cc0_transform_1 (grid0.coords t) d * S256x1024.size d + S256x1024.size d := by
  refine (Finset.ext_iff.mp (View.set_slice_whole main_v1 (((cfg0 a).win 0).rect t)) i).trans ?_
  exact Rect.mem_set_unit

theorem cut_gathered (t : Fin (cfg0 a).N) (tb : S16384.Idx → BitVec 32) (fw : S128000x1024.Idx → BitVec 32) :
    ((cfg0 a).win 0).cut ((cfg0 a).grid.coords t) (gathered (grid0.coords t) tb fw)
      = (((cfg0 a).win 0).blk t).view.read (Elt F) (gatheredArr tb fw) := by
  obtain ⟨f0, f1, f2⟩ := point_facts t
  funext j
  refine gathered_eq_arr tb fw (grid0.coords t) (((cfg0 a).win 0).xinj _ j) ((((cfg0 a).win 0).blk t).view.emb j) ?_ ?_
  · show cc0_transform_1 (grid0.coords t) (0 : Fin 2) * 256 + 1 * (j (0 : Fin 2)).val = (grid0.coords t 0).val * 256 + (j (0 : Fin 2)).val
    rw [f0, f2]; omega
  · show cc0_transform_1 (grid0.coords t) (1 : Fin 2) * 1024 + 1 * (j (1 : Fin 2)).val = (j (1 : Fin 2)).val
    rw [f1]; omega

/-- Row `n` of the array lies in the block of point n / 256. -/
theorem covered (i : S16384x1024.Idx) :
    ∃ t : Fin (cfg0 a).N, ((cfg0 a).win 0).flush t = true ∧ i ∈ (((cfg0 a).win 0).blk t).view.set := by
  have hi0 : (i 0).val < 16384 := idx2_lt0 i
  have hi1 : (i 1).val < 1024 := idx2_lt1 i
  have hN : (cfg0 a).N = 64 := N_0
  let t : Fin (cfg0 a).N := ⟨(i 0).val / 256, by rw [hN]; omega⟩
  obtain ⟨f0, f1, -⟩ := point_facts t
  have ht : t.val = (i 0).val / 256 := rfl
  refine ⟨t, flush_all a t, ?_⟩
  rw [mem_blk]
  intro d
  match d with
  | ⟨0, _⟩ =>
    show cc0_transform_1 (grid0.coords t) (0 : Fin 2) * 256 ≤ (i 0).val ∧ (i 0).val < cc0_transform_1 (grid0.coords t) (0 : Fin 2) * 256 + 256
    rw [f0, ht]; omega
  | ⟨1, _⟩ =>
    show cc0_transform_1 (grid0.coords t) (1 : Fin 2) * 1024 ≤ (i 1).val ∧ (i 1).val < cc0_transform_1 (grid0.coords t) (1 : Fin 2) * 1024 + 1024
    rw [f1]; omega

variable (m : (ℓ : Loc nD τ sig) → Buf (Elt F) ℓ)

theorem flushed_eq (c : Dev nD) (t : Fin (cfg0 (admc m)).N) :
    (dat0 m c).flushed 0 t = (((cfg0 (admc m)).win 0).blk t).view.read (Elt F)
      (gatheredArr (W1 m c (Proc.devRef .tc main_v0)) (W1 m c (Proc.devRef .tc main_arg1))) := by
  show ((cfg0 (admc m)).win 0).cut ((cfg0 (admc m)).grid.coords t) ((dat0 m c).after 0 t) = _
  rw [dat0_after]
  exact cut_gathered (admc m) t _ _

/-- The blocks are restrictions of one function and tile the array, so after the last point the array is that function. -/
theorem arr_final (c : Dev nD) :
    (dat0 m c).arrAt 0 (cfg0 (admc m)).N
      = gatheredArr (W1 m c (Proc.devRef .tc main_v0)) (W1 m c (Proc.devRef .tc main_arg1)) :=
  (dat0 m c).arrAt_eq_of_cover 0 _ (fun t _ => flushed_eq m c t) (covered (admc m))

theorem arr_final_apply (c : Dev nD) (n : Fin 16384) (d : Fin 1024) :
    (dat0 m c).arrAt 0 (cfg0 (admc m)).N (ix2 n d)
      = W1 m c (Proc.devRef .tc main_arg1)
          (ix2 (⟨min ((W1 m c (Proc.devRef .tc main_v0) (ix1 n) : BitVec 32)).toNat 127999, by omega⟩ : Fin 128000) d) := by
  rw [arr_final]
  rfl

end Cert.KernelIdeal.Hand
end
-- ==== Proof.TailValue.lean ====
import proofs.«401193_j13460427506049_2_alg».proof.Proof.Gen.KernelIdeal.Launch
import proofs.«401193_j13460427506049_2_alg».proof.Proof.Spec
import proofs.«401193_j13460427506049_2_alg».proof.Proof.LibVecGather
import Idealize.ShloMosaic.Lib.StableHlo.Predicate
import Idealize.ShloMosaic.Lib.Pipeline.Value

noncomputable section

namespace Cert.KernelIdeal.TailValue

open Cert.KernelIdeal Cert.KernelIdeal.Gen
open Idealize.ShloMosaic Idealize.ShloMosaic.ValueIdx Idealize.ShloMosaic.TcCoe

def sgn (v : BitVec 32) : BitVec 32 := if v = 0 then 0 else if v.msb then -1 else 1

theorem sgn_four : sgn 4#32 = 1#32 := by decide

theorem sgn_pos (v : BitVec 32) (h0 : v ≠ 0) (hv : v.toNat < 2 ^ 31) : sgn v = 1#32 := by
  have hm : v.msb = false := BitVec.msb_eq_false_iff_two_mul_lt.mpr (by omega)
  unfold sgn; rw [if_neg h0, hm]; rfl

theorem divsi_four (v : BitVec 32) (hv : v.toNat < 2 ^ 31) : IntOp.divsi .host v 4#32 = BitVec.ofNat 32 (v.toNat / 4) := by
  have hcorner : ¬ IntOp.SDivCorner v 4#32 := by
    intro hc; rcases hc with hc | ⟨_, hc⟩ <;> exact absurd hc (by decide)
  have hm : v.msb = false := BitVec.msb_eq_false_iff_two_mul_lt.mpr (by omega)
  apply BitVec.eq_of_toNat_eq
  simp only [IntOp.divsi, if_neg hcorner, BitVec.sdiv_eq, hm, show (4#32 : BitVec 32).msb = false from by decide, BitVec.udiv_eq,
    BitVec.toNat_udiv, BitVec.toNat_ofNat, Nat.reducePow, Nat.reduceMod]
  omega

theorem floorDiv_word (v : BitVec 32) (hv : v.toNat < 2 ^ 31) :
    Scalar.select (IntOp.andi (IntOp.cmpi .ne (sgn v) (sgn 4#32)) (IntOp.cmpi .ne (IntOp.remsi .host v 4#32) 0#32))
      (IntOp.subi (IntOp.divsi .host v 4#32) 1#32) (IntOp.divsi .host v 4#32) = BitVec.ofNat 32 (v.toNat / 4) := by
  have hc : IntOp.andi (IntOp.cmpi .ne (sgn v) (sgn 4#32)) (IntOp.cmpi .ne (IntOp.remsi .host v 4#32) 0#32) = 0#1 := by
    by_cases h0 : v = 0
    · subst h0; decide
    · rw [sgn_pos v h0 hv, sgn_four]
      have e : IntOp.cmpi .ne (1#32) (1#32) = 0#1 := by decide
      rw [e]; unfold IntOp.andi; exact BitVec.zero_and
  rw [hc, select_zero]; exact divsi_four v hv

theorem takeAt_of_wrap (v : BitVec 32) :
    min (Scalar.select (IntOp.cmpi .slt v 0#32) (IntOp.addi v 256#32) v).toInt.toNat (256 - 1) = Cert.Spec.takeAt 256 v := by
  rw [Spec.wrap_eq v 256]; rfl

theorem blockOf_of_quot (v : BitVec 32) (hv : v.toNat < 128000) :
    min (Scalar.select (IntOp.cmpi .slt (BitVec.ofNat 32 (v.toNat / 4)) 0#32)
      (IntOp.addi (BitVec.ofNat 32 (v.toNat / 4)) 32000#32) (BitVec.ofNat 32 (v.toNat / 4))).toInt.toNat (32000 - 1)
      = (Cert.Spec.blockOf v).val := by
  have hq : (BitVec.ofNat 32 (v.toNat / 4)).toInt = ((v.toNat / 4 : Nat) : Int) :=
    StableHlo.Predicate.toInt_ofNat_small _ (by omega)
  rw [Spec.wrap_eq _ 32000, if_neg (by rw [hq]; omega), hq]
  rfl

abbrev rowN (b : Fin 4) (s : Fin 4096) : Fin 16384 := ⟨b.val * 4096 + s.val, by have := b.isLt; have := s.isLt; omega⟩

def quot (v0 : IVec S16384 32) (c : IVec S_ 32) : IVec S16384 32 :=
  select
    (andi
      (cmpi .ne (signi v0) (broadcastInDim S16384 ![] bcast_S_S16384 (signi (id c))))
      (cmpi .ne (Host.remsi v0 (broadcastInDim S16384 ![] bcast_S_S16384 (id c)))
        (broadcastInDim S16384 ![] bcast_S_S16384 (constantI S_ 32 0#32))))
    (subi (Host.divsi v0 (broadcastInDim S16384 ![] bcast_S_S16384 (id c)))
      (broadcastInDim S16384 ![] bcast_S_S16384 (constantI S_ 32 1#32)))
    (Host.divsi v0 (broadcastInDim S16384 ![] bcast_S_S16384 (id c)))

def tail (v1 : IVec S16384x1024 32) (v2 : IVec S16384 32) (am : FVec Ideal S32000 .f32) (cd : FVec Ideal S256 .f32) :
    FVec Ideal S4x4096x1024 .f32 :=
  shapeCast S4x4096x1024
    (mulf
      (Host.gather gather_S256_S16384x1024x1_S16384x1024_n_0_n_n_0_2_1 cd
        (broadcastInDim S16384x1024x1 ![0, 1] bcast_S16384x1024_S16384x1024x1_0_1
          (select (cmpi .slt v1 (broadcastInDim S16384x1024 ![] bcast_S_S16384x1024 (constantI S_ 32 0#32)))
            (addi v1 (broadcastInDim S16384x1024 ![] bcast_S_S16384x1024 (constantI S_ 32 256#32))) v1)))
      (broadcastInDim S16384x1024 ![0, 1] bcast_S16384x1_S16384x1024_0_1
        (shapeCast S16384x1
          (Host.gather gather_S32000_S16384x1_S16384_n_0_n_n_0_1_1 am
            (broadcastInDim S16384x1 ![0] bcast_S16384_S16384x1_0
              (select (cmpi .slt v2 (broadcastInDim S16384 ![] bcast_S_S16384 (constantI S_ 32 0#32)))
                (addi v2 (broadcastInDim S16384 ![] bcast_S_S16384 (constantI S_ 32 32000#32))) v2)))
          shapeCasts_S16384_S16384x1)))
    shapeCasts_S16384x1024_S4x4096x1024

theorem after1_main_c (V : Valuation τ sig (Elt Ideal)) :
    StableHlo.after (hostOps1 (F := Ideal)) V (Proc.devRef .tc main_c) = constantI S_ 32 4#32 := by
  after_results

theorem after1_main_v0 (V : Valuation τ sig (Elt Ideal)) :
    StableHlo.after (hostOps1 (F := Ideal)) V (Proc.devRef .tc main_v0) = V (Proc.devRef .tc main_v0) := by
  after_results
theorem after1_main_v1 (V : Valuation τ sig (Elt Ideal)) :
    StableHlo.after (hostOps1 (F := Ideal)) V (Proc.devRef .tc main_v1) = V (Proc.devRef .tc main_v1) := by
  after_results
theorem after1_main_arg2 (V : Valuation τ sig (Elt Ideal)) :
    StableHlo.after (hostOps1 (F := Ideal)) V (Proc.devRef .tc main_arg2) = V (Proc.devRef .tc main_arg2) := by
  after_results
theorem after1_main_arg3 (V : Valuation τ sig (Elt Ideal)) :
    StableHlo.after (hostOps1 (F := Ideal)) V (Proc.devRef .tc main_arg3) = V (Proc.devRef .tc main_arg3) := by
  after_results

theorem after1_1_main_v2 (V : Valuation τ sig (Elt Ideal)) :
    StableHlo.after (hostOps1_1 (F := Ideal)) V (Proc.devRef .tc main_v2)
      = quot (V (Proc.devRef .tc main_v0)) (V (Proc.devRef .tc main_c)) := by
  after_results_simp
  rfl

theorem after1_1_main_v1 (V : Valuation τ sig (Elt Ideal)) :
    StableHlo.after (hostOps1_1 (F := Ideal)) V (Proc.devRef .tc main_v1) = V (Proc.devRef .tc main_v1) := by
  after_results_simp
theorem after1_1_main_arg2 (V : Valuation τ sig (Elt Ideal)) :
    StableHlo.after (hostOps1_1 (F := Ideal)) V (Proc.devRef .tc main_arg2) = V (Proc.devRef .tc main_arg2) := by
  after_results_simp
theorem after1_1_main_arg3 (V : Valuation τ sig (Elt Ideal)) :
    StableHlo.after (hostOps1_1 (F := Ideal)) V (Proc.devRef .tc main_arg3) = V (Proc.devRef .tc main_arg3) := by
  after_results_simp

set_option maxHeartbeats 2000000 in
theorem after1_2_main_v20 (V : Valuation τ sig (Elt Ideal)) :
    StableHlo.after (hostOps1_2 (F := Ideal)) V (Proc.devRef .tc main_v20)
      = tail (V (Proc.devRef .tc main_v1)) (V (Proc.devRef .tc main_v2)) (V (Proc.devRef .tc main_arg2)) (V (Proc.devRef .tc main_arg3)) := by
  after_results_simp
  rfl

theorem bcast_unit3 {α : Type} (y : S16384x1024.Idx → α) (n : Fin 16384) (d : Fin 1024) :
    broadcastInDim S16384x1024x1 ![0, 1] bcast_S16384x1024_S16384x1024x1_0_1 y (takeIdx (ix2 n d)) = y (ix2 n d) := by
  refine congrArg y (funext fun a => ?_)
  match a with
  | ⟨0, _⟩ => rfl
  | ⟨1, _⟩ => rfl

theorem bcast_unit2 {α : Type} (y : S16384.Idx → α) (n : Fin 16384) :
    broadcastInDim S16384x1 ![0] bcast_S16384_S16384x1_0 y (ix2 n (0 : Fin 1)) = y (ix1 n) := by
  refine congrArg y (funext fun a => ?_)
  match a with
  | ⟨0, _⟩ => rfl

theorem bcast_col {α : Type} (y : S16384x1.Idx → α) (n : Fin 16384) (d : Fin 1024) :
    broadcastInDim S16384x1024 ![0, 1] bcast_S16384x1_S16384x1024_0_1 y (ix2 n d) = y (ix2 n (0 : Fin 1)) := by
  refine congrArg y (funext fun a => ?_)
  match a with
  | ⟨0, _⟩ => rfl
  | ⟨1, _⟩ => rfl

theorem quot_apply (v0 : IVec S16384 32) (n : Fin 16384) (hv : (v0 (ix1 n)).toNat < 2 ^ 31) :
    quot v0 (constantI S_ 32 4#32) (ix1 n) = BitVec.ofNat 32 ((v0 (ix1 n)).toNat / 4) :=
  floorDiv_word (v0 (ix1 n)) hv

theorem tail_apply (v1 : IVec S16384x1024 32) (v2 : IVec S16384 32) (am : FVec Ideal S32000 .f32) (cd : FVec Ideal S256 .f32)
    (b : Fin 4) (s : Fin 4096) (d : Fin 1024) :
    tail v1 v2 am cd (ix3 b s d)
      = cd (ix1 ⟨min (Scalar.select (IntOp.cmpi .slt (v1 (ix2 (rowN b s) d)) 0#32) (IntOp.addi (v1 (ix2 (rowN b s) d)) 256#32)
              (v1 (ix2 (rowN b s) d))).toInt.toNat (256 - 1), by omega⟩)
        * am (ix1 ⟨min (Scalar.select (IntOp.cmpi .slt (v2 (ix1 (rowN b s))) 0#32) (IntOp.addi (v2 (ix1 (rowN b s))) 32000#32)
              (v2 (ix1 (rowN b s)))).toInt.toNat (32000 - 1), by omega⟩) := by
  unfold tail

  refine (shapeCast_apply _ shapeCasts_S16384x1024_S4x4096x1024 (ix3 b s d) (ix2 (rowN b s) d) ?_).trans ?_
  · rw [Shape.rowMajor_val_two, Shape.rowMajor_val_three]; rfl
  refine (mulf_apply _ _ _).trans ?_
  congr 1
  ·
    refine (gather_take_apply (by decide) gather_S256_S16384x1024x1_S16384x1024_n_0_n_n_0_2_1_wf cd _ (ix2 (rowN b s) d)).trans ?_
    refine congrArg cd (congrArg ix1 (Fin.ext ?_))
    exact congrArg (fun v : BitVec 32 => min v.toInt.toNat (256 - 1)) (bcast_unit3 _ (rowN b s) d)
  ·
    refine (bcast_col _ (rowN b s) d).trans ?_
    refine (shapeCast_apply _ shapeCasts_S16384_S16384x1 (ix2 (rowN b s) (0 : Fin 1)) (ix1 (rowN b s)) ?_).trans ?_
    · rw [Shape.rowMajor_val_one, Shape.rowMajor_val_two]
      show (rowN b s).val = (rowN b s).val * 1 + 0
      omega
    refine (Cert.LibVecGather.gather_vec_apply_of (by decide) gather_S32000_S16384x1_S16384_n_0_n_n_0_1_1 rfl rfl rfl rfl rfl rfl rfl
      am _ (rowN b s)).trans ?_
    refine congrArg am (congrArg ix1 (Fin.ext ?_))
    exact congrArg (fun v : BitVec 32 => min v.toInt.toNat (32000 - 1)) (bcast_unit2 _ (rowN b s))

theorem G_apply (x : IVec Cert.Spec.SX 32) (w : IVec Cert.Spec.SW 32) (am : FVec Ideal S32000 .f32) (cd : FVec Ideal S256 .f32)
    (b : Fin 4) (s : Fin 4096) (d : Fin 1024) :
    Cert.Spec.G x w am cd (ix3 b s d)
      = cd (ix1 ⟨Cert.Spec.takeAt 256 (w (ix2 (Cert.Spec.rowOf (x (ix2 b s))) d)), Cert.Spec.takeAt_lt (by decide) _⟩)
        * am (ix1 (Cert.Spec.blockOf (x (ix2 b s)))) := rfl

theorem tail_eq_G (v0 : IVec S16384 32) (v1 : IVec S16384x1024 32) (am : FVec Ideal S32000 .f32) (cd : FVec Ideal S256 .f32)
    (x : IVec Cert.Spec.SX 32) (w : IVec Cert.Spec.SW 32) (hx : ∀ j, (x j).toNat < 128000)
    (h0 : ∀ (b : Fin 4) (s : Fin 4096), v0 (ix1 (rowN b s)) = x (ix2 b s))
    (h1 : ∀ (n : Fin 16384) (d : Fin 1024), v1 (ix2 n d) = w (ix2 (Cert.Spec.rowOf (v0 (ix1 n))) d)) :
    tail v1 (quot v0 (constantI S_ 32 4#32)) am cd = Cert.Spec.G x w am cd := by
  funext i
  obtain ⟨b, s, d, rfl⟩ : ∃ (b : Fin 4) (s : Fin 4096) (d : Fin 1024), i = ix3 b s d := ⟨i 0, i 1, i 2, eq_ix3 i⟩
  refine ((tail_apply _ _ _ _ b s d).trans ?_).trans (G_apply x w am cd b s d).symm
  have hv := hx (ix2 b s)
  congr 1
  · refine congrArg cd (congrArg ix1 (Fin.ext ?_))
    show min (Scalar.select (IntOp.cmpi .slt _ 0#32) (IntOp.addi _ 256#32) _).toInt.toNat (256 - 1) = _
    rw [takeAt_of_wrap, h1, h0]
  · refine congrArg am (congrArg ix1 (Fin.ext ?_))
    show min (Scalar.select (IntOp.cmpi .slt _ 0#32) (IntOp.addi _ 32000#32) _).toInt.toNat (32000 - 1) = _
    rw [quot_apply _ _ (by rw [h0]; omega), h0]
    exact blockOf_of_quot _ hv

theorem tail_is_G (Wv : Valuation τ sig (Elt Ideal)) (x : IVec Cert.Spec.SX 32) (w : IVec Cert.Spec.SW 32)
    (hx : ∀ j, (x j).toNat < 128000)
    (h0 : ∀ (b : Fin 4) (s : Fin 4096),
      (Wv (Proc.devRef .tc main_v0) : IVec S16384 32) (ix1 (rowN b s)) = x (ix2 b s))
    (h1 : ∀ (n : Fin 16384) (d : Fin 1024),
      (Wv (Proc.devRef .tc main_v1) : IVec S16384x1024 32) (ix2 n d)
        = w (ix2 (Cert.Spec.rowOf ((Wv (Proc.devRef .tc main_v0) : IVec S16384 32) (ix1 n))) d)) :
    StableHlo.after (hostOps1_2 (F := Ideal))
        (StableHlo.after (hostOps1_1 (F := Ideal)) (StableHlo.after (hostOps1 (F := Ideal)) Wv)) (Proc.devRef .tc main_v20)
      = Cert.Spec.G x w (Wv (Proc.devRef .tc main_arg2)) (Wv (Proc.devRef .tc main_arg3)) := by
  rw [after1_2_main_v20, after1_1_main_v1, after1_1_main_arg2, after1_1_main_arg3, after1_1_main_v2,
    after1_main_v1, after1_main_arg2, after1_main_arg3, after1_main_v0, after1_main_c]
  exact tail_eq_G _ _ _ _ x w hx h0 h1

end Cert.KernelIdeal.TailValue

end
-- ==== Proof.KI.Result.lean ====
import proofs.«401193_j13460427506049_2_alg».proof.Proof.KI.ArrValue
import proofs.«401193_j13460427506049_2_alg».proof.Proof.KI.Table
import proofs.«401193_j13460427506049_2_alg».proof.Proof.TailValue
import proofs.«401193_j13460427506049_2_alg».proof.Proof.Spec

noncomputable section

namespace Cert.KernelIdeal.Hand

open Cert.KernelIdeal Cert.KernelIdeal.Gen
open Idealize.ShloMosaic
open Idealize.ShloMosaic.TcCoe Idealize.ShloMosaic.ValueIdx
open Idealize.SL.Sem

variable (m : (ℓ : Loc nD τ sig) → Buf (Elt Ideal) ℓ)

/-- The region leaves w[x[b, s], d] in row b·4096 + s and the tables as launched; the host tail turns that into the specification. -/
theorem result_is_G (c : Dev nD)
    (hx : ∀ j : S4x4096.Idx, ((m ((c : Thread nD τ).loc main_arg0) : IVec S4x4096 32) j).toNat < 128000) :
    W5 m c (Proc.devRef .tc main_v20)
      = Cert.Spec.G (m ((c : Thread nD τ).loc main_arg0)) (m ((c : Thread nD τ).loc main_arg1))
          (m ((c : Thread nD τ).loc main_arg2)) (m ((c : Thread nD τ).loc main_arg3)) := by
  have hv0 : W2 m c (Proc.devRef .tc main_v0) = W1 m c (Proc.devRef .tc main_v0) :=
    W2_of_ne m c main_v0 (by decide)
  have ha2 : W2 m c (Proc.devRef .tc main_arg2) = m ((c : Thread nD τ).loc main_arg2) :=
    (W2_of_ne m c main_arg2 (by decide)).trans (W1_arg2 m c)
  have ha3 : W2 m c (Proc.devRef .tc main_arg3) = m ((c : Thread nD τ).loc main_arg3) :=
    (W2_of_ne m c main_arg3 (by decide)).trans (W1_arg3 m c)
  have key := Cert.KernelIdeal.TailValue.tail_is_G (W2 m c) (m ((c : Thread nD τ).loc main_arg0))
    (m ((c : Thread nD τ).loc main_arg1)) hx
    (fun b s => (congrFun hv0 _).trans (W1_v0_at m c b s (Cert.KernelIdeal.TailValue.rowN b s) rfl))
    (fun n d => by
      rw [W2_v1, hv0, arr_final_apply, W1_arg1]
      rfl)
  rw [ha2, ha3] at key
  exact key

end Cert.KernelIdeal.Hand

end
-- ==== Proof.lean ====
import proofs.«401193_j13460427506049_2_alg».proof.Defs
import proofs.«401193_j13460427506049_2_alg».proof.Proof.Gen.Kernel
import proofs.«401193_j13460427506049_2_alg».proof.Proof.Gen.KernelIdeal
import proofs.«401193_j13460427506049_2_alg».proof.Proof.Gen.ReferenceIdeal
import proofs.«401193_j13460427506049_2_alg».proof.Proof.Gen.Pre_finite_inputs
import proofs.«401193_j13460427506049_2_alg».proof.Proof.Gen.ReferenceIdeal.Run
import proofs.«401193_j13460427506049_2_alg».proof.Proof.Gen.ReferenceIdeal.Read
import proofs.«401193_j13460427506049_2_alg».proof.Proof.PreRange
import proofs.«401193_j13460427506049_2_alg».proof.Proof.RefValue
import proofs.«401193_j13460427506049_2_alg».proof.Proof.K.Launch
import proofs.«401193_j13460427506049_2_alg».proof.Proof.K.Table
import proofs.«401193_j13460427506049_2_alg».proof.Proof.KI.Launch
import proofs.«401193_j13460427506049_2_alg».proof.Proof.KI.Table
import proofs.«401193_j13460427506049_2_alg».proof.Proof.KI.Result

noncomputable section

namespace Cert.Proof

open Idealize.ShloMosaic Idealize.ShloMosaic.TcCoe Idealize.SL.Sem

/-- Under the precondition every index word names a table row, so each row copy reads inside the code table; no operation writes an argument. -/
theorem frame_k : Cert.frame_Kernel (hKernel := Cert.Kernel.Gen.facts) (hPre_finite_inputs := Cert.Pre_finite_inputs.Gen.facts) := by
  intro m g hpre
  have hx : ∀ (c : Dev Cert.Kernel.nD) j, _ := fun c j => Cert.PreRange.x_lt_of_pre (F := Bits) _ _ _ _ (hpre c) j
  refine (θ_run (Cert.Kernel.defs (F := Bits)) _ _).mono (fun r h c => ⟨?_, ?_, ?_, ?_⟩)
    (Cert.Kernel.Hand.run_main (F := Bits) m g (Cert.Kernel.Hand.table_lt m hx))
  · exact (h c _ (Cert.Kernel.Hand.mem_uc Cert.Kernel.main_arg0 (by decide))).trans (Cert.Kernel.Hand.W5_arg m c _ (.inl rfl))
  · exact (h c _ (Cert.Kernel.Hand.mem_uc Cert.Kernel.main_arg1 (by decide))).trans (Cert.Kernel.Hand.W5_arg m c _ (.inr (.inl rfl)))
  · exact (h c _ (Cert.Kernel.Hand.mem_uc Cert.Kernel.main_arg2 (by decide))).trans (Cert.Kernel.Hand.W5_arg m c _ (.inr (.inr (.inl rfl))))
  · exact (h c _ (Cert.Kernel.Hand.mem_uc Cert.Kernel.main_arg3 (by decide))).trans (Cert.Kernel.Hand.W5_arg m c _ (.inr (.inr (.inr rfl))))

theorem frame_ki : Cert.frame_KernelIdeal (hKernelIdeal := Cert.KernelIdeal.Gen.facts) (hPre_finite_inputs := Cert.Pre_finite_inputs.Gen.facts) := by
  intro m g hpre
  have hx : ∀ (c : Dev Cert.KernelIdeal.nD) j, _ := fun c j => Cert.PreRange.x_lt_of_pre (F := Ideal) _ _ _ _ (hpre c) j
  refine (θ_run (Cert.KernelIdeal.defs (F := Ideal)) _ _).mono (fun r h c => ⟨?_, ?_, ?_, ?_⟩)
    (Cert.KernelIdeal.Hand.run_main (F := Ideal) m g (Cert.KernelIdeal.Hand.table_lt m hx))
  · exact (h c _ (Cert.KernelIdeal.Hand.mem_uc Cert.KernelIdeal.main_arg0 (by decide))).trans (Cert.KernelIdeal.Hand.W5_arg m c _ (.inl rfl))
  · exact (h c _ (Cert.KernelIdeal.Hand.mem_uc Cert.KernelIdeal.main_arg1 (by decide))).trans (Cert.KernelIdeal.Hand.W5_arg m c _ (.inr (.inl rfl)))
  · exact (h c _ (Cert.KernelIdeal.Hand.mem_uc Cert.KernelIdeal.main_arg2 (by decide))).trans (Cert.KernelIdeal.Hand.W5_arg m c _ (.inr (.inr (.inl rfl))))
  · exact (h c _ (Cert.KernelIdeal.Hand.mem_uc Cert.KernelIdeal.main_arg3 (by decide))).trans (Cert.KernelIdeal.Hand.W5_arg m c _ (.inr (.inr (.inr rfl))))

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At (b, s, d) both give code[w (x b s) d] · absmax[x b s / 4]: the kernel gathers rows and then dequantises, the reference
    dequantises the table and then gathers; entry (r, d) lies in scale block (r·1024 + d) / 4096 = r / 4. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hx : ∀ (c : Dev Cert.KernelIdeal.nD) j, _ := fun c j => Cert.PreRange.x_lt_of_pre (F := Ideal) _ _ _ _ (hpre c) j
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run (Cert.KernelIdeal.defs (F := Ideal)) _ _).mono (fun r h c => ⟨?_, ?_, ?_, ?_, ?_⟩)
      (Cert.KernelIdeal.Hand.run_main (F := Ideal) m ρ (Cert.KernelIdeal.Hand.table_lt m hx))
    · exact (h c _ (Cert.KernelIdeal.Hand.mem_uc Cert.KernelIdeal.main_v20 (by decide))).trans (Cert.KernelIdeal.Hand.result_is_G m c (hx c))
    · exact (h c _ (Cert.KernelIdeal.Hand.mem_uc Cert.KernelIdeal.main_arg0 (by decide))).trans (Cert.KernelIdeal.Hand.W5_arg m c _ (.inl rfl))
    · exact (h c _ (Cert.KernelIdeal.Hand.mem_uc Cert.KernelIdeal.main_arg1 (by decide))).trans (Cert.KernelIdeal.Hand.W5_arg m c _ (.inr (.inl rfl)))
    · exact (h c _ (Cert.KernelIdeal.Hand.mem_uc Cert.KernelIdeal.main_arg2 (by decide))).trans (Cert.KernelIdeal.Hand.W5_arg m c _ (.inr (.inr (.inl rfl))))
    · exact (h c _ (Cert.KernelIdeal.Hand.mem_uc Cert.KernelIdeal.main_arg3 (by decide))).trans (Cert.KernelIdeal.Hand.W5_arg m c _ (.inr (.inr (.inr rfl))))
  · refine (θ_run Cert.ReferenceIdeal.defs _ _).mono (fun _ h c => ⟨?_, (h c).2⟩) (Cert.ReferenceIdeal.Value.run (F := Ideal) m' ρ')
    rw [(h c).1, Cert.ReferenceIdeal.Read.val_main_v19_eq, (hagree c).1, (hagree c).2.1, (hagree c).2.2.1, (hagree c).2.2.2]
    exact Cert.ReferenceIdeal.RefValue.ref_is_G _ _ _ _ (hx c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
